-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x16 : Shape := ⟨2, ![128, 16]⟩
abbrev S16 : Shape := ⟨1, ![16]⟩
abbrev S16x16 : Shape := ⟨2, ![16, 16]⟩
abbrev S16x300 : Shape := ⟨2, ![16, 300]⟩
abbrev S300 : Shape := ⟨1, ![300]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x300 : S_.BroadcastsInDim S16x300 (![] : Fin 0 → Fin S16x300.rank)
  reducesTo_S16x300_S_d0_1 : S16x300.ReducesTo [0, 1] S_
  bcast_S_S300 : S_.BroadcastsInDim S300 (![] : Fin 0 → Fin S300.rank)
  reducesTo_S300_S_d0 : S300.ReducesTo [0] S_
  slices_S2x800000_S1x800000_0_0 : S2x800000.Slices ![0, 0] S1x800000
  bcast_S_S1x800000 : S_.BroadcastsInDim S1x800000 (![] : Fin 0 → Fin S1x800000.rank)
  reducesTo_S1x800000_S_d0_1 : S1x800000.ReducesTo [0, 1] S_

variable [Facts]

def fn_part3 {F : FTy → Type} [FloatOps F] (main_arg1 : IVec S2x800000 32) (main_v48 : IVec S_ 1) (main_v49 : FVec F S300 .f32) (main_v50 : FVec F S300 .f32) : IVec S_ 1 :=
  let main_v51 : IVec S300 1 := cmpf .olt main_v49 main_v50
  let main_c_19 : IVec S_ 1 := constantI S_ 1 1#1
  let main_v52 : IVec S_ 1 := (fun x v => Host.reduce IntOp.andi x v reducesTo_S300_S_d0 h_S_) main_v51 main_c_19
  let main_v53 : IVec S_ 1 := andi main_v48 main_v52
  let main_v54 : IVec S1x800000 32 := (extractStridedSlice S1x800000 ![0, 0] · slices_S2x800000_S1x800000_0_0) main_arg1
  let main_c_20 : IVec S_ 32 := constantI S_ 32 0#32
  let main_v55 : IVec S1x800000 32 := broadcastInDim S1x800000 ![] bcast_S_S1x800000 main_c_20
  let main_v56 : IVec S1x800000 1 := cmpi .sge main_v54 main_v55
  let main_v57 : IVec S1x800000 32 := (extractStridedSlice S1x800000 ![0, 0] · slices_S2x800000_S1x800000_0_0) main_arg1
  let main_c_21 : IVec S_ 32 := constantI S_ 32 50000#32
  let main_v58 : IVec S1x800000 32 := broadcastInDim S1x800000 ![] bcast_S_S1x800000 main_c_21
  let main_v59 : IVec S1x800000 1 := cmpi .slt main_v57 main_v58
  let main_v60 : IVec S1x800000 1 := andi main_v56 main_v59
  let main_c_22 : IVec S_ 1 := constantI S_ 1 1#1
  let main_v61 : IVec S_ 1 := (fun x v => Host.reduce IntOp.andi x v reducesTo_S1x800000_S_d0_1 h_S_) main_v60 main_c_22
  let main_v62 : IVec S_ 1 := andi main_v53 main_v61
  main_v62

def fn_part2 {F : FTy → Type} [FloatOps F] (main_arg1 : IVec S2x800000 32) (main_arg8 : FVec F S16x16 .f32) (main_arg9 : FVec F S16 .f32) (main_arg10 : FVec F S16x300 .f32) (main_arg11 : FVec F S300 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x300 .f32 := Host.absf main_arg10
  let main_cst_16 : FVec F S_ .f32 := constant S_ .f32 0x7F800000#32
  let main_v45 : FVec F S16x300 .f32 := broadcastInDim S16x300 ![] bcast_S_S16x300 main_cst_16
  let main_v46 : IVec S16x300 1 := cmpf .olt main_v44 main_v45
  let main_c_17 : IVec S_ 1 := constantI S_ 1 1#1
  let main_v47 : IVec S_ 1 := (fun x v => Host.reduce IntOp.andi x v reducesTo_S16x300_S_d0_1 h_S_) main_v46 main_c_17
  let main_v48 : IVec S_ 1 := andi main_v43 main_v47
  let main_v49 : FVec F S300 .f32 := Host.absf main_arg11
  let main_cst_18 : FVec F S_ .f32 := constant S_ .f32 0x7F800000#32
  let main_v50 : FVec F S300 .f32 := broadcastInDim S300 ![] bcast_S_S300 main_cst_18
  fn_part3 (F := F) main_arg1 main_v48 main_v49 main_v50

def fn_part1 {F : FTy → Type} [FloatOps F] (main_arg1 : IVec S2x800000 32) (main_arg5 : FVec F S16 .f32) (main_arg6 : FVec F S16x16 .f32) (main_arg7 : FVec F S16 .f32) (main_arg8 : FVec F S16x16 .f32) (main_arg9 : FVec F S16 .f32) (main_arg10 : FVec F S16x300 .f32) (main_arg11 : FVec F S300 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x800000 32) (main_arg2 : FVec F S128x16 .f32) (main_arg3 : FVec F S16 .f32) (main_arg4 : FVec F S128x16 .f32) (main_arg5 : FVec F S16 .f32) (main_arg6 : FVec F S16x16 .f32) (main_arg7 : FVec F S16 .f32) (main_arg8 : FVec F S16x16 .f32) (main_arg9 : FVec F S16 .f32) (main_arg10 : FVec F S16x300 .f32) (main_arg11 : FVec F S300 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x16 : Shape := ⟨2, ![128, 16]⟩
abbrev S16 : Shape := ⟨1, ![16]⟩
abbrev S16x16 : Shape := ⟨2, ![16, 16]⟩
abbrev S16x300 : Shape := ⟨2, ![16, 300]⟩
abbrev S300 : Shape := ⟨1, ![300]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S802816 : Shape := ⟨1, ![802816]⟩
abbrev S50000x16 : Shape := ⟨2, ![50000, 16]⟩
abbrev S1x16 : Shape := ⟨2, ![1, 16]⟩
abbrev S50000x1 : Shape := ⟨2, ![50000, 1]⟩
abbrev S802816x16 : Shape := ⟨2, ![802816, 16]⟩
abbrev S4096 : Shape := ⟨1, ![4096]⟩
abbrev S2000x16 : Shape := ⟨2, ![2000, 16]⟩
abbrev S4096x16 : Shape := ⟨2, ![4096, 16]⟩
abbrev S4096x2000 : Shape := ⟨2, ![4096, 2000]⟩
abbrev S4096x1 : Shape := ⟨2, ![4096, 1]⟩
abbrev S50000x300 : Shape := ⟨2, ![50000, 300]⟩
abbrev S2000x300 : Shape := ⟨2, ![2000, 300]⟩
abbrev S1x300 : Shape := ⟨2, ![1, 300]⟩
abbrev S2000 : Shape := ⟨1, ![2000]⟩
abbrev S2000x1 : Shape := ⟨2, ![2000, 1]⟩

abbrev nBuf : Space → Nat
  | .hbm => 85
  | .vmem => 69
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x16, .f32⟩
  | .hbm, ⟨3, _⟩ => ⟨S16, .f32⟩
  | .hbm, ⟨4, _⟩ => ⟨S128x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S16x300, .f32⟩
  | .hbm, ⟨11, _⟩ => ⟨S300, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S50000, .f32⟩
  | .hbm, ⟨46, _⟩ => ⟨S_, .i32⟩
  | .hbm, ⟨47, _⟩ => ⟨S_, .i32⟩
  | .hbm, ⟨48, _⟩ => ⟨S802816, .i32⟩
  | .hbm, ⟨49, _⟩ => ⟨S_, .i32⟩
  | .hbm, ⟨50, _⟩ => ⟨S_, .i32⟩
  | .hbm, ⟨51, _⟩ => ⟨S802816, .i32⟩
  | .hbm, ⟨52, _⟩ => ⟨S_, .i32⟩
  | .hbm, ⟨53, _⟩ => ⟨S_, .f32⟩
  | .hbm, ⟨54, _⟩ => ⟨S802816, .f32⟩
  | .hbm, ⟨55, _⟩ => ⟨S_, .f32⟩
  | .hbm, ⟨56, _⟩ => ⟨S50000x16, .f32⟩
  | .hbm, ⟨57, _⟩ => ⟨S_, .f32⟩
  | .hbm, ⟨58, _⟩ => ⟨S16, .f32⟩
  | .hbm, ⟨59, _⟩ => ⟨S50000x16, .f32⟩
  | .hbm, ⟨60, _⟩ => ⟨S50000x16, .f32⟩
  | .hbm, ⟨61, _⟩ => ⟨S1x16, .f32⟩
  | .hbm, ⟨62, _⟩ => ⟨S50000x16, .f32⟩
  | .hbm, ⟨63, _⟩ => ⟨S50000x16, .f32⟩
  | .hbm, ⟨64, _⟩ => ⟨S50000x1, .f32⟩
  | .hbm, ⟨65, _⟩ => ⟨S50000x16, .f32⟩
  | .hbm, ⟨66, _⟩ => ⟨S50000x16, .f32⟩
  | .hbm, ⟨67, _⟩ => ⟨S802816x16, .f32⟩
  | .hbm, ⟨68, _⟩ => ⟨S50000x16, .f32⟩
  | .hbm, ⟨69, _⟩ => ⟨S50000x16, .f32⟩
  | .hbm, ⟨70, _⟩ => ⟨S50000x16, .f32⟩
  | .hbm, ⟨71, _⟩ => ⟨S1x16, .f32⟩
  | .hbm, ⟨72, _⟩ => ⟨S50000x16, .f32⟩
  | .hbm, ⟨73, _⟩ => ⟨S50000x16, .f32⟩
  | .hbm, ⟨74, _⟩ => ⟨S50000x1, .f32⟩
  | .hbm, ⟨75, _⟩ => ⟨S50000x16, .f32⟩
  | .hbm, ⟨76, _⟩ => ⟨S50000x16, .f32⟩
  | .hbm, ⟨77, _⟩ => ⟨S802816x16, .f32⟩
  | .hbm, ⟨78, _⟩ => ⟨S50000x16, .f32⟩
  | .hbm, ⟨79, _⟩ => ⟨S50000x1, .f32⟩
  | .hbm, ⟨80, _⟩ => ⟨S50000x16, .f32⟩
  | .hbm, ⟨81, _⟩ => ⟨S50000x16, .f32⟩
  | .hbm, ⟨82, _⟩ => ⟨S802816x16, .f32⟩
  | .hbm, ⟨83, _⟩ => ⟨S50000x16, .f32⟩
  | .hbm, ⟨84, _⟩ => ⟨S50000x300, .f32⟩
  | .local _ .vmem, ⟨0, _⟩ => ⟨S4096, .i32⟩
  | .local _ .vmem, ⟨1, _⟩ => ⟨S4096, .i32⟩
  | .local _ .vmem, ⟨2, _⟩ => ⟨S2000x16, .f32⟩
  | .local _ .vmem, ⟨3, _⟩ => ⟨S2000x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | .local _ .vmem, ⟨7, _⟩ => ⟨S4096, .i32⟩
  | .local _ .vmem, ⟨8, _⟩ => ⟨S4096, .i32⟩
  | .local _ .vmem, ⟨9, _⟩ => ⟨S4096, .f32⟩
  | .local _ .vmem, ⟨10, _⟩ => ⟨S4096, .f32⟩
  | .local _ .vmem, ⟨11, _⟩ => ⟨S4096x16, .f32⟩
  | .local _ .vmem, ⟨12, _⟩ => ⟨S4096x16, .f32⟩
  | .local _ .vmem, ⟨13, _⟩ => ⟨S2000x16, .f32⟩
  | .local _ .vmem, ⟨14, _⟩ => ⟨S2000x16, .f32⟩
  | .local _ .vmem, ⟨15, _⟩ => ⟨S16, .f32⟩
  | .local _ .vmem, ⟨16, _⟩ => ⟨S2000x16, .f32⟩
  | .local _ .vmem, ⟨17, _⟩ => ⟨S2000x16, .f32⟩
  | .local _ .vmem, ⟨18, _⟩ => ⟨S2000x16, .f32⟩
  | .local _ .vmem, ⟨19, _⟩ => ⟨S2000x16, .f32⟩
  | .local _ .vmem, ⟨20, _⟩ => ⟨S2000x16, .f32⟩
  | .local _ .vmem, ⟨21, _⟩ => ⟨S4096, .i32⟩
  | .local _ .vmem, ⟨22, _⟩ => ⟨S4096, .i32⟩
  | .local _ .vmem, ⟨23, _⟩ => ⟨S2000x16, .f32⟩
  | .local _ .vmem, ⟨24, _⟩ => ⟨S2000x16, .f32⟩
  | .local _ .vmem, ⟨25, _⟩ => ⟨S4096x16, .f32⟩
  | .local _ .vmem, ⟨26, _⟩ => ⟨S4096x16, .f32⟩
  | .local _ .vmem, ⟨27, _⟩ => ⟨S4096x16, .f32⟩
  | .local _ .vmem, ⟨28, _⟩ => ⟨S4096, .i32⟩
  | .local _ .vmem, ⟨29, _⟩ => ⟨S4096, .i32⟩
  | .local _ .vmem, ⟨30, _⟩ => ⟨S4096, .f32⟩
  | .local _ .vmem, ⟨31, _⟩ => ⟨S4096, .f32⟩
  | .local _ .vmem, ⟨32, _⟩ => ⟨S4096x16, .f32⟩
  | .local _ .vmem, ⟨33, _⟩ => ⟨S4096x16, .f32⟩
  | .local _ .vmem, ⟨34, _⟩ => ⟨S2000x16, .f32⟩
  | .local _ .vmem, ⟨35, _⟩ => ⟨S2000x16, .f32⟩
  | .local _ .vmem, ⟨36, _⟩ => ⟨S16, .f32⟩
  | .local _ .vmem, ⟨37, _⟩ => ⟨S2000x16, .f32⟩
  | .local _ .vmem, ⟨38, _⟩ => ⟨S2000x16, .f32⟩
  | .local _ .vmem, ⟨39, _⟩ => ⟨S2000x16, .f32⟩
  | .local _ .vmem, ⟨40, _⟩ => ⟨S2000x16, .f32⟩
  | .local _ .vmem, ⟨41, _⟩ => ⟨S2000x16, .f32⟩
  | .local _ .vmem, ⟨42, _⟩ => ⟨S4096, .i32⟩
  | .local _ .vmem, ⟨43, _⟩ => ⟨S4096, .i32⟩
  | .local _ .vmem, ⟨44, _⟩ => ⟨S2000x16, .f32⟩
  | .local _ .vmem, ⟨45, _⟩ => ⟨S2000x16, .f32⟩
  | .local _ .vmem, ⟨46, _⟩ => ⟨S4096x16, .f32⟩
  | .local _ .vmem, ⟨47, _⟩ => ⟨S4096x16, .f32⟩
  | .local _ .vmem, ⟨48, _⟩ => ⟨S4096x16, .f32⟩
  | .local _ .vmem, ⟨49, _⟩ => ⟨S4096, .i32⟩
  | .local _ .vmem, ⟨50, _⟩ => ⟨S4096, .i32⟩
  | .local _ .vmem, ⟨51, _⟩ => ⟨S4096, .f32⟩
  | .local _ .vmem, ⟨52, _⟩ => ⟨S4096, .f32⟩
  | .local _ .vmem, ⟨53, _⟩ => ⟨S4096x16, .f32⟩
  | .local _ .vmem, ⟨54, _⟩ => ⟨S4096x16, .f32⟩
  | .local _ .vmem, ⟨55, _⟩ => ⟨S2000x16, .f32⟩
  | .local _ .vmem, ⟨56, _⟩ => ⟨S2000x16, .f32⟩
  | .local _ .vmem, ⟨57, _⟩ => ⟨S16, .f32⟩
  | .local _ .vmem, ⟨58, _⟩ => ⟨S2000x16, .f32⟩
  | .local _ .vmem, ⟨59, _⟩ => ⟨S2000x16, .f32⟩
  | .local _ .vmem, ⟨60, _⟩ => ⟨S2000x16, .f32⟩
  | .local _ .vmem, ⟨61, _⟩ => ⟨S2000x16, .f32⟩
  | .local _ .vmem, ⟨62, _⟩ => ⟨S2000x16, .f32⟩
  | .local _ .vmem, ⟨63, _⟩ => ⟨S2000x16, .f32⟩
  | .local _ .vmem, ⟨64, _⟩ => ⟨S2000x16, .f32⟩
  | .local _ .vmem, ⟨65, _⟩ => ⟨S16x300, .f32⟩
  | .local _ .vmem, ⟨66, _⟩ => ⟨S300, .f32⟩
  | .local _ .vmem, ⟨67, _⟩ => ⟨S2000x300, .f32⟩
  | .local _ .vmem, ⟨68, _⟩ => ⟨S2000x300, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_call0_v0 : Ref sig .tc := ⟨.hbm, 47, rfl⟩
abbrev main_v27 : Ref sig .tc := ⟨.hbm, 48, rfl⟩
abbrev main_c_6 : Ref sig .tc := ⟨.hbm, 49, rfl⟩
abbrev main_call1_v0 : Ref sig .tc := ⟨.hbm, 50, rfl⟩
abbrev main_v28 : Ref sig .tc := ⟨.hbm, 51, rfl⟩
abbrev main_c_7 : Ref sig .tc := ⟨.hbm, 52, rfl⟩
abbrev main_call2_v0 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_cst_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_stg6_0 : Ref sig .tc := ⟨.vmem, 39, rfl⟩
abbrev cc3_stg6_1 : Ref sig .tc := ⟨.vmem, 40, rfl⟩
abbrev cc3_scratch0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_scratch0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg3_1 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc5_stg6_0 : Ref sig .tc := ⟨.vmem, 60, rfl⟩
abbrev cc5_stg6_1 : Ref sig .tc := ⟨.vmem, 61, rfl⟩
abbrev cc5_scratch0 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg3_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem3_1 : DmaSem sig := 51
abbrev cc5_sem4_0 : DmaSem sig := 52
abbrev cc5_sem5_0 : DmaSem sig := 53
abbrev cc5_sem5_1 : DmaSem sig := 54
abbrev cc5_sem6_0 : DmaSem sig := 55
abbrev cc5_sem6_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem3_0 : DmaSem sig := 61
abbrev cc6_sem3_1 : DmaSem sig := 62

abbrev nD : Nat := 1
abbrev τ : Topo := Topo.v7x

variable {F : FTy → Type} [FloatOps F]

abbrev grid0 : Pipeline.Grid := ⟨2, ![196, 25], ![false, false]⟩

def k0_cond2 (i : grid0.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_7 : BitVec 32 := 0#32
  let v26 : BitVec 1 := Scalar.cmpi .ne v25 c0_i32_7
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![25, 196], ![false, false]⟩

def k1_cond2 (i : grid1.Coords) : BitVec 1 :=
  let arg1 : BitVec 32 := BitVec.ofNat 32 (i 1).val
  let c195_i32 : BitVec 32 := 195#32
  let v29 : BitVec 1 := Scalar.cmpi .eq arg1 c195_i32
  let v30 : BitVec 32 := Scalar.extui v29
  let c0_i32_8 : BitVec 32 := 0#32
  let v31 : BitVec 1 := Scalar.cmpi .ne v30 c0_i32_8
  v31

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![196, 25], ![false, false]⟩

def k2_cond2 (i : grid2.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_7 : BitVec 32 := 0#32
  let v26 : BitVec 1 := Scalar.cmpi .ne v25 c0_i32_7
  v26

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![25, 196], ![false, false]⟩

def k3_cond2 (i : grid3.Coords) : BitVec 1 :=
  let arg1 : BitVec 32 := BitVec.ofNat 32 (i 1).val
  let c195_i32 : BitVec 32 := 195#32
  let v29 : BitVec 1 := Scalar.cmpi .eq arg1 c195_i32
  let v30 : BitVec 32 := Scalar.extui v29
  let c0_i32_8 : BitVec 32 := 0#32
  let v31 : BitVec 1 := Scalar.cmpi .ne v30 c0_i32_8
  v31

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_1 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S2000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S2000x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨2, ![196, 25], ![false, false]⟩

def k4_cond2 (i : grid4.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_7 : BitVec 32 := 0#32
  let v26 : BitVec 1 := Scalar.cmpi .ne v25 c0_i32_7
  v26

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S4096x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![25, 196], ![false, false]⟩

def k5_cond2 (i : grid5.Coords) : BitVec 1 :=
  let arg1 : BitVec 32 := BitVec.ofNat 32 (i 1).val
  let c195_i32 : BitVec 32 := 195#32
  let v29 : BitVec 1 := Scalar.cmpi .eq arg1 c195_i32
  let v30 : BitVec 32 := Scalar.extui v29
  let c0_i32_8 : BitVec 32 := 0#32
  let v31 : BitVec 1 := Scalar.cmpi .ne v30 c0_i32_8
  v31

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_1 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S4096x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S2000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 1 → Memref sig .tc .vmem S16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S2000x16 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S2000x16 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x300 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x300 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S800000_S802816_028160 : S800000.Pads (![0] : Fin 1 → Nat) ![2816] ![0] S802816
  h_S_ : 0 < S_.numel
  bcast_S_S50000x16 : S_.BroadcastsInDim S50000x16 (![] : Fin 0 → Fin S50000x16.rank)
  bcast_S_S16 : S_.BroadcastsInDim S16 (![] : Fin 0 → Fin S16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  iota_S4096x2000_d1_w32 : S4096x2000.Iotas .tc 32 [1]
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  broadcasts_S4096x1_S4096x2000 : S4096x1.Broadcasts S4096x2000
  natLt_1_32 : 1 < 32
  bitsLt_bf16_f32 : FTy.bits .bf16 < FTy.bits .f32
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  broadcasts_S4096x1_S4096x16 : S4096x1.Broadcasts S4096x16
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  shapeCasts_S16_S16 : S16.ShapeCasts S16
  inb_S16x300_S16x300_0_0 : ∀ a, (![0, 0] : Fin 2 → Nat) a + S16x300.size a ≤ S16x300.size a
  h_S16x300 : 0 < S16x300.numel
  inb_S300_S300_0 : ∀ a, (![0] : Fin 1 → Nat) a + S300.size a ≤ S300.size a
  h_S300 : 0 < S300.numel
  shapeCasts_S300_S1x300 : S300.ShapeCasts S1x300
  broadcasts_S1x300_S2000x300 : S1x300.Broadcasts S2000x300
  reduces_S2000x300_S2000 : S2000x300.Reduces [1] S2000
  shapeCasts_S2000_S2000x1 : S2000.ShapeCasts S2000x1
  broadcasts_S2000x1_S2000x300 : S2000x1.Broadcasts S2000x300
  inb_S2000x300_S2000x300_0_0 : ∀ a, (![0, 0] : Fin 2 → Nat) a + S2000x300.size a ≤ S2000x300.size a
  h_S2000x300 : 0 < S2000x300.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x16_S50000x16_1_0_0_1_n_n_wf : DotDims.WF S50000x128 S128x16 S50000x16 [1] [0] [0] [1] [] []
  dot_S4096x2000_S2000x16_S4096x16_1_0_0_1_n_n_wf : DotDims.WF S4096x2000 S2000x16 S4096x16 [1] [0] [0] [1] [] []
  dot_S4096x2000_S4096x16_S2000x16_0_0_1_1_n_n_wf : DotDims.WF S4096x2000 S4096x16 S2000x16 [0] [0] [1] [1] [] []
  dot_S50000x16_S16x16_S50000x16_1_0_0_1_n_n_wf : DotDims.WF S50000x16 S16x16 S50000x16 [1] [0] [0] [1] [] []
  dot_S2000x16_S16x300_S2000x300_1_0_0_1_n_n_wf : DotDims.WF S2000x16 S16x300 S2000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S802816.size a
  hwx0_0 : ∀ i : grid0.Coords, EltTy.bits .i32 = 32 ∨ (Rect.block (s := S802816) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S50000x16.size a
  hwx0_1 : ∀ i : grid0.Coords, EltTy.bits .f32 = 32 ∨ (Rect.block (s := S50000x16) S2000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S802816x16.size a
  hwx0_2 : ∀ i : grid0.Coords, EltTy.bits .f32 = 32 ∨ (Rect.block (s := S802816x16) S4096x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S802816.size a
  hwx1_0 : ∀ i : grid1.Coords, EltTy.bits .i32 = 32 ∨ (Rect.block (s := S802816) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S802816.size a
  hwx1_1 : ∀ i : grid1.Coords, EltTy.bits .f32 = 32 ∨ (Rect.block (s := S802816) S4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x16.size a ≤ S802816x16.size a
  hwx1_2 : ∀ i : grid1.Coords, EltTy.bits .f32 = 32 ∨ (Rect.block (s := S802816x16) S4096x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S50000x16.size a
  hwx1_3 : ∀ i : grid1.Coords, EltTy.bits .f32 = 32 ∨ (Rect.block (s := S50000x16) S2000x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x16.size a ≤ S50000x16.size a
  hwx1_5 : ∀ i : grid1.Coords, EltTy.bits .f32 = 32 ∨ (Rect.block (s := S50000x16) S2000x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x16.size a ≤ S50000x16.size a
  hwx1_6 : ∀ i : grid1.Coords, EltTy.bits .f32 = 32 ∨ (Rect.block (s := S50000x16) S2000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096.size a ≤ S802816.size a
  hwx2_0 : ∀ i : grid2.Coords, EltTy.bits .i32 = 32 ∨ (Rect.block (s := S802816) S4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x16.size a ≤ S50000x16.size a
  hwx2_1 : ∀ i : grid2.Coords, EltTy.bits .f32 = 32 ∨ (Rect.block (s := S50000x16) S2000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x16.size a ≤ S802816x16.size a
  hwx2_2 : ∀ i : grid2.Coords, EltTy.bits .f32 = 32 ∨ (Rect.block (s := S802816x16) S4096x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096.size a ≤ S802816.size a
  hwx3_0 : ∀ i : grid3.Coords, EltTy.bits .i32 = 32 ∨ (Rect.block (s := S802816) S4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096.size a ≤ S802816.size a
  hwx3_1 : ∀ i : grid3.Coords, EltTy.bits .f32 = 32 ∨ (Rect.block (s := S802816) S4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x16.size a ≤ S802816x16.size a
  hwx3_2 : ∀ i : grid3.Coords, EltTy.bits .f32 = 32 ∨ (Rect.block (s := S802816x16) S4096x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x16.size a ≤ S50000x16.size a
  hwx3_3 : ∀ i : grid3.Coords, EltTy.bits .f32 = 32 ∨ (Rect.block (s := S50000x16) S2000x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16.size a ≤ S16.size a
  hwx3_4 : ∀ i : grid3.Coords, EltTy.bits .f32 = 32 ∨ (Rect.block (s := S16) S16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x16.size a ≤ S50000x16.size a
  hwx3_5 : ∀ i : grid3.Coords, EltTy.bits .f32 = 32 ∨ (Rect.block (s := S50000x16) S2000x16.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x16.size a ≤ S50000x16.size a
  hwx3_6 : ∀ i : grid3.Coords, EltTy.bits .f32 = 32 ∨ (Rect.block (s := S50000x16) S2000x16.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096.size a ≤ S802816.size a
  hwx4_0 : ∀ i : grid4.Coords, EltTy.bits .i32 = 32 ∨ (Rect.block (s := S802816) S4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x16.size a ≤ S50000x16.size a
  hwx4_1 : ∀ i : grid4.Coords, EltTy.bits .f32 = 32 ∨ (Rect.block (s := S50000x16) S2000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x16.size a ≤ S802816x16.size a
  hwx4_2 : ∀ i : grid4.Coords, EltTy.bits .f32 = 32 ∨ (Rect.block (s := S802816x16) S4096x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096.size a ≤ S802816.size a
  hwx5_0 : ∀ i : grid5.Coords, EltTy.bits .i32 = 32 ∨ (Rect.block (s := S802816) S4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096.size a ≤ S802816.size a
  hwx5_1 : ∀ i : grid5.Coords, EltTy.bits .f32 = 32 ∨ (Rect.block (s := S802816) S4096.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x16.size a ≤ S802816x16.size a
  hwx5_2 : ∀ i : grid5.Coords, EltTy.bits .f32 = 32 ∨ (Rect.block (s := S802816x16) S4096x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x16.size a ≤ S50000x16.size a
  hwx5_3 : ∀ i : grid5.Coords, EltTy.bits .f32 = 32 ∨ (Rect.block (s := S50000x16) S2000x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S16.size a ≤ S16.size a
  hwx5_4 : ∀ i : grid5.Coords, EltTy.bits .f32 = 32 ∨ (Rect.block (s := S16) S16.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x16.size a ≤ S50000x16.size a
  hwx5_5 : ∀ i : grid5.Coords, EltTy.bits .f32 = 32 ∨ (Rect.block (s := S50000x16) S2000x16.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x16.size a ≤ S50000x16.size a
  hwx5_6 : ∀ i : grid5.Coords, EltTy.bits .f32 = 32 ∨ (Rect.block (s := S50000x16) S2000x16.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x16.size a ≤ S50000x16.size a
  hwx6_0 : ∀ i : grid6.Coords, EltTy.bits .f32 = 32 ∨ (Rect.block (s := S50000x16) S2000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x300.size a ≤ S16x300.size a
  hwx6_1 : ∀ i : grid6.Coords, EltTy.bits .f32 = 32 ∨ (Rect.block (s := S16x300) S16x300.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S300.size a ≤ S300.size a
  hwx6_2 : ∀ i : grid6.Coords, EltTy.bits .f32 = 32 ∨ (Rect.block (s := S300) S300.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x300.size a ≤ S50000x300.size a
  hwx6_3 : ∀ i : grid6.Coords, EltTy.bits .f32 = 32 ∨ (Rect.block (s := S50000x300) S2000x300.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def dot_S4096x2000_S2000x16_S4096x16_1_0_0_1_n_n : DotDims S4096x2000 S2000x16 S4096x16 where
  lhsContracting := [1]
  rhsContracting := [0]
  lhsNonContracting := [0]
  rhsNonContracting := [1]
  lhsBatch := []
  rhsBatch := []
  wf := dot_S4096x2000_S2000x16_S4096x16_1_0_0_1_n_n_wf
def dot_S4096x2000_S4096x16_S2000x16_0_0_1_1_n_n : DotDims S4096x2000 S4096x16 S2000x16 where
  lhsContracting := [0]
  rhsContracting := [0]
  lhsNonContracting := [1]
  rhsNonContracting := [1]
  lhsBatch := []
  rhsBatch := []
  wf := dot_S4096x2000_S4096x16_S2000x16_0_0_1_1_n_n_wf
def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf
def dot_S2000x16_S16x300_S2000x300_1_0_0_1_n_n : DotDims S2000x16 S16x300 S2000x300 where
  lhsContracting := [1]
  rhsContracting := [0]
  lhsNonContracting := [0]
  rhsNonContracting := [1]
  lhsBatch := []
  rhsBatch := []
  wf := dot_S2000x16_S16x300_S2000x300_1_0_0_1_n_n_wf

abbrev win0_0 : Pipeline.Window sig grid0 :=
  Pipeline.Window.ofSpec (Memref.whole main_v27) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S4096x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v28) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S4096x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2000x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x16.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v27) S4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S2000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S4096x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v28) S4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S4096x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S2000x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S2000x16.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v51) S2000x16.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v27) S4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S2000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S4096x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v28) S4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S4096x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v54) S2000x16.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v31) S16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v30) S2000x16.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v56) S2000x16.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun _ => false | 6 => fun i => !(k5_cond2 i == 1#1) | ⟨_ + 7, h⟩ => absurd h (Nat.not_lt.2 (Nat.le_add_left _ _))

abbrev win6_0 : Pipeline.Window sig grid6 :=
  Pipeline.Window.ofSpec (Memref.whole main_v56) S2000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S16x300.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg11) S300.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v57) S2000x300.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x16 : Shape := ⟨2, ![128, 16]⟩
abbrev S16 : Shape := ⟨1, ![16]⟩
abbrev S16x16 : Shape := ⟨2, ![16, 16]⟩
abbrev S16x300 : Shape := ⟨2, ![16, 300]⟩
abbrev S300 : Shape := ⟨1, ![300]⟩
abbrev S1x800000 : Shape := ⟨2, ![1, 800000]⟩
abbrev S800000 : Shape := ⟨1, ![800000]⟩
abbrev S50000x16 : Shape := ⟨2, ![50000, 16]⟩
abbrev S_ : Shape := ⟨0, ![]⟩
abbrev S50000 : Shape := ⟨1, ![50000]⟩
abbrev S800000x1 : Shape := ⟨2, ![800000, 1]⟩
abbrev S800000x16 : Shape := ⟨2, ![800000, 16]⟩
abbrev S50000x1 : Shape := ⟨2, ![50000, 1]⟩
abbrev S1x16 : Shape := ⟨2, ![1, 16]⟩
abbrev S50000x300 : Shape := ⟨2, ![50000, 300]⟩
abbrev S800000x300 : Shape := ⟨2, ![800000, 300]⟩
abbrev S1x300 : Shape := ⟨2, ![1, 300]⟩

abbrev nBuf : Space → Nat
  | .hbm => 209
  | .vmem => 0
  | .smem => 0
  | _ => 0

abbrev hbmTy0_0 (i : Nat) : BufTy := match i % 128 with
  | 0 => ⟨S50000x128, .f32⟩
  | 1 => ⟨S2x800000, .i32⟩
  | 2 => ⟨S128x16, .f32⟩
  | 3 => ⟨S16, .f32⟩
  | 4 => ⟨S128x16, .f32⟩
  | 5 => ⟨S16, .f32⟩
  | 6 => ⟨S16x16, .f32⟩
  | 7 => ⟨S16, .f32⟩
  | 8 => ⟨S16x16, .f32⟩
  | 9 => ⟨S16, .f32⟩
  | 10 => ⟨S16x300, .f32⟩
  | 11 => ⟨S300, .f32⟩
  | 12 => ⟨S1x800000, .i32⟩
  | 13 => ⟨S800000, .i32⟩
  | 14 => ⟨S1x800000, .i32⟩
  | 15 => ⟨S800000, .i32⟩
  | 16 => ⟨S50000x16, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x16, .f32⟩
  | 55 => ⟨S800000x1, .f32⟩
  | 56 => ⟨S800000x16, .f32⟩
  | 57 => ⟨S800000x16, .f32⟩
  | 58 => ⟨S_, .f32⟩
  | 59 => ⟨S50000x16, .f32⟩
  | 60 => ⟨S800000x1, .i32⟩
  | 61 => ⟨S50000x16, .f32⟩
  | 62 => ⟨S50000, .f32⟩
  | 63 => ⟨S50000x1, .f32⟩
  | 64 => ⟨S50000x16, .f32⟩
  | 65 => ⟨S50000x16, .f32⟩
  | 66 => ⟨S50000x16, .f32⟩
  | 67 => ⟨S1x16, .f32⟩
  | 68 => ⟨S50000x16, .f32⟩
  | 69 => ⟨S50000x16, .f32⟩
  | 70 => ⟨S_, .f32⟩
  | 71 => ⟨S50000x16, .f32⟩
  | 72 => ⟨S50000x16, .f32⟩
  | 73 => ⟨S50000x16, .f32⟩
  | 74 => ⟨S1x16, .f32⟩
  | 75 => ⟨S50000x16, .f32⟩
  | 76 => ⟨S50000x16, .f32⟩
  | 77 => ⟨S50000x16, .f32⟩
  | 78 => ⟨S50000x16, .f32⟩
  | 79 => ⟨S_, .f32⟩
  | 80 => ⟨S800000, .f32⟩
  | 81 => ⟨S_, .f32⟩
  | 82 => ⟨S50000, .f32⟩
  | 83 => ⟨S800000x1, .i32⟩
  | 84 => ⟨S50000, .f32⟩
  | 85 => ⟨S_, .f32⟩
  | 86 => ⟨S50000, .f32⟩
  | 87 => ⟨S50000, .f32⟩
  | 88 => ⟨S50000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S800000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x16, .f32⟩
  | 117 => ⟨S800000x1, .f32⟩
  | 118 => ⟨S800000x16, .f32⟩
  | 119 => ⟨S800000x16, .f32⟩
  | 120 => ⟨S_, .f32⟩
  | 121 => ⟨S50000x16, .f32⟩
  | 122 => ⟨S800000x1, .i32⟩
  | 123 => ⟨S50000x16, .f32⟩
  | 124 => ⟨S50000, .f32⟩
  | 125 => ⟨S50000x1, .f32⟩
  | 126 => ⟨S50000x16, .f32⟩
  | 127 => ⟨S50000x16, .f32⟩
  | _ => ⟨S50000x128, .f32⟩

abbrev hbmTy0_1 (i : Nat) : BufTy := match i % 128 with
  | 0 => ⟨S50000x16, .f32⟩
  | 1 => ⟨S1x16, .f32⟩
  | 2 => ⟨S50000x16, .f32⟩
  | 3 => ⟨S50000x16, .f32⟩
  | 4 => ⟨S_, .f32⟩
  | 5 => ⟨S50000x16, .f32⟩
  | 6 => ⟨S50000x16, .f32⟩
  | 7 => ⟨S50000x16, .f32⟩
  | 8 => ⟨S1x16, .f32⟩
  | 9 => ⟨S50000x16, .f32⟩
  | 10 => ⟨S50000x16, .f32⟩
  | 11 => ⟨S50000x16, .f32⟩
  | 12 => ⟨S50000x300, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x300, .f32⟩
  | 51 => ⟨S800000x1, .f32⟩
  | 52 => ⟨S800000x300, .f32⟩
  | 53 => ⟨S800000x300, .f32⟩
  | 54 => ⟨S_, .f32⟩
  | 55 => ⟨S50000x300, .f32⟩
  | 56 => ⟨S800000x1, .i32⟩
  | 57 => ⟨S50000x300, .f32⟩
  | 58 => ⟨S50000, .f32⟩
  | 59 => ⟨S50000x1, .f32⟩
  | 60 => ⟨S50000x300, .f32⟩
  | 61 => ⟨S50000x300, .f32⟩
  | 62 => ⟨S50000x300, .f32⟩
  | 63 => ⟨S1x300, .f32⟩
  | 64 => ⟨S50000x300, .f32⟩
  | 65 => ⟨S50000x300, .f32⟩
  | 66 => ⟨S_, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x300, .f32⟩
  | 73 => ⟨S50000x300, .f32⟩
  | 74 => ⟨S50000x300, .f32⟩
  | 75 => ⟨S_, .f32⟩
  | 76 => ⟨S50000, .f32⟩
  | 77 => ⟨S50000x1, .f32⟩
  | 78 => ⟨S50000x1, .f32⟩
  | 79 => ⟨S50000x300, .f32⟩
  | 80 => ⟨S50000x300, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_11 : Ref sig .tc := ⟨.hbm, 89, rfl⟩
abbrev main_v62 : Ref sig .tc := ⟨.hbm, 90, rfl⟩
abbrev main_v63 : Ref sig .tc := ⟨.hbm, 91, rfl⟩
abbrev main_c_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_15 : Ref sig .tc := ⟨.hbm, 108, rfl⟩
abbrev main_v77 : Ref sig .tc := ⟨.hbm, 109, rfl⟩
abbrev main_v78 : Ref sig .tc := ⟨.hbm, 110, rfl⟩
abbrev main_c_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_call1_cst : Ref sig .tc := ⟨.hbm, 132, rfl⟩
abbrev main_call1_v0 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_18 : Ref sig .tc := ⟨.hbm, 141, rfl⟩
abbrev main_v105 : Ref sig .tc := ⟨.hbm, 142, rfl⟩
abbrev main_cst_19 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_20 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_21 : Ref sig .tc := ⟨.hbm, 151, rfl⟩
abbrev main_v112 : Ref sig .tc := ⟨.hbm, 152, rfl⟩
abbrev main_v113 : Ref sig .tc := ⟨.hbm, 153, rfl⟩
abbrev main_c_22 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_23 : Ref sig .tc := ⟨.hbm, 160, rfl⟩
abbrev main_v119 : Ref sig .tc := ⟨.hbm, 161, rfl⟩
abbrev main_v120 : Ref sig .tc := ⟨.hbm, 162, rfl⟩
abbrev main_c_24 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_25 : Ref sig .tc := ⟨.hbm, 170, rfl⟩
abbrev main_v127 : Ref sig .tc := ⟨.hbm, 171, rfl⟩
abbrev main_v128 : Ref sig .tc := ⟨.hbm, 172, rfl⟩
abbrev main_c_26 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_27 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_call2_cst : Ref sig .tc := ⟨.hbm, 194, rfl⟩
abbrev main_call2_v0 : Ref sig .tc := ⟨.hbm, 195, rfl⟩
abbrev main_call2_cst_0 : Ref sig .tc := ⟨.hbm, 196, rfl⟩
abbrev main_call2_v1 : Ref sig .tc := ⟨.hbm, 197, rfl⟩
abbrev main_call2_v2 : Ref sig .tc := ⟨.hbm, 198, rfl⟩
abbrev main_call2_v3 : Ref sig .tc := ⟨.hbm, 199, rfl⟩
abbrev main_call2_v4 : Ref sig .tc := ⟨.hbm, 200, rfl⟩
abbrev main_call2_v5 : Ref sig .tc := ⟨.hbm, 201, rfl⟩
abbrev main_call2_v6 : Ref sig .tc := ⟨.hbm, 202, rfl⟩
abbrev main_call2_cst_1 : Ref sig .tc := ⟨.hbm, 203, rfl⟩
abbrev main_call2_v7 : Ref sig .tc := ⟨.hbm, 204, rfl⟩
abbrev main_call2_v8 : Ref sig .tc := ⟨.hbm, 205, rfl⟩
abbrev main_call2_v9 : Ref sig .tc := ⟨.hbm, 206, rfl⟩
abbrev main_call2_v10 : Ref sig .tc := ⟨.hbm, 207, rfl⟩
abbrev main_v148 : Ref sig .tc := ⟨.hbm, 208, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S800000x1_S800000x300_0_1 : S800000x1.BroadcastsInDim S800000x300 (![0, 1] : Fin 2 → Fin S800000x300.rank)
  bcast_S_S50000x300 : S_.BroadcastsInDim S50000x300 (![] : Fin 0 → Fin S50000x300.rank)
  bcast_S50000x1_S50000x300_0_1 : S50000x1.BroadcastsInDim S50000x300 (![0, 1] : Fin 2 → Fin S50000x300.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  reducesTo_S50000x300_S50000_d1 : S50000x300.ReducesTo [1] S50000
  h_S_ : 0 < S_.numel
  dot_S50000x128_S128x16_S50000x16_1_0_0_1_n_n_wf : DotDims.WF S50000x128 S128x16 S50000x16 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x16_S50000x16_1_0_0_1_n_n_wf : DotDims.WF S50000x16 S16x16 S50000x16 [1] [0] [0] [1] [] []
  dot_S50000x16_S16x300_S50000x300_1_0_0_1_n_n_wf : DotDims.WF S50000x16 S16x300 S50000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1

variable [Facts₀]

def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf
def dot_S50000x16_S16x300_S50000x300_1_0_0_1_n_n : DotDims S50000x16 S16x300 S50000x300 where
  lhsContracting := [1]
  rhsContracting := [0]
  lhsNonContracting := [0]
  rhsNonContracting := [1]
  lhsBatch := []
  rhsBatch := []
  wf := dot_S50000x16_S16x300_S50000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf

class Facts : Prop extends Facts₀ where

variable [Facts]
-- ==== Proof.Gather0.lean ====
import proofs.«148650_j55559696941682_1_alg».proof.Proof.Gen.KernelIdeal.Launch
import proofs.«148650_j55559696941682_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev srcBlk (c : Dev nD) (t : Fin cfg0.N) : Vec F S4096 .i32 := iblk V c 0 t

abbrev yBlk (c : Dev nD) (t : Fin cfg0.N) : Vec F S2000x16 .f32 := iblk V c 1 t

def acc (c : Dev nD) : (n : ℕ) → n < cfg0.N → Vec F S4096x16 .f32
  | 0, hn => k0_pay2 (grid0.coords ⟨0, hn⟩) (srcBlk V c ⟨0, hn⟩) (k0_pay1 (F := F)) (yBlk V c ⟨0, hn⟩)
  | n + 1, hn =>
    k0_pay2 (grid0.coords ⟨n + 1, hn⟩) (srcBlk V c ⟨n + 1, hn⟩)
      (if (n + 1) % 25 = 0 then (k0_pay1 (F := F)) else acc c n (Nat.lt_of_succ_lt hn)) (yBlk V c ⟨n + 1, hn⟩)

theorem acc_reset (c : Dev nD) (n : ℕ) (hn : n < cfg0.N) (h : n % 25 = 0) :
    acc V c n hn = k0_pay2 (grid0.coords ⟨n, hn⟩) (srcBlk V c ⟨n, hn⟩) (k0_pay1 (F := F)) (yBlk V c ⟨n, hn⟩) := by
  cases n with
  | zero => rfl
  | succ n => rw [acc, if_pos h]

theorem acc_step (c : Dev nD) (n : ℕ) (hn : n < cfg0.N) (h : n % 25 ≠ 0) :
    acc V c n hn = k0_pay2 (grid0.coords ⟨n, hn⟩) (srcBlk V c ⟨n, hn⟩)
      (acc V c (n - 1) (Nat.lt_of_le_of_lt (Nat.sub_le _ _) hn)) (yBlk V c ⟨n, hn⟩) := by
  cases n with
  | zero => exact absurd (Nat.zero_mod _) h
  | succ n => rw [acc, if_neg h]; rfl

abbrev scM : Memref sig .tc .vmem S4096x16 .f32 := Memref.whole cc0_scratch0

def PhiS (c : Dev nD) : (n : ℕ) → n ≤ cfg0.N → sProp 𝕄
  | 0, _ => iprop(iprop((∃ d, owns (c : Thread nD τ) scM fullShare d)) ∗ Pipeline.scopedRestBut spec0 c [cc0_scratch0])
  | n + 1, hn => iprop(owns (c : Thread nD τ) scM fullShare (acc V c n hn) ∗ Pipeline.scopedRestBut spec0 c [cc0_scratch0])

theorem PhiS_zero (c : Dev nD) (n : ℕ) (h : n ≤ cfg0.N) (hz : n = 0) :
    PhiS V c n h = iprop(iprop((∃ d, owns (c : Thread nD τ) scM fullShare d)) ∗ Pipeline.scopedRestBut spec0 c [cc0_scratch0]) := by
  subst hz; rfl

theorem PhiS_succ (c : Dev nD) (n : ℕ) (hn : n < cfg0.N) :
    PhiS V c (n + 1) hn = iprop(owns (c : Thread nD τ) scM fullShare (acc V c n hn) ∗ Pipeline.scopedRestBut spec0 c [cc0_scratch0]) := rfl

theorem PhiS_pos (c : Dev nD) (n : ℕ) (h : n ≤ cfg0.N) (hz : n ≠ 0) :
    PhiS V c n h = iprop(owns (c : Thread nD τ) scM fullShare (acc V c (n - 1) (by omega)) ∗ Pipeline.scopedRestBut spec0 c [cc0_scratch0]) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = acc V c t.val t.isLt := by dsimp only [dat]

theorem Phi_castSucc (c : Dev nD) (t : Fin cfg0.N) :
    (dat V c).Φ t.castSucc = PhiS V c t.val (Nat.le_of_lt t.isLt) := by
  dsimp only [dat]; simp only [Fin.coe_castSucc]

abbrev cond0 (i : grid0.Coords) : Prop :=
  (Scalar.cmpi .ne (Scalar.extui (Scalar.cmpi .eq (BitVec.ofNat 32 (i 1).val) 0#32)) 0#32) = 1#1

theorem hcond0 : ∀ t : Fin cfg0.N, cond0 (grid0.coords t) ↔ t.val % 25 = 0 :=
  (by decide +kernel : ∀ t : Fin grid0.N, cond0 (grid0.coords t) ↔ t.val % 25 = 0)

abbrev cond1 (i : grid0.Coords) : Prop := k0_cond2 i = 1#1

theorem hcond1 : ∀ t : Fin cfg0.N, cond1 (grid0.coords t) ↔ t.val % 25 = 24 :=
  (by decide +kernel : ∀ t : Fin grid0.N, cond1 (grid0.coords t) ↔ t.val % 25 = 24)

theorem live0 (i : grid0.Coords) : cfg0.idle 0 i = false := rfl
theorem live1 (i : grid0.Coords) : cfg0.idle 1 i = false := rfl

theorem idle2 (i : grid0.Coords) (h : ¬cond1 i) : cfg0.idle 2 i = true := by
  show (!(k0_cond2 i == 1#1)) = true
  rw [Bool.not_eq_true', beq_eq_false_iff_ne]; exact h
theorem live2 (i : grid0.Coords) (h : cond1 i) : cfg0.idle 2 i = false := by
  show (!(k0_cond2 i == 1#1)) = false
  rw [show k0_cond2 i = 1#1 from h]; rfl

theorem noFlush2 : ∀ t : Fin cfg0.N, ¬t.val % 25 = 24 → (cfg0.win 2).flush t = false :=
  (by decide +kernel : ∀ t : Fin grid0.N, ¬t.val % 25 = 24 → win0_2.flush t = false)

theorem before0 (c : Dev nD) (t : Fin cfg0.N) (d) : (dat V c).before 0 t d = iblk V c 0 t :=
  ((dat V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

theorem read_writes_cons_full {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

theorem readAt_full {sig' : RefSig} {κ : Kind} {sp : Space} {S : Shape} {e : EltTy} {Val : EltTy → Type}
    (v : View sig' κ sp S e) (g : v.ty.Contents Val) {off : Fin S.rank → ℕ} (h : off = fun _ => 0)
    (inb : ∀ a, off a + S.size a ≤ S.size a) :
    v.readAt Val (Rect.unit off S.size inb).toLoadRect g = v.read Val g := by
  subst h; funext x
  show v.read Val g ((Rect.whole S).emb x) = v.read Val g x
  rw [Rect.emb_whole_apply]

theorem readCov_full {sig' : RefSig} {κ : Kind} {sp : Space} {S : Shape} {e : EltTy} {Val : EltTy → Type} [∀ e, Nonempty (Val e)]
    (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  unfold View.readCov
  rw [readAt_full v _ h inb, read_writes_cons_full v _ h inb w L]

theorem hz1 : (![0] : Fin S4096.rank → ℕ) = fun _ => 0 := by funext a; fin_cases a; rfl
theorem hz2 : (![0, 0] : Fin S4096x16.rank → ℕ) = fun _ => 0 := by funext a; fin_cases a <;> rfl
theorem hz2' : (![0, 0] : Fin S2000x16.rank → ℕ) = fun _ => 0 := by funext a; fin_cases a <;> rfl

set_option maxHeartbeats 1000000 in

theorem run_first (c : Dev nD) (i : grid0.Coords)
    (arg2 : Memref sig .tc .vmem S4096 .i32) (harg2 : arg2.IsWhole) (arg3 : Memref sig .tc .vmem S2000x16 .f32) (harg3 : arg3.IsWhole)
    (arg4 : Memref sig .tc .vmem S4096x16 .f32) (harg4 : arg4.IsWhole) (arg5 : Memref sig .tc .vmem S4096x16 .f32) (harg5 : arg5.IsWhole)
    (hc0 : cond0 i) (hc1 : ¬cond1 i)
    (x0 : Vec F S4096 .i32) (x1 : Vec F S2000x16 .f32) (xi2 : Vec F S4096x16 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (k0_pay2 i x0 (k0_pay1 (F := F)) x1)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_cons_full _ _ hz2 _ _ _).trans ?_
  sl_unfold_run_names
  have e0 : View.readAt (Elt F) arg2.view (Rect.unit ![0] S4096.size inb_S4096_S4096_0).toLoadRect (harg2.unread x0) = x0 :=
    (readAt_full arg2.view _ hz1 _).trans (harg2.read_unread x0)
  have e1 : View.readAt (Elt F) arg3.view (Rect.unit ![0, 0] S2000x16.size inb_S2000x16_S2000x16_0_0).toLoadRect (harg3.unread x1) = x1 :=
    (readAt_full arg3.view _ hz2' _).trans (harg3.read_unread x1)
  rw [e0, e1, readCov_full arg5.view hz2]

set_option maxHeartbeats 1000000 in

theorem run_mid (c : Dev nD) (i : grid0.Coords)
    (arg2 : Memref sig .tc .vmem S4096 .i32) (harg2 : arg2.IsWhole) (arg3 : Memref sig .tc .vmem S2000x16 .f32) (harg3 : arg3.IsWhole)
    (arg4 : Memref sig .tc .vmem S4096x16 .f32) (harg4 : arg4.IsWhole) (arg5 : Memref sig .tc .vmem S4096x16 .f32) (harg5 : arg5.IsWhole)
    (hc0 : ¬cond0 i) (hc1 : ¬cond1 i)
    (x0 : Vec F S4096 .i32) (x1 : Vec F S2000x16 .f32) (xi2 : Vec F S4096x16 .f32) (xs : Vec F S4096x16 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs
        ∗ (iprop(owns (c : Thread nD τ) arg2 fullShare x0 ∗ owns (c : Thread nD τ) arg3 fullShare x1 ∗ owns (c : Thread nD τ) arg4 fullShare xi2
            ∗ owns (c : Thread nD τ) arg5 fullShare (k0_pay2 i x0 xs x1)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_cons_full _ _ hz2 _ _ _).trans ?_
  have e0 : View.readAt (Elt F) arg2.view (Rect.unit ![0] S4096.size inb_S4096_S4096_0).toLoadRect (harg2.unread x0) = x0 :=
    (readAt_full arg2.view _ hz1 _).trans (harg2.read_unread x0)
  have e1 : View.readAt (Elt F) arg3.view (Rect.unit ![0, 0] S2000x16.size inb_S2000x16_S2000x16_0_0).toLoadRect (harg3.unread x1) = x1 :=
    (readAt_full arg3.view _ hz2' _).trans (harg3.read_unread x1)
  have e2 : View.readAt (Elt F) arg5.view (Rect.unit ![0, 0] S4096x16.size inb_S4096x16_S4096x16_0_0).toLoadRect (harg5.unread xs) = xs :=
    (readAt_full arg5.view _ hz2 _).trans (harg5.read_unread xs)
  rw [e0, e1, e2]

set_option maxHeartbeats 1000000 in

theorem run_last (c : Dev nD) (i : grid0.Coords)
    (arg2 : Memref sig .tc .vmem S4096 .i32) (harg2 : arg2.IsWhole) (arg3 : Memref sig .tc .vmem S2000x16 .f32) (harg3 : arg3.IsWhole)
    (arg4 : Memref sig .tc .vmem S4096x16 .f32) (harg4 : arg4.IsWhole) (arg5 : Memref sig .tc .vmem S4096x16 .f32) (harg5 : arg5.IsWhole)
    (hc0 : ¬cond0 i) (hc1 : cond1 i)
    (x0 : Vec F S4096 .i32) (x1 : Vec F S2000x16 .f32) (xs : Vec F S4096x16 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 i x0 xs x1)
            ∗ owns (c : Thread nD τ) arg5 fullShare (k0_pay2 i x0 xs x1)) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  have e0 : View.readAt (Elt F) arg2.view (Rect.unit ![0] S4096.size inb_S4096_S4096_0).toLoadRect (harg2.unread x0) = x0 :=
    (readAt_full arg2.view _ hz1 _).trans (harg2.read_unread x0)
  have e1 : View.readAt (Elt F) arg3.view (Rect.unit ![0, 0] S2000x16.size inb_S2000x16_S2000x16_0_0).toLoadRect (harg3.unread x1) = x1 :=
    (readAt_full arg3.view _ hz2' _).trans (harg3.read_unread x1)
  have e2 : View.readAt (Elt F) arg5.view (Rect.unit ![0, 0] S4096x16.size inb_S4096x16_S4096x16_0_0).toLoadRect (harg5.unread xs) = xs :=
    (readAt_full arg5.view _ hz2 _).trans (harg5.read_unread xs)
  isplitl [H2]
  · iexists _; isplitr
    swap; · iexact H2
    ipureintro
    refine (read_writes_cons_full _ _ hz2 _ _ _).trans ?_
    sl_unfold_run_names
    rw [readCov_full arg5.view hz2, e0, e1, e2]
  iexists _; isplitr
  swap; · iexact HS
  ipureintro
  sl_unfold_run_names
  refine (read_writes_cons_full _ _ hz2 _ _ _).trans ?_
  rw [e0, e1, e2]

abbrev ms0 (t : Fin cfg0.N) : Memref sig .tc .vmem S4096 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x16 .f32 := win0_2.stage (cfg0.slots t 2)
abbrev hs2 (t : Fin cfg0.N) : (ms2 t).IsWhole := hstage0_2 ((cfg0.slots t 2).cast nbuf0_2)

abbrev bodyAt (t : Fin cfg0.N) : Prog (TpuEff nD τ sig (Elt F) Λ₀ .tc) PUnit :=
  cc0_kernel (grid0.coords t) (ms0 t) (hs0 t) (ms1 t) (hs1 t) (ms2 t) (hs2 t) scM (Memref.isWhole_whole _)

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves0 (c : Dev nD) (t : Fin cfg0.N) :
    (dat V c).leavesExact 0 t = owns (c : Thread nD τ) (ms0 t) fullShare (iblk V c 0 t) := by
  unfold Dat.leavesExact; rw [live0, after0]
theorem leaves1 (c : Dev nD) (t : Fin cfg0.N) :
    (dat V c).leavesExact 1 t = owns (c : Thread nD τ) (ms1 t) fullShare (iblk V c 1 t) := by
  unfold Dat.leavesExact; rw [live1, after1]
theorem leaves2_idle (c : Dev nD) (t : Fin cfg0.N) (h1 : ¬t.val % 25 = 24) :
    (dat V c).leavesExact 2 t = iprop(∃ d, owns (c : Thread nD τ) (ms2 t) fullShare ((dat V c).before 2 t d)) :=
  Dat.leavesExact_idle (dat V c) 2 t (idle2 _ fun h => h1 ((hcond1 t).mp h)) (noFlush2 t h1)
theorem leaves2_live (c : Dev nD) (t : Fin cfg0.N) (h1 : t.val % 25 = 24) :
    (dat V c).leavesExact 2 t = owns (c : Thread nD τ) (ms2 t) fullShare (acc V c t.val t.isLt) := by
  unfold Dat.leavesExact; rw [live2 _ ((hcond1 t).mpr h1), after2]

set_option maxHeartbeats 1600000 in

theorem sound_body (c : Dev nD) (t : Fin cfg0.N) :
    bodyPre V c t ⊢ wp frame (wpE (defs₀ (F := F)) Variants.none c none) Set.univ (bodyAt t) (fun _ => bodyPost V c t) := by
  unfold bodyPre bodyPost bodyAt
  simp only [before0, before1]
  rw [show (dat V c).owesAt () t.succ = (dat V c).owesAt () t.castSucc from rfl]
  rw [show (dat V c).Φ t.succ = PhiS V c (t.val + 1) t.isLt from rfl, PhiS_succ, leaves0, leaves1, Phi_castSucc]
  have hN : t.val < 4900 := lt_of_lt_of_eq t.isLt (show cfg0.N = 4900 from N_0)
  by_cases h0 : t.val % 25 = 0
  · have h1 : ¬t.val % 25 = 24 := by omega
    rw [leaves2_idle V c t h1, acc_reset V c t.val t.isLt h0]
    have hpre : PhiS V c t.val (Nat.le_of_lt t.isLt)
        ⊢ iprop(iprop((∃ d, owns (c : Thread nD τ) scM fullShare d)) ∗ Pipeline.scopedRestBut spec0 c [cc0_scratch0]) := by
      by_cases hz : t.val = 0
      · rw [PhiS_zero V c _ _ hz]
      · rw [PhiS_pos V c _ _ hz]
        iintro ⟨HS, Hr⟩
        isplitl [HS]
        · iexists _; iexact HS
        iexact Hr
    iintro ⟨HP, Ho, ⟨%d0, H0⟩, ⟨%d1, H1⟩, ⟨%d2, H2⟩⟩
    ihave HP' := hpre $$ HP
    icases HP' with ⟨HS, Hr⟩
    iapply (run_first c (grid0.coords t) _ _ _ _ _ _ _ _ ((hcond0 t).mpr h0) (fun h => h1 ((hcond1 t).mp h))
      (srcBlk V c t) (yBlk V c t) _ Set.univ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexists _; iexact H2
  · have hz : t.val ≠ 0 := fun e => h0 (by rw [e])
    rw [PhiS_pos V c _ _ hz, acc_step V c t.val t.isLt h0]
    by_cases h1 : t.val % 25 = 24
    · rw [leaves2_live V c t h1, acc_step V c t.val t.isLt h0]
      iintro ⟨⟨HS, Hr⟩, Ho, ⟨%d0, H0⟩, ⟨%d1, H1⟩, ⟨%d2, H2⟩⟩
      iapply (run_last c (grid0.coords t) _ _ _ _ _ _ _ _ (fun h => h0 ((hcond0 t).mp h)) ((hcond1 t).mpr h1)
        (srcBlk V c t) (yBlk V c t) _ Set.univ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · rw [leaves2_idle V c t h1]
      iintro ⟨⟨HS, Hr⟩, Ho, ⟨%d0, H0⟩, ⟨%d1, H1⟩, ⟨%d2, H2⟩⟩
      iapply (run_mid c (grid0.coords t) _ _ _ _ _ _ _ _ (fun h => h0 ((hcond0 t).mp h)) (fun h => h1 ((hcond1 t).mp h))
        (srcBlk V c t) (yBlk V c t) _ _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

theorem body_obligation (c : Dev nD) : BodyObligation (dat V c) (defs₀ (F := F)) Variants.none () Set.univ := fun t => by
  rw [bigSep_W0, bigSep_W0]
  exact sound_body V c t

theorem hin (c : Dev nD) : (Pipeline.scopedRest spec0 c : sProp 𝕄) ⊢ (dat V c).Φ 0 := by
  rw [show (dat V c).Φ 0 = PhiS V c 0 (Nat.zero_le _) from rfl, PhiS_zero V c 0 _ rfl, scopedRest0_split]
  simp only [scM, owns_whole]
  exact Entails.rfl

theorem hout (c : Dev nD) : (dat V c).Φ (Fin.last cfg0.N) ⊢ (Pipeline.scopedRest spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 4900 := N_0; omega), scopedRest0_split]
  simp only [scM, owns_whole]
  iintro ⟨HS, Hr⟩
  isplitl [HS]
  · iexists _; iexact HS
  iexact Hr

end Cert.KernelIdeal.R0

end
-- ==== Proof.Scatter1.lean ====
import proofs.«148650_j55559696941682_1_alg».proof.Proof.Gen.KernelIdeal.Launch
import proofs.«148650_j55559696941682_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.R1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc (c : Dev nD) : (n : ℕ) → n < cfg1.N → Vec F S2000x16 .f32
  | 0, h => k1_pay2 (grid1.coords ⟨0, h⟩) (iblk V c 0 ⟨0, h⟩) (iblk V c 1 ⟨0, h⟩) (iblk V c 2 ⟨0, h⟩) k1_pay1
  | n + 1, h => k1_pay2 (grid1.coords ⟨n + 1, h⟩) (iblk V c 0 ⟨n + 1, h⟩) (iblk V c 1 ⟨n + 1, h⟩) (iblk V c 2 ⟨n + 1, h⟩)
      (if (n + 1) % 196 = 0 then k1_pay1 else acc c n (Nat.lt_of_succ_lt h))

theorem acc_reset (c : Dev nD) (t : Fin cfg1.N) (h : t.val % 196 = 0) :
    acc V c t.val t.isLt = k1_pay2 (grid1.coords t) (iblk V c 0 t) (iblk V c 1 t) (iblk V c 2 t) k1_pay1 := by
  obtain ⟨n, hn⟩ := t
  cases n with
  | zero => rfl
  | succ n => show k1_pay2 _ _ _ _ (if (n + 1) % 196 = 0 then _ else _) = _; rw [if_pos h]

theorem acc_step (c : Dev nD) (t : Fin cfg1.N) (h : t.val % 196 ≠ 0) :
    acc V c t.val t.isLt = k1_pay2 (grid1.coords t) (iblk V c 0 t) (iblk V c 1 t) (iblk V c 2 t)
      (acc V c (t.val - 1) (Nat.lt_of_le_of_lt (Nat.sub_le _ _) t.isLt)) := by
  obtain ⟨n, hn⟩ := t
  cases n with
  | zero => exact absurd (Nat.zero_mod _) h
  | succ n => show k1_pay2 _ _ _ _ (if (n + 1) % 196 = 0 then _ else _) = _; rw [if_neg h]; rfl

def outv (c : Dev nD) (t : Fin cfg1.N) : Vec F S2000x16 .f32 :=
  k1_pay3 (acc V c t.val t.isLt) (iblk V c 3 t) (iblk V c 4 t) (iblk V c 5 t)

abbrev scM : Memref sig .tc .vmem S2000x16 .f32 := Memref.whole cc1_scratch0

def PhiS (c : Dev nD) : (n : ℕ) → n ≤ cfg1.N → sProp 𝕄
  | 0, _ => iprop(iprop((∃ d, owns (c : Thread nD τ) scM fullShare d)) ∗ Pipeline.scopedRestBut spec1 c [cc1_scratch0])
  | n + 1, hn => iprop(owns (c : Thread nD τ) scM fullShare (acc V c n hn) ∗ Pipeline.scopedRestBut spec1 c [cc1_scratch0])

theorem PhiS_zero (c : Dev nD) (n : ℕ) (h : n ≤ cfg1.N) (hz : n = 0) :
    PhiS V c n h = iprop(iprop((∃ d, owns (c : Thread nD τ) scM fullShare d)) ∗ Pipeline.scopedRestBut spec1 c [cc1_scratch0]) := by
  subst hz; rfl

theorem PhiS_succ (c : Dev nD) (n : ℕ) (hn : n < cfg1.N) :
    PhiS V c (n + 1) hn = iprop(owns (c : Thread nD τ) scM fullShare (acc V c n hn) ∗ Pipeline.scopedRestBut spec1 c [cc1_scratch0]) := rfl

theorem PhiS_pos (c : Dev nD) (n : ℕ) (h : n ≤ cfg1.N) (hz : n ≠ 0) :
    PhiS V c n h = iprop(owns (c : Thread nD τ) scM fullShare (acc V c (n - 1) (by omega)) ∗ Pipeline.scopedRestBut spec1 c [cc1_scratch0]) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outv V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = outv V c t := by dsimp only [dat]

theorem PhiS_castSucc (c : Dev nD) (t : Fin cfg1.N) :
    (dat V c).Φ t.castSucc = PhiS V c t.val (Nat.le_of_lt t.isLt) := by
  dsimp only [dat]; simp only [Fin.coe_castSucc]

theorem hin (c : Dev nD) : (Pipeline.scopedRest spec1 c : sProp 𝕄) ⊢ (dat V c).Φ 0 := by
  rw [show (dat V c).Φ 0 = PhiS V c 0 (Nat.zero_le _) from rfl, PhiS_zero V c 0 _ rfl, scopedRest1_split]
  simp only [scM, owns_whole]
  try exact Idealize.SL.BI.Entails.refl _

theorem hout (c : Dev nD) : (dat V c).Φ (Fin.last cfg1.N) ⊢ (Pipeline.scopedRest spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 4900 := N_1; omega), scopedRest1_split]
  simp only [scM, owns_whole]
  iintro ⟨HS, Hr⟩
  isplitl [HS]
  · iexists _; iexact HS
  iexact Hr

end Cert.KernelIdeal.R1

end
-- ==== Proof.Scatter1Body.lean ====
import proofs.«148650_j55559696941682_1_alg».proof.Proof.Scatter1
import proofs.«148650_j55559696941682_1_alg».proof.Proof.Gen.KernelIdeal.Skeleton
import proofs.«148650_j55559696941682_1_alg».proof.Proof.Gen.KernelIdeal.Points

set_option maxRecDepth 16384

noncomputable section

namespace Cert.KernelIdeal.R1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR (i : grid1.Coords) : Prop :=
  (Scalar.cmpi .ne (Scalar.extui (Scalar.cmpi .eq (BitVec.ofNat 32 (i 1).val) 0#32)) 0#32) = 1#1

theorem hcondR : ∀ t : Fin cfg1.N, condR (grid1.coords t) ↔ t.val % 196 = 0 :=
  (by decide +kernel : ∀ t : Fin grid1.N, condR (grid1.coords t) ↔ t.val % 196 = 0)

abbrev condW (i : grid1.Coords) : Prop := k1_cond2 i = 1#1

theorem hcondW : ∀ t : Fin cfg1.N, condW (grid1.coords t) ↔ t.val % 196 = 195 :=
  (by decide +kernel : ∀ t : Fin grid1.N, condW (grid1.coords t) ↔ t.val % 196 = 195)

theorem idle6 (t : Fin cfg1.N) (h : ¬condW (grid1.coords t)) : cfg1.idle 6 (grid1.coords t) = true := by
  show (!(k1_cond2 (grid1.coords t) == 1#1)) = true
  rw [Bool.not_eq_true', beq_eq_false_iff_ne]; exact h

theorem live6 (t : Fin cfg1.N) (h : condW (grid1.coords t)) : cfg1.idle 6 (grid1.coords t) = false := by
  show (!(k1_cond2 (grid1.coords t) == 1#1)) = false
  rw [Bool.not_eq_false', beq_iff_eq]; exact h

theorem noFlush6 (t : Fin cfg1.N) (h : ¬t.val % 196 = 195) : (cfg1.win 6).flush t = false :=
  Bool.eq_false_iff.mpr fun hf => h ((flush1_6 t).mp hf)

theorem hz1 : (![0] : Fin 1 → Nat) = fun _ => 0 := funext fun a => by fin_cases a; rfl
theorem hz2 : (![0, 0] : Fin 2 → Nat) = fun _ => 0 := funext fun a => by fin_cases a <;> rfl

section Whole
variable {sig' : RefSig} {κ : Kind} {sp : Space} {Val : EltTy → Type} {S : Shape} {e : EltTy}

theorem read_writes_cons_unit_zero (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end Whole

section Runs

variable (c : Dev nD) (i : grid1.Coords)
  (a2 : Memref sig .tc .vmem S4096 .i32) (h2 : a2.IsWhole) (a3 : Memref sig .tc .vmem S4096 .f32) (h3 : a3.IsWhole)
  (a4 : Memref sig .tc .vmem S4096x16 .f32) (h4 : a4.IsWhole) (a5 : Memref sig .tc .vmem S2000x16 .f32) (h5 : a5.IsWhole)
  (a6 : Memref sig .tc .vmem S16 .f32) (h6 : a6.IsWhole) (a7 : Memref sig .tc .vmem S2000x16 .f32) (h7 : a7.IsWhole)
  (a8 : Memref sig .tc .vmem S2000x16 .f32) (h8 : a8.IsWhole) (a9 : Memref sig .tc .vmem S2000x16 .f32) (h9 : a9.IsWhole)

set_option maxHeartbeats 1000000 in

theorem run_reset (hR : condR i) (hW : ¬condW i)
    (x0 : Vec F S4096 .i32) (x1 : Vec F S4096 .f32) (x2 : Vec F S4096x16 .f32)
    (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a9 fullShare d)
        ∗ (iprop(owns (c : Thread nD τ) a2 fullShare x0 ∗ owns (c : Thread nD τ) a3 fullShare x1 ∗ owns (c : Thread nD τ) a4 fullShare x2
            ∗ owns (c : Thread nD τ) a9 fullShare (k1_pay2 i x0 x1 x2 k1_pay1)) -∗ K ⟨⟩))
      ⊢ wp frame (wpE (defs₀ (F := F)) Variants.none c none) E (cc1_kernel i a2 h2 a3 h3 a4 h4 a5 h5 a6 h6 a7 h7 a8 h8 a9 h9) K := by
  simp only [cc1_kernel_eq_skeleton]; unfold cc1_kernel_skel
  unfold owns
  iintro ⟨⟨%f0, %hf0, H0⟩, ⟨%f1, %hf1, H1⟩, ⟨%f2, %hf2, H2⟩, ⟨%ds, %fs, -, HS⟩, Hk⟩
  obtain rfl := h2.eq_unread hf0; obtain rfl := h3.eq_unread hf1; obtain rfl := h4.eq_unread hf2
  sl_exec (disch := first | exact hR | exact hW)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr; swap; · iexact HS
  ipureintro
  sl_unfold_run_names
  rw [read_writes_cons_unit_zero (S := S2000x16) _ _ hz2]
  simp only [View.readCov_unit_zero (S := S2000x16) _ hz2, View.readAt_eq_ld, h2.read_unread, h3.read_unread, h4.read_unread,
    View.ld_unit_zero (S := S4096) hz1, View.ld_unit_zero (S := S4096x16) hz2, View.ld_unit_zero (S := S2000x16) hz2,
    View.ld_unit_zero (S := S16) hz1]

set_option maxHeartbeats 1000000 in

theorem run_step (hR : ¬condR i) (hW : ¬condW i)
    (x0 : Vec F S4096 .i32) (x1 : Vec F S4096 .f32) (x2 : Vec F S4096x16 .f32) (xs : Vec F S2000x16 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a9 fullShare xs
        ∗ (iprop(owns (c : Thread nD τ) a2 fullShare x0 ∗ owns (c : Thread nD τ) a3 fullShare x1 ∗ owns (c : Thread nD τ) a4 fullShare x2
            ∗ owns (c : Thread nD τ) a9 fullShare (k1_pay2 i x0 x1 x2 xs)) -∗ K ⟨⟩))
      ⊢ wp frame (wpE (defs₀ (F := F)) Variants.none c none) E (cc1_kernel i a2 h2 a3 h3 a4 h4 a5 h5 a6 h6 a7 h7 a8 h8 a9 h9) K := by
  simp only [cc1_kernel_eq_skeleton]; unfold cc1_kernel_skel
  unfold owns
  iintro ⟨⟨%f0, %hf0, H0⟩, ⟨%f1, %hf1, H1⟩, ⟨%f2, %hf2, H2⟩, ⟨%fs, %hfs, HS⟩, Hk⟩
  obtain rfl := h2.eq_unread hf0; obtain rfl := h3.eq_unread hf1; obtain rfl := h4.eq_unread hf2; obtain rfl := h9.eq_unread hfs
  sl_exec (disch := first | exact hR | exact hW)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr; swap; · iexact HS
  ipureintro
  sl_unfold_run_names
  rw [read_writes_cons_unit_zero (S := S2000x16) _ _ hz2]
  simp only [View.readCov_unit_zero (S := S2000x16) _ hz2, View.readAt_eq_ld, h2.read_unread, h3.read_unread, h4.read_unread, h9.read_unread,
    View.ld_unit_zero (S := S4096) hz1, View.ld_unit_zero (S := S4096x16) hz2, View.ld_unit_zero (S := S2000x16) hz2,
    View.ld_unit_zero (S := S16) hz1]

set_option maxHeartbeats 1000000 in

theorem run_write (hR : ¬condR i) (hW : condW i)
    (x0 : Vec F S4096 .i32) (x1 : Vec F S4096 .f32) (x2 : Vec F S4096x16 .f32)
    (x3 : Vec F S2000x16 .f32) (x4 : Vec F S16 .f32) (x5 : Vec F S2000x16 .f32) (xs : Vec F S2000x16 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ (∃ d, owns (c : Thread nD τ) a8 fullShare d) ∗ owns (c : Thread nD τ) a9 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (k1_pay3 (k1_pay2 i x0 x1 x2 xs) x3 x4 x5)
            ∗ owns (c : Thread nD τ) a9 fullShare (k1_pay2 i x0 x1 x2 xs)) -∗ K ⟨⟩))
      ⊢ wp frame (wpE (defs₀ (F := F)) Variants.none c none) E (cc1_kernel i a2 h2 a3 h3 a4 h4 a5 h5 a6 h6 a7 h7 a8 h8 a9 h9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5; obtain rfl := h9.eq_unread hfs
  sl_exec (disch := first | exact hR | exact hW)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; swap; · iexact H6
    ipureintro
    sl_unfold_run_names
    rw [read_writes_cons_unit_zero (S := S2000x16) _ _ hz2]
    simp only [View.readCov_unit_zero (S := S2000x16) _ hz2, View.readAt_eq_ld, h2.read_unread, h3.read_unread, h4.read_unread, h5.read_unread, h6.read_unread, h7.read_unread, h9.read_unread,
      View.ld_unit_zero (S := S4096) hz1, View.ld_unit_zero (S := S4096x16) hz2, View.ld_unit_zero (S := S2000x16) hz2,
      View.ld_unit_zero (S := S16) hz1]
  iexists _; isplitr; swap; · iexact HS
  ipureintro
  sl_unfold_run_names
  rw [read_writes_cons_unit_zero (S := S2000x16) _ _ hz2]
  simp only [View.readCov_unit_zero (S := S2000x16) _ hz2, View.readAt_eq_ld, h2.read_unread, h3.read_unread, h4.read_unread, h9.read_unread,
    View.ld_unit_zero (S := S4096) hz1, View.ld_unit_zero (S := S4096x16) hz2, View.ld_unit_zero (S := S2000x16) hz2,
    View.ld_unit_zero (S := S16) hz1]

end Runs

variable (V : (c : Dev nD) → (b : Ref sig .tc) → Buf (Elt F) ((c : Thread nD τ).loc b))

theorem before0 (c : Dev nD) (t : Fin cfg1.N) (d) : (dat V c).before 0 t d = iblk V c 0 t :=
  ((dat V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

theorem before1 (c : Dev nD) (t : Fin cfg1.N) (d) : (dat V c).before 1 t d = iblk V c 1 t :=
  ((dat V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

theorem before2 (c : Dev nD) (t : Fin cfg1.N) (d) : (dat V c).before 2 t d = iblk V c 2 t :=
  ((dat V c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

theorem before3 (c : Dev nD) (t : Fin cfg1.N) (d) : (dat V c).before 3 t d = iblk V c 3 t :=
  ((dat V c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

theorem before4 (c : Dev nD) (t : Fin cfg1.N) (d) : (dat V c).before 4 t d = iblk V c 4 t :=
  ((dat V c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

theorem before5 (c : Dev nD) (t : Fin cfg1.N) (d) : (dat V c).before 5 t d = iblk V c 5 t :=
  ((dat V c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

abbrev ms0 (t : Fin cfg1.N) : Memref sig .tc .vmem S4096 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S4096x16 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2000x16 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S16 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S2000x16 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S2000x16 .f32 := win1_6.stage (cfg1.slots t 6)
abbrev hs6 (t : Fin cfg1.N) : (ms6 t).IsWhole := hstage1_6 ((cfg1.slots t 6).cast nbuf1_6)

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

theorem leaves0 (c : Dev nD) (t : Fin cfg1.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [show cfg1.idle 0 (grid1.coords t) = false from rfl], after0]
theorem leaves1 (c : Dev nD) (t : Fin cfg1.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [show cfg1.idle 1 (grid1.coords t) = false from rfl], after1]
theorem leaves2 (c : Dev nD) (t : Fin cfg1.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [show cfg1.idle 2 (grid1.coords t) = false from rfl], after2]
theorem leaves3 (c : Dev nD) (t : Fin cfg1.N) :
    (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [show cfg1.idle 3 (grid1.coords t) = false from rfl], after3]
theorem leaves4 (c : Dev nD) (t : Fin cfg1.N) :
    (dat V c).leavesExact 4 t = owns (c : Thread nD τ) (ms4 t) fullShare (iblk V c 4 t) := by
  rw [show (dat V c).leavesExact 4 t = owns (c : Thread nD τ) (ms4 t) fullShare ((dat V c).after 4 t) from by
    unfold Dat.leavesExact; rw [show cfg1.idle 4 (grid1.coords t) = false from rfl], after4]
theorem leaves5 (c : Dev nD) (t : Fin cfg1.N) :
    (dat V c).leavesExact 5 t = owns (c : Thread nD τ) (ms5 t) fullShare (iblk V c 5 t) := by
  rw [show (dat V c).leavesExact 5 t = owns (c : Thread nD τ) (ms5 t) fullShare ((dat V c).after 5 t) from by
    unfold Dat.leavesExact; rw [show cfg1.idle 5 (grid1.coords t) = false from rfl], after5]

set_option maxHeartbeats 4800000 in

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5]
  have hN : t.val < 4900 := lt_of_lt_of_eq t.isLt (show cfg1.N = 4900 from N_1)
  by_cases hR : t.val % 196 = 0
  · have hW : ¬t.val % 196 = 195 := by omega
    have hcR : condR (grid1.coords t) := (hcondR t).mpr hR
    have hcW : ¬condW (grid1.coords t) := fun h => hW ((hcondW t).mp h)
    rw [Dat.leavesExact_idle (dat V c) 6 t (idle6 t hcW) (noFlush6 t hW), acc_reset V c t hR]
    by_cases hz : t.val = 0
    · rw [PhiS_castSucc V c t, PhiS_zero V c _ _ hz]
      iintro ⟨⟨HS, Hr⟩, Ho, ⟨%d0, H0⟩, ⟨%d1, H1⟩, ⟨%d2, H2⟩, ⟨%d3, H3⟩, ⟨%d4, H4⟩, ⟨%d5, H5⟩, H6⟩
      iapply (run_reset c (grid1.coords t) _ _ _ _ _ _ _ _ _ _ _ _ _ _ _ _ hcR hcW (iblk V c 0 t) (iblk V c 1 t) (iblk V c 2 t) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc V c t, PhiS_pos V c _ _ hz]
      iintro ⟨⟨HS, Hr⟩, Ho, ⟨%d0, H0⟩, ⟨%d1, H1⟩, ⟨%d2, H2⟩, ⟨%d3, H3⟩, ⟨%d4, H4⟩, ⟨%d5, H5⟩, H6⟩
      iapply (run_reset c (grid1.coords t) _ _ _ _ _ _ _ _ _ _ _ _ _ _ _ _ hcR hcW (iblk V c 0 t) (iblk V c 1 t) (iblk V c 2 t) Set.univ _)
      isplitl [H0]; · iexact H0
      isplitl [H1]; · iexact H1
      isplitl [H2]; · iexact H2
      isplitl [HS]; · iexists _; iexact HS
      iintro ⟨H0, H1, H2, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => hR (by rw [h])
    have hcR : ¬condR (grid1.coords t) := fun h => hR ((hcondR t).mp h)
    rw [PhiS_castSucc V c t, PhiS_pos V c _ _ hz, acc_step V c t hR]
    by_cases hW : t.val % 196 = 195
    · have hcW : condW (grid1.coords t) := (hcondW t).mpr hW
      rw [show (dat V c).leavesExact 6 t = owns (c : Thread nD τ) (ms6 t) fullShare ((dat V c).after 6 t) from by
        unfold Dat.leavesExact; rw [live6 t hcW], after6]
      unfold outv; rw [acc_step V c t hR]
      iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
      iapply (run_write c (grid1.coords t) _ _ _ _ _ _ _ _ _ _ _ _ _ _ _ _ hcR hcW (iblk V c 0 t) (iblk V c 1 t) (iblk V c 2 t)
        (iblk V c 3 t) (iblk V c 4 t) (iblk V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcW : ¬condW (grid1.coords t) := fun h => hW ((hcondW t).mp h)
      rw [Dat.leavesExact_idle (dat V c) 6 t (idle6 t hcW) (noFlush6 t hW)]
      iintro ⟨⟨HS, Hr⟩, Ho, ⟨%d0, H0⟩, ⟨%d1, H1⟩, ⟨%d2, H2⟩, ⟨%d3, H3⟩, ⟨%d4, H4⟩, ⟨%d5, H5⟩, H6⟩
      iapply (run_step c (grid1.coords t) _ _ _ _ _ _ _ _ _ _ _ _ _ _ _ _ hcR hcW (iblk V c 0 t) (iblk V c 1 t) (iblk V c 2 t) _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation (c : Dev nD) : BodyObligation (dat V c) (defs₀ (F := F)) Variants.none () Set.univ := fun t => by
  rw [bigSep_W1, bigSep_W1]
  exact sound_body V c t

end Cert.KernelIdeal.R1

end
-- ==== Proof.Gather2.lean ====
import proofs.«148650_j55559696941682_1_alg».proof.Proof.Gen.KernelIdeal.Launch
import proofs.«148650_j55559696941682_1_alg».proof.Proof.Gen.KernelIdeal.Skeleton
import proofs.«148650_j55559696941682_1_alg».proof.Proof.Gather0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev srcBlk (c : Dev nD) (t : Fin cfg2.N) : Vec F S4096 .i32 := iblk V c 0 t

abbrev yBlk (c : Dev nD) (t : Fin cfg2.N) : Vec F S2000x16 .f32 := iblk V c 1 t

def acc (c : Dev nD) : (n : ℕ) → n < cfg2.N → Vec F S4096x16 .f32
  | 0, hn => k2_pay2 (grid2.coords ⟨0, hn⟩) (srcBlk V c ⟨0, hn⟩) (k2_pay1 (F := F)) (yBlk V c ⟨0, hn⟩)
  | n + 1, hn =>
    k2_pay2 (grid2.coords ⟨n + 1, hn⟩) (srcBlk V c ⟨n + 1, hn⟩)
      (if (n + 1) % 25 = 0 then (k2_pay1 (F := F)) else acc c n (Nat.lt_of_succ_lt hn)) (yBlk V c ⟨n + 1, hn⟩)

theorem acc_reset (c : Dev nD) (n : ℕ) (hn : n < cfg2.N) (h : n % 25 = 0) :
    acc V c n hn = k2_pay2 (grid2.coords ⟨n, hn⟩) (srcBlk V c ⟨n, hn⟩) (k2_pay1 (F := F)) (yBlk V c ⟨n, hn⟩) := by
  cases n with
  | zero => rfl
  | succ n => rw [acc, if_pos h]

theorem acc_step (c : Dev nD) (n : ℕ) (hn : n < cfg2.N) (h : n % 25 ≠ 0) :
    acc V c n hn = k2_pay2 (grid2.coords ⟨n, hn⟩) (srcBlk V c ⟨n, hn⟩)
      (acc V c (n - 1) (Nat.lt_of_le_of_lt (Nat.sub_le _ _) hn)) (yBlk V c ⟨n, hn⟩) := by
  cases n with
  | zero => exact absurd (Nat.zero_mod _) h
  | succ n => rw [acc, if_neg h]; rfl

abbrev scM : Memref sig .tc .vmem S4096x16 .f32 := Memref.whole cc2_scratch0

def PhiS (c : Dev nD) : (n : ℕ) → n ≤ cfg2.N → sProp 𝕄
  | 0, _ => iprop(iprop((∃ d, owns (c : Thread nD τ) scM fullShare d)) ∗ Pipeline.scopedRestBut spec2 c [cc2_scratch0])
  | n + 1, hn => iprop(owns (c : Thread nD τ) scM fullShare (acc V c n hn) ∗ Pipeline.scopedRestBut spec2 c [cc2_scratch0])

theorem PhiS_zero (c : Dev nD) (n : ℕ) (h : n ≤ cfg2.N) (hz : n = 0) :
    PhiS V c n h = iprop(iprop((∃ d, owns (c : Thread nD τ) scM fullShare d)) ∗ Pipeline.scopedRestBut spec2 c [cc2_scratch0]) := by
  subst hz; rfl

theorem PhiS_succ (c : Dev nD) (n : ℕ) (hn : n < cfg2.N) :
    PhiS V c (n + 1) hn = iprop(owns (c : Thread nD τ) scM fullShare (acc V c n hn) ∗ Pipeline.scopedRestBut spec2 c [cc2_scratch0]) := rfl

theorem PhiS_pos (c : Dev nD) (n : ℕ) (h : n ≤ cfg2.N) (hz : n ≠ 0) :
    PhiS V c n h = iprop(owns (c : Thread nD τ) scM fullShare (acc V c (n - 1) (by omega)) ∗ Pipeline.scopedRestBut spec2 c [cc2_scratch0]) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = acc V c t.val t.isLt := by dsimp only [dat]

theorem Phi_castSucc (c : Dev nD) (t : Fin cfg2.N) :
    (dat V c).Φ t.castSucc = PhiS V c t.val (Nat.le_of_lt t.isLt) := by
  dsimp only [dat]; simp only [Fin.coe_castSucc]

abbrev cond0 (i : grid2.Coords) : Prop :=
  (Scalar.cmpi .ne (Scalar.extui (Scalar.cmpi .eq (BitVec.ofNat 32 (i 1).val) 0#32)) 0#32) = 1#1

theorem hcond0 : ∀ t : Fin cfg2.N, cond0 (grid2.coords t) ↔ t.val % 25 = 0 :=
  (by decide +kernel : ∀ t : Fin grid2.N, cond0 (grid2.coords t) ↔ t.val % 25 = 0)

abbrev cond1 (i : grid2.Coords) : Prop := k2_cond2 i = 1#1

theorem hcond1 : ∀ t : Fin cfg2.N, cond1 (grid2.coords t) ↔ t.val % 25 = 24 :=
  (by decide +kernel : ∀ t : Fin grid2.N, cond1 (grid2.coords t) ↔ t.val % 25 = 24)

theorem live0 (i : grid2.Coords) : cfg2.idle 0 i = false := rfl
theorem live1 (i : grid2.Coords) : cfg2.idle 1 i = false := rfl

theorem idle2 (i : grid2.Coords) (h : ¬cond1 i) : cfg2.idle 2 i = true := by
  show (!(k2_cond2 i == 1#1)) = true
  rw [Bool.not_eq_true', beq_eq_false_iff_ne]; exact h
theorem live2 (i : grid2.Coords) (h : cond1 i) : cfg2.idle 2 i = false := by
  show (!(k2_cond2 i == 1#1)) = false
  rw [show k2_cond2 i = 1#1 from h]; rfl

theorem noFlush2 : ∀ t : Fin cfg2.N, ¬t.val % 25 = 24 → (cfg2.win 2).flush t = false :=
  (by decide +kernel : ∀ t : Fin grid2.N, ¬t.val % 25 = 24 → win2_2.flush t = false)

theorem before0 (c : Dev nD) (t : Fin cfg2.N) (d) : (dat V c).before 0 t d = iblk V c 0 t :=
  ((dat V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

-- The three gather regions run one body text: region 0's runs, read at this region's names.
theorem run_first (c : Dev nD) (i : grid2.Coords)
    (arg2 : Memref sig .tc .vmem S4096 .i32) (harg2 : arg2.IsWhole) (arg3 : Memref sig .tc .vmem S2000x16 .f32) (harg3 : arg3.IsWhole)
    (arg4 : Memref sig .tc .vmem S4096x16 .f32) (harg4 : arg4.IsWhole) (arg5 : Memref sig .tc .vmem S4096x16 .f32) (harg5 : arg5.IsWhole)
    (hc0 : cond0 i) (hc1 : ¬cond1 i)
    (x0 : Vec F S4096 .i32) (x1 : Vec F S2000x16 .f32) (xi2 : Vec F S4096x16 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (k2_pay2 i x0 (k2_pay1 (F := F)) x1)) -∗ K ⟨⟩))
      ⊢ wp frame (wpE (defs₀ (F := F)) Variants.none c none) E (cc2_kernel i arg2 harg2 arg3 harg3 arg4 harg4 arg5 harg5) K :=
  R0.run_first c i arg2 harg2 arg3 harg3 arg4 harg4 arg5 harg5 hc0 hc1 x0 x1 xi2 E K

theorem run_mid (c : Dev nD) (i : grid2.Coords)
    (arg2 : Memref sig .tc .vmem S4096 .i32) (harg2 : arg2.IsWhole) (arg3 : Memref sig .tc .vmem S2000x16 .f32) (harg3 : arg3.IsWhole)
    (arg4 : Memref sig .tc .vmem S4096x16 .f32) (harg4 : arg4.IsWhole) (arg5 : Memref sig .tc .vmem S4096x16 .f32) (harg5 : arg5.IsWhole)
    (hc0 : ¬cond0 i) (hc1 : ¬cond1 i)
    (x0 : Vec F S4096 .i32) (x1 : Vec F S2000x16 .f32) (xi2 : Vec F S4096x16 .f32) (xs : Vec F S4096x16 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs
        ∗ (iprop(owns (c : Thread nD τ) arg2 fullShare x0 ∗ owns (c : Thread nD τ) arg3 fullShare x1 ∗ owns (c : Thread nD τ) arg4 fullShare xi2
            ∗ owns (c : Thread nD τ) arg5 fullShare (k2_pay2 i x0 xs x1)) -∗ K ⟨⟩))
      ⊢ wp frame (wpE (defs₀ (F := F)) Variants.none c none) E (cc2_kernel i arg2 harg2 arg3 harg3 arg4 harg4 arg5 harg5) K :=
  R0.run_mid c i arg2 harg2 arg3 harg3 arg4 harg4 arg5 harg5 hc0 hc1 x0 x1 xi2 xs E K

theorem run_last (c : Dev nD) (i : grid2.Coords)
    (arg2 : Memref sig .tc .vmem S4096 .i32) (harg2 : arg2.IsWhole) (arg3 : Memref sig .tc .vmem S2000x16 .f32) (harg3 : arg3.IsWhole)
    (arg4 : Memref sig .tc .vmem S4096x16 .f32) (harg4 : arg4.IsWhole) (arg5 : Memref sig .tc .vmem S4096x16 .f32) (harg5 : arg5.IsWhole)
    (hc0 : ¬cond0 i) (hc1 : cond1 i)
    (x0 : Vec F S4096 .i32) (x1 : Vec F S2000x16 .f32) (xs : Vec F S4096x16 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k2_pay2 i x0 xs x1)
            ∗ owns (c : Thread nD τ) arg5 fullShare (k2_pay2 i x0 xs x1)) -∗ K ⟨⟩))
      ⊢ wp frame (wpE (defs₀ (F := F)) Variants.none c none) E (cc2_kernel i arg2 harg2 arg3 harg3 arg4 harg4 arg5 harg5) K :=
  R0.run_last c i arg2 harg2 arg3 harg3 arg4 harg4 arg5 harg5 hc0 hc1 x0 x1 xs E K

abbrev ms0 (t : Fin cfg2.N) : Memref sig .tc .vmem S4096 .i32 := win2_0.stage (cfg2.slots t 0)
abbrev hs0 (t : Fin cfg2.N) : (ms0 t).IsWhole := hstage2_0 ((cfg2.slots t 0).cast nbuf2_0)
abbrev ms1 (t : Fin cfg2.N) : Memref sig .tc .vmem S2000x16 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S4096x16 .f32 := win2_2.stage (cfg2.slots t 2)
abbrev hs2 (t : Fin cfg2.N) : (ms2 t).IsWhole := hstage2_2 ((cfg2.slots t 2).cast nbuf2_2)

abbrev bodyAt (t : Fin cfg2.N) : Prog (TpuEff nD τ sig (Elt F) Λ₀ .tc) PUnit :=
  cc2_kernel (grid2.coords t) (ms0 t) (hs0 t) (ms1 t) (hs1 t) (ms2 t) (hs2 t) scM (Memref.isWhole_whole _)

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

theorem leaves0 (c : Dev nD) (t : Fin cfg2.N) :
    (dat V c).leavesExact 0 t = owns (c : Thread nD τ) (ms0 t) fullShare (iblk V c 0 t) := by
  unfold Dat.leavesExact; rw [live0, after0]
theorem leaves1 (c : Dev nD) (t : Fin cfg2.N) :
    (dat V c).leavesExact 1 t = owns (c : Thread nD τ) (ms1 t) fullShare (iblk V c 1 t) := by
  unfold Dat.leavesExact; rw [live1, after1]
theorem leaves2_idle (c : Dev nD) (t : Fin cfg2.N) (h1 : ¬t.val % 25 = 24) :
    (dat V c).leavesExact 2 t = iprop(∃ d, owns (c : Thread nD τ) (ms2 t) fullShare ((dat V c).before 2 t d)) :=
  Dat.leavesExact_idle (dat V c) 2 t (idle2 _ fun h => h1 ((hcond1 t).mp h)) (noFlush2 t h1)
theorem leaves2_live (c : Dev nD) (t : Fin cfg2.N) (h1 : t.val % 25 = 24) :
    (dat V c).leavesExact 2 t = owns (c : Thread nD τ) (ms2 t) fullShare (acc V c t.val t.isLt) := by
  unfold Dat.leavesExact; rw [live2 _ ((hcond1 t).mpr h1), after2]

set_option maxHeartbeats 1600000 in

theorem sound_body (c : Dev nD) (t : Fin cfg2.N) :
    bodyPre V c t ⊢ wp frame (wpE (defs₀ (F := F)) Variants.none c none) Set.univ (bodyAt t) (fun _ => bodyPost V c t) := by
  unfold bodyPre bodyPost bodyAt
  simp only [before0, before1]
  rw [show (dat V c).owesAt () t.succ = (dat V c).owesAt () t.castSucc from rfl]
  rw [show (dat V c).Φ t.succ = PhiS V c (t.val + 1) t.isLt from rfl, PhiS_succ, leaves0, leaves1, Phi_castSucc]
  have hN : t.val < 4900 := lt_of_lt_of_eq t.isLt (show cfg2.N = 4900 from N_2)
  by_cases h0 : t.val % 25 = 0
  · have h1 : ¬t.val % 25 = 24 := by omega
    rw [leaves2_idle V c t h1, acc_reset V c t.val t.isLt h0]
    have hpre : PhiS V c t.val (Nat.le_of_lt t.isLt)
        ⊢ iprop(iprop((∃ d, owns (c : Thread nD τ) scM fullShare d)) ∗ Pipeline.scopedRestBut spec2 c [cc2_scratch0]) := by
      by_cases hz : t.val = 0
      · rw [PhiS_zero V c _ _ hz]
      · rw [PhiS_pos V c _ _ hz]
        iintro ⟨HS, Hr⟩
        isplitl [HS]
        · iexists _; iexact HS
        iexact Hr
    iintro ⟨HP, Ho, ⟨%d0, H0⟩, ⟨%d1, H1⟩, ⟨%d2, H2⟩⟩
    ihave HP' := hpre $$ HP
    icases HP' with ⟨HS, Hr⟩
    iapply (run_first c (grid2.coords t) _ _ _ _ _ _ _ _ ((hcond0 t).mpr h0) (fun h => h1 ((hcond1 t).mp h))
      (srcBlk V c t) (yBlk V c t) _ Set.univ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexists _; iexact H2
  · have hz : t.val ≠ 0 := fun e => h0 (by rw [e])
    rw [PhiS_pos V c _ _ hz, acc_step V c t.val t.isLt h0]
    by_cases h1 : t.val % 25 = 24
    · rw [leaves2_live V c t h1, acc_step V c t.val t.isLt h0]
      iintro ⟨⟨HS, Hr⟩, Ho, ⟨%d0, H0⟩, ⟨%d1, H1⟩, ⟨%d2, H2⟩⟩
      iapply (run_last c (grid2.coords t) _ _ _ _ _ _ _ _ (fun h => h0 ((hcond0 t).mp h)) ((hcond1 t).mpr h1)
        (srcBlk V c t) (yBlk V c t) _ Set.univ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · rw [leaves2_idle V c t h1]
      iintro ⟨⟨HS, Hr⟩, Ho, ⟨%d0, H0⟩, ⟨%d1, H1⟩, ⟨%d2, H2⟩⟩
      iapply (run_mid c (grid2.coords t) _ _ _ _ _ _ _ _ (fun h => h0 ((hcond0 t).mp h)) (fun h => h1 ((hcond1 t).mp h))
        (srcBlk V c t) (yBlk V c t) _ _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

theorem body_obligation (c : Dev nD) : BodyObligation (dat V c) (defs₀ (F := F)) Variants.none () Set.univ := fun t => by
  rw [bigSep_W2, bigSep_W2]
  exact sound_body V c t

theorem hin (c : Dev nD) : (Pipeline.scopedRest spec2 c : sProp 𝕄) ⊢ (dat V c).Φ 0 := by
  rw [show (dat V c).Φ 0 = PhiS V c 0 (Nat.zero_le _) from rfl, PhiS_zero V c 0 _ rfl, scopedRest2_split]
  simp only [scM, owns_whole]
  exact Entails.rfl

theorem hout (c : Dev nD) : (dat V c).Φ (Fin.last cfg2.N) ⊢ (Pipeline.scopedRest spec2 c : sProp 𝕄) := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 4900 := N_2; omega), scopedRest2_split]
  simp only [scM, owns_whole]
  iintro ⟨HS, Hr⟩
  isplitl [HS]
  · iexists _; iexact HS
  iexact Hr

end Cert.KernelIdeal.R2

end
-- ==== Proof.Scatter3.lean ====
/-
  Region 1 of the idealized kernel (`cc3_kernel`, the scatter of a graph-convolution layer), its FRAME half.

  The grid is [25, 196] = (node block nb, edge block eb), point t = nb * 196 + eb. At every point the body adds to a
  [2000,16] scratch accumulator the one-hot-transposed product of the edge block's destinations with the gathered
  rows scaled by the edge norms; the accumulator is reset at eb = 0 and, at eb = 195, combined with the node
  block's self term, the bias and the skip block into the output block, which the pipeline then writes back.

  Stated here for any entry contents `V` of the TensorCore's buffers and any float model `F`: the windows' blocks
  (`iblk`), the accumulator after each point (`acc`, by recursion on the point), the output block (`outv`), the
  pipeline's proof data (`dat`) and the two ends of its invariant. The body's triples and the body obligation are in
  the module Scatter1Body.
-/
import proofs.«148650_j55559696941682_1_alg».proof.Proof.Gen.KernelIdeal.Launch
import proofs.«148650_j55559696941682_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.R3

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents on each core when the region is entered
variable (V : (c : Dev nD) → (b : Ref sig .tc) → Buf (Elt F) ((c : Thread nD τ).loc b))

/-! ## The windows' blocks, the accumulator, the output block -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the scratch accumulator holds after the body at point `n`: the point's scatter product added to the zero
    block at the first edge block of a node block (`n % 196 = 0`), to what the point before left otherwise. -/
def acc (c : Dev nD) : (n : ℕ) → n < cfg3.N → Vec F S2000x16 .f32
  | 0, h => k3_pay2 (grid3.coords ⟨0, h⟩) (iblk V c 0 ⟨0, h⟩) (iblk V c 1 ⟨0, h⟩) (iblk V c 2 ⟨0, h⟩) k3_pay1
  | n + 1, h => k3_pay2 (grid3.coords ⟨n + 1, h⟩) (iblk V c 0 ⟨n + 1, h⟩) (iblk V c 1 ⟨n + 1, h⟩) (iblk V c 2 ⟨n + 1, h⟩)
      (if (n + 1) % 196 = 0 then k3_pay1 else acc c n (Nat.lt_of_succ_lt h))

/-- At the first edge block of a node block the accumulator restarts from the zero block. -/
theorem acc_reset (c : Dev nD) (t : Fin cfg3.N) (h : t.val % 196 = 0) :
    acc V c t.val t.isLt = k3_pay2 (grid3.coords t) (iblk V c 0 t) (iblk V c 1 t) (iblk V c 2 t) k3_pay1 := by
  obtain ⟨n, hn⟩ := t
  cases n with
  | zero => rfl
  | succ n => show k3_pay2 _ _ _ _ (if (n + 1) % 196 = 0 then _ else _) = _; rw [if_pos h]

/-- At any other point it continues from what the point before left. -/
theorem acc_step (c : Dev nD) (t : Fin cfg3.N) (h : t.val % 196 ≠ 0) :
    acc V c t.val t.isLt = k3_pay2 (grid3.coords t) (iblk V c 0 t) (iblk V c 1 t) (iblk V c 2 t)
      (acc V c (t.val - 1) (Nat.lt_of_le_of_lt (Nat.sub_le _ _) t.isLt)) := by
  obtain ⟨n, hn⟩ := t
  cases n with
  | zero => exact absurd (Nat.zero_mod _) h
  | succ n => show k3_pay2 _ _ _ _ (if (n + 1) % 196 = 0 then _ else _) = _; rw [if_neg h]; rfl

/-- What the output block holds after a point that is the last edge block of its node block: the accumulator
    combined with the self block, the bias and the skip block. -/
def outv (c : Dev nD) (t : Fin cfg3.N) : Vec F S2000x16 .f32 :=
  k3_pay3 (acc V c t.val t.isLt) (iblk V c 3 t) (iblk V c 4 t) (iblk V c 5 t)

/-! ## The proof data -/

/-- The scratch accumulator as a memref. -/
abbrev scM : Memref sig .tc .vmem S2000x16 .f32 := Memref.whole cc3_scratch0

/-- The invariant before position `n`: the scratch accumulator whole — at anything before the first point, at what
    the point before left afterwards — beside every other scoped buffer, unopened. -/
def PhiS (c : Dev nD) : (n : ℕ) → n ≤ cfg3.N → sProp 𝕄
  | 0, _ => iprop(iprop((∃ d, owns (c : Thread nD τ) scM fullShare d)) ∗ Pipeline.scopedRestBut spec3 c [cc3_scratch0])
  | n + 1, hn => iprop(owns (c : Thread nD τ) scM fullShare (acc V c n hn) ∗ Pipeline.scopedRestBut spec3 c [cc3_scratch0])

theorem PhiS_zero (c : Dev nD) (n : ℕ) (h : n ≤ cfg3.N) (hz : n = 0) :
    PhiS V c n h = iprop(iprop((∃ d, owns (c : Thread nD τ) scM fullShare d)) ∗ Pipeline.scopedRestBut spec3 c [cc3_scratch0]) := by
  subst hz; rfl

theorem PhiS_succ (c : Dev nD) (n : ℕ) (hn : n < cfg3.N) :
    PhiS V c (n + 1) hn = iprop(owns (c : Thread nD τ) scM fullShare (acc V c n hn) ∗ Pipeline.scopedRestBut spec3 c [cc3_scratch0]) := rfl

theorem PhiS_pos (c : Dev nD) (n : ℕ) (h : n ≤ cfg3.N) (hz : n ≠ 0) :
    PhiS V c n h = iprop(owns (c : Thread nD τ) scM fullShare (acc V c (n - 1) (by omega)) ∗ Pipeline.scopedRestBut spec3 c [cc3_scratch0]) := by
  cases n with
  | zero => exact absurd rfl hz
  | succ n => rfl

/-- The proof data of the region on core `c`: the arrays as the region finds them; after the body at a point each
    input's buffer at its block and the output's at `outv`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outv V c t
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = iblk V c 5 t := by dsimp only [dat]
theorem after6 (c : Dev nD) (t : Fin cfg3.N) : (dat V c).after 6 t = outv V c t := by dsimp only [dat]

theorem PhiS_castSucc (c : Dev nD) (t : Fin cfg3.N) :
    (dat V c).Φ t.castSucc = PhiS V c t.val (Nat.le_of_lt t.isLt) := by
  dsimp only [dat]; simp only [Fin.coe_castSucc]

/-! ## The invariant's two ends -/

/-- What the launch hands the region is the invariant before the first point. -/
theorem hin (c : Dev nD) : (Pipeline.scopedRest spec3 c : sProp 𝕄) ⊢ (dat V c).Φ 0 := by
  rw [show (dat V c).Φ 0 = PhiS V c 0 (Nat.zero_le _) from rfl, PhiS_zero V c 0 _ rfl, scopedRest3_split]
  simp only [scM, owns_whole]
  try exact Idealize.SL.BI.Entails.refl _

/-- After the last point the invariant gives the scoped rest back: the accumulator's contents are forgotten. -/
theorem hout (c : Dev nD) : (dat V c).Φ (Fin.last cfg3.N) ⊢ (Pipeline.scopedRest spec3 c : sProp 𝕄) := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 4900 := N_3; omega), scopedRest3_split]
  simp only [scM, owns_whole]
  iintro ⟨HS, Hr⟩
  isplitl [HS]
  · iexists _; iexact HS
  iexact Hr

end Cert.KernelIdeal.R3

end
-- ==== Proof.Scatter3Body.lean ====
import proofs.«148650_j55559696941682_1_alg».proof.Proof.Scatter3
import proofs.«148650_j55559696941682_1_alg».proof.Proof.Scatter1Body
import proofs.«148650_j55559696941682_1_alg».proof.Proof.Gen.KernelIdeal.Skeleton
import proofs.«148650_j55559696941682_1_alg».proof.Proof.Gen.KernelIdeal.Points

set_option maxRecDepth 16384

noncomputable section

namespace Cert.KernelIdeal.R3

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condR (i : grid3.Coords) : Prop :=
  (Scalar.cmpi .ne (Scalar.extui (Scalar.cmpi .eq (BitVec.ofNat 32 (i 1).val) 0#32)) 0#32) = 1#1

theorem hcondR : ∀ t : Fin cfg3.N, condR (grid3.coords t) ↔ t.val % 196 = 0 :=
  (by decide +kernel : ∀ t : Fin grid3.N, condR (grid3.coords t) ↔ t.val % 196 = 0)

abbrev condW (i : grid3.Coords) : Prop := k3_cond2 i = 1#1

theorem hcondW : ∀ t : Fin cfg3.N, condW (grid3.coords t) ↔ t.val % 196 = 195 :=
  (by decide +kernel : ∀ t : Fin grid3.N, condW (grid3.coords t) ↔ t.val % 196 = 195)

theorem idle6 (t : Fin cfg3.N) (h : ¬condW (grid3.coords t)) : cfg3.idle 6 (grid3.coords t) = true := by
  show (!(k3_cond2 (grid3.coords t) == 1#1)) = true
  rw [Bool.not_eq_true', beq_eq_false_iff_ne]; exact h

theorem live6 (t : Fin cfg3.N) (h : condW (grid3.coords t)) : cfg3.idle 6 (grid3.coords t) = false := by
  show (!(k3_cond2 (grid3.coords t) == 1#1)) = false
  rw [Bool.not_eq_false', beq_iff_eq]; exact h

theorem noFlush6 (t : Fin cfg3.N) (h : ¬t.val % 196 = 195) : (cfg3.win 6).flush t = false :=
  Bool.eq_false_iff.mpr fun hf => h ((flush3_6 t).mp hf)

section Runs

variable (c : Dev nD) (i : grid3.Coords)
  (a2 : Memref sig .tc .vmem S4096 .i32) (h2 : a2.IsWhole) (a3 : Memref sig .tc .vmem S4096 .f32) (h3 : a3.IsWhole)
  (a4 : Memref sig .tc .vmem S4096x16 .f32) (h4 : a4.IsWhole) (a5 : Memref sig .tc .vmem S2000x16 .f32) (h5 : a5.IsWhole)
  (a6 : Memref sig .tc .vmem S16 .f32) (h6 : a6.IsWhole) (a7 : Memref sig .tc .vmem S2000x16 .f32) (h7 : a7.IsWhole)
  (a8 : Memref sig .tc .vmem S2000x16 .f32) (h8 : a8.IsWhole) (a9 : Memref sig .tc .vmem S2000x16 .f32) (h9 : a9.IsWhole)

-- Regions 1 and 3 run one body text: region 1's runs, read at this region's names.
theorem run_reset (hR : condR i) (hW : ¬condW i)
    (x0 : Vec F S4096 .i32) (x1 : Vec F S4096 .f32) (x2 : Vec F S4096x16 .f32)
    (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a9 fullShare d)
        ∗ (iprop(owns (c : Thread nD τ) a2 fullShare x0 ∗ owns (c : Thread nD τ) a3 fullShare x1 ∗ owns (c : Thread nD τ) a4 fullShare x2
            ∗ owns (c : Thread nD τ) a9 fullShare (k3_pay2 i x0 x1 x2 k3_pay1)) -∗ K ⟨⟩))
      ⊢ wp frame (wpE (defs₀ (F := F)) Variants.none c none) E (cc3_kernel i a2 h2 a3 h3 a4 h4 a5 h5 a6 h6 a7 h7 a8 h8 a9 h9) K :=
  R1.run_reset c i a2 h2 a3 h3 a4 h4 a5 h5 a6 h6 a7 h7 a8 h8 a9 h9 hR hW x0 x1 x2 E K

theorem run_step (hR : ¬condR i) (hW : ¬condW i)
    (x0 : Vec F S4096 .i32) (x1 : Vec F S4096 .f32) (x2 : Vec F S4096x16 .f32) (xs : Vec F S2000x16 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a9 fullShare xs
        ∗ (iprop(owns (c : Thread nD τ) a2 fullShare x0 ∗ owns (c : Thread nD τ) a3 fullShare x1 ∗ owns (c : Thread nD τ) a4 fullShare x2
            ∗ owns (c : Thread nD τ) a9 fullShare (k3_pay2 i x0 x1 x2 xs)) -∗ K ⟨⟩))
      ⊢ wp frame (wpE (defs₀ (F := F)) Variants.none c none) E (cc3_kernel i a2 h2 a3 h3 a4 h4 a5 h5 a6 h6 a7 h7 a8 h8 a9 h9) K :=
  R1.run_step c i a2 h2 a3 h3 a4 h4 a5 h5 a6 h6 a7 h7 a8 h8 a9 h9 hR hW x0 x1 x2 xs E K

theorem run_write (hR : ¬condR i) (hW : condW i)
    (x0 : Vec F S4096 .i32) (x1 : Vec F S4096 .f32) (x2 : Vec F S4096x16 .f32)
    (x3 : Vec F S2000x16 .f32) (x4 : Vec F S16 .f32) (x5 : Vec F S2000x16 .f32) (xs : Vec F S2000x16 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ (∃ d, owns (c : Thread nD τ) a8 fullShare d) ∗ owns (c : Thread nD τ) a9 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (k3_pay3 (k3_pay2 i x0 x1 x2 xs) x3 x4 x5)
            ∗ owns (c : Thread nD τ) a9 fullShare (k3_pay2 i x0 x1 x2 xs)) -∗ K ⟨⟩))
      ⊢ wp frame (wpE (defs₀ (F := F)) Variants.none c none) E (cc3_kernel i a2 h2 a3 h3 a4 h4 a5 h5 a6 h6 a7 h7 a8 h8 a9 h9) K :=
  R1.run_write c i a2 h2 a3 h3 a4 h4 a5 h5 a6 h6 a7 h7 a8 h8 a9 h9 hR hW x0 x1 x2 x3 x4 x5 xs E K

end Runs

variable (V : (c : Dev nD) → (b : Ref sig .tc) → Buf (Elt F) ((c : Thread nD τ).loc b))

theorem before0 (c : Dev nD) (t : Fin cfg3.N) (d) : (dat V c).before 0 t d = iblk V c 0 t :=
  ((dat V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

theorem before1 (c : Dev nD) (t : Fin cfg3.N) (d) : (dat V c).before 1 t d = iblk V c 1 t :=
  ((dat V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

theorem before2 (c : Dev nD) (t : Fin cfg3.N) (d) : (dat V c).before 2 t d = iblk V c 2 t :=
  ((dat V c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

theorem before3 (c : Dev nD) (t : Fin cfg3.N) (d) : (dat V c).before 3 t d = iblk V c 3 t :=
  ((dat V c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

theorem before4 (c : Dev nD) (t : Fin cfg3.N) (d) : (dat V c).before 4 t d = iblk V c 4 t :=
  ((dat V c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

theorem before5 (c : Dev nD) (t : Fin cfg3.N) (d) : (dat V c).before 5 t d = iblk V c 5 t :=
  ((dat V c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

abbrev ms0 (t : Fin cfg3.N) : Memref sig .tc .vmem S4096 .i32 := win3_0.stage (cfg3.slots t 0)
abbrev hs0 (t : Fin cfg3.N) : (ms0 t).IsWhole := hstage3_0 ((cfg3.slots t 0).cast nbuf3_0)
abbrev ms1 (t : Fin cfg3.N) : Memref sig .tc .vmem S4096 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S4096x16 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S2000x16 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S16 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S2000x16 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S2000x16 .f32 := win3_6.stage (cfg3.slots t 6)
abbrev hs6 (t : Fin cfg3.N) : (ms6 t).IsWhole := hstage3_6 ((cfg3.slots t 6).cast nbuf3_6)

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

theorem leaves0 (c : Dev nD) (t : Fin cfg3.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [show cfg3.idle 0 (grid3.coords t) = false from rfl], after0]
theorem leaves1 (c : Dev nD) (t : Fin cfg3.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [show cfg3.idle 1 (grid3.coords t) = false from rfl], after1]
theorem leaves2 (c : Dev nD) (t : Fin cfg3.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [show cfg3.idle 2 (grid3.coords t) = false from rfl], after2]
theorem leaves3 (c : Dev nD) (t : Fin cfg3.N) :
    (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [show cfg3.idle 3 (grid3.coords t) = false from rfl], after3]
theorem leaves4 (c : Dev nD) (t : Fin cfg3.N) :
    (dat V c).leavesExact 4 t = owns (c : Thread nD τ) (ms4 t) fullShare (iblk V c 4 t) := by
  rw [show (dat V c).leavesExact 4 t = owns (c : Thread nD τ) (ms4 t) fullShare ((dat V c).after 4 t) from by
    unfold Dat.leavesExact; rw [show cfg3.idle 4 (grid3.coords t) = false from rfl], after4]
theorem leaves5 (c : Dev nD) (t : Fin cfg3.N) :
    (dat V c).leavesExact 5 t = owns (c : Thread nD τ) (ms5 t) fullShare (iblk V c 5 t) := by
  rw [show (dat V c).leavesExact 5 t = owns (c : Thread nD τ) (ms5 t) fullShare ((dat V c).after 5 t) from by
    unfold Dat.leavesExact; rw [show cfg3.idle 5 (grid3.coords t) = false from rfl], after5]

set_option maxHeartbeats 4800000 in

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5]
  have hN : t.val < 4900 := lt_of_lt_of_eq t.isLt (show cfg3.N = 4900 from N_3)
  by_cases hR : t.val % 196 = 0
  · have hW : ¬t.val % 196 = 195 := by omega
    have hcR : condR (grid3.coords t) := (hcondR t).mpr hR
    have hcW : ¬condW (grid3.coords t) := fun h => hW ((hcondW t).mp h)
    rw [Dat.leavesExact_idle (dat V c) 6 t (idle6 t hcW) (noFlush6 t hW), acc_reset V c t hR]
    by_cases hz : t.val = 0
    · rw [PhiS_castSucc V c t, PhiS_zero V c _ _ hz]
      iintro ⟨⟨HS, Hr⟩, Ho, ⟨%d0, H0⟩, ⟨%d1, H1⟩, ⟨%d2, H2⟩, ⟨%d3, H3⟩, ⟨%d4, H4⟩, ⟨%d5, H5⟩, H6⟩
      iapply (run_reset c (grid3.coords t) _ _ _ _ _ _ _ _ _ _ _ _ _ _ _ _ hcR hcW (iblk V c 0 t) (iblk V c 1 t) (iblk V c 2 t) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc V c t, PhiS_pos V c _ _ hz]
      iintro ⟨⟨HS, Hr⟩, Ho, ⟨%d0, H0⟩, ⟨%d1, H1⟩, ⟨%d2, H2⟩, ⟨%d3, H3⟩, ⟨%d4, H4⟩, ⟨%d5, H5⟩, H6⟩
      iapply (run_reset c (grid3.coords t) _ _ _ _ _ _ _ _ _ _ _ _ _ _ _ _ hcR hcW (iblk V c 0 t) (iblk V c 1 t) (iblk V c 2 t) Set.univ _)
      isplitl [H0]; · iexact H0
      isplitl [H1]; · iexact H1
      isplitl [H2]; · iexact H2
      isplitl [HS]; · iexists _; iexact HS
      iintro ⟨H0, H1, H2, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => hR (by rw [h])
    have hcR : ¬condR (grid3.coords t) := fun h => hR ((hcondR t).mp h)
    rw [PhiS_castSucc V c t, PhiS_pos V c _ _ hz, acc_step V c t hR]
    by_cases hW : t.val % 196 = 195
    · have hcW : condW (grid3.coords t) := (hcondW t).mpr hW
      rw [show (dat V c).leavesExact 6 t = owns (c : Thread nD τ) (ms6 t) fullShare ((dat V c).after 6 t) from by
        unfold Dat.leavesExact; rw [live6 t hcW], after6]
      unfold outv; rw [acc_step V c t hR]
      iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
      iapply (run_write c (grid3.coords t) _ _ _ _ _ _ _ _ _ _ _ _ _ _ _ _ hcR hcW (iblk V c 0 t) (iblk V c 1 t) (iblk V c 2 t)
        (iblk V c 3 t) (iblk V c 4 t) (iblk V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcW : ¬condW (grid3.coords t) := fun h => hW ((hcondW t).mp h)
      rw [Dat.leavesExact_idle (dat V c) 6 t (idle6 t hcW) (noFlush6 t hW)]
      iintro ⟨⟨HS, Hr⟩, Ho, ⟨%d0, H0⟩, ⟨%d1, H1⟩, ⟨%d2, H2⟩, ⟨%d3, H3⟩, ⟨%d4, H4⟩, ⟨%d5, H5⟩, H6⟩
      iapply (run_step c (grid3.coords t) _ _ _ _ _ _ _ _ _ _ _ _ _ _ _ _ hcR hcW (iblk V c 0 t) (iblk V c 1 t) (iblk V c 2 t) _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation (c : Dev nD) : BodyObligation (dat V c) (defs₀ (F := F)) Variants.none () Set.univ := fun t => by
  rw [bigSep_W3, bigSep_W3]
  exact sound_body V c t

end Cert.KernelIdeal.R3

end
-- ==== Proof.Gather4.lean ====
import proofs.«148650_j55559696941682_1_alg».proof.Proof.Gen.KernelIdeal.Launch
import proofs.«148650_j55559696941682_1_alg».proof.Proof.Gen.KernelIdeal.Skeleton
import proofs.«148650_j55559696941682_1_alg».proof.Proof.Gather0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

abbrev srcBlk (c : Dev nD) (t : Fin cfg4.N) : Vec F S4096 .i32 := iblk V c 0 t

abbrev yBlk (c : Dev nD) (t : Fin cfg4.N) : Vec F S2000x16 .f32 := iblk V c 1 t

def acc (c : Dev nD) : (n : ℕ) → n < cfg4.N → Vec F S4096x16 .f32
  | 0, hn => k4_pay2 (grid4.coords ⟨0, hn⟩) (srcBlk V c ⟨0, hn⟩) (k4_pay1 (F := F)) (yBlk V c ⟨0, hn⟩)
  | n + 1, hn =>
    k4_pay2 (grid4.coords ⟨n + 1, hn⟩) (srcBlk V c ⟨n + 1, hn⟩)
      (if (n + 1) % 25 = 0 then (k4_pay1 (F := F)) else acc c n (Nat.lt_of_succ_lt hn)) (yBlk V c ⟨n + 1, hn⟩)

theorem acc_reset (c : Dev nD) (n : ℕ) (hn : n < cfg4.N) (h : n % 25 = 0) :
    acc V c n hn = k4_pay2 (grid4.coords ⟨n, hn⟩) (srcBlk V c ⟨n, hn⟩) (k4_pay1 (F := F)) (yBlk V c ⟨n, hn⟩) := by
  cases n with
  | zero => rfl
  | succ n => rw [acc, if_pos h]

theorem acc_step (c : Dev nD) (n : ℕ) (hn : n < cfg4.N) (h : n % 25 ≠ 0) :
    acc V c n hn = k4_pay2 (grid4.coords ⟨n, hn⟩) (srcBlk V c ⟨n, hn⟩)
      (acc V c (n - 1) (Nat.lt_of_le_of_lt (Nat.sub_le _ _) hn)) (yBlk V c ⟨n, hn⟩) := by
  cases n with
  | zero => exact absurd (Nat.zero_mod _) h
  | succ n => rw [acc, if_neg h]; rfl

abbrev scM : Memref sig .tc .vmem S4096x16 .f32 := Memref.whole cc4_scratch0

def PhiS (c : Dev nD) : (n : ℕ) → n ≤ cfg4.N → sProp 𝕄
  | 0, _ => iprop(iprop((∃ d, owns (c : Thread nD τ) scM fullShare d)) ∗ Pipeline.scopedRestBut spec4 c [cc4_scratch0])
  | n + 1, hn => iprop(owns (c : Thread nD τ) scM fullShare (acc V c n hn) ∗ Pipeline.scopedRestBut spec4 c [cc4_scratch0])

theorem PhiS_zero (c : Dev nD) (n : ℕ) (h : n ≤ cfg4.N) (hz : n = 0) :
    PhiS V c n h = iprop(iprop((∃ d, owns (c : Thread nD τ) scM fullShare d)) ∗ Pipeline.scopedRestBut spec4 c [cc4_scratch0]) := by
  subst hz; rfl

theorem PhiS_succ (c : Dev nD) (n : ℕ) (hn : n < cfg4.N) :
    PhiS V c (n + 1) hn = iprop(owns (c : Thread nD τ) scM fullShare (acc V c n hn) ∗ Pipeline.scopedRestBut spec4 c [cc4_scratch0]) := rfl

theorem PhiS_pos (c : Dev nD) (n : ℕ) (h : n ≤ cfg4.N) (hz : n ≠ 0) :
    PhiS V c n h = iprop(owns (c : Thread nD τ) scM fullShare (acc V c (n - 1) (by omega)) ∗ Pipeline.scopedRestBut spec4 c [cc4_scratch0]) := by
  cases n with
  | zero => exact absurd rfl hz
  | succ n => rfl

def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]
theorem after0 (c : Dev nD) (t : Fin cfg4.N) : (dat V c).after 0 t = iblk V c 0 t := by dsimp only [dat]
theorem after1 (c : Dev nD) (t : Fin cfg4.N) : (dat V c).after 1 t = iblk V c 1 t := by dsimp only [dat]
theorem after2 (c : Dev nD) (t : Fin cfg4.N) : (dat V c).after 2 t = acc V c t.val t.isLt := by dsimp only [dat]

theorem Phi_castSucc (c : Dev nD) (t : Fin cfg4.N) :
    (dat V c).Φ t.castSucc = PhiS V c t.val (Nat.le_of_lt t.isLt) := by
  dsimp only [dat]; simp only [Fin.coe_castSucc]

abbrev cond0 (i : grid4.Coords) : Prop :=
  (Scalar.cmpi .ne (Scalar.extui (Scalar.cmpi .eq (BitVec.ofNat 32 (i 1).val) 0#32)) 0#32) = 1#1

theorem hcond0 : ∀ t : Fin cfg4.N, cond0 (grid4.coords t) ↔ t.val % 25 = 0 :=
  (by decide +kernel : ∀ t : Fin grid4.N, cond0 (grid4.coords t) ↔ t.val % 25 = 0)

abbrev cond1 (i : grid4.Coords) : Prop := k4_cond2 i = 1#1

theorem hcond1 : ∀ t : Fin cfg4.N, cond1 (grid4.coords t) ↔ t.val % 25 = 24 :=
  (by decide +kernel : ∀ t : Fin grid4.N, cond1 (grid4.coords t) ↔ t.val % 25 = 24)

theorem live0 (i : grid4.Coords) : cfg4.idle 0 i = false := rfl
theorem live1 (i : grid4.Coords) : cfg4.idle 1 i = false := rfl

theorem idle2 (i : grid4.Coords) (h : ¬cond1 i) : cfg4.idle 2 i = true := by
  show (!(k4_cond2 i == 1#1)) = true
  rw [Bool.not_eq_true', beq_eq_false_iff_ne]; exact h
theorem live2 (i : grid4.Coords) (h : cond1 i) : cfg4.idle 2 i = false := by
  show (!(k4_cond2 i == 1#1)) = false
  rw [show k4_cond2 i = 1#1 from h]; rfl

theorem noFlush2 : ∀ t : Fin cfg4.N, ¬t.val % 25 = 24 → (cfg4.win 2).flush t = false :=
  (by decide +kernel : ∀ t : Fin grid4.N, ¬t.val % 25 = 24 → win4_2.flush t = false)

theorem before0 (c : Dev nD) (t : Fin cfg4.N) (d) : (dat V c).before 0 t d = iblk V c 0 t :=
  ((dat V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg4.N) (d) : (dat V c).before 1 t d = iblk V c 1 t :=
  ((dat V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

-- The three gather regions run one body text: region 0's runs, read at this region's names.
theorem run_first (c : Dev nD) (i : grid4.Coords)
    (arg2 : Memref sig .tc .vmem S4096 .i32) (harg2 : arg2.IsWhole) (arg3 : Memref sig .tc .vmem S2000x16 .f32) (harg3 : arg3.IsWhole)
    (arg4 : Memref sig .tc .vmem S4096x16 .f32) (harg4 : arg4.IsWhole) (arg5 : Memref sig .tc .vmem S4096x16 .f32) (harg5 : arg5.IsWhole)
    (hc0 : cond0 i) (hc1 : ¬cond1 i)
    (x0 : Vec F S4096 .i32) (x1 : Vec F S2000x16 .f32) (xi2 : Vec F S4096x16 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (k4_pay2 i x0 (k4_pay1 (F := F)) x1)) -∗ K ⟨⟩))
      ⊢ wp frame (wpE (defs₀ (F := F)) Variants.none c none) E (cc4_kernel i arg2 harg2 arg3 harg3 arg4 harg4 arg5 harg5) K :=
  R0.run_first c i arg2 harg2 arg3 harg3 arg4 harg4 arg5 harg5 hc0 hc1 x0 x1 xi2 E K

theorem run_mid (c : Dev nD) (i : grid4.Coords)
    (arg2 : Memref sig .tc .vmem S4096 .i32) (harg2 : arg2.IsWhole) (arg3 : Memref sig .tc .vmem S2000x16 .f32) (harg3 : arg3.IsWhole)
    (arg4 : Memref sig .tc .vmem S4096x16 .f32) (harg4 : arg4.IsWhole) (arg5 : Memref sig .tc .vmem S4096x16 .f32) (harg5 : arg5.IsWhole)
    (hc0 : ¬cond0 i) (hc1 : ¬cond1 i)
    (x0 : Vec F S4096 .i32) (x1 : Vec F S2000x16 .f32) (xi2 : Vec F S4096x16 .f32) (xs : Vec F S4096x16 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs
        ∗ (iprop(owns (c : Thread nD τ) arg2 fullShare x0 ∗ owns (c : Thread nD τ) arg3 fullShare x1 ∗ owns (c : Thread nD τ) arg4 fullShare xi2
            ∗ owns (c : Thread nD τ) arg5 fullShare (k4_pay2 i x0 xs x1)) -∗ K ⟨⟩))
      ⊢ wp frame (wpE (defs₀ (F := F)) Variants.none c none) E (cc4_kernel i arg2 harg2 arg3 harg3 arg4 harg4 arg5 harg5) K :=
  R0.run_mid c i arg2 harg2 arg3 harg3 arg4 harg4 arg5 harg5 hc0 hc1 x0 x1 xi2 xs E K

theorem run_last (c : Dev nD) (i : grid4.Coords)
    (arg2 : Memref sig .tc .vmem S4096 .i32) (harg2 : arg2.IsWhole) (arg3 : Memref sig .tc .vmem S2000x16 .f32) (harg3 : arg3.IsWhole)
    (arg4 : Memref sig .tc .vmem S4096x16 .f32) (harg4 : arg4.IsWhole) (arg5 : Memref sig .tc .vmem S4096x16 .f32) (harg5 : arg5.IsWhole)
    (hc0 : ¬cond0 i) (hc1 : cond1 i)
    (x0 : Vec F S4096 .i32) (x1 : Vec F S2000x16 .f32) (xs : Vec F S4096x16 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k4_pay2 i x0 xs x1)
            ∗ owns (c : Thread nD τ) arg5 fullShare (k4_pay2 i x0 xs x1)) -∗ K ⟨⟩))
      ⊢ wp frame (wpE (defs₀ (F := F)) Variants.none c none) E (cc4_kernel i arg2 harg2 arg3 harg3 arg4 harg4 arg5 harg5) K :=
  R0.run_last c i arg2 harg2 arg3 harg3 arg4 harg4 arg5 harg5 hc0 hc1 x0 x1 xs E K

abbrev ms0 (t : Fin cfg4.N) : Memref sig .tc .vmem S4096 .i32 := win4_0.stage (cfg4.slots t 0)
abbrev hs0 (t : Fin cfg4.N) : (ms0 t).IsWhole := hstage4_0 ((cfg4.slots t 0).cast nbuf4_0)
abbrev ms1 (t : Fin cfg4.N) : Memref sig .tc .vmem S2000x16 .f32 := win4_1.stage (cfg4.slots t 1)
abbrev hs1 (t : Fin cfg4.N) : (ms1 t).IsWhole := hstage4_1 ((cfg4.slots t 1).cast nbuf4_1)
abbrev ms2 (t : Fin cfg4.N) : Memref sig .tc .vmem S4096x16 .f32 := win4_2.stage (cfg4.slots t 2)
abbrev hs2 (t : Fin cfg4.N) : (ms2 t).IsWhole := hstage4_2 ((cfg4.slots t 2).cast nbuf4_2)

abbrev bodyAt (t : Fin cfg4.N) : Prog (TpuEff nD τ sig (Elt F) Λ₀ .tc) PUnit :=
  cc4_kernel (grid4.coords t) (ms0 t) (hs0 t) (ms1 t) (hs1 t) (ms2 t) (hs2 t) scM (Memref.isWhole_whole _)

def bodyPre (c : Dev nD) (t : Fin cfg4.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t)

theorem leaves0 (c : Dev nD) (t : Fin cfg4.N) :
    (dat V c).leavesExact 0 t = owns (c : Thread nD τ) (ms0 t) fullShare (iblk V c 0 t) := by
  unfold Dat.leavesExact; rw [live0, after0]
theorem leaves1 (c : Dev nD) (t : Fin cfg4.N) :
    (dat V c).leavesExact 1 t = owns (c : Thread nD τ) (ms1 t) fullShare (iblk V c 1 t) := by
  unfold Dat.leavesExact; rw [live1, after1]
theorem leaves2_idle (c : Dev nD) (t : Fin cfg4.N) (h1 : ¬t.val % 25 = 24) :
    (dat V c).leavesExact 2 t = iprop(∃ d, owns (c : Thread nD τ) (ms2 t) fullShare ((dat V c).before 2 t d)) :=
  Dat.leavesExact_idle (dat V c) 2 t (idle2 _ fun h => h1 ((hcond1 t).mp h)) (noFlush2 t h1)
theorem leaves2_live (c : Dev nD) (t : Fin cfg4.N) (h1 : t.val % 25 = 24) :
    (dat V c).leavesExact 2 t = owns (c : Thread nD τ) (ms2 t) fullShare (acc V c t.val t.isLt) := by
  unfold Dat.leavesExact; rw [live2 _ ((hcond1 t).mpr h1), after2]

set_option maxHeartbeats 1600000 in

theorem sound_body (c : Dev nD) (t : Fin cfg4.N) :
    bodyPre V c t ⊢ wp frame (wpE (defs₀ (F := F)) Variants.none c none) Set.univ (bodyAt t) (fun _ => bodyPost V c t) := by
  unfold bodyPre bodyPost bodyAt
  simp only [before0, before1]
  rw [show (dat V c).owesAt () t.succ = (dat V c).owesAt () t.castSucc from rfl]
  rw [show (dat V c).Φ t.succ = PhiS V c (t.val + 1) t.isLt from rfl, PhiS_succ, leaves0, leaves1, Phi_castSucc]
  have hN : t.val < 4900 := lt_of_lt_of_eq t.isLt (show cfg4.N = 4900 from N_4)
  by_cases h0 : t.val % 25 = 0
  · have h1 : ¬t.val % 25 = 24 := by omega
    rw [leaves2_idle V c t h1, acc_reset V c t.val t.isLt h0]
    have hpre : PhiS V c t.val (Nat.le_of_lt t.isLt)
        ⊢ iprop(iprop((∃ d, owns (c : Thread nD τ) scM fullShare d)) ∗ Pipeline.scopedRestBut spec4 c [cc4_scratch0]) := by
      by_cases hz : t.val = 0
      · rw [PhiS_zero V c _ _ hz]
      · rw [PhiS_pos V c _ _ hz]
        iintro ⟨HS, Hr⟩
        isplitl [HS]
        · iexists _; iexact HS
        iexact Hr
    iintro ⟨HP, Ho, ⟨%d0, H0⟩, ⟨%d1, H1⟩, ⟨%d2, H2⟩⟩
    ihave HP' := hpre $$ HP
    icases HP' with ⟨HS, Hr⟩
    iapply (run_first c (grid4.coords t) _ _ _ _ _ _ _ _ ((hcond0 t).mpr h0) (fun h => h1 ((hcond1 t).mp h))
      (srcBlk V c t) (yBlk V c t) _ Set.univ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexists _; iexact H2
  · have hz : t.val ≠ 0 := fun e => h0 (by rw [e])
    rw [PhiS_pos V c _ _ hz, acc_step V c t.val t.isLt h0]
    by_cases h1 : t.val % 25 = 24
    · rw [leaves2_live V c t h1, acc_step V c t.val t.isLt h0]
      iintro ⟨⟨HS, Hr⟩, Ho, ⟨%d0, H0⟩, ⟨%d1, H1⟩, ⟨%d2, H2⟩⟩
      iapply (run_last c (grid4.coords t) _ _ _ _ _ _ _ _ (fun h => h0 ((hcond0 t).mp h)) ((hcond1 t).mpr h1)
        (srcBlk V c t) (yBlk V c t) _ Set.univ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · rw [leaves2_idle V c t h1]
      iintro ⟨⟨HS, Hr⟩, Ho, ⟨%d0, H0⟩, ⟨%d1, H1⟩, ⟨%d2, H2⟩⟩
      iapply (run_mid c (grid4.coords t) _ _ _ _ _ _ _ _ (fun h => h0 ((hcond0 t).mp h)) (fun h => h1 ((hcond1 t).mp h))
        (srcBlk V c t) (yBlk V c t) _ _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

theorem body_obligation (c : Dev nD) : BodyObligation (dat V c) (defs₀ (F := F)) Variants.none () Set.univ := fun t => by
  rw [bigSep_W4, bigSep_W4]
  exact sound_body V c t

theorem hin (c : Dev nD) : (Pipeline.scopedRest spec4 c : sProp 𝕄) ⊢ (dat V c).Φ 0 := by
  rw [show (dat V c).Φ 0 = PhiS V c 0 (Nat.zero_le _) from rfl, PhiS_zero V c 0 _ rfl, scopedRest4_split]
  simp only [scM, owns_whole]
  exact Entails.rfl

theorem hout (c : Dev nD) : (dat V c).Φ (Fin.last cfg4.N) ⊢ (Pipeline.scopedRest spec4 c : sProp 𝕄) := by
  rw [show (dat V c).Φ (Fin.last cfg4.N) = PhiS V c (Fin.last cfg4.N).val (Nat.le_of_lt_succ (Fin.last cfg4.N).isLt) from rfl,
    PhiS_pos V c _ _ (by rw [Fin.val_last]; have : cfg4.N = 4900 := N_4; omega), scopedRest4_split]
  simp only [scM, owns_whole]
  iintro ⟨HS, Hr⟩
  isplitl [HS]
  · iexists _; iexact HS
  iexact Hr

end Cert.KernelIdeal.R4

end
-- ==== Proof.Scatter5.lean ====
/-
  Region 1 of the idealized kernel (`cc5_kernel`, the scatter of a graph-convolution layer), its FRAME half.

  The grid is [25, 196] = (node block nb, edge block eb), point t = nb * 196 + eb. At every point the body adds to a
  [2000,16] scratch accumulator the one-hot-transposed product of the edge block's destinations with the gathered
  rows scaled by the edge norms; the accumulator is reset at eb = 0 and, at eb = 195, combined with the node
  block's self term, the bias and the skip block into the output block, which the pipeline then writes back.

  Stated here for any entry contents `V` of the TensorCore's buffers and any float model `F`: the windows' blocks
  (`iblk`), the accumulator after each point (`acc`, by recursion on the point), the output block (`outv`), the
  pipeline's proof data (`dat`) and the two ends of its invariant. The body's triples and the body obligation are in
  the module Scatter1Body.
-/
import proofs.«148650_j55559696941682_1_alg».proof.Proof.Gen.KernelIdeal.Launch
import proofs.«148650_j55559696941682_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.R5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents on each core when the region is entered
variable (V : (c : Dev nD) → (b : Ref sig .tc) → Buf (Elt F) ((c : Thread nD τ).loc b))

/-! ## The windows' blocks, the accumulator, the output block -/

/-- Window `w`'s block at point `t`, read off its array as the region finds it. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the scratch accumulator holds after the body at point `n`: the point's scatter product added to the zero
    block at the first edge block of a node block (`n % 196 = 0`), to what the point before left otherwise. -/
def acc (c : Dev nD) : (n : ℕ) → n < cfg5.N → Vec F S2000x16 .f32
  | 0, h => k5_pay2 (grid5.coords ⟨0, h⟩) (iblk V c 0 ⟨0, h⟩) (iblk V c 1 ⟨0, h⟩) (iblk V c 2 ⟨0, h⟩) k5_pay1
  | n + 1, h => k5_pay2 (grid5.coords ⟨n + 1, h⟩) (iblk V c 0 ⟨n + 1, h⟩) (iblk V c 1 ⟨n + 1, h⟩) (iblk V c 2 ⟨n + 1, h⟩)
      (if (n + 1) % 196 = 0 then k5_pay1 else acc c n (Nat.lt_of_succ_lt h))

/-- At the first edge block of a node block the accumulator restarts from the zero block. -/
theorem acc_reset (c : Dev nD) (t : Fin cfg5.N) (h : t.val % 196 = 0) :
    acc V c t.val t.isLt = k5_pay2 (grid5.coords t) (iblk V c 0 t) (iblk V c 1 t) (iblk V c 2 t) k5_pay1 := by
  obtain ⟨n, hn⟩ := t
  cases n with
  | zero => rfl
  | succ n => show k5_pay2 _ _ _ _ (if (n + 1) % 196 = 0 then _ else _) = _; rw [if_pos h]

/-- At any other point it continues from what the point before left. -/
theorem acc_step (c : Dev nD) (t : Fin cfg5.N) (h : t.val % 196 ≠ 0) :
    acc V c t.val t.isLt = k5_pay2 (grid5.coords t) (iblk V c 0 t) (iblk V c 1 t) (iblk V c 2 t)
      (acc V c (t.val - 1) (Nat.lt_of_le_of_lt (Nat.sub_le _ _) t.isLt)) := by
  obtain ⟨n, hn⟩ := t
  cases n with
  | zero => exact absurd (Nat.zero_mod _) h
  | succ n => show k5_pay2 _ _ _ _ (if (n + 1) % 196 = 0 then _ else _) = _; rw [if_neg h]; rfl

/-- What the output block holds after a point that is the last edge block of its node block: the accumulator
    combined with the self block, the bias and the skip block. -/
def outv (c : Dev nD) (t : Fin cfg5.N) : Vec F S2000x16 .f32 :=
  k5_pay3 (acc V c t.val t.isLt) (iblk V c 3 t) (iblk V c 4 t) (iblk V c 5 t)

/-! ## The proof data -/

/-- The scratch accumulator as a memref. -/
abbrev scM : Memref sig .tc .vmem S2000x16 .f32 := Memref.whole cc5_scratch0

/-- The invariant before position `n`: the scratch accumulator whole — at anything before the first point, at what
    the point before left afterwards — beside every other scoped buffer, unopened. -/
def PhiS (c : Dev nD) : (n : ℕ) → n ≤ cfg5.N → sProp 𝕄
  | 0, _ => iprop(iprop((∃ d, owns (c : Thread nD τ) scM fullShare d)) ∗ Pipeline.scopedRestBut spec5 c [cc5_scratch0])
  | n + 1, hn => iprop(owns (c : Thread nD τ) scM fullShare (acc V c n hn) ∗ Pipeline.scopedRestBut spec5 c [cc5_scratch0])

theorem PhiS_zero (c : Dev nD) (n : ℕ) (h : n ≤ cfg5.N) (hz : n = 0) :
    PhiS V c n h = iprop(iprop((∃ d, owns (c : Thread nD τ) scM fullShare d)) ∗ Pipeline.scopedRestBut spec5 c [cc5_scratch0]) := by
  subst hz; rfl

theorem PhiS_succ (c : Dev nD) (n : ℕ) (hn : n < cfg5.N) :
    PhiS V c (n + 1) hn = iprop(owns (c : Thread nD τ) scM fullShare (acc V c n hn) ∗ Pipeline.scopedRestBut spec5 c [cc5_scratch0]) := rfl

theorem PhiS_pos (c : Dev nD) (n : ℕ) (h : n ≤ cfg5.N) (hz : n ≠ 0) :
    PhiS V c n h = iprop(owns (c : Thread nD τ) scM fullShare (acc V c (n - 1) (by omega)) ∗ Pipeline.scopedRestBut spec5 c [cc5_scratch0]) := by
  cases n with
  | zero => exact absurd rfl hz
  | succ n => rfl

/-- The proof data of the region on core `c`: the arrays as the region finds them; after the body at a point each
    input's buffer at its block and the output's at `outv`; the invariant `PhiS`; nothing owed; full shares. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outv V c t
  Φ t := PhiS V c t.val (Nat.le_of_lt_succ t.isLt)
  q _ := fullShare
  owed _ := 0

theorem A_eq (c : Dev nD) (w : Fin cfg5.W) : (dat V c).A w = V c (Pipeline.arrRef spec5 w) := by
  dsimp only [dat]

theorem after0 (c : Dev nD) (t : Fin cfg5.N) : (dat V c).after 0 t = iblk V c 0 t := by dsimp only [dat]
theorem after1 (c : Dev nD) (t : Fin cfg5.N) : (dat V c).after 1 t = iblk V c 1 t := by dsimp only [dat]
theorem after2 (c : Dev nD) (t : Fin cfg5.N) : (dat V c).after 2 t = iblk V c 2 t := by dsimp only [dat]
theorem after3 (c : Dev nD) (t : Fin cfg5.N) : (dat V c).after 3 t = iblk V c 3 t := by dsimp only [dat]
theorem after4 (c : Dev nD) (t : Fin cfg5.N) : (dat V c).after 4 t = iblk V c 4 t := by dsimp only [dat]
theorem after5 (c : Dev nD) (t : Fin cfg5.N) : (dat V c).after 5 t = iblk V c 5 t := by dsimp only [dat]
theorem after6 (c : Dev nD) (t : Fin cfg5.N) : (dat V c).after 6 t = outv V c t := by dsimp only [dat]

theorem PhiS_castSucc (c : Dev nD) (t : Fin cfg5.N) :
    (dat V c).Φ t.castSucc = PhiS V c t.val (Nat.le_of_lt t.isLt) := by
  dsimp only [dat]; simp only [Fin.coe_castSucc]

/-! ## The invariant's two ends -/

/-- What the launch hands the region is the invariant before the first point. -/
theorem hin (c : Dev nD) : (Pipeline.scopedRest spec5 c : sProp 𝕄) ⊢ (dat V c).Φ 0 := by
  rw [show (dat V c).Φ 0 = PhiS V c 0 (Nat.zero_le _) from rfl, PhiS_zero V c 0 _ rfl, scopedRest5_split]
  simp only [scM, owns_whole]
  try exact Idealize.SL.BI.Entails.refl _

/-- After the last point the invariant gives the scoped rest back: the accumulator's contents are forgotten. -/
theorem hout (c : Dev nD) : (dat V c).Φ (Fin.last cfg5.N) ⊢ (Pipeline.scopedRest spec5 c : sProp 𝕄) := by
  rw [show (dat V c).Φ (Fin.last cfg5.N) = PhiS V c (Fin.last cfg5.N).val (Nat.le_of_lt_succ (Fin.last cfg5.N).isLt) from rfl,
    PhiS_pos V c _ _ (by rw [Fin.val_last]; have : cfg5.N = 4900 := N_5; omega), scopedRest5_split]
  simp only [scM, owns_whole]
  iintro ⟨HS, Hr⟩
  isplitl [HS]
  · iexists _; iexact HS
  iexact Hr

end Cert.KernelIdeal.R5

end
-- ==== Proof.Scatter5Body.lean ====
/-
  Region 1 of the idealized kernel (`cc5_kernel`, the scatter of a graph-convolution layer): the BODY half of its
  frame, over the proof data of the module Scatter1.

  The body's two conditionals are on the edge-block coordinate eb alone: the first (eb = 0) resets the scratch
  accumulator, the second (eb = 195) combines it into the output block. So a point is in one of three cases —
  reset, step, write — (no point is both first and last of its node block: 196 edge blocks), and in each the body's
  triple is the executor's run of its skeleton with the posts stated over the skeleton's payloads. The body
  obligation takes the invariant's accumulator, the seven current staging buffers and the point's case, applies the
  case's triple and hands everything back: the inputs as found, the accumulator at `acc`, the output at `outv`
  where it is written and untouched elsewhere.
-/
import proofs.«148650_j55559696941682_1_alg».proof.Proof.Scatter5
import proofs.«148650_j55559696941682_1_alg».proof.Proof.Gen.KernelIdeal.Skeleton
import proofs.«148650_j55559696941682_1_alg».proof.Proof.Gen.KernelIdeal.Points

set_option maxRecDepth 16384

noncomputable section

namespace Cert.KernelIdeal.R5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's control conditions -/

/-- The reset's condition (the body's first `scf.if`): the edge-block coordinate is 0. -/
abbrev condR (i : grid5.Coords) : Prop :=
  (Scalar.cmpi .ne (Scalar.extui (Scalar.cmpi .eq (BitVec.ofNat 32 (i 1).val) 0#32)) 0#32) = 1#1
/-- It holds at the points ≡ 0 (mod 196): decided over the grid. -/
theorem hcondR : ∀ t : Fin cfg5.N, condR (grid5.coords t) ↔ t.val % 196 = 0 :=
  (by decide +kernel : ∀ t : Fin grid5.N, condR (grid5.coords t) ↔ t.val % 196 = 0)

/-- The write's condition (its second): the edge-block coordinate is 195. -/
abbrev condW (i : grid5.Coords) : Prop := k5_cond2 i = 1#1
/-- It holds at the points ≡ 195 (mod 196): decided over the grid. -/
theorem hcondW : ∀ t : Fin cfg5.N, condW (grid5.coords t) ↔ t.val % 196 = 195 :=
  (by decide +kernel : ∀ t : Fin grid5.N, condW (grid5.coords t) ↔ t.val % 196 = 195)

/-- Where the write's condition fails the configuration calls the output window idle, -/
theorem idle6 (t : Fin cfg5.N) (h : ¬condW (grid5.coords t)) : cfg5.idle 6 (grid5.coords t) = true := by
  show (!(k5_cond2 (grid5.coords t) == 1#1)) = true
  rw [Bool.not_eq_true', beq_eq_false_iff_ne]; exact h
/-- where it holds, live, -/
theorem live6 (t : Fin cfg5.N) (h : condW (grid5.coords t)) : cfg5.idle 6 (grid5.coords t) = false := by
  show (!(k5_cond2 (grid5.coords t) == 1#1)) = false
  rw [Bool.not_eq_false', beq_iff_eq]; exact h
/-- and the pipeline writes the output block back only at the points ≡ 195 (mod 196). -/
theorem noFlush6 (t : Fin cfg5.N) (h : ¬t.val % 196 = 195) : (cfg5.win 6).flush t = false :=
  Bool.eq_false_iff.mpr fun hf => h ((flush5_6 t).mp hf)

theorem hz1 : (![0] : Fin 1 → Nat) = fun _ => 0 := funext fun a => by fin_cases a; rfl
theorem hz2 : (![0, 0] : Fin 2 → Nat) = fun _ => 0 := funext fun a => by fin_cases a <;> rfl

section Whole
variable {sig' : RefSig} {κ : Kind} {sp : Space} {Val : EltTy → Type} {S : Shape} {e : EltTy}
/-- A store through the whole-shape rectangle at zero offsets, the last of a run, leaves its payload, whatever the
    earlier stores and the contents before them. -/
theorem read_writes_cons_unit_zero (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end Whole

/-! ## The body's triple in each control case

The printed body is its skeleton; the executor runs it, each `scf.if` decided by the case's hypotheses. Every
load and store is through the whole-shape rectangle at zero offsets of a whole staging memref, so a load reads
the memref's contents and the last store leaves its payload: the posts are stated over the payloads. -/

section Runs

variable (c : Dev nD) (i : grid5.Coords)
  (a2 : Memref sig .tc .vmem S4096 .i32) (h2 : a2.IsWhole) (a3 : Memref sig .tc .vmem S4096 .f32) (h3 : a3.IsWhole)
  (a4 : Memref sig .tc .vmem S4096x16 .f32) (h4 : a4.IsWhole) (a5 : Memref sig .tc .vmem S2000x16 .f32) (h5 : a5.IsWhole)
  (a6 : Memref sig .tc .vmem S16 .f32) (h6 : a6.IsWhole) (a7 : Memref sig .tc .vmem S2000x16 .f32) (h7 : a7.IsWhole)
  (a8 : Memref sig .tc .vmem S2000x16 .f32) (h8 : a8.IsWhole) (a9 : Memref sig .tc .vmem S2000x16 .f32) (h9 : a9.IsWhole)

set_option maxHeartbeats 1000000 in
/-- At the first edge block of a node block (not the last): from the three per-edge blocks, and the accumulator at
    anything, the body leaves the accumulator at the point's scatter product added to the zero block. The self, bias,
    skip and output buffers are not touched. -/
theorem run_reset (hR : condR i) (hW : ¬condW i)
    (x0 : Vec F S4096 .i32) (x1 : Vec F S4096 .f32) (x2 : Vec F S4096x16 .f32)
    (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a9 fullShare d)
        ∗ (iprop(owns (c : Thread nD τ) a2 fullShare x0 ∗ owns (c : Thread nD τ) a3 fullShare x1 ∗ owns (c : Thread nD τ) a4 fullShare x2
            ∗ owns (c : Thread nD τ) a9 fullShare (k5_pay2 i x0 x1 x2 k5_pay1)) -∗ K ⟨⟩))
      ⊢ wp frame (wpE (defs₀ (F := F)) Variants.none c none) E (cc5_kernel i a2 h2 a3 h3 a4 h4 a5 h5 a6 h6 a7 h7 a8 h8 a9 h9) K := by
  simp only [cc5_kernel_eq_skeleton]; unfold cc5_kernel_skel
  unfold owns
  iintro ⟨⟨%f0, %hf0, H0⟩, ⟨%f1, %hf1, H1⟩, ⟨%f2, %hf2, H2⟩, ⟨%ds, %fs, -, HS⟩, Hk⟩
  obtain rfl := h2.eq_unread hf0; obtain rfl := h3.eq_unread hf1; obtain rfl := h4.eq_unread hf2
  sl_exec (disch := first | exact hR | exact hW)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr; swap; · iexact HS
  ipureintro
  sl_unfold_run_names
  rw [read_writes_cons_unit_zero (S := S2000x16) _ _ hz2]
  simp only [View.readCov_unit_zero (S := S2000x16) _ hz2, View.readAt_eq_ld, h2.read_unread, h3.read_unread, h4.read_unread,
    View.ld_unit_zero (S := S4096) hz1, View.ld_unit_zero (S := S4096x16) hz2, View.ld_unit_zero (S := S2000x16) hz2,
    View.ld_unit_zero (S := S16) hz1]

set_option maxHeartbeats 1000000 in
/-- At a point that neither starts nor ends a node block: from the three per-edge blocks and the accumulator at
    `xs`, the body leaves the accumulator at the point's scatter product added to `xs`. -/
theorem run_step (hR : ¬condR i) (hW : ¬condW i)
    (x0 : Vec F S4096 .i32) (x1 : Vec F S4096 .f32) (x2 : Vec F S4096x16 .f32) (xs : Vec F S2000x16 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a9 fullShare xs
        ∗ (iprop(owns (c : Thread nD τ) a2 fullShare x0 ∗ owns (c : Thread nD τ) a3 fullShare x1 ∗ owns (c : Thread nD τ) a4 fullShare x2
            ∗ owns (c : Thread nD τ) a9 fullShare (k5_pay2 i x0 x1 x2 xs)) -∗ K ⟨⟩))
      ⊢ wp frame (wpE (defs₀ (F := F)) Variants.none c none) E (cc5_kernel i a2 h2 a3 h3 a4 h4 a5 h5 a6 h6 a7 h7 a8 h8 a9 h9) K := by
  simp only [cc5_kernel_eq_skeleton]; unfold cc5_kernel_skel
  unfold owns
  iintro ⟨⟨%f0, %hf0, H0⟩, ⟨%f1, %hf1, H1⟩, ⟨%f2, %hf2, H2⟩, ⟨%fs, %hfs, HS⟩, Hk⟩
  obtain rfl := h2.eq_unread hf0; obtain rfl := h3.eq_unread hf1; obtain rfl := h4.eq_unread hf2; obtain rfl := h9.eq_unread hfs
  sl_exec (disch := first | exact hR | exact hW)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr; swap; · iexact HS
  ipureintro
  sl_unfold_run_names
  rw [read_writes_cons_unit_zero (S := S2000x16) _ _ hz2]
  simp only [View.readCov_unit_zero (S := S2000x16) _ hz2, View.readAt_eq_ld, h2.read_unread, h3.read_unread, h4.read_unread, h9.read_unread,
    View.ld_unit_zero (S := S4096) hz1, View.ld_unit_zero (S := S4096x16) hz2, View.ld_unit_zero (S := S2000x16) hz2,
    View.ld_unit_zero (S := S16) hz1]

set_option maxHeartbeats 1000000 in
/-- At the last edge block of a node block: the accumulator goes from `xs` to the point's scatter product added to
    `xs`, and the output buffer, at anything before, is left at that combined with the self block, the bias and the
    skip block. -/
theorem run_write (hR : ¬condR i) (hW : condW i)
    (x0 : Vec F S4096 .i32) (x1 : Vec F S4096 .f32) (x2 : Vec F S4096x16 .f32)
    (x3 : Vec F S2000x16 .f32) (x4 : Vec F S16 .f32) (x5 : Vec F S2000x16 .f32) (xs : Vec F S2000x16 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ (∃ d, owns (c : Thread nD τ) a8 fullShare d) ∗ owns (c : Thread nD τ) a9 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (k5_pay3 (k5_pay2 i x0 x1 x2 xs) x3 x4 x5)
            ∗ owns (c : Thread nD τ) a9 fullShare (k5_pay2 i x0 x1 x2 xs)) -∗ K ⟨⟩))
      ⊢ wp frame (wpE (defs₀ (F := F)) Variants.none c none) E (cc5_kernel i a2 h2 a3 h3 a4 h4 a5 h5 a6 h6 a7 h7 a8 h8 a9 h9) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5; obtain rfl := h9.eq_unread hfs
  sl_exec (disch := first | exact hR | exact hW)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [H6]
  · iexists _; isplitr; swap; · iexact H6
    ipureintro
    sl_unfold_run_names
    rw [read_writes_cons_unit_zero (S := S2000x16) _ _ hz2]
    simp only [View.readCov_unit_zero (S := S2000x16) _ hz2, View.readAt_eq_ld, h2.read_unread, h3.read_unread, h4.read_unread, h5.read_unread, h6.read_unread, h7.read_unread, h9.read_unread,
      View.ld_unit_zero (S := S4096) hz1, View.ld_unit_zero (S := S4096x16) hz2, View.ld_unit_zero (S := S2000x16) hz2,
      View.ld_unit_zero (S := S16) hz1]
  iexists _; isplitr; swap; · iexact HS
  ipureintro
  sl_unfold_run_names
  rw [read_writes_cons_unit_zero (S := S2000x16) _ _ hz2]
  simp only [View.readCov_unit_zero (S := S2000x16) _ hz2, View.readAt_eq_ld, h2.read_unread, h3.read_unread, h4.read_unread, h9.read_unread,
    View.ld_unit_zero (S := S4096) hz1, View.ld_unit_zero (S := S4096x16) hz2, View.ld_unit_zero (S := S2000x16) hz2,
    View.ld_unit_zero (S := S16) hz1]

end Runs

-- the TensorCore's buffer contents on each core when the region is entered
variable (V : (c : Dev nD) → (b : Ref sig .tc) → Buf (Elt F) ((c : Thread nD τ).loc b))

/-! ## What the body finds in the inputs' staging buffers -/

/-- Input window 0's current staging buffer holds its block at every point, fetched there or not: unfetched, the
    block index has not moved. -/
theorem before0 (c : Dev nD) (t : Fin cfg5.N) (d) : (dat V c).before 0 t d = iblk V c 0 t :=
  ((dat V c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

/-- Input window 1's current staging buffer holds its block at every point, fetched there or not: unfetched, the
    block index has not moved. -/
theorem before1 (c : Dev nD) (t : Fin cfg5.N) (d) : (dat V c).before 1 t d = iblk V c 1 t :=
  ((dat V c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-- Input window 2's current staging buffer holds its block at every point, fetched there or not: unfetched, the
    block index has not moved. -/
theorem before2 (c : Dev nD) (t : Fin cfg5.N) (d) : (dat V c).before 2 t d = iblk V c 2 t :=
  ((dat V c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-- Input window 3's current staging buffer holds its block at every point, fetched there or not: unfetched, the
    block index has not moved. -/
theorem before3 (c : Dev nD) (t : Fin cfg5.N) (d) : (dat V c).before 3 t d = iblk V c 3 t :=
  ((dat V c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-- Input window 4's current staging buffer holds its block at every point, fetched there or not: unfetched, the
    block index has not moved. -/
theorem before4 (c : Dev nD) (t : Fin cfg5.N) (d) : (dat V c).before 4 t d = iblk V c 4 t :=
  ((dat V c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-- Input window 5's current staging buffer holds its block at every point, fetched there or not: unfetched, the
    block index has not moved. -/
theorem before5 (c : Dev nD) (t : Fin cfg5.N) (d) : (dat V c).before 5 t d = iblk V c 5 t :=
  ((dat V c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

/-! ## The body obligation, at a generic point -/

/-- Each window's current staging memref at point `t`, spelled as the pipeline passes it to the body, and its wholeness. -/
abbrev ms0 (t : Fin cfg5.N) : Memref sig .tc .vmem S4096 .i32 := win5_0.stage (cfg5.slots t 0)
abbrev hs0 (t : Fin cfg5.N) : (ms0 t).IsWhole := hstage5_0 ((cfg5.slots t 0).cast nbuf5_0)
abbrev ms1 (t : Fin cfg5.N) : Memref sig .tc .vmem S4096 .f32 := win5_1.stage (cfg5.slots t 1)
abbrev hs1 (t : Fin cfg5.N) : (ms1 t).IsWhole := hstage5_1 ((cfg5.slots t 1).cast nbuf5_1)
abbrev ms2 (t : Fin cfg5.N) : Memref sig .tc .vmem S4096x16 .f32 := win5_2.stage (cfg5.slots t 2)
abbrev hs2 (t : Fin cfg5.N) : (ms2 t).IsWhole := hstage5_2 ((cfg5.slots t 2).cast nbuf5_2)
abbrev ms3 (t : Fin cfg5.N) : Memref sig .tc .vmem S2000x16 .f32 := win5_3.stage (cfg5.slots t 3)
abbrev hs3 (t : Fin cfg5.N) : (ms3 t).IsWhole := hstage5_3 ((cfg5.slots t 3).cast nbuf5_3)
abbrev ms4 (t : Fin cfg5.N) : Memref sig .tc .vmem S16 .f32 := win5_4.stage (cfg5.slots t 4)
abbrev hs4 (t : Fin cfg5.N) : (ms4 t).IsWhole := hstage5_4 ((cfg5.slots t 4).cast nbuf5_4)
abbrev ms5 (t : Fin cfg5.N) : Memref sig .tc .vmem S2000x16 .f32 := win5_5.stage (cfg5.slots t 5)
abbrev hs5 (t : Fin cfg5.N) : (ms5 t).IsWhole := hstage5_5 ((cfg5.slots t 5).cast nbuf5_5)
abbrev ms6 (t : Fin cfg5.N) : Memref sig .tc .vmem S2000x16 .f32 := win5_6.stage (cfg5.slots t 6)
abbrev hs6 (t : Fin cfg5.N) : (ms6 t).IsWhole := hstage5_6 ((cfg5.slots t 6).cast nbuf5_6)

/-- What the body is called with at point `t`: the invariant, the core's tallies, each window's current staging
    buffer at what it holds there, -/
def bodyPre (c : Dev nD) (t : Fin cfg5.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-- An input's buffer is handed back at its block: no point is idle for it. -/
theorem leaves0 (c : Dev nD) (t : Fin cfg5.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [show cfg5.idle 0 (grid5.coords t) = false from rfl], after0]
theorem leaves1 (c : Dev nD) (t : Fin cfg5.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [show cfg5.idle 1 (grid5.coords t) = false from rfl], after1]
theorem leaves2 (c : Dev nD) (t : Fin cfg5.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [show cfg5.idle 2 (grid5.coords t) = false from rfl], after2]
theorem leaves3 (c : Dev nD) (t : Fin cfg5.N) :
    (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [show cfg5.idle 3 (grid5.coords t) = false from rfl], after3]
theorem leaves4 (c : Dev nD) (t : Fin cfg5.N) :
    (dat V c).leavesExact 4 t = owns (c : Thread nD τ) (ms4 t) fullShare (iblk V c 4 t) := by
  rw [show (dat V c).leavesExact 4 t = owns (c : Thread nD τ) (ms4 t) fullShare ((dat V c).after 4 t) from by
    unfold Dat.leavesExact; rw [show cfg5.idle 4 (grid5.coords t) = false from rfl], after4]
theorem leaves5 (c : Dev nD) (t : Fin cfg5.N) :
    (dat V c).leavesExact 5 t = owns (c : Thread nD τ) (ms5 t) fullShare (iblk V c 5 t) := by
  rw [show (dat V c).leavesExact 5 t = owns (c : Thread nD τ) (ms5 t) fullShare ((dat V c).after 5 t) from by
    unfold Dat.leavesExact; rw [show cfg5.idle 5 (grid5.coords t) = false from rfl], after5]

set_option maxHeartbeats 4800000 in
/-- The body at any point. The inputs' buffers hold their blocks (`before0` … `before5`); the point's residue
    mod 196 says which case it is in; the invariant hands the body the accumulator — at anything at the very first
    point, at what the point before left afterwards — and takes it back at this point's `acc`; the output's buffer
    is handed back untouched where the body does not write it (the window idle, not written back there) and at
    `outv` where it does; the core owes nothing throughout. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5]
  have hN : t.val < 4900 := lt_of_lt_of_eq t.isLt (show cfg5.N = 4900 from N_5)
  by_cases hR : t.val % 196 = 0
  · have hW : ¬t.val % 196 = 195 := by omega
    have hcR : condR (grid5.coords t) := (hcondR t).mpr hR
    have hcW : ¬condW (grid5.coords t) := fun h => hW ((hcondW t).mp h)
    rw [Dat.leavesExact_idle (dat V c) 6 t (idle6 t hcW) (noFlush6 t hW), acc_reset V c t hR]
    by_cases hz : t.val = 0
    · rw [PhiS_castSucc V c t, PhiS_zero V c _ _ hz]
      iintro ⟨⟨HS, Hr⟩, Ho, ⟨%d0, H0⟩, ⟨%d1, H1⟩, ⟨%d2, H2⟩, ⟨%d3, H3⟩, ⟨%d4, H4⟩, ⟨%d5, H5⟩, H6⟩
      iapply (run_reset c (grid5.coords t) _ _ _ _ _ _ _ _ _ _ _ _ _ _ _ _ hcR hcW (iblk V c 0 t) (iblk V c 1 t) (iblk V c 2 t) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc V c t, PhiS_pos V c _ _ hz]
      iintro ⟨⟨HS, Hr⟩, Ho, ⟨%d0, H0⟩, ⟨%d1, H1⟩, ⟨%d2, H2⟩, ⟨%d3, H3⟩, ⟨%d4, H4⟩, ⟨%d5, H5⟩, H6⟩
      iapply (run_reset c (grid5.coords t) _ _ _ _ _ _ _ _ _ _ _ _ _ _ _ _ hcR hcW (iblk V c 0 t) (iblk V c 1 t) (iblk V c 2 t) Set.univ _)
      isplitl [H0]; · iexact H0
      isplitl [H1]; · iexact H1
      isplitl [H2]; · iexact H2
      isplitl [HS]; · iexists _; iexact HS
      iintro ⟨H0, H1, H2, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => hR (by rw [h])
    have hcR : ¬condR (grid5.coords t) := fun h => hR ((hcondR t).mp h)
    rw [PhiS_castSucc V c t, PhiS_pos V c _ _ hz, acc_step V c t hR]
    by_cases hW : t.val % 196 = 195
    · have hcW : condW (grid5.coords t) := (hcondW t).mpr hW
      rw [show (dat V c).leavesExact 6 t = owns (c : Thread nD τ) (ms6 t) fullShare ((dat V c).after 6 t) from by
        unfold Dat.leavesExact; rw [live6 t hcW], after6]
      unfold outv; rw [acc_step V c t hR]
      iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
      iapply (run_write c (grid5.coords t) _ _ _ _ _ _ _ _ _ _ _ _ _ _ _ _ hcR hcW (iblk V c 0 t) (iblk V c 1 t) (iblk V c 2 t)
        (iblk V c 3 t) (iblk V c 4 t) (iblk V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcW : ¬condW (grid5.coords t) := fun h => hW ((hcondW t).mp h)
      rw [Dat.leavesExact_idle (dat V c) 6 t (idle6 t hcW) (noFlush6 t hW)]
      iintro ⟨⟨HS, Hr⟩, Ho, ⟨%d0, H0⟩, ⟨%d1, H1⟩, ⟨%d2, H2⟩, ⟨%d3, H3⟩, ⟨%d4, H4⟩, ⟨%d5, H5⟩, H6⟩
      iapply (run_step c (grid5.coords t) _ _ _ _ _ _ _ _ _ _ _ _ _ _ _ _ hcR hcW (iblk V c 0 t) (iblk V c 1 t) (iblk V c 2 t) _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dat V c) (defs₀ (F := F)) Variants.none () Set.univ := fun t => by
  rw [bigSep_W5, bigSep_W5]
  exact sound_body V c t

end Cert.KernelIdeal.R5

end
-- ==== Proof.Final6.lean ====
import proofs.«148650_j55559696941682_1_alg».proof.Proof.Gen.KernelIdeal.Launch
import proofs.«148650_j55559696941682_1_alg».proof.Proof.Gen.KernelIdeal.Skeleton
import proofs.«148650_j55559696941682_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before0_of {c : Dev nD} (dat : Dat τ (Elt F) Unit ℕ (UR sig nD τ) ℕ cfg6 c) (hA : dat.A 0 = V c (Pipeline.arrRef spec6 0))
    (hafter : ∀ t, dat.after 0 t = iblk V c 0 t) (t : Fin cfg6.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg6 c) (hA : dat.A 1 = V c (Pipeline.arrRef spec6 1))
    (hafter : ∀ t, dat.after 1 t = iblk V c 1 t) (t : Fin cfg6.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg6 c) (hA : dat.A 2 = V c (Pipeline.arrRef spec6 2))
    (hafter : ∀ t, dat.after 2 t = iblk V c 2 t) (t : Fin cfg6.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem zeros2 : (![0, 0] : Fin 2 → Nat) = fun _ => 0 := funext fun a => by fin_cases a <;> rfl
theorem zeros1 : (![0] : Fin 1 → Nat) = fun _ => 0 := funext fun a => by fin_cases a; rfl

set_option maxHeartbeats 1000000 in

theorem sound_kernel (c : Dev nD) (E : Set ℕ) (i : grid6.Coords)
    (arg1 : Memref sig .tc .vmem S2000x16 .f32) (harg1 : arg1.IsWhole) (arg2 : Memref sig .tc .vmem S16x300 .f32) (harg2 : arg2.IsWhole)
    (arg3 : Memref sig .tc .vmem S300 .f32) (harg3 : arg3.IsWhole) (arg4 : Memref sig .tc .vmem S2000x300 .f32) (harg4 : arg4.IsWhole)
    (x0 : Vec F S2000x16 .f32) (x1 : Vec F S16x300 .f32) (x2 : Vec F S300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k6_pay1 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero zeros2 inb_S2000x300_S2000x300_0_0 y⟩),
    View.canon_unit_zero zeros2]
  simp only [View.readAt_eq_ld, View.ld_unit_zero (S := S2000x16) zeros2, View.ld_unit_zero (S := S16x300) zeros2,
    View.ld_unit_zero (S := S300) zeros1]

def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => k6_pay1 (iblk V c 0 t) (iblk V c 1 t) (iblk V c 2 t)
  Φ _ := Pipeline.scopedRest (Ix := Unit) (Name := ℕ) (U := UR sig nD τ) (Lvl := ℕ) (Val := Elt F) spec6 c
  q _ := fullShare
  owed _ := 0

theorem A_eq (c : Dev nD) (w : Fin cfg6.W) : (dat V c).A w = V c (Pipeline.arrRef spec6 w) := by
  dsimp only [dat]

theorem after0 (c : Dev nD) (t : Fin cfg6.N) : (dat V c).after 0 t = iblk V c 0 t := by dsimp only [dat]
theorem after1 (c : Dev nD) (t : Fin cfg6.N) : (dat V c).after 1 t = iblk V c 1 t := by dsimp only [dat]
theorem after2 (c : Dev nD) (t : Fin cfg6.N) : (dat V c).after 2 t = iblk V c 2 t := by dsimp only [dat]
theorem after3 (c : Dev nD) (t : Fin cfg6.N) :
    (dat V c).after 3 t = k6_pay1 (iblk V c 0 t) (iblk V c 1 t) (iblk V c 2 t) := by dsimp only [dat]

theorem before0 (c : Dev nD) (t : Fin cfg6.N) (d) : (dat V c).before 0 t d = iblk V c 0 t :=
  before0_of V (dat V c) (A_eq V c 0) (after0 V c) t d
theorem before1 (c : Dev nD) (t : Fin cfg6.N) (d) : (dat V c).before 1 t d = iblk V c 1 t :=
  before1_of V (dat V c) (A_eq V c 1) (after1 V c) t d
theorem before2 (c : Dev nD) (t : Fin cfg6.N) (d) : (dat V c).before 2 t d = iblk V c 2 t :=
  before2_of V (dat V c) (A_eq V c 2) (after2 V c) t d

def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d)))

def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t))

theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W6, bigSep_W6]
  exact sound_body V c t

theorem hin (c : Dev nD) :
    (Pipeline.scopedRest (Ix := Unit) (Name := ℕ) (U := UR sig nD τ) (Lvl := ℕ) (Val := Elt F) spec6 c : sProp 𝕄) ⊢ (dat V c).Φ 0 := .rfl

theorem hout (c : Dev nD) :
    (dat V c).Φ (Fin.last cfg6.N) ⊢ (Pipeline.scopedRest (Ix := Unit) (Name := ℕ) (U := UR sig nD τ) (Lvl := ℕ) (Val := Elt F) spec6 c : sProp 𝕄) := .rfl

end Cert.KernelIdeal.R6

end
-- ==== Proof.Run.lean ====
import proofs.«148650_j55559696941682_1_alg».proof.Proof.Gen.KernelIdeal.Regions
import proofs.«148650_j55559696941682_1_alg».proof.Proof.Gather0
import proofs.«148650_j55559696941682_1_alg».proof.Proof.Scatter1Body
import proofs.«148650_j55559696941682_1_alg».proof.Proof.Gather2
import proofs.«148650_j55559696941682_1_alg».proof.Proof.Scatter3Body
import proofs.«148650_j55559696941682_1_alg».proof.Proof.Gather4
import proofs.«148650_j55559696941682_1_alg».proof.Proof.Scatter5Body
import proofs.«148650_j55559696941682_1_alg».proof.Proof.Final6
import Idealize.ShloMosaic.Lib.Pipeline.RegionsLoop

set_option maxRecDepth 1128

noncomputable section

namespace Cert.KernelIdeal.RunAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

abbrev tc (W : Dev nD → Valuation τ sig (Elt F)) : (c : Dev nD) → (b : Ref sig .tc) → Buf (Elt F) ((c : Thread nD τ).loc b) :=
  fun c b => W c b

def o8 (c : Dev nD) : Buf (Elt F) ((c : Thread nD τ).loc main_v40) := (R0.dat (tc (V7 m)) c).arrAt 2 cfg0.N

abbrev W8 (c : Dev nD) : Valuation τ sig (Elt F) := Function.update (V7 m c) main_v40 (o8 m c)

def o9 (c : Dev nD) : Buf (Elt F) ((c : Thread nD τ).loc main_v41) := (R1.dat (tc (W8 m)) c).arrAt 6 cfg1.N

abbrev W9 (c : Dev nD) : Valuation τ sig (Elt F) := Function.update (W8 m c) main_v41 (o9 m c)

abbrev W10 (c : Dev nD) : Valuation τ sig (Elt F) := StableHlo.after hostOps2 (W9 m c)

def o11 (c : Dev nD) : Buf (Elt F) ((c : Thread nD τ).loc main_v50) := (R2.dat (tc (W10 m)) c).arrAt 2 cfg2.N

abbrev W11 (c : Dev nD) : Valuation τ sig (Elt F) := Function.update (W10 m c) main_v50 (o11 m c)

def o12 (c : Dev nD) : Buf (Elt F) ((c : Thread nD τ).loc main_v51) := (R3.dat (tc (W11 m)) c).arrAt 6 cfg3.N

abbrev W12 (c : Dev nD) : Valuation τ sig (Elt F) := Function.update (W11 m c) main_v51 (o12 m c)

abbrev W13 (c : Dev nD) : Valuation τ sig (Elt F) := StableHlo.after hostOps4 (W12 m c)

def o14 (c : Dev nD) : Buf (Elt F) ((c : Thread nD τ).loc main_v55) := (R4.dat (tc (W13 m)) c).arrAt 2 cfg4.N

abbrev W14 (c : Dev nD) : Valuation τ sig (Elt F) := Function.update (W13 m c) main_v55 (o14 m c)

def o15 (c : Dev nD) : Buf (Elt F) ((c : Thread nD τ).loc main_v56) := (R5.dat (tc (W14 m)) c).arrAt 6 cfg5.N

abbrev W15 (c : Dev nD) : Valuation τ sig (Elt F) := Function.update (W14 m c) main_v56 (o15 m c)

def o16 (c : Dev nD) : Buf (Elt F) ((c : Thread nD τ).loc main_v57) := (R6.dat (tc (W15 m)) c).arrAt 3 cfg6.N

abbrev m0 (c : Dev nD) : (r : Ref sig .tc) → Buf (Elt F) ((c : Thread nD τ).loc r) := fun r => m ((c : Thread nD τ).loc r)

def outs : Outs (F := F) := fun J r c =>
  if J = 8 then Function.update (m0 m c) main_v40 (o8 m c) r
  else if J = 9 then Function.update (m0 m c) main_v41 (o9 m c) r
  else if J = 11 then Function.update (m0 m c) main_v50 (o11 m c) r
  else if J = 12 then Function.update (m0 m c) main_v51 (o12 m c) r
  else if J = 14 then Function.update (m0 m c) main_v55 (o14 m c) r
  else if J = 15 then Function.update (m0 m c) main_v56 (o15 m c) r
  else if J = 16 then Function.update (m0 m c) main_v57 (o16 m c) r
  else m0 m c r

theorem outs_8 (c : Dev nD) : outs m 8 main_v40 c = o8 m c := by
  unfold outs; rw [if_pos rfl, Function.update_self]
theorem outs_9 (c : Dev nD) : outs m 9 main_v41 c = o9 m c := by
  unfold outs; rw [if_neg (by decide), if_pos rfl, Function.update_self]
theorem outs_11 (c : Dev nD) : outs m 11 main_v50 c = o11 m c := by
  unfold outs; rw [if_neg (by decide), if_neg (by decide), if_pos rfl, Function.update_self]
theorem outs_12 (c : Dev nD) : outs m 12 main_v51 c = o12 m c := by
  unfold outs; rw [if_neg (by decide), if_neg (by decide), if_neg (by decide), if_pos rfl, Function.update_self]
theorem outs_14 (c : Dev nD) : outs m 14 main_v55 c = o14 m c := by
  unfold outs; rw [if_neg (by decide), if_neg (by decide), if_neg (by decide), if_neg (by decide), if_pos rfl, Function.update_self]
theorem outs_15 (c : Dev nD) : outs m 15 main_v56 c = o15 m c := by
  unfold outs
  rw [if_neg (by decide), if_neg (by decide), if_neg (by decide), if_neg (by decide), if_neg (by decide), if_pos rfl, Function.update_self]
theorem outs_16 (c : Dev nD) : outs m 16 main_v57 c = o16 m c := by
  unfold outs
  rw [if_neg (by decide), if_neg (by decide), if_neg (by decide), if_neg (by decide), if_neg (by decide), if_neg (by decide), if_pos rfl,
    Function.update_self]

theorem V8_eq : V8 m (outs m) = W8 m := funext fun c => by
  show Function.update (V7 m c) main_v40 (outs m 8 main_v40 c) = _; rw [outs_8]
theorem V9_eq : V9 m (outs m) = W9 m := funext fun c => by
  show Function.update (V8 m (outs m) c) main_v41 (outs m 9 main_v41 c) = _; rw [outs_9, V8_eq]
theorem V10_eq : V10 m (outs m) = W10 m := funext fun c => by
  show StableHlo.after hostOps2 (V9 m (outs m) c) = _; rw [V9_eq]
theorem V11_eq : V11 m (outs m) = W11 m := funext fun c => by
  show Function.update (V10 m (outs m) c) main_v50 (outs m 11 main_v50 c) = _; rw [outs_11, V10_eq]
theorem V12_eq : V12 m (outs m) = W12 m := funext fun c => by
  show Function.update (V11 m (outs m) c) main_v51 (outs m 12 main_v51 c) = _; rw [outs_12, V11_eq]
theorem V13_eq : V13 m (outs m) = W13 m := funext fun c => by
  show StableHlo.after hostOps4 (V12 m (outs m) c) = _; rw [V12_eq]
theorem V14_eq : V14 m (outs m) = W14 m := funext fun c => by
  show Function.update (V13 m (outs m) c) main_v55 (outs m 14 main_v55 c) = _; rw [outs_14, V13_eq]
theorem V15_eq : V15 m (outs m) = W15 m := funext fun c => by
  show Function.update (V14 m (outs m) c) main_v56 (outs m 15 main_v56 c) = _; rw [outs_15, V14_eq]

theorem o9_eq (c : Dev nD) : o9 m c = (R1.dat (tc (V8 m (outs m))) c).arrAt 6 cfg1.N := by rw [V8_eq]; rfl
theorem o11_eq (c : Dev nD) : o11 m c = (R2.dat (tc (V10 m (outs m))) c).arrAt 2 cfg2.N := by rw [V10_eq]; rfl
theorem o12_eq (c : Dev nD) : o12 m c = (R3.dat (tc (V11 m (outs m))) c).arrAt 6 cfg3.N := by rw [V11_eq]; rfl
theorem o14_eq (c : Dev nD) : o14 m c = (R4.dat (tc (V13 m (outs m))) c).arrAt 2 cfg4.N := by rw [V13_eq]; rfl
theorem o15_eq (c : Dev nD) : o15 m c = (R5.dat (tc (V14 m (outs m))) c).arrAt 6 cfg5.N := by rw [V14_eq]; rfl
theorem o16_eq (c : Dev nD) : o16 m c = (R6.dat (tc (V15 m (outs m))) c).arrAt 3 cfg6.N := by rw [V15_eq]; rfl

theorem V8_out (c : Dev nD) : V8 m (outs m) c main_v40 = o8 m c := by
  show Function.update (V7 m c) main_v40 (outs m 8 main_v40 c) main_v40 = _; rw [Function.update_self, outs_8]
theorem V9_out (c : Dev nD) : V9 m (outs m) c main_v41 = o9 m c := by
  show Function.update (V8 m (outs m) c) main_v41 (outs m 9 main_v41 c) main_v41 = _; rw [Function.update_self, outs_9]
theorem V11_out (c : Dev nD) : V11 m (outs m) c main_v50 = o11 m c := by
  show Function.update (V10 m (outs m) c) main_v50 (outs m 11 main_v50 c) main_v50 = _; rw [Function.update_self, outs_11]
theorem V12_out (c : Dev nD) : V12 m (outs m) c main_v51 = o12 m c := by
  show Function.update (V11 m (outs m) c) main_v51 (outs m 12 main_v51 c) main_v51 = _; rw [Function.update_self, outs_12]
theorem V14_out (c : Dev nD) : V14 m (outs m) c main_v55 = o14 m c := by
  show Function.update (V13 m (outs m) c) main_v55 (outs m 14 main_v55 c) main_v55 = _; rw [Function.update_self, outs_14]
theorem V15_out (c : Dev nD) : V15 m (outs m) c main_v56 = o15 m c := by
  show Function.update (V14 m (outs m) c) main_v56 (outs m 15 main_v56 c) main_v56 = _; rw [Function.update_self, outs_15]
theorem V16_out (c : Dev nD) : V16 m (outs m) c main_v57 = o16 m c := by
  show Function.update (V15 m (outs m) c) main_v57 (outs m 16 main_v57 c) main_v57 = _; rw [Function.update_self, outs_16]

def pdats : (p : Fin 7) → (c : Dev nD) → Dat τ (Elt F) Unit ℕ (UR sig nD τ) ℕ (cfgs p) c
  | ⟨0, _⟩ => fun c => R0.dat (tc (V7 m)) c
  | ⟨1, _⟩ => fun c => R1.dat (tc (V8 m (outs m))) c
  | ⟨2, _⟩ => fun c => R2.dat (tc (V10 m (outs m))) c
  | ⟨3, _⟩ => fun c => R3.dat (tc (V11 m (outs m))) c
  | ⟨4, _⟩ => fun c => R4.dat (tc (V13 m (outs m))) c
  | ⟨5, _⟩ => fun c => R5.dat (tc (V14 m (outs m))) c
  | ⟨6, _⟩ => fun c => R6.dat (tc (V15 m (outs m))) c

abbrev 𝒱₀ : Variants := Variants.none

abbrev L : GSem nD τ sig → Finset Unit := fun _ => ∅
abbrev lv : GSem nD τ sig → Unit → ℕ := fun _ _ => 0

abbrev E (c : Dev nD) : sProp 𝕄 := iprop(∃ W, owes (c : Thread nD τ) (0 : CellTallies nD τ sig Unit) W)

abbrev Es : Fin 8 → Dev nD → sProp 𝕄 := fun _ c => E c

abbrev T (V : Valuation τ sig (Elt F)) (c : Dev nD) : sProp 𝕄 :=
  iprop(StableHlo.held (c : Thread nD τ) (Pipeline.ucRefs τ sig) V ∗ E c)

section Protocol

variable (pd : (p : Fin 7) → (c : Dev nD) → Dat τ (Elt F) Unit ℕ (UR sig nD τ) ℕ (Pipeline.pin (pcfgs (F := F)) adm p) c)

set_option backward.isDefEq.respectTransparency.types false in

theorem entry {p : Fin 7} (hw : Pipeline.WinFacts (Pipeline.pin (pcfgs (F := F)) adm p).spec)
    (harr : ∀ w, ((Pipeline.pin (pcfgs (F := F)) adm p).spec w).arr.IsWhole) (c : Dev nD)
    (hq : ∀ w, (pd p c).share w = fullShare) (howed : ∀ t, (pd p c).owed t = 0) (hrec : ∀ t, (pd p c).recorded t = Set.univ)
    (V : Valuation τ sig (Elt F)) (hA : ∀ w, (pd p c).A w = V (Pipeline.arrRef (Pipeline.pin (pcfgs (F := F)) adm p).spec w)) :
    iprop(T V c ∗ Pipeline.ownSems0 (fun k : PEmpty => k.elim) c ∗ levAts L lv)
      ⊢ |={Set.univ}=> iprop((pd p c).arrays ((pd p c).arrAt · 0) ∗ Pipeline.prefHeld (pcfgs (F := F) p).pre c (fun _ => fullShare) (adm p).1
          ∗ (pd p c).owesAt () 0 ∗ (BI.emp : sProp 𝕄)
          ∗ Pipeline.unscopedRest (Ix := Unit) (Name := ℕ) (U := UR sig nD τ) (Lvl := ℕ) (Pipeline.pin (pcfgs (F := F)) adm p).spec c (fun b => V b)) := by
  have hsplit := Pipeline.arrays_of_unscopedBufs (p := p) (pcfgs (F := F)) adm pd hw harr c hq (fun b => V b) hA
  rw [Pipeline.unscopedBufs_held] at hsplit
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin Pipeline.Dat.bound
    rw [howed, hrec]
    icases HO with ⟨%W, HO⟩; iexists W; isplitr; · ipureintro; exact fun _ _ => Or.inl trivial
    iexact HO
  isplitr; · iempintro
  iexact Hrest

set_option backward.isDefEq.respectTransparency.types false in

theorem exit' {p : Fin 7} (hw : Pipeline.WinFacts (Pipeline.pin (pcfgs (F := F)) adm p).spec)
    (harr : ∀ w, ((Pipeline.pin (pcfgs (F := F)) adm p).spec w).arr.IsWhole) (c : Dev nD)
    (hq : ∀ w, (pd p c).share w = fullShare) (howed : ∀ t, (pd p c).owed t = 0)
    (V V' : Valuation τ sig (Elt F))
    (hF : ∀ w, (pd p c).arrAt w (Pipeline.pin (pcfgs (F := F)) adm p).N = V' (Pipeline.arrRef (Pipeline.pin (pcfgs (F := F)) adm p).spec w))
    (hrest : ∀ b : Ref sig .tc, b ∉ Finset.univ.image (Pipeline.arrRef (Pipeline.pin (pcfgs (F := F)) adm p).spec) → V' b = V b) :
    iprop((pd p c).arrays ((pd p c).arrAt · (Pipeline.pin (pcfgs (F := F)) adm p).N) ∗ (pd p c).owesAt () (Fin.last (Pipeline.pin (pcfgs (F := F)) adm p).N)
        ∗ (BI.emp : sProp 𝕄)
        ∗ Pipeline.unscopedRest (Ix := Unit) (Name := ℕ) (U := UR sig nD τ) (Lvl := ℕ) (Pipeline.pin (pcfgs (F := F)) adm p).spec c (fun b => V b))
      ⊢ |={Set.univ}=> T V' c := by
  have hjoin := Pipeline.unscopedBufs_of_arrays (p := p) (pcfgs (F := F)) adm (Ix := Unit) (Name := ℕ) (U := UR sig nD τ) (Lvl := ℕ)
    hw harr c pd hq (fun b => V b) (fun b => V' b) ((pd p c).arrAt · (Pipeline.pin (pcfgs (F := F)) adm p).N) hF hrest
  rw [Pipeline.unscopedBufs_held] at hjoin
  iintro ⟨Ha, HO, -, Hrest⟩
  imodintro
  isplitl [Ha Hrest]
  · iapply hjoin; isplitl [Ha] <;> iassumption
  unfold Pipeline.Dat.owesAt Pipeline.owesWithin
  rw [howed]
  icases HO with ⟨%W, -, HO⟩; iexists W; iexact HO

theorem inWin {p : Fin 7} (c : Dev nD) (Vin Vout : Valuation τ sig (Elt F))
    (hA : ∀ w, (pd p c).A w = Vin (Pipeline.arrRef (Pipeline.pin (pcfgs (F := F)) adm p).spec w))
    (w : Fin (Pipeline.pin (pcfgs (F := F)) adm p).W) (hin : ((Pipeline.pin (pcfgs (F := F)) adm p).win w).isOut = false)
    (hV : Vout (Pipeline.arrRef (Pipeline.pin (pcfgs (F := F)) adm p).spec w) = Vin (Pipeline.arrRef (Pipeline.pin (pcfgs (F := F)) adm p).spec w)) :
    (pd p c).arrAt w (Pipeline.pin (pcfgs (F := F)) adm p).N = Vout (Pipeline.arrRef (Pipeline.pin (pcfgs (F := F)) adm p).spec w) :=
  ((pd p c).arrAt_in w hin _).trans ((hA w).trans hV.symm)

set_option backward.isDefEq.respectTransparency.types false in

def region (p : Fin 7) (lf : Pipeline.LaunchFacts (nD := nD) (τ := τ) cfgs p) (Vin Vout : Dev nD → Valuation τ sig (Elt F))
    (hbody : ∀ c, BodyObligation (pd p c) (defs₀ (F := F)) 𝒱₀ () Set.univ)
    (hq : ∀ c w, (pd p c).share w = fullShare) (howed : ∀ c t, (pd p c).owed t = 0) (hrec : ∀ c t, (pd p c).recorded t = Set.univ)
    (hA : ∀ c w, (pd p c).A w = Vin c (Pipeline.arrRef (Pipeline.pin (pcfgs (F := F)) adm p).spec w))
    (hin : ∀ c, (Pipeline.scopedRest (Pipeline.pin (pcfgs (F := F)) adm p).spec c : sProp 𝕄) ⊢ (pd p c).Φ 0)
    (hout : ∀ c, (pd p c).Φ (Fin.last (Pipeline.pin (pcfgs (F := F)) adm p).N) ⊢ (Pipeline.scopedRest (Pipeline.pin (pcfgs (F := F)) adm p).spec c : sProp 𝕄))
    (hF : ∀ c w, (pd p c).arrAt w (Pipeline.pin (pcfgs (F := F)) adm p).N = Vout c (Pipeline.arrRef (Pipeline.pin (pcfgs (F := F)) adm p).spec w))
    (hrest : ∀ c (b : Ref sig .tc), b ∉ Finset.univ.image (Pipeline.arrRef (Pipeline.pin (pcfgs (F := F)) adm p).spec) → Vout c b = Vin c b) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := T (Vin c) c
  post c := T (Vout c) c
  X _ := BI.emp
  Y _ := BI.emp
  Z c := Pipeline.unscopedRest (Ix := Unit) (Name := ℕ) (U := UR sig nD τ) (Lvl := ℕ) (Pipeline.pin (pcfgs (F := F)) adm p).spec c (fun b => Vin c b)
  hentry c := entry pd lf.win lf.arr_whole c (hq c) (howed c) (hrec c) (Vin c) (hA c)
  hin c := by
    iintro ⟨-, -, Hr⟩
    iapply (hin c); iexact Hr
  hout c := by
    rw [Pipeline.ownSems0_none]
    refine (hout c).trans ?_
    iintro Hr
    isplitr; · iempintro
    isplitr; · iempintro
    iexact Hr
  hexit c := exit' pd lf.win lf.arr_whole c (hq c) (howed c) (Vin c) (Vout c) (hF c) (hrest c)

end Protocol

theorem hF0 (c : Dev nD) (w : Fin cfg0.W) :
    (pdats m 0 c).arrAt w cfg0.N = V8 m (outs m) c (Pipeline.arrRef spec0 w) := by
  fin_cases w
  · exact inWin (pdats m) (p := 0) c (V7 m c) (V8 m (outs m) c) (R0.A_eq (tc (V7 m)) c) 0 rfl (V8_of m (outs m) c (Pipeline.arrRef spec0 0) (by decide))
  · exact inWin (pdats m) (p := 0) c (V7 m c) (V8 m (outs m) c) (R0.A_eq (tc (V7 m)) c) 1 rfl (V8_of m (outs m) c (Pipeline.arrRef spec0 1) (by decide))
  · show (R0.dat (tc (V7 m)) c).arrAt 2 cfg0.N = Function.update (V7 m c) main_v40 (outs m 8 main_v40 c) main_v40
    rw [Function.update_self, outs_8]; rfl
theorem hrest0 (c : Dev nD) (b : Ref sig .tc) (hb : b ∉ Finset.univ.image (Pipeline.arrRef spec0)) :
    V8 m (outs m) c b = V7 m c b :=
  V8_of m (outs m) c b fun h => hb (by
    rw [List.mem_singleton.mp h]; exact Finset.mem_image.mpr ⟨2, Finset.mem_univ _, rfl⟩)

def reg0 : RegionSeg (pcfgs (F := F)) adm (pdats m) () defs₀ 𝒱₀ L lv 0 :=
  region (pdats m) 0 launch0 (V7 m) (V8 m (outs m)) (fun c => R0.body_obligation (tc (V7 m)) c)
    (fun c => (pdats m 0 c).share_full fun _ => rfl) (fun _ _ => rfl) (fun _ _ => rfl)
    (fun c => R0.A_eq (tc (V7 m)) c) (fun c => R0.hin (tc (V7 m)) c) (fun c => R0.hout (tc (V7 m)) c) (hF0 m) (hrest0 m)

set_option maxHeartbeats 1600000 in
theorem hF1 (c : Dev nD) (w : Fin cfg1.W) :
    (pdats m 1 c).arrAt w cfg1.N = V9 m (outs m) c (Pipeline.arrRef spec1 w) := by
  fin_cases w
  · exact inWin (pdats m) (p := 1) c (V8 m (outs m) c) (V9 m (outs m) c) (R1.A_eq (tc (V8 m (outs m))) c) 0 rfl (V9_of m (outs m) c (Pipeline.arrRef spec1 0) (by decide))
  · exact inWin (pdats m) (p := 1) c (V8 m (outs m) c) (V9 m (outs m) c) (R1.A_eq (tc (V8 m (outs m))) c) 1 rfl (V9_of m (outs m) c (Pipeline.arrRef spec1 1) (by decide))
  · exact inWin (pdats m) (p := 1) c (V8 m (outs m) c) (V9 m (outs m) c) (R1.A_eq (tc (V8 m (outs m))) c) 2 rfl (V9_of m (outs m) c (Pipeline.arrRef spec1 2) (by decide))
  · exact inWin (pdats m) (p := 1) c (V8 m (outs m) c) (V9 m (outs m) c) (R1.A_eq (tc (V8 m (outs m))) c) 3 rfl (V9_of m (outs m) c (Pipeline.arrRef spec1 3) (by decide))
  · exact inWin (pdats m) (p := 1) c (V8 m (outs m) c) (V9 m (outs m) c) (R1.A_eq (tc (V8 m (outs m))) c) 4 rfl (V9_of m (outs m) c (Pipeline.arrRef spec1 4) (by decide))
  · exact inWin (pdats m) (p := 1) c (V8 m (outs m) c) (V9 m (outs m) c) (R1.A_eq (tc (V8 m (outs m))) c) 5 rfl (V9_of m (outs m) c (Pipeline.arrRef spec1 5) (by decide))
  · show (R1.dat (tc (V8 m (outs m))) c).arrAt 6 cfg1.N = Function.update (V8 m (outs m) c) main_v41 (outs m 9 main_v41 c) main_v41
    rw [Function.update_self, outs_9, V8_eq]; rfl
theorem hrest1 (c : Dev nD) (b : Ref sig .tc) (hb : b ∉ Finset.univ.image (Pipeline.arrRef spec1)) :
    V9 m (outs m) c b = V8 m (outs m) c b :=
  V9_of m (outs m) c b fun h => hb (by
    rw [List.mem_singleton.mp h]; exact Finset.mem_image.mpr ⟨6, Finset.mem_univ _, rfl⟩)

def reg1 : RegionSeg (pcfgs (F := F)) adm (pdats m) () defs₀ 𝒱₀ L lv 1 :=
  region (pdats m) 1 launch1 (V8 m (outs m)) (V9 m (outs m)) (fun c => R1.body_obligation (tc (V8 m (outs m))) c)
    (fun c => (pdats m 1 c).share_full fun _ => rfl) (fun _ _ => rfl) (fun _ _ => rfl)
    (fun c => R1.A_eq (tc (V8 m (outs m))) c) (fun c => R1.hin (tc (V8 m (outs m))) c) (fun c => R1.hout (tc (V8 m (outs m))) c)
    (hF1 m) (hrest1 m)

theorem hF2 (c : Dev nD) (w : Fin cfg2.W) :
    (pdats m 2 c).arrAt w cfg2.N = V11 m (outs m) c (Pipeline.arrRef spec2 w) := by
  fin_cases w
  · exact inWin (pdats m) (p := 2) c (V10 m (outs m) c) (V11 m (outs m) c) (R2.A_eq (tc (V10 m (outs m))) c) 0 rfl (V11_of m (outs m) c (Pipeline.arrRef spec2 0) (by decide))
  · exact inWin (pdats m) (p := 2) c (V10 m (outs m) c) (V11 m (outs m) c) (R2.A_eq (tc (V10 m (outs m))) c) 1 rfl (V11_of m (outs m) c (Pipeline.arrRef spec2 1) (by decide))
  · show (R2.dat (tc (V10 m (outs m))) c).arrAt 2 cfg2.N = Function.update (V10 m (outs m) c) main_v50 (outs m 11 main_v50 c) main_v50
    rw [Function.update_self, outs_11, V10_eq]; rfl
theorem hrest2 (c : Dev nD) (b : Ref sig .tc) (hb : b ∉ Finset.univ.image (Pipeline.arrRef spec2)) :
    V11 m (outs m) c b = V10 m (outs m) c b :=
  V11_of m (outs m) c b fun h => hb (by
    rw [List.mem_singleton.mp h]; exact Finset.mem_image.mpr ⟨2, Finset.mem_univ _, rfl⟩)

def reg2 : RegionSeg (pcfgs (F := F)) adm (pdats m) () defs₀ 𝒱₀ L lv 2 :=
  region (pdats m) 2 launch2 (V10 m (outs m)) (V11 m (outs m)) (fun c => R2.body_obligation (tc (V10 m (outs m))) c)
    (fun c => (pdats m 2 c).share_full fun _ => rfl) (fun _ _ => rfl) (fun _ _ => rfl)
    (fun c => R2.A_eq (tc (V10 m (outs m))) c) (fun c => R2.hin (tc (V10 m (outs m))) c) (fun c => R2.hout (tc (V10 m (outs m))) c)
    (hF2 m) (hrest2 m)

set_option maxHeartbeats 1600000 in
theorem hF3 (c : Dev nD) (w : Fin cfg3.W) :
    (pdats m 3 c).arrAt w cfg3.N = V12 m (outs m) c (Pipeline.arrRef spec3 w) := by
  fin_cases w
  · exact inWin (pdats m) (p := 3) c (V11 m (outs m) c) (V12 m (outs m) c) (R3.A_eq (tc (V11 m (outs m))) c) 0 rfl (V12_of m (outs m) c (Pipeline.arrRef spec3 0) (by decide))
  · exact inWin (pdats m) (p := 3) c (V11 m (outs m) c) (V12 m (outs m) c) (R3.A_eq (tc (V11 m (outs m))) c) 1 rfl (V12_of m (outs m) c (Pipeline.arrRef spec3 1) (by decide))
  · exact inWin (pdats m) (p := 3) c (V11 m (outs m) c) (V12 m (outs m) c) (R3.A_eq (tc (V11 m (outs m))) c) 2 rfl (V12_of m (outs m) c (Pipeline.arrRef spec3 2) (by decide))
  · exact inWin (pdats m) (p := 3) c (V11 m (outs m) c) (V12 m (outs m) c) (R3.A_eq (tc (V11 m (outs m))) c) 3 rfl (V12_of m (outs m) c (Pipeline.arrRef spec3 3) (by decide))
  · exact inWin (pdats m) (p := 3) c (V11 m (outs m) c) (V12 m (outs m) c) (R3.A_eq (tc (V11 m (outs m))) c) 4 rfl (V12_of m (outs m) c (Pipeline.arrRef spec3 4) (by decide))
  · exact inWin (pdats m) (p := 3) c (V11 m (outs m) c) (V12 m (outs m) c) (R3.A_eq (tc (V11 m (outs m))) c) 5 rfl (V12_of m (outs m) c (Pipeline.arrRef spec3 5) (by decide))
  · show (R3.dat (tc (V11 m (outs m))) c).arrAt 6 cfg3.N = Function.update (V11 m (outs m) c) main_v51 (outs m 12 main_v51 c) main_v51
    rw [Function.update_self, outs_12, V11_eq]; rfl
theorem hrest3 (c : Dev nD) (b : Ref sig .tc) (hb : b ∉ Finset.univ.image (Pipeline.arrRef spec3)) :
    V12 m (outs m) c b = V11 m (outs m) c b :=
  V12_of m (outs m) c b fun h => hb (by
    rw [List.mem_singleton.mp h]; exact Finset.mem_image.mpr ⟨6, Finset.mem_univ _, rfl⟩)

def reg3 : RegionSeg (pcfgs (F := F)) adm (pdats m) () defs₀ 𝒱₀ L lv 3 :=
  region (pdats m) 3 launch3 (V11 m (outs m)) (V12 m (outs m)) (fun c => R3.body_obligation (tc (V11 m (outs m))) c)
    (fun c => (pdats m 3 c).share_full fun _ => rfl) (fun _ _ => rfl) (fun _ _ => rfl)
    (fun c => R3.A_eq (tc (V11 m (outs m))) c) (fun c => R3.hin (tc (V11 m (outs m))) c) (fun c => R3.hout (tc (V11 m (outs m))) c)
    (hF3 m) (hrest3 m)

theorem hF4 (c : Dev nD) (w : Fin cfg4.W) :
    (pdats m 4 c).arrAt w cfg4.N = V14 m (outs m) c (Pipeline.arrRef spec4 w) := by
  fin_cases w
  · exact inWin (pdats m) (p := 4) c (V13 m (outs m) c) (V14 m (outs m) c) (R4.A_eq (tc (V13 m (outs m))) c) 0 rfl (V14_of m (outs m) c (Pipeline.arrRef spec4 0) (by decide))
  · exact inWin (pdats m) (p := 4) c (V13 m (outs m) c) (V14 m (outs m) c) (R4.A_eq (tc (V13 m (outs m))) c) 1 rfl (V14_of m (outs m) c (Pipeline.arrRef spec4 1) (by decide))
  · show (R4.dat (tc (V13 m (outs m))) c).arrAt 2 cfg4.N = Function.update (V13 m (outs m) c) main_v55 (outs m 14 main_v55 c) main_v55
    rw [Function.update_self, outs_14, V13_eq]; rfl
theorem hrest4 (c : Dev nD) (b : Ref sig .tc) (hb : b ∉ Finset.univ.image (Pipeline.arrRef spec4)) :
    V14 m (outs m) c b = V13 m (outs m) c b :=
  V14_of m (outs m) c b fun h => hb (by
    rw [List.mem_singleton.mp h]; exact Finset.mem_image.mpr ⟨2, Finset.mem_univ _, rfl⟩)

def reg4 : RegionSeg (pcfgs (F := F)) adm (pdats m) () defs₀ 𝒱₀ L lv 4 :=
  region (pdats m) 4 launch4 (V13 m (outs m)) (V14 m (outs m)) (fun c => R4.body_obligation (tc (V13 m (outs m))) c)
    (fun c => (pdats m 4 c).share_full fun _ => rfl) (fun _ _ => rfl) (fun _ _ => rfl)
    (fun c => R4.A_eq (tc (V13 m (outs m))) c) (fun c => R4.hin (tc (V13 m (outs m))) c) (fun c => R4.hout (tc (V13 m (outs m))) c)
    (hF4 m) (hrest4 m)

set_option maxHeartbeats 1600000 in
theorem hF5 (c : Dev nD) (w : Fin cfg5.W) :
    (pdats m 5 c).arrAt w cfg5.N = V15 m (outs m) c (Pipeline.arrRef spec5 w) := by
  fin_cases w
  · exact inWin (pdats m) (p := 5) c (V14 m (outs m) c) (V15 m (outs m) c) (R5.A_eq (tc (V14 m (outs m))) c) 0 rfl (V15_of m (outs m) c (Pipeline.arrRef spec5 0) (by decide))
  · exact inWin (pdats m) (p := 5) c (V14 m (outs m) c) (V15 m (outs m) c) (R5.A_eq (tc (V14 m (outs m))) c) 1 rfl (V15_of m (outs m) c (Pipeline.arrRef spec5 1) (by decide))
  · exact inWin (pdats m) (p := 5) c (V14 m (outs m) c) (V15 m (outs m) c) (R5.A_eq (tc (V14 m (outs m))) c) 2 rfl (V15_of m (outs m) c (Pipeline.arrRef spec5 2) (by decide))
  · exact inWin (pdats m) (p := 5) c (V14 m (outs m) c) (V15 m (outs m) c) (R5.A_eq (tc (V14 m (outs m))) c) 3 rfl (V15_of m (outs m) c (Pipeline.arrRef spec5 3) (by decide))
  · exact inWin (pdats m) (p := 5) c (V14 m (outs m) c) (V15 m (outs m) c) (R5.A_eq (tc (V14 m (outs m))) c) 4 rfl (V15_of m (outs m) c (Pipeline.arrRef spec5 4) (by decide))
  · exact inWin (pdats m) (p := 5) c (V14 m (outs m) c) (V15 m (outs m) c) (R5.A_eq (tc (V14 m (outs m))) c) 5 rfl (V15_of m (outs m) c (Pipeline.arrRef spec5 5) (by decide))
  · show (R5.dat (tc (V14 m (outs m))) c).arrAt 6 cfg5.N = Function.update (V14 m (outs m) c) main_v56 (outs m 15 main_v56 c) main_v56
    rw [Function.update_self, outs_15, V14_eq]; rfl
theorem hrest5 (c : Dev nD) (b : Ref sig .tc) (hb : b ∉ Finset.univ.image (Pipeline.arrRef spec5)) :
    V15 m (outs m) c b = V14 m (outs m) c b :=
  V15_of m (outs m) c b fun h => hb (by
    rw [List.mem_singleton.mp h]; exact Finset.mem_image.mpr ⟨6, Finset.mem_univ _, rfl⟩)

def reg5 : RegionSeg (pcfgs (F := F)) adm (pdats m) () defs₀ 𝒱₀ L lv 5 :=
  region (pdats m) 5 launch5 (V14 m (outs m)) (V15 m (outs m)) (fun c => R5.body_obligation (tc (V14 m (outs m))) c)
    (fun c => (pdats m 5 c).share_full fun _ => rfl) (fun _ _ => rfl) (fun _ _ => rfl)
    (fun c => R5.A_eq (tc (V14 m (outs m))) c) (fun c => R5.hin (tc (V14 m (outs m))) c) (fun c => R5.hout (tc (V14 m (outs m))) c)
    (hF5 m) (hrest5 m)

theorem hF6 (c : Dev nD) (w : Fin cfg6.W) :
    (pdats m 6 c).arrAt w cfg6.N = V16 m (outs m) c (Pipeline.arrRef spec6 w) := by
  fin_cases w
  · exact inWin (pdats m) (p := 6) c (V15 m (outs m) c) (V16 m (outs m) c) (R6.A_eq (tc (V15 m (outs m))) c) 0 rfl (V16_of m (outs m) c (Pipeline.arrRef spec6 0) (by decide))
  · exact inWin (pdats m) (p := 6) c (V15 m (outs m) c) (V16 m (outs m) c) (R6.A_eq (tc (V15 m (outs m))) c) 1 rfl (V16_of m (outs m) c (Pipeline.arrRef spec6 1) (by decide))
  · exact inWin (pdats m) (p := 6) c (V15 m (outs m) c) (V16 m (outs m) c) (R6.A_eq (tc (V15 m (outs m))) c) 2 rfl (V16_of m (outs m) c (Pipeline.arrRef spec6 2) (by decide))
  · show (R6.dat (tc (V15 m (outs m))) c).arrAt 3 cfg6.N = Function.update (V15 m (outs m) c) main_v57 (outs m 16 main_v57 c) main_v57
    rw [Function.update_self, outs_16, V15_eq]; rfl
theorem hrest6 (c : Dev nD) (b : Ref sig .tc) (hb : b ∉ Finset.univ.image (Pipeline.arrRef spec6)) :
    V16 m (outs m) c b = V15 m (outs m) c b :=
  V16_of m (outs m) c b fun h => hb (by
    rw [List.mem_singleton.mp h]; exact Finset.mem_image.mpr ⟨3, Finset.mem_univ _, rfl⟩)

def reg6 : RegionSeg (pcfgs (F := F)) adm (pdats m) () defs₀ 𝒱₀ L lv 6 :=
  region (pdats m) 6 launch6 (V15 m (outs m)) (V16 m (outs m)) (fun c => R6.body_obligation (tc (V15 m (outs m))) c)
    (fun c => (pdats m 6 c).share_full fun _ => rfl) (fun _ _ => rfl) (fun _ _ => rfl)
    (fun c => R6.A_eq (tc (V15 m (outs m))) c) (fun c => R6.hin (tc (V15 m (outs m))) c) (fun c => R6.hout (tc (V15 m (outs m))) c)
    (hF6 m) (hrest6 m)

set_option backward.isDefEq.respectTransparency.types false in

theorem run (ρ : Dev nD → PrngReg) :
    θ_run defs (onTc (τ := τ) (main (F := F))) ⟨m, fun _ => 0, ρ⟩ (fun r => ∀ c : Dev nD,
      r.2.mem ((c.tc : Thread nD τ).loc main_v57) = o16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L lv m ρ main
    (segs m (outs m) 𝒱₀ L lv Es () (pdats m) (reg0 m) (reg1 m) (reg2 m) (reg3 m) (reg4 m) (reg5 m) (reg6 m))
    (fun c Q => by
      rewrite [main_chain c, Seg.run_eq_chain,
        show (segs m (outs m) 𝒱₀ L lv Es () (pdats m) (reg0 m) (reg1 m) (reg2 m) (reg3 m) (reg4 m) (reg5 m) (reg6 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          Prog.lift (.customCall (Pipeline.entry 6) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by

      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => T (V0 m c) c)
    (Tₙ := fun c => StableHlo.held (c : Thread nD τ) (Pipeline.ucRefs τ sig) (V16 m (outs m) c))
    (hch := fun c => ⟨.rfl, .rfl, .rfl, .rfl, .rfl, .rfl, .rfl, .rfl, .rfl, .rfl, .rfl, .rfl, .rfl, .rfl, .rfl, .rfl, .rfl⟩)
    (hinit := by

      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v57) = o16 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)

  unfold StableHlo.held
  iintro ⟨Hh, HSI⟩
  ihave Hr := (pointsTo_read_all (Pipeline.ucRefs τ sig) (fun b => ((c : Thread nD τ).1, b)) (V16 m (outs m) c) s') $$ [Hh HSI]
  · isplitl [Hh] <;> iassumption
  icases Hr with ⟨%h, HSI⟩
  imodintro
  isplitr
  · ipureintro
    exact ⟨(h (Proc.devRef .tc main_v57) (Finset.mem_filter.mpr ⟨StableHlo.devRef_mem_tcRefs main_v57, by decide⟩)).trans
        ((Function.update_self (f := V15 m (outs m) c) (Proc.devRef .tc main_v57) (outs m 16 main_v57 c)).trans (outs_16 m c)),
      (h (Proc.devRef .tc main_arg0) (Finset.mem_filter.mpr ⟨StableHlo.devRef_mem_tcRefs main_arg0, by decide⟩)).trans (V16_main_arg0 m (outs m) c),
      (h (Proc.devRef .tc main_arg1) (Finset.mem_filter.mpr ⟨StableHlo.devRef_mem_tcRefs main_arg1, by decide⟩)).trans (V16_main_arg1 m (outs m) c),
      (h (Proc.devRef .tc main_arg2) (Finset.mem_filter.mpr ⟨StableHlo.devRef_mem_tcRefs main_arg2, by decide⟩)).trans (V16_main_arg2 m (outs m) c),
      (h (Proc.devRef .tc main_arg3) (Finset.mem_filter.mpr ⟨StableHlo.devRef_mem_tcRefs main_arg3, by decide⟩)).trans (V16_main_arg3 m (outs m) c),
      (h (Proc.devRef .tc main_arg4) (Finset.mem_filter.mpr ⟨StableHlo.devRef_mem_tcRefs main_arg4, by decide⟩)).trans (V16_main_arg4 m (outs m) c),
      (h (Proc.devRef .tc main_arg5) (Finset.mem_filter.mpr ⟨StableHlo.devRef_mem_tcRefs main_arg5, by decide⟩)).trans (V16_main_arg5 m (outs m) c),
      (h (Proc.devRef .tc main_arg6) (Finset.mem_filter.mpr ⟨StableHlo.devRef_mem_tcRefs main_arg6, by decide⟩)).trans (V16_main_arg6 m (outs m) c),
      (h (Proc.devRef .tc main_arg7) (Finset.mem_filter.mpr ⟨StableHlo.devRef_mem_tcRefs main_arg7, by decide⟩)).trans (V16_main_arg7 m (outs m) c),
      (h (Proc.devRef .tc main_arg8) (Finset.mem_filter.mpr ⟨StableHlo.devRef_mem_tcRefs main_arg8, by decide⟩)).trans (V16_main_arg8 m (outs m) c),
      (h (Proc.devRef .tc main_arg9) (Finset.mem_filter.mpr ⟨StableHlo.devRef_mem_tcRefs main_arg9, by decide⟩)).trans (V16_main_arg9 m (outs m) c),
      (h (Proc.devRef .tc main_arg10) (Finset.mem_filter.mpr ⟨StableHlo.devRef_mem_tcRefs main_arg10, by decide⟩)).trans (V16_main_arg10 m (outs m) c),
      (h (Proc.devRef .tc main_arg11) (Finset.mem_filter.mpr ⟨StableHlo.devRef_mem_tcRefs main_arg11, by decide⟩)).trans (V16_main_arg11 m (outs m) c)⟩
  · iexact HSI

-- The arguments alone: the run's post without the result's conjunct.
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun _ h c => (h c).2) (run m ρ)

end Cert.KernelIdeal.RunAll

end
-- ==== Proof.Spec.lean ====
import Idealize.ShloMosaic.PureOps.Ideal
import Idealize.ShloMosaic.Lib.ValueIdx

noncomputable section

open scoped BigOperators

namespace Gcn

open Idealize.ShloMosaic Idealize.ShloMosaic.ValueIdx

abbrev N : Nat := 50000
abbrev E : Nat := 800000
abbrev EP : Nat := 802816
abbrev H : Nat := 16
abbrev C : Nat := 300

abbrev SNH : Shape := ⟨2, ![50000, 16]⟩
abbrev SNC : Shape := ⟨2, ![50000, 300]⟩
abbrev SN1 : Shape := ⟨1, ![50000]⟩
abbrev SE1 : Shape := ⟨1, ![800000]⟩
abbrev SP1 : Shape := ⟨1, ![802816]⟩
abbrev SPH : Shape := ⟨2, ![802816, 16]⟩
abbrev SH1 : Shape := ⟨1, ![16]⟩
abbrev SC1 : Shape := ⟨1, ![300]⟩
abbrev SHH : Shape := ⟨2, ![16, 16]⟩
abbrev SHC : Shape := ⟨2, ![16, 300]⟩

def padI (v : SE1.Idx → BitVec 32) : SP1.Idx → BitVec 32 :=
  fun i => if h : (i 0).val < 800000 then v (ix1 ⟨(i 0).val, h⟩) else 0#32

def padF (v : SE1.Idx → EReal) : SP1.Idx → EReal :=
  fun i => if h : (i 0).val < 800000 then v (ix1 ⟨(i 0).val, h⟩) else 0

def gatherZ (src : SP1.Idx → BitVec 32) (y : SNH.Idx → EReal) : SPH.Idx → EReal :=
  fun j => if h : (src (ix1 ⟨(j 0).val, idx2_lt0 j⟩)).toNat < 50000
    then y (ix2 ⟨(src (ix1 ⟨(j 0).val, idx2_lt0 j⟩)).toNat, h⟩ ⟨(j 1).val, idx2_lt1 j⟩) else 0

theorem gatherZ_ix2 (src : SP1.Idx → BitVec 32) (y : SNH.Idx → EReal) (e : Fin 802816) (f : Fin 16) :
    gatherZ src y (ix2 e f) = if h : (src (ix1 e)).toNat < 50000 then y (ix2 ⟨(src (ix1 e)).toNat, h⟩ f) else 0 := rfl

def collect (dst : SP1.Idx → BitVec 32) (w : SPH.Idx → EReal) (r : Fin 50000) (f : Fin 16) : EReal :=
  ∑ e : Fin 802816, if (dst (ix1 e)).toNat = r.val then w (ix2 e f) else 0

def layerK (relu : Bool) (dst : SP1.Idx → BitVec 32) (nrm : SP1.Idx → EReal) (g : SPH.Idx → EReal)
    (self : SNH.Idx → EReal) (bias : SH1.Idx → EReal) (skip : SNH.Idx → EReal) : SNH.Idx → EReal :=
  fun j =>
    let r : Fin 50000 := ⟨(j 0).val, idx2_lt0 j⟩
    let f : Fin 16 := ⟨(j 1).val, idx2_lt1 j⟩
    let s := (collect dst (fun i => g i * nrm (ix1 ⟨(i 0).val, idx2_lt0 i⟩)) r f + self (ix2 r f)) + bias (ix1 f)
    (if relu then max s 0 else s) + skip (ix2 r f)

def wrapIdx (b : BitVec 32) : BitVec 32 := if b.toInt < 0 then b + 50000#32 else b

def rowOf (b : BitVec 32) : Fin 50000 := ⟨min (wrapIdx b).toInt.toNat 49999, by omega⟩

def layerR {F : Nat} (relu : Bool) (src dst : SE1.Idx → BitVec 32) (nrm : SE1.Idx → EReal) (sn : SN1.Idx → EReal)
    (y : (⟨2, ![50000, F]⟩ : Shape).Idx → EReal) (bias : (⟨1, ![F]⟩ : Shape).Idx → EReal) :
    (⟨2, ![50000, F]⟩ : Shape).Idx → EReal :=
  fun j =>
    let r : Fin 50000 := ⟨(j 0).val, idx2_lt0 j⟩
    let f : Fin F := ⟨(j 1).val, idx2_lt1 j⟩
    let s := ((0 + ∑ e ∈ Finset.univ.filter (fun e : Fin 800000 => (dst (ix1 e)).toInt = (r.val : Int)),
                y (ix2 (rowOf (src (ix1 e))) f) * nrm (ix1 e))
              + y (ix2 r f) * sn (ix1 r)) + bias (ix1 f)
    if relu then max s 0 else s

def mm {K M : Nat} (a : (⟨2, ![50000, K]⟩ : Shape).Idx → EReal) (W : (⟨2, ![K, M]⟩ : Shape).Idx → EReal) :
    (⟨2, ![50000, M]⟩ : Shape).Idx → EReal :=
  fun j => ∑ k : Fin K, a (ix2 ⟨(j 0).val, idx2_lt0 j⟩ k) * W (ix2 k ⟨(j 1).val, idx2_lt1 j⟩)

def logSoftmax (x : SNC.Idx → EReal) : SNC.Idx → EReal :=
  fun j =>
    let r : Fin 50000 := ⟨(j 0).val, idx2_lt0 j⟩
    let mx : EReal := Finset.univ.fold max ⊥ (fun q : Fin 300 => x (ix2 r q))
    (x j - mx) - Ideal.log (0 + ∑ q : Fin 300, Ideal.exp (x (ix2 r q) - mx))

end Gcn

end
-- ==== Proof.KernelHost.lean ====
import proofs.«148650_j55559696941682_1_alg».proof.Proof.Gen.KernelIdeal.Regions
import proofs.«148650_j55559696941682_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 1128

noncomputable section

open scoped BigOperators

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

def srcK (ei : S2x800000.Idx → BitVec 32) : S800000.Idx → BitVec 32 :=
  shapeCast S800000 (extractStridedSlice S1x800000 ![0, 0] ei slices_S2x800000_S1x800000_0_0) shapeCasts_S1x800000_S800000

def dstK (ei : S2x800000.Idx → BitVec 32) : S800000.Idx → BitVec 32 :=
  shapeCast S800000 (extractStridedSlice S1x800000 ![1, 0] ei slices_S2x800000_S1x800000_1_0) shapeCasts_S1x800000_S800000

def wrapK (v : S800000.Idx → BitVec 32) : S800000.Idx → BitVec 32 :=
  select (cmpi .slt v (broadcastInDim S800000 ![] bcast_S_S800000 (constantI S_ 32 0#32)))
    (addi v (broadcastInDim S800000 ![] bcast_S_S800000 (constantI S_ 32 50000#32))) v

def dinvK (F : FTy → Type) [FloatOps F] (ei : S2x800000.Idx → BitVec 32) : (⟨S50000, .f32⟩ : BufTy).Contents (Elt F) :=
  Host.rsqrt (addf
    (Host.scatterAdd scatter_S50000_S800000x1_S800000_n_0_0_1
      (broadcastInDim S50000 ![] bcast_S_S50000 (constant (F := F) S_ .f32 0x00000000#32))
      (broadcastInDim S800000x1 ![0] bcast_S800000_S800000x1_0 (dstK ei))
      (broadcastInDim S800000 ![] bcast_S_S800000 (constant (F := F) S_ .f32 0x3F800000#32)))
    (broadcastInDim S50000 ![] bcast_S_S50000 (constant (F := F) S_ .f32 0x3F800000#32)))

def nrmK (F : FTy → Type) [FloatOps F] (ei : S2x800000.Idx → BitVec 32) : (⟨S800000, .f32⟩ : BufTy).Contents (Elt F) :=
  mulf
    (Host.gather gather_S50000_S800000x1_S800000_n_0_n_n_0_1_1 (dinvK F ei)
      (broadcastInDim S800000x1 ![0] bcast_S800000_S800000x1_0 (wrapK (srcK ei))))
    (Host.gather gather_S50000_S800000x1_S800000_n_0_n_n_0_1_1 (dinvK F ei)
      (broadcastInDim S800000x1 ![0] bcast_S800000_S800000x1_0 (wrapK (dstK ei))))

def snK (F : FTy → Type) [FloatOps F] (ei : S2x800000.Idx → BitVec 32) : (⟨S50000, .f32⟩ : BufTy).Contents (Elt F) :=
  mulf (dinvK F ei) (dinvK F ei)

section Stretches

variable {F : FTy → Type} [FloatOps F] (W : Valuation τ sig (Elt F))

theorem ops0_v1 : (after hostOps0 W (Proc.devRef .tc main_v1) : S800000.Idx → BitVec 32) = srcK (W (Proc.devRef .tc main_arg1)) := by
  dsimp only [hostOps0]; after_results_simp; rfl
theorem ops0_v3 : (after hostOps0 W (Proc.devRef .tc main_v3) : S800000.Idx → BitVec 32) = dstK (W (Proc.devRef .tc main_arg1)) := by
  dsimp only [hostOps0]; after_results_simp; rfl
theorem ops0_c5 : (after hostOps0 W (Proc.devRef .tc main_c_5) : S_.Idx → BitVec 32) = constantI S_ 32 0#32 := by
  dsimp only [hostOps0]; after_results_simp
theorem ops0_v25 : (after hostOps0 W (Proc.devRef .tc main_v25) : (⟨S800000, .f32⟩ : BufTy).Contents (Elt F)) = nrmK F (W (Proc.devRef .tc main_arg1)) := by
  dsimp only [hostOps0]; after_results_simp; rfl
theorem ops0_v26 : (after hostOps0 W (Proc.devRef .tc main_v26) : (⟨S50000, .f32⟩ : BufTy).Contents (Elt F)) = snK F (W (Proc.devRef .tc main_arg1)) := by
  dsimp only [hostOps0]; after_results_simp; rfl

theorem ops01_v27 : (after hostOps0_1 W (Proc.devRef .tc main_v27) : S802816.Idx → BitVec 32)
    = pad S802816 ![0] ![2816] ![0] (W (Proc.devRef .tc main_v1) : S800000.Idx → BitVec 32) (W (Proc.devRef .tc main_c_5) : S_.Idx → BitVec 32) pads_S800000_S802816_028160 h_S_ := by
  dsimp only [hostOps0_1]; after_results; rfl
theorem ops02_c6 : (after hostOps0_2 W (Proc.devRef .tc main_c_6) : S_.Idx → BitVec 32) = constantI S_ 32 0#32 := by
  dsimp only [hostOps0_2]; after_results
theorem ops03_v28 : (after hostOps0_3 W (Proc.devRef .tc main_v28) : S802816.Idx → BitVec 32)
    = pad S802816 ![0] ![2816] ![0] (W (Proc.devRef .tc main_v3) : S800000.Idx → BitVec 32) (W (Proc.devRef .tc main_c_6) : S_.Idx → BitVec 32) pads_S800000_S802816_028160 h_S_ := by
  dsimp only [hostOps0_3]; after_results; rfl
theorem ops04_c7 : (after hostOps0_4 W (Proc.devRef .tc main_c_7) : S_.Idx → BitVec 32) = constantI S_ 32 0#32 := by
  dsimp only [hostOps0_4]; after_results
theorem ops05_v29 : (after hostOps0_5 W (Proc.devRef .tc main_v29) : (⟨S802816, .f32⟩ : BufTy).Contents (Elt F))
    = pad S802816 ![0] ![2816] ![0] (W (Proc.devRef .tc main_v25) : (⟨S800000, .f32⟩ : BufTy).Contents (Elt F))
        (sitofp .f32 (W (Proc.devRef .tc main_c_7) : S_.Idx → BitVec 32) : (⟨S_, .f32⟩ : BufTy).Contents (Elt F)) pads_S800000_S802816_028160 h_S_ := by
  dsimp only [hostOps0_5]; after_results; rfl

theorem ops06_v30 : (after hostOps0_6 W (Proc.devRef .tc main_v30) : (⟨S50000x16, .f32⟩ : BufTy).Contents (Elt F))
    = broadcastInDim S50000x16 ![] bcast_S_S50000x16 (constant (F := F) S_ .f32 0x00000000#32) := by
  dsimp only [hostOps0_6]; after_results
theorem ops06_v31 : (after hostOps0_6 W (Proc.devRef .tc main_v31) : (⟨S16, .f32⟩ : BufTy).Contents (Elt F))
    = broadcastInDim S16 ![] bcast_S_S16 (constant (F := F) S_ .f32 0x00000000#32) := by
  dsimp only [hostOps0_6]; after_results
theorem ops06_v32 : (after hostOps0_6 W (Proc.devRef .tc main_v32) : (⟨S50000x16, .f32⟩ : BufTy).Contents (Elt F))
    = Host.dotGeneral dot_S50000x128_S128x16_S50000x16_1_0_0_1_n_n none
        (W (Proc.devRef .tc main_arg0) : (⟨S50000x128, .f32⟩ : BufTy).Contents (Elt F)) (W (Proc.devRef .tc main_arg2) : (⟨S128x16, .f32⟩ : BufTy).Contents (Elt F)) := by
  dsimp only [hostOps0_6]; after_results
theorem ops06_v36 : (after hostOps0_6 W (Proc.devRef .tc main_v36) : (⟨S50000x16, .f32⟩ : BufTy).Contents (Elt F))
    = addf (Host.dotGeneral dot_S50000x128_S128x16_S50000x16_1_0_0_1_n_n none
          (W (Proc.devRef .tc main_arg0) : (⟨S50000x128, .f32⟩ : BufTy).Contents (Elt F)) (W (Proc.devRef .tc main_arg4) : (⟨S128x16, .f32⟩ : BufTy).Contents (Elt F)))
        (broadcastInDim S50000x16 ![0, 1] bcast_S1x16_S50000x16_0_1 (broadcastInDim S1x16 ![1] bcast_S16_S1x16_1
          (W (Proc.devRef .tc main_arg5) : (⟨S16, .f32⟩ : BufTy).Contents (Elt F)))) := by
  dsimp only [hostOps0_6]; after_results
theorem ops06_v39 : (after hostOps0_6 W (Proc.devRef .tc main_v39) : (⟨S50000x16, .f32⟩ : BufTy).Contents (Elt F))
    = mulf (Host.dotGeneral dot_S50000x128_S128x16_S50000x16_1_0_0_1_n_n none
          (W (Proc.devRef .tc main_arg0) : (⟨S50000x128, .f32⟩ : BufTy).Contents (Elt F)) (W (Proc.devRef .tc main_arg2) : (⟨S128x16, .f32⟩ : BufTy).Contents (Elt F)))
        (broadcastInDim S50000x16 ![0, 1] bcast_S50000x1_S50000x16_0_1 (broadcastInDim S50000x1 ![0] bcast_S50000_S50000x1_0
          (W (Proc.devRef .tc main_v26) : (⟨S50000, .f32⟩ : BufTy).Contents (Elt F)))) := by
  dsimp only [hostOps0_6]; after_results

theorem ops2_v42 : (after hostOps2 W (Proc.devRef .tc main_v42) : (⟨S50000x16, .f32⟩ : BufTy).Contents (Elt F))
    = Host.dotGeneral dot_S50000x16_S16x16_S50000x16_1_0_0_1_n_n none
        (W (Proc.devRef .tc main_v41) : (⟨S50000x16, .f32⟩ : BufTy).Contents (Elt F)) (W (Proc.devRef .tc main_arg6) : (⟨S16x16, .f32⟩ : BufTy).Contents (Elt F)) := by
  dsimp only [hostOps2]; after_results
theorem ops2_v46 : (after hostOps2 W (Proc.devRef .tc main_v46) : (⟨S50000x16, .f32⟩ : BufTy).Contents (Elt F))
    = addf (Host.dotGeneral dot_S50000x16_S16x16_S50000x16_1_0_0_1_n_n none
          (W (Proc.devRef .tc main_v41) : (⟨S50000x16, .f32⟩ : BufTy).Contents (Elt F)) (W (Proc.devRef .tc main_arg8) : (⟨S16x16, .f32⟩ : BufTy).Contents (Elt F)))
        (broadcastInDim S50000x16 ![0, 1] bcast_S1x16_S50000x16_0_1 (broadcastInDim S1x16 ![1] bcast_S16_S1x16_1
          (W (Proc.devRef .tc main_arg9) : (⟨S16, .f32⟩ : BufTy).Contents (Elt F)))) := by
  dsimp only [hostOps2]; after_results
theorem ops2_v49 : (after hostOps2 W (Proc.devRef .tc main_v49) : (⟨S50000x16, .f32⟩ : BufTy).Contents (Elt F))
    = mulf (Host.dotGeneral dot_S50000x16_S16x16_S50000x16_1_0_0_1_n_n none
          (W (Proc.devRef .tc main_v41) : (⟨S50000x16, .f32⟩ : BufTy).Contents (Elt F)) (W (Proc.devRef .tc main_arg6) : (⟨S16x16, .f32⟩ : BufTy).Contents (Elt F)))
        (broadcastInDim S50000x16 ![0, 1] bcast_S50000x1_S50000x16_0_1 (broadcastInDim S50000x1 ![0] bcast_S50000_S50000x1_0
          (W (Proc.devRef .tc main_v26) : (⟨S50000, .f32⟩ : BufTy).Contents (Elt F)))) := by
  dsimp only [hostOps2]; after_results
theorem ops4_v54 : (after hostOps4 W (Proc.devRef .tc main_v54) : (⟨S50000x16, .f32⟩ : BufTy).Contents (Elt F))
    = mulf (W (Proc.devRef .tc main_v51) : (⟨S50000x16, .f32⟩ : BufTy).Contents (Elt F))
        (broadcastInDim S50000x16 ![0, 1] bcast_S50000x1_S50000x16_0_1 (broadcastInDim S50000x1 ![0] bcast_S50000_S50000x1_0
          (W (Proc.devRef .tc main_v26) : (⟨S50000, .f32⟩ : BufTy).Contents (Elt F)))) := by
  dsimp only [hostOps4]; after_results

end Stretches

section Chains

variable {F : FTy → Type} [FloatOps F] (m : (ℓ : Loc nD τ sig) → Buf (Elt F) ℓ) (outs : Outs (F := F)) (c : Dev nD)

abbrev aX : (⟨S50000x128, .f32⟩ : BufTy).Contents (Elt F) := V0 m c main_arg0
abbrev aEi : S2x800000.Idx → BitVec 32 := V0 m c main_arg1
abbrev aW1 : (⟨S128x16, .f32⟩ : BufTy).Contents (Elt F) := V0 m c main_arg2
abbrev aB1 : (⟨S16, .f32⟩ : BufTy).Contents (Elt F) := V0 m c main_arg3
abbrev aWl1 : (⟨S128x16, .f32⟩ : BufTy).Contents (Elt F) := V0 m c main_arg4
abbrev aBl1 : (⟨S16, .f32⟩ : BufTy).Contents (Elt F) := V0 m c main_arg5
abbrev aW2 : (⟨S16x16, .f32⟩ : BufTy).Contents (Elt F) := V0 m c main_arg6
abbrev aB2 : (⟨S16, .f32⟩ : BufTy).Contents (Elt F) := V0 m c main_arg7
abbrev aWl2 : (⟨S16x16, .f32⟩ : BufTy).Contents (Elt F) := V0 m c main_arg8
abbrev aBl2 : (⟨S16, .f32⟩ : BufTy).Contents (Elt F) := V0 m c main_arg9
abbrev aWo : (⟨S16x300, .f32⟩ : BufTy).Contents (Elt F) := V0 m c main_arg10
abbrev aBo : (⟨S300, .f32⟩ : BufTy).Contents (Elt F) := V0 m c main_arg11

theorem V1_v1 : (V1 m c main_v1 : S800000.Idx → BitVec 32) = srcK (aEi m c) := ops0_v1 (V0 m c)
theorem V1_v3 : (V1 m c main_v3 : S800000.Idx → BitVec 32) = dstK (aEi m c) := ops0_v3 (V0 m c)
theorem V1_c5 : (V1 m c main_c_5 : S_.Idx → BitVec 32) = constantI S_ 32 0#32 := ops0_c5 (V0 m c)
theorem V1_v25 : (V1 m c main_v25 : (⟨S800000, .f32⟩ : BufTy).Contents (Elt F)) = nrmK F (aEi m c) := ops0_v25 (V0 m c)
theorem V1_v26 : (V1 m c main_v26 : (⟨S50000, .f32⟩ : BufTy).Contents (Elt F)) = snK F (aEi m c) := ops0_v26 (V0 m c)

theorem V2_v27 : (V2 m c main_v27 : S802816.Idx → BitVec 32) = pad S802816 ![0] ![2816] ![0] (srcK (aEi m c)) (constantI S_ 32 0#32) pads_S800000_S802816_028160 h_S_ := by
  have e := ops01_v27 (V1 m c)
  rw [V1_v1 m c, V1_c5 m c] at e
  exact e
theorem V3_v3 : (V3 m c main_v3 : S800000.Idx → BitVec 32) = dstK (aEi m c) :=
  ((V3_of m c main_v3 (by decide)).trans <| (V2_of m c main_v3 (by decide))).trans (V1_v3 m c)
theorem V3_c6 : (V3 m c main_c_6 : S_.Idx → BitVec 32) = constantI S_ 32 0#32 := ops02_c6 (V2 m c)
theorem V4_v28 : (V4 m c main_v28 : S802816.Idx → BitVec 32) = pad S802816 ![0] ![2816] ![0] (dstK (aEi m c)) (constantI S_ 32 0#32) pads_S800000_S802816_028160 h_S_ := by
  have e := ops03_v28 (V3 m c)
  rw [V3_v3 m c, V3_c6 m c] at e
  exact e
theorem V5_v25 : (V5 m c main_v25 : (⟨S800000, .f32⟩ : BufTy).Contents (Elt F)) = nrmK F (aEi m c) :=
  ((V5_of m c main_v25 (by decide)).trans <| (V4_of m c main_v25 (by decide)).trans <| (V3_of m c main_v25 (by decide)).trans <| (V2_of m c main_v25 (by decide))).trans (V1_v25 m c)
theorem V5_c7 : (V5 m c main_c_7 : S_.Idx → BitVec 32) = constantI S_ 32 0#32 := ops04_c7 (V4 m c)
theorem V6_v29 : (V6 m c main_v29 : (⟨S802816, .f32⟩ : BufTy).Contents (Elt F)) = pad S802816 ![0] ![2816] ![0] (nrmK F (aEi m c)) (sitofp .f32 (constantI S_ 32 0#32) : (⟨S_, .f32⟩ : BufTy).Contents (Elt F)) pads_S800000_S802816_028160 h_S_ := by
  have e := ops05_v29 (V5 m c)
  rw [V5_v25 m c, V5_c7 m c] at e
  exact e

theorem V6_arg0 : (V6 m c main_arg0 : (⟨S50000x128, .f32⟩ : BufTy).Contents (Elt F)) = aX m c := (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem V6_arg2 : (V6 m c main_arg2 : (⟨S128x16, .f32⟩ : BufTy).Contents (Elt F)) = aW1 m c := (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem V6_arg4 : (V6 m c main_arg4 : (⟨S128x16, .f32⟩ : BufTy).Contents (Elt F)) = aWl1 m c := (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
theorem V6_arg5 : (V6 m c main_arg5 : (⟨S16, .f32⟩ : BufTy).Contents (Elt F)) = aBl1 m c := (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem V6_v26 : (V6 m c main_v26 : (⟨S50000, .f32⟩ : BufTy).Contents (Elt F)) = snK F (aEi m c) :=
  ((V6_of m c main_v26 (by decide)).trans <| (V5_of m c main_v26 (by decide)).trans <| (V4_of m c main_v26 (by decide)).trans <| (V3_of m c main_v26 (by decide)).trans <| (V2_of m c main_v26 (by decide))).trans (V1_v26 m c)

theorem V7_v30 : (V7 m c main_v30 : (⟨S50000x16, .f32⟩ : BufTy).Contents (Elt F)) = broadcastInDim S50000x16 ![] bcast_S_S50000x16 (constant (F := F) S_ .f32 0x00000000#32) :=
  ops06_v30 (V6 m c)
theorem V7_v31 : (V7 m c main_v31 : (⟨S16, .f32⟩ : BufTy).Contents (Elt F)) = broadcastInDim S16 ![] bcast_S_S16 (constant (F := F) S_ .f32 0x00000000#32) :=
  ops06_v31 (V6 m c)
theorem V7_v32 : (V7 m c main_v32 : (⟨S50000x16, .f32⟩ : BufTy).Contents (Elt F)) = Host.dotGeneral dot_S50000x128_S128x16_S50000x16_1_0_0_1_n_n none (aX m c) (aW1 m c) := by
  have e := ops06_v32 (V6 m c)
  rw [V6_arg0 m c, V6_arg2 m c] at e
  exact e
theorem V7_v36 : (V7 m c main_v36 : (⟨S50000x16, .f32⟩ : BufTy).Contents (Elt F)) = addf (Host.dotGeneral dot_S50000x128_S128x16_S50000x16_1_0_0_1_n_n none (aX m c) (aWl1 m c)) (broadcastInDim S50000x16 ![0, 1] bcast_S1x16_S50000x16_0_1 (broadcastInDim S1x16 ![1] bcast_S16_S1x16_1 (aBl1 m c))) := by
  have e := ops06_v36 (V6 m c)
  rw [V6_arg0 m c, V6_arg4 m c, V6_arg5 m c] at e
  exact e
theorem V7_v39 : (V7 m c main_v39 : (⟨S50000x16, .f32⟩ : BufTy).Contents (Elt F)) = mulf (Host.dotGeneral dot_S50000x128_S128x16_S50000x16_1_0_0_1_n_n none (aX m c) (aW1 m c)) (broadcastInDim S50000x16 ![0, 1] bcast_S50000x1_S50000x16_0_1 (broadcastInDim S50000x1 ![0] bcast_S50000_S50000x1_0 (snK F (aEi m c)))) := by
  have e := ops06_v39 (V6 m c)
  rw [V6_arg0 m c, V6_arg2 m c, V6_v26 m c] at e
  exact e

theorem V7_v25 : (V7 m c main_v25 : (⟨S800000, .f32⟩ : BufTy).Contents (Elt F)) = nrmK F (aEi m c) :=
  ((V7_of m c main_v25 (by decide)).trans <| (V6_of m c main_v25 (by decide)).trans <| (V5_of m c main_v25 (by decide)).trans <| (V4_of m c main_v25 (by decide)).trans <| (V3_of m c main_v25 (by decide)).trans <| (V2_of m c main_v25 (by decide))).trans (V1_v25 m c)
theorem V7_v26 : (V7 m c main_v26 : (⟨S50000, .f32⟩ : BufTy).Contents (Elt F)) = snK F (aEi m c) :=
  ((V7_of m c main_v26 (by decide)).trans <| (V6_of m c main_v26 (by decide)).trans <| (V5_of m c main_v26 (by decide)).trans <| (V4_of m c main_v26 (by decide)).trans <| (V3_of m c main_v26 (by decide)).trans <| (V2_of m c main_v26 (by decide))).trans (V1_v26 m c)
theorem V7_v27 : (V7 m c main_v27 : S802816.Idx → BitVec 32) = pad S802816 ![0] ![2816] ![0] (srcK (aEi m c)) (constantI S_ 32 0#32) pads_S800000_S802816_028160 h_S_ :=
  ((V7_of m c main_v27 (by decide)).trans <| (V6_of m c main_v27 (by decide)).trans <| (V5_of m c main_v27 (by decide)).trans <| (V4_of m c main_v27 (by decide)).trans <| (V3_of m c main_v27 (by decide))).trans (V2_v27 m c)
theorem V7_v28 : (V7 m c main_v28 : S802816.Idx → BitVec 32) = pad S802816 ![0] ![2816] ![0] (dstK (aEi m c)) (constantI S_ 32 0#32) pads_S800000_S802816_028160 h_S_ :=
  ((V7_of m c main_v28 (by decide)).trans <| (V6_of m c main_v28 (by decide)).trans <| (V5_of m c main_v28 (by decide))).trans (V4_v28 m c)
theorem V7_v29 : (V7 m c main_v29 : (⟨S802816, .f32⟩ : BufTy).Contents (Elt F)) = pad S802816 ![0] ![2816] ![0] (nrmK F (aEi m c)) (sitofp .f32 (constantI S_ 32 0#32) : (⟨S_, .f32⟩ : BufTy).Contents (Elt F)) pads_S800000_S802816_028160 h_S_ :=
  ((V7_of m c main_v29 (by decide))).trans (V6_v29 m c)
theorem V7_arg3 : (V7 m c main_arg3 : (⟨S16, .f32⟩ : BufTy).Contents (Elt F)) = aB1 m c := (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))

theorem V9_v41 : V9 m outs c main_v41 = outs 9 main_v41 c := by
  simp only [V9, Function.update_self]
theorem V9_arg6 : (V9 m outs c main_arg6 : (⟨S16x16, .f32⟩ : BufTy).Contents (Elt F)) = aW2 m c := (V9_of m outs c main_arg6 (by decide)).trans <| (V8_of m outs c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
theorem V9_arg8 : (V9 m outs c main_arg8 : (⟨S16x16, .f32⟩ : BufTy).Contents (Elt F)) = aWl2 m c := (V9_of m outs c main_arg8 (by decide)).trans <| (V8_of m outs c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
theorem V9_arg9 : (V9 m outs c main_arg9 : (⟨S16, .f32⟩ : BufTy).Contents (Elt F)) = aBl2 m c := (V9_of m outs c main_arg9 (by decide)).trans <| (V8_of m outs c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
theorem V9_v26 : (V9 m outs c main_v26 : (⟨S50000, .f32⟩ : BufTy).Contents (Elt F)) = snK F (aEi m c) :=
  ((V9_of m outs c main_v26 (by decide)).trans <| (V8_of m outs c main_v26 (by decide))).trans (V7_v26 m c)

theorem V10_v42 : (V10 m outs c main_v42 : (⟨S50000x16, .f32⟩ : BufTy).Contents (Elt F)) = Host.dotGeneral dot_S50000x16_S16x16_S50000x16_1_0_0_1_n_n none (outs 9 main_v41 c : (⟨S50000x16, .f32⟩ : BufTy).Contents (Elt F)) (aW2 m c) := by
  have e := ops2_v42 (V9 m outs c)
  rw [V9_v41 m outs c, V9_arg6 m outs c] at e
  exact e
theorem V10_v46 : (V10 m outs c main_v46 : (⟨S50000x16, .f32⟩ : BufTy).Contents (Elt F)) = addf (Host.dotGeneral dot_S50000x16_S16x16_S50000x16_1_0_0_1_n_n none (outs 9 main_v41 c : (⟨S50000x16, .f32⟩ : BufTy).Contents (Elt F)) (aWl2 m c)) (broadcastInDim S50000x16 ![0, 1] bcast_S1x16_S50000x16_0_1 (broadcastInDim S1x16 ![1] bcast_S16_S1x16_1 (aBl2 m c))) := by
  have e := ops2_v46 (V9 m outs c)
  rw [V9_v41 m outs c, V9_arg8 m outs c, V9_arg9 m outs c] at e
  exact e
theorem V10_v49 : (V10 m outs c main_v49 : (⟨S50000x16, .f32⟩ : BufTy).Contents (Elt F)) = mulf (Host.dotGeneral dot_S50000x16_S16x16_S50000x16_1_0_0_1_n_n none (outs 9 main_v41 c : (⟨S50000x16, .f32⟩ : BufTy).Contents (Elt F)) (aW2 m c)) (broadcastInDim S50000x16 ![0, 1] bcast_S50000x1_S50000x16_0_1 (broadcastInDim S50000x1 ![0] bcast_S50000_S50000x1_0 (snK F (aEi m c)))) := by
  have e := ops2_v49 (V9 m outs c)
  rw [V9_v41 m outs c, V9_arg6 m outs c, V9_v26 m outs c] at e
  exact e

theorem V12_v51 : V12 m outs c main_v51 = outs 12 main_v51 c := by
  simp only [V12, Function.update_self]
theorem V12_v26 : (V12 m outs c main_v26 : (⟨S50000, .f32⟩ : BufTy).Contents (Elt F)) = snK F (aEi m c) :=
  ((V12_of m outs c main_v26 (by decide)).trans <| (V11_of m outs c main_v26 (by decide)).trans <| (V10_of m outs c main_v26 (by decide))).trans (V9_v26 m outs c)
theorem V13_v54 : (V13 m outs c main_v54 : (⟨S50000x16, .f32⟩ : BufTy).Contents (Elt F)) = mulf (outs 12 main_v51 c : (⟨S50000x16, .f32⟩ : BufTy).Contents (Elt F)) (broadcastInDim S50000x16 ![0, 1] bcast_S50000x1_S50000x16_0_1 (broadcastInDim S50000x1 ![0] bcast_S50000_S50000x1_0 (snK F (aEi m c)))) := by
  have e := ops4_v54 (V12 m outs c)
  rw [V12_v51 m outs c, V12_v26 m outs c] at e
  exact e

end Chains

section Read

def row (ei : S2x800000.Idx → BitVec 32) (r : Fin 2) : Gcn.SE1.Idx → BitVec 32 :=
  fun i => ei (ix2 r ⟨(i 0).val, (i 0).isLt⟩)

theorem row_apply (ei : S2x800000.Idx → BitVec 32) (r : Fin 2) (i : Gcn.SE1.Idx) :
    row ei r i = ei (ix2 r ⟨(i 0).val, (i 0).isLt⟩) := rfl

theorem srcK_eq (ei : S2x800000.Idx → BitVec 32) : srcK ei = row ei 0 := by
  funext i
  unfold srcK
  rw [shapeCast_apply _ shapeCasts_S1x800000_S800000 i (ix2 (0 : Fin 1) ⟨(i 0).val, (i 0).isLt⟩)
    (by rewrite [Shape.rowMajor_val_two, Shape.rowMajor_val_one]; show 0 * 800000 + (i 0).val = (i 0).val; omega)]
  exact extractStridedSlice_apply ![0, 0] ei slices_S2x800000_S1x800000_0_0 _ (ix2 (0 : Fin 2) ⟨(i 0).val, (i 0).isLt⟩) (fun a => match a with
    | ⟨0, _⟩ => by show (0 : ℕ) = 0 + 0; rfl
    | ⟨1, _⟩ => by show (i 0).val = 0 + (i 0).val; omega)

theorem dstK_eq (ei : S2x800000.Idx → BitVec 32) : dstK ei = row ei 1 := by
  funext i
  unfold dstK
  rw [shapeCast_apply _ shapeCasts_S1x800000_S800000 i (ix2 (0 : Fin 1) ⟨(i 0).val, (i 0).isLt⟩)
    (by rewrite [Shape.rowMajor_val_two, Shape.rowMajor_val_one]; show 0 * 800000 + (i 0).val = (i 0).val; omega)]
  exact extractStridedSlice_apply ![1, 0] ei slices_S2x800000_S1x800000_1_0 _ (ix2 (1 : Fin 2) ⟨(i 0).val, (i 0).isLt⟩) (fun a => match a with
    | ⟨0, _⟩ => by show (1 : ℕ) = 1 + 0; rfl
    | ⟨1, _⟩ => by show (i 0).val = 0 + (i 0).val; omega)

theorem pad_padI (v : S800000.Idx → BitVec 32) :
    pad S802816 ![0] ![2816] ![0] v (constantI S_ 32 0#32) pads_S800000_S802816_028160 h_S_ = Gcn.padI v := by
  funext j
  show _ = if h : (j 0).val < 800000 then v (ix1 ⟨(j 0).val, h⟩) else 0#32
  by_cases h : (j 0).val < 800000
  · rw [dif_pos h]
    exact pad_apply_of_inside ![0] ![2816] ![0] v _ pads_S800000_S802816_028160 h_S_ j (ix1 ⟨(j 0).val, h⟩) (fun a => match a with
      | ⟨0, _⟩ => by show (j 0).val = 0 + (j 0).val * 1; omega)
  · rw [dif_neg h]
    exact pad_apply_of_not_inside ![0] ![2816] ![0] v _ pads_S800000_S802816_028160 h_S_ j ⟨0, by decide⟩ (by
      show ¬(0 ≤ (j 0).val ∧ ((j 0).val - 0) % 1 = 0 ∧ ((j 0).val - 0) / 1 < 800000)
      omega)

theorem pad_padF (v : (⟨S800000, .f32⟩ : BufTy).Contents (Elt Ideal)) :
    pad S802816 ![0] ![2816] ![0] v (sitofp (F := Ideal) .f32 (constantI S_ 32 0#32)) pads_S800000_S802816_028160 h_S_ = Gcn.padF v := by
  funext j
  show _ = if h : (j 0).val < 800000 then v (ix1 ⟨(j 0).val, h⟩) else 0
  by_cases h : (j 0).val < 800000
  · rw [dif_pos h]
    exact pad_apply_of_inside ![0] ![2816] ![0] v _ pads_S800000_S802816_028160 h_S_ j (ix1 ⟨(j 0).val, h⟩) (fun a => match a with
      | ⟨0, _⟩ => by show (j 0).val = 0 + (j 0).val * 1; omega)
  · rw [dif_neg h, pad_apply_of_not_inside ![0] ![2816] ![0] v _ pads_S800000_S802816_028160 h_S_ j ⟨0, by decide⟩ (by
      show ¬(0 ≤ (j 0).val ∧ ((j 0).val - 0) % 1 = 0 ∧ ((j 0).val - 0) / 1 < 800000)
      omega)]
    exact sitofp_zero (φ := .f32)

theorem lhs128_0 (i : S50000x16.Idx) (q : dot_S50000x128_S128x16_S50000x16_1_0_0_1_n_n.contr.Idx) :
    (dot_S50000x128_S128x16_S50000x16_1_0_0_1_n_n.lhsIdx i q 0).val = (i 0).val := by
  unfold DotDims.lhsIdx
  rw [dif_neg (show ¬(0 : Fin S50000x128.rank) ∈ dot_S50000x128_S128x16_S50000x16_1_0_0_1_n_n.lhsBatch by decide), dif_pos (show (0 : Fin S50000x128.rank) ∈ dot_S50000x128_S128x16_S50000x16_1_0_0_1_n_n.lhsNonContracting by decide)]
  rfl
theorem lhs128_1 (i : S50000x16.Idx) (q : dot_S50000x128_S128x16_S50000x16_1_0_0_1_n_n.contr.Idx) :
    (dot_S50000x128_S128x16_S50000x16_1_0_0_1_n_n.lhsIdx i q 1).val = (q ⟨0, by decide⟩).val :=
  dot_S50000x128_S128x16_S50000x16_1_0_0_1_n_n.lhsIdx_val_of_single rfl i q
theorem rhs128_0 (i : S50000x16.Idx) (q : dot_S50000x128_S128x16_S50000x16_1_0_0_1_n_n.contr.Idx) :
    (dot_S50000x128_S128x16_S50000x16_1_0_0_1_n_n.rhsIdx i q 0).val = (q ⟨0, by decide⟩).val :=
  dot_S50000x128_S128x16_S50000x16_1_0_0_1_n_n.rhsIdx_val_of_single rfl i q
theorem rhs128_1 (i : S50000x16.Idx) (q : dot_S50000x128_S128x16_S50000x16_1_0_0_1_n_n.contr.Idx) :
    (dot_S50000x128_S128x16_S50000x16_1_0_0_1_n_n.rhsIdx i q 1).val = (i 1).val := by
  unfold DotDims.rhsIdx
  rw [dif_neg (show ¬(1 : Fin S128x16.rank) ∈ dot_S50000x128_S128x16_S50000x16_1_0_0_1_n_n.rhsBatch by decide), dif_pos (show (1 : Fin S128x16.rank) ∈ dot_S50000x128_S128x16_S50000x16_1_0_0_1_n_n.rhsNonContracting by decide)]
  rfl

theorem dot128_mm (a : FVec Ideal S50000x128 .f32) (w : FVec Ideal S128x16 .f32) :
    Host.dotGeneral (F := Ideal) dot_S50000x128_S128x16_S50000x16_1_0_0_1_n_n none a w = Gcn.mm a w := by
  funext i
  show _ = ∑ k : Fin 128, a (ix2 ⟨(i 0).val, idx2_lt0 i⟩ k) * w (ix2 k ⟨(i 1).val, idx2_lt1 i⟩)
  simp only [Host.dotGeneral]
  rw [Ideal.dotGeneral_apply, ← Equiv.sum_comp (ValueIdx.contrEquiv1 dot_S50000x128_S128x16_S50000x16_1_0_0_1_n_n 128 rfl rfl).symm]
  refine Finset.sum_congr rfl fun k _ => ?_
  have hk := ValueIdx.contrEquiv1_symm_val dot_S50000x128_S128x16_S50000x16_1_0_0_1_n_n 128 rfl rfl k
  have el : dot_S50000x128_S128x16_S50000x16_1_0_0_1_n_n.lhsIdx i ((ValueIdx.contrEquiv1 dot_S50000x128_S128x16_S50000x16_1_0_0_1_n_n 128 rfl rfl).symm k) = ix2 ⟨(i 0).val, idx2_lt0 i⟩ k := funext fun a => Fin.ext (by
    match a with
    | ⟨0, _⟩ => exact lhs128_0 _ _
    | ⟨1, _⟩ => exact (lhs128_1 _ _).trans hk)
  have er : dot_S50000x128_S128x16_S50000x16_1_0_0_1_n_n.rhsIdx i ((ValueIdx.contrEquiv1 dot_S50000x128_S128x16_S50000x16_1_0_0_1_n_n 128 rfl rfl).symm k) = ix2 k ⟨(i 1).val, idx2_lt1 i⟩ := funext fun a => Fin.ext (by
    match a with
    | ⟨0, _⟩ => exact (rhs128_0 _ _).trans hk
    | ⟨1, _⟩ => exact rhs128_1 _ _)
  rw [el, er]

theorem lhs16_0 (i : S50000x16.Idx) (q : dot_S50000x16_S16x16_S50000x16_1_0_0_1_n_n.contr.Idx) :
    (dot_S50000x16_S16x16_S50000x16_1_0_0_1_n_n.lhsIdx i q 0).val = (i 0).val := by
  unfold DotDims.lhsIdx
  rw [dif_neg (show ¬(0 : Fin S50000x16.rank) ∈ dot_S50000x16_S16x16_S50000x16_1_0_0_1_n_n.lhsBatch by decide), dif_pos (show (0 : Fin S50000x16.rank) ∈ dot_S50000x16_S16x16_S50000x16_1_0_0_1_n_n.lhsNonContracting by decide)]
  rfl
theorem lhs16_1 (i : S50000x16.Idx) (q : dot_S50000x16_S16x16_S50000x16_1_0_0_1_n_n.contr.Idx) :
    (dot_S50000x16_S16x16_S50000x16_1_0_0_1_n_n.lhsIdx i q 1).val = (q ⟨0, by decide⟩).val :=
  dot_S50000x16_S16x16_S50000x16_1_0_0_1_n_n.lhsIdx_val_of_single rfl i q
theorem rhs16_0 (i : S50000x16.Idx) (q : dot_S50000x16_S16x16_S50000x16_1_0_0_1_n_n.contr.Idx) :
    (dot_S50000x16_S16x16_S50000x16_1_0_0_1_n_n.rhsIdx i q 0).val = (q ⟨0, by decide⟩).val :=
  dot_S50000x16_S16x16_S50000x16_1_0_0_1_n_n.rhsIdx_val_of_single rfl i q
theorem rhs16_1 (i : S50000x16.Idx) (q : dot_S50000x16_S16x16_S50000x16_1_0_0_1_n_n.contr.Idx) :
    (dot_S50000x16_S16x16_S50000x16_1_0_0_1_n_n.rhsIdx i q 1).val = (i 1).val := by
  unfold DotDims.rhsIdx
  rw [dif_neg (show ¬(1 : Fin S16x16.rank) ∈ dot_S50000x16_S16x16_S50000x16_1_0_0_1_n_n.rhsBatch by decide), dif_pos (show (1 : Fin S16x16.rank) ∈ dot_S50000x16_S16x16_S50000x16_1_0_0_1_n_n.rhsNonContracting by decide)]
  rfl

theorem dot16_mm (a : FVec Ideal S50000x16 .f32) (w : FVec Ideal S16x16 .f32) :
    Host.dotGeneral (F := Ideal) dot_S50000x16_S16x16_S50000x16_1_0_0_1_n_n none a w = Gcn.mm a w := by
  funext i
  show _ = ∑ k : Fin 16, a (ix2 ⟨(i 0).val, idx2_lt0 i⟩ k) * w (ix2 k ⟨(i 1).val, idx2_lt1 i⟩)
  simp only [Host.dotGeneral]
  rw [Ideal.dotGeneral_apply, ← Equiv.sum_comp (ValueIdx.contrEquiv1 dot_S50000x16_S16x16_S50000x16_1_0_0_1_n_n 16 rfl rfl).symm]
  refine Finset.sum_congr rfl fun k _ => ?_
  have hk := ValueIdx.contrEquiv1_symm_val dot_S50000x16_S16x16_S50000x16_1_0_0_1_n_n 16 rfl rfl k
  have el : dot_S50000x16_S16x16_S50000x16_1_0_0_1_n_n.lhsIdx i ((ValueIdx.contrEquiv1 dot_S50000x16_S16x16_S50000x16_1_0_0_1_n_n 16 rfl rfl).symm k) = ix2 ⟨(i 0).val, idx2_lt0 i⟩ k := funext fun a => Fin.ext (by
    match a with
    | ⟨0, _⟩ => exact lhs16_0 _ _
    | ⟨1, _⟩ => exact (lhs16_1 _ _).trans hk)
  have er : dot_S50000x16_S16x16_S50000x16_1_0_0_1_n_n.rhsIdx i ((ValueIdx.contrEquiv1 dot_S50000x16_S16x16_S50000x16_1_0_0_1_n_n 16 rfl rfl).symm k) = ix2 k ⟨(i 1).val, idx2_lt1 i⟩ := funext fun a => Fin.ext (by
    match a with
    | ⟨0, _⟩ => exact (rhs16_0 _ _).trans hk
    | ⟨1, _⟩ => exact rhs16_1 _ _)
  rw [el, er]

theorem bias_bcast {α : Type} (b : S16.Idx → α) (j : S50000x16.Idx) :
    broadcastInDim S50000x16 ![0, 1] bcast_S1x16_S50000x16_0_1 (broadcastInDim S1x16 ![1] bcast_S16_S1x16_1 b) j
      = b (ix1 ⟨(j 1).val, idx2_lt1 j⟩) := by
  rw [broadcastInDim_apply ![0, 1] bcast_S1x16_S50000x16_0_1 _ j (ix2 (0 : Fin 1) ⟨(j 1).val, idx2_lt1 j⟩) (fun a => match a with
    | ⟨0, _⟩ => by show (0 : ℕ) = if (1 : ℕ) = 1 then 0 else (j 0).val; rw [if_pos rfl]
    | ⟨1, _⟩ => by show (j 1).val = if (16 : ℕ) = 1 then 0 else (j 1).val; rw [if_neg (by decide)])]
  exact broadcastInDim_apply ![1] bcast_S16_S1x16_1 b _ (ix1 ⟨(j 1).val, idx2_lt1 j⟩) (fun a => match a with
    | ⟨0, _⟩ => by show (j 1).val = if (16 : ℕ) = 1 then 0 else (j 1).val; rw [if_neg (by decide)])

theorem col_bcast {α : Type} (s : S50000.Idx → α) (j : S50000x16.Idx) :
    broadcastInDim S50000x16 ![0, 1] bcast_S50000x1_S50000x16_0_1 (broadcastInDim S50000x1 ![0] bcast_S50000_S50000x1_0 s) j
      = s (ix1 ⟨(j 0).val, idx2_lt0 j⟩) := by
  rw [broadcastInDim_apply ![0, 1] bcast_S50000x1_S50000x16_0_1 _ j (ix2 ⟨(j 0).val, idx2_lt0 j⟩ (0 : Fin 1)) (fun a => match a with
    | ⟨0, _⟩ => by show (j 0).val = if (50000 : ℕ) = 1 then 0 else (j 0).val; rw [if_neg (by decide)]
    | ⟨1, _⟩ => by show (0 : ℕ) = if (1 : ℕ) = 1 then 0 else (j 1).val; rw [if_pos rfl])]
  exact broadcastInDim_apply ![0] bcast_S50000_S50000x1_0 s _ (ix1 ⟨(j 0).val, idx2_lt0 j⟩) (fun a => match a with
    | ⟨0, _⟩ => by show (j 0).val = if (50000 : ℕ) = 1 then 0 else (j 0).val; rw [if_neg (by decide)])

theorem zeros_bcast {T : Shape} (h : S_.BroadcastsInDim T ![]) :
    broadcastInDim T ![] h (constant (F := Ideal) S_ .f32 0x00000000#32) = fun _ => (0 : EReal) := by
  funext j
  rw [broadcastInDim_scalar_apply]
  exact Ideal.ofBits_zero_f32

end Read

section Entries

variable (m : (ℓ : Loc nD τ sig) → Buf (Elt Ideal) ℓ) (outs : Outs (F := Ideal)) (c : Dev nD)

abbrev nrm : Gcn.SE1.Idx → EReal := nrmK Ideal (aEi m c)
abbrev sn : Gcn.SN1.Idx → EReal := snK Ideal (aEi m c)

abbrev hid1 : Gcn.SNH.Idx → EReal := outs 9 main_v41 c
abbrev hid2 : Gcn.SNH.Idx → EReal := outs 12 main_v51 c

theorem val7_v25 : (V7 m c main_v25 : Gcn.SE1.Idx → EReal) = nrm m c := V7_v25 m c
theorem val7_v26 : (V7 m c main_v26 : Gcn.SN1.Idx → EReal) = sn m c := V7_v26 m c
theorem val7_v27 : (V7 m c main_v27 : Gcn.SP1.Idx → BitVec 32) = Gcn.padI (row (aEi m c) 0) :=
  (V7_v27 m c).trans ((pad_padI _).trans (congrArg Gcn.padI (srcK_eq _)))
theorem val7_v28 : (V7 m c main_v28 : Gcn.SP1.Idx → BitVec 32) = Gcn.padI (row (aEi m c) 1) :=
  (V7_v28 m c).trans ((pad_padI _).trans (congrArg Gcn.padI (dstK_eq _)))
theorem val7_v29 : (V7 m c main_v29 : Gcn.SP1.Idx → EReal) = Gcn.padF (nrm m c) :=
  (V7_v29 m c).trans (pad_padF _)
theorem val7_v32 : (V7 m c main_v32 : Gcn.SNH.Idx → EReal) = Gcn.mm (aX m c) (aW1 m c) :=
  (V7_v32 m c).trans (dot128_mm _ _)
theorem val7_v36 : (V7 m c main_v36 : Gcn.SNH.Idx → EReal)
    = fun j => Gcn.mm (aX m c) (aWl1 m c) j + aBl1 m c (ix1 ⟨(j 1).val, idx2_lt1 j⟩) := by
  rw [V7_v36 m c, dot128_mm]
  funext j
  rw [addf_apply, bias_bcast]
theorem val7_v39 : (V7 m c main_v39 : Gcn.SNH.Idx → EReal)
    = fun j => Gcn.mm (aX m c) (aW1 m c) j * sn m c (ix1 ⟨(j 0).val, idx2_lt0 j⟩) := by
  rw [V7_v39 m c, dot128_mm]
  funext j
  rw [mulf_apply, col_bcast]
theorem val7_arg3 : (V7 m c main_arg3 : Gcn.SH1.Idx → EReal) = aB1 m c := V7_arg3 m c
theorem val7_v30 : (V7 m c main_v30 : Gcn.SNH.Idx → EReal) = fun _ => (0 : EReal) := (V7_v30 m c).trans (zeros_bcast _)
theorem val7_v31 : (V7 m c main_v31 : Gcn.SH1.Idx → EReal) = fun _ => (0 : EReal) := (V7_v31 m c).trans (zeros_bcast _)

theorem val8_v40 : V8 m outs c main_v40 = outs 8 main_v40 c := by
  simp only [V8, Function.update_self]
theorem val8_v28 : (V8 m outs c main_v28 : Gcn.SP1.Idx → BitVec 32) = Gcn.padI (row (aEi m c) 1) :=
  ((V8_of m outs c main_v28 (by decide))).trans (val7_v28 m c)
theorem val8_v29 : (V8 m outs c main_v29 : Gcn.SP1.Idx → EReal) = Gcn.padF (nrm m c) :=
  ((V8_of m outs c main_v29 (by decide))).trans (val7_v29 m c)
theorem val8_v39 : (V8 m outs c main_v39 : Gcn.SNH.Idx → EReal)
    = fun j => Gcn.mm (aX m c) (aW1 m c) j * sn m c (ix1 ⟨(j 0).val, idx2_lt0 j⟩) :=
  ((V8_of m outs c main_v39 (by decide))).trans (val7_v39 m c)
theorem val8_arg3 : (V8 m outs c main_arg3 : Gcn.SH1.Idx → EReal) = aB1 m c :=
  ((V8_of m outs c main_arg3 (by decide))).trans (val7_arg3 m c)
theorem val8_v36 : (V8 m outs c main_v36 : Gcn.SNH.Idx → EReal)
    = fun j => Gcn.mm (aX m c) (aWl1 m c) j + aBl1 m c (ix1 ⟨(j 1).val, idx2_lt1 j⟩) :=
  ((V8_of m outs c main_v36 (by decide))).trans (val7_v36 m c)

theorem val9_v41 : V9 m outs c main_v41 = outs 9 main_v41 c := V9_v41 m outs c
theorem val10_v27 : (V10 m outs c main_v27 : Gcn.SP1.Idx → BitVec 32) = Gcn.padI (row (aEi m c) 0) :=
  ((V10_of m outs c main_v27 (by decide)).trans <| (V9_of m outs c main_v27 (by decide)).trans <| (V8_of m outs c main_v27 (by decide))).trans (val7_v27 m c)
theorem val10_v28 : (V10 m outs c main_v28 : Gcn.SP1.Idx → BitVec 32) = Gcn.padI (row (aEi m c) 1) :=
  ((V10_of m outs c main_v28 (by decide)).trans <| (V9_of m outs c main_v28 (by decide)).trans <| (V8_of m outs c main_v28 (by decide))).trans (val7_v28 m c)
theorem val10_v29 : (V10 m outs c main_v29 : Gcn.SP1.Idx → EReal) = Gcn.padF (nrm m c) :=
  ((V10_of m outs c main_v29 (by decide)).trans <| (V9_of m outs c main_v29 (by decide)).trans <| (V8_of m outs c main_v29 (by decide))).trans (val7_v29 m c)
theorem val10_v42 : (V10 m outs c main_v42 : Gcn.SNH.Idx → EReal) = Gcn.mm (hid1 outs c) (aW2 m c) :=
  (V10_v42 m outs c).trans (dot16_mm _ _)
theorem val10_v46 : (V10 m outs c main_v46 : Gcn.SNH.Idx → EReal)
    = fun j => Gcn.mm (hid1 outs c) (aWl2 m c) j + aBl2 m c (ix1 ⟨(j 1).val, idx2_lt1 j⟩) := by
  rw [V10_v46 m outs c, dot16_mm]
  funext j
  rw [addf_apply, bias_bcast]
theorem val10_v49 : (V10 m outs c main_v49 : Gcn.SNH.Idx → EReal)
    = fun j => Gcn.mm (hid1 outs c) (aW2 m c) j * sn m c (ix1 ⟨(j 0).val, idx2_lt0 j⟩) := by
  rw [V10_v49 m outs c, dot16_mm]
  funext j
  rw [mulf_apply, col_bcast]

theorem val11_v50 : V11 m outs c main_v50 = outs 11 main_v50 c := by
  simp only [V11, Function.update_self]
theorem val11_v28 : (V11 m outs c main_v28 : Gcn.SP1.Idx → BitVec 32) = Gcn.padI (row (aEi m c) 1) :=
  ((V11_of m outs c main_v28 (by decide))).trans (val10_v28 m outs c)
theorem val11_v29 : (V11 m outs c main_v29 : Gcn.SP1.Idx → EReal) = Gcn.padF (nrm m c) :=
  ((V11_of m outs c main_v29 (by decide))).trans (val10_v29 m outs c)
theorem val11_v49 : (V11 m outs c main_v49 : Gcn.SNH.Idx → EReal)
    = fun j => Gcn.mm (hid1 outs c) (aW2 m c) j * sn m c (ix1 ⟨(j 0).val, idx2_lt0 j⟩) :=
  ((V11_of m outs c main_v49 (by decide))).trans (val10_v49 m outs c)
theorem val11_arg7 : (V11 m outs c main_arg7 : Gcn.SH1.Idx → EReal) = aB2 m c := (V11_of m outs c main_arg7 (by decide)).trans <| (V10_of m outs c main_arg7 (by decide)).trans <| (V9_of m outs c main_arg7 (by decide)).trans <| (V8_of m outs c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
theorem val11_v46 : (V11 m outs c main_v46 : Gcn.SNH.Idx → EReal)
    = fun j => Gcn.mm (hid1 outs c) (aWl2 m c) j + aBl2 m c (ix1 ⟨(j 1).val, idx2_lt1 j⟩) :=
  ((V11_of m outs c main_v46 (by decide))).trans (val10_v46 m outs c)

theorem val12_v51 : V12 m outs c main_v51 = outs 12 main_v51 c := V12_v51 m outs c
theorem val13_v51 : V13 m outs c main_v51 = outs 12 main_v51 c :=
  ((V13_of m outs c main_v51 (by decide))).trans (V12_v51 m outs c)
theorem val13_v27 : (V13 m outs c main_v27 : Gcn.SP1.Idx → BitVec 32) = Gcn.padI (row (aEi m c) 0) :=
  ((V13_of m outs c main_v27 (by decide)).trans <| (V12_of m outs c main_v27 (by decide)).trans <| (V11_of m outs c main_v27 (by decide))).trans (val10_v27 m outs c)
theorem val13_v28 : (V13 m outs c main_v28 : Gcn.SP1.Idx → BitVec 32) = Gcn.padI (row (aEi m c) 1) :=
  ((V13_of m outs c main_v28 (by decide)).trans <| (V12_of m outs c main_v28 (by decide)).trans <| (V11_of m outs c main_v28 (by decide))).trans (val10_v28 m outs c)
theorem val13_v29 : (V13 m outs c main_v29 : Gcn.SP1.Idx → EReal) = Gcn.padF (nrm m c) :=
  ((V13_of m outs c main_v29 (by decide)).trans <| (V12_of m outs c main_v29 (by decide)).trans <| (V11_of m outs c main_v29 (by decide))).trans (val10_v29 m outs c)
theorem val13_v54 : (V13 m outs c main_v54 : Gcn.SNH.Idx → EReal)
    = fun j => hid2 outs c j * sn m c (ix1 ⟨(j 0).val, idx2_lt0 j⟩) := by
  rw [V13_v54 m outs c]
  funext j
  rw [mulf_apply, col_bcast]
theorem val13_v30 : (V13 m outs c main_v30 : Gcn.SNH.Idx → EReal) = fun _ => (0 : EReal) :=
  ((V13_of m outs c main_v30 (by decide)).trans <| (V12_of m outs c main_v30 (by decide)).trans <| (V11_of m outs c main_v30 (by decide)).trans <| (V10_of m outs c main_v30 (by decide)).trans <| (V9_of m outs c main_v30 (by decide)).trans <| (V8_of m outs c main_v30 (by decide))).trans (val7_v30 m c)
theorem val13_v31 : (V13 m outs c main_v31 : Gcn.SH1.Idx → EReal) = fun _ => (0 : EReal) :=
  ((V13_of m outs c main_v31 (by decide)).trans <| (V12_of m outs c main_v31 (by decide)).trans <| (V11_of m outs c main_v31 (by decide)).trans <| (V10_of m outs c main_v31 (by decide)).trans <| (V9_of m outs c main_v31 (by decide)).trans <| (V8_of m outs c main_v31 (by decide))).trans (val7_v31 m c)

theorem val14_v55 : V14 m outs c main_v55 = outs 14 main_v55 c := by
  simp only [V14, Function.update_self]
theorem val14_v28 : (V14 m outs c main_v28 : Gcn.SP1.Idx → BitVec 32) = Gcn.padI (row (aEi m c) 1) :=
  ((V14_of m outs c main_v28 (by decide))).trans (val13_v28 m outs c)
theorem val14_v29 : (V14 m outs c main_v29 : Gcn.SP1.Idx → EReal) = Gcn.padF (nrm m c) :=
  ((V14_of m outs c main_v29 (by decide))).trans (val13_v29 m outs c)
theorem val14_v54 : (V14 m outs c main_v54 : Gcn.SNH.Idx → EReal)
    = fun j => hid2 outs c j * sn m c (ix1 ⟨(j 0).val, idx2_lt0 j⟩) :=
  ((V14_of m outs c main_v54 (by decide))).trans (val13_v54 m outs c)
theorem val14_v30 : (V14 m outs c main_v30 : Gcn.SNH.Idx → EReal) = fun _ => (0 : EReal) :=
  ((V14_of m outs c main_v30 (by decide))).trans (val13_v30 m outs c)
theorem val14_v31 : (V14 m outs c main_v31 : Gcn.SH1.Idx → EReal) = fun _ => (0 : EReal) :=
  ((V14_of m outs c main_v31 (by decide))).trans (val13_v31 m outs c)

theorem val15_v56 : V15 m outs c main_v56 = outs 15 main_v56 c := by
  simp only [V15, Function.update_self]
theorem val15_arg10 : (V15 m outs c main_arg10 : Gcn.SHC.Idx → EReal) = aWo m c := (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))
theorem val15_arg11 : (V15 m outs c main_arg11 : Gcn.SC1.Idx → EReal) = aBo m c := (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))
theorem val16_v57 : V16 m outs c main_v57 = outs 16 main_v57 c := by
  simp only [V16, Function.update_self]

end Entries

end Cert.KernelIdeal.Host

end
-- ==== Proof.LayerAgree.lean ====
import Mathlib.Algebra.BigOperators.Fin
import Idealize.ShloMosaic.PureOps.Ideal
import Idealize.ShloMosaic.Lib.ValueIdx
import proofs.«148650_j55559696941682_1_alg».proof.Proof.Spec

noncomputable section

open scoped BigOperators

namespace Gcn

open Idealize.ShloMosaic Idealize.ShloMosaic.ValueIdx

theorem sum_fin_castLE {M : Type*} [AddCommMonoid M] {m n : Nat} (h : m ≤ n) (T : Fin n → M)
    (hz : ∀ i : Fin n, m ≤ i.val → T i = 0) : ∑ i : Fin n, T i = ∑ i : Fin m, T (Fin.castLE h i) := by
  obtain ⟨k, rfl⟩ := Nat.exists_eq_add_of_le h
  have htail : ∑ i : Fin k, T (Fin.natAdd m i) = 0 :=
    Finset.sum_eq_zero (fun i _ => hz _ (by rw [Fin.coe_natAdd]; exact Nat.le_add_right m i.val))
  rw [Fin.sum_univ_add, htail, add_zero]
  rfl

abbrev lo (e : Fin 800000) : Fin 802816 := Fin.castLE (by omega) e

theorem padI_lo (v : SE1.Idx → BitVec 32) (e : Fin 800000) : padI v (ix1 (lo e)) = v (ix1 e) := by
  unfold padI
  exact dif_pos e.isLt

theorem padF_lo (v : SE1.Idx → EReal) (e : Fin 800000) : padF v (ix1 (lo e)) = v (ix1 e) := by
  unfold padF
  exact dif_pos e.isLt

theorem padF_hi (v : SE1.Idx → EReal) (e : Fin 802816) (h : 800000 ≤ e.val) : padF v (ix1 e) = 0 := by
  unfold padF
  exact dif_neg (Nat.not_lt.mpr h)

theorem toNat_eq_iff_toInt_eq (b : BitVec 32) (r : Fin 50000) : b.toNat = r.val ↔ b.toInt = (r.val : Int) := by
  have hlt := b.isLt
  have hr := r.isLt
  have e := BitVec.toInt_eq_toNat_cond b
  by_cases hc : 2 * b.toNat < 2 ^ 32
  · rw [if_pos hc] at e; omega
  · rw [if_neg hc] at e; omega

theorem rowOf_of_node (b : BitVec 32) (h0 : 0 ≤ b.toInt) (h1 : b.toInt < 50000) :
    ∃ h : b.toNat < 50000, rowOf b = ⟨b.toNat, h⟩ := by
  have hlt := b.isLt
  have key : b.toInt = (b.toNat : Int) ∧ b.toNat < 50000 := by
    have e := BitVec.toInt_eq_toNat_cond b
    by_cases hc : 2 * b.toNat < 2 ^ 32
    · rw [if_pos hc] at e; omega
    · rw [if_neg hc] at e; omega
  have hw : wrapIdx b = b := if_neg (not_lt.mpr h0)
  refine ⟨key.2, Fin.ext ?_⟩
  show min (wrapIdx b).toInt.toNat 49999 = b.toNat
  rw [hw]
  omega

theorem gatherZ_lo (src : SE1.Idx → BitVec 32) (y : SNH.Idx → EReal) (e : Fin 800000) (f : Fin 16)
    (h0 : 0 ≤ (src (ix1 e)).toInt) (h1 : (src (ix1 e)).toInt < 50000) :
    gatherZ (padI src) y (ix2 (lo e) f) = y (ix2 (rowOf (src (ix1 e))) f) := by
  obtain ⟨h, hr⟩ := rowOf_of_node _ h0 h1
  rw [gatherZ_ix2, padI_lo, dif_pos h, hr]

theorem collect_agree (src dst : SE1.Idx → BitVec 32) (nrm : SE1.Idx → EReal) (y : SNH.Idx → EReal)
    (hsrc : ∀ e : Fin 800000, 0 ≤ (src (ix1 e)).toInt ∧ (src (ix1 e)).toInt < 50000) (r : Fin 50000) (f : Fin 16) :
    collect (padI dst) (fun i => gatherZ (padI src) y i * padF nrm (ix1 ⟨(i 0).val, idx2_lt0 i⟩)) r f
      = ∑ e ∈ Finset.univ.filter (fun e : Fin 800000 => (dst (ix1 e)).toInt = (r.val : Int)),
          y (ix2 (rowOf (src (ix1 e))) f) * nrm (ix1 e) := by
  have hsplit := sum_fin_castLE (M := EReal) (m := 800000) (n := 802816) (by omega)
    (fun e : Fin 802816 => if (padI dst (ix1 e)).toNat = r.val
        then gatherZ (padI src) y (ix2 e f) * padF nrm (ix1 e) else 0)
    (fun e he => by
      show (if (padI dst (ix1 e)).toNat = r.val then gatherZ (padI src) y (ix2 e f) * padF nrm (ix1 e) else 0) = 0
      rw [padF_hi nrm e he, mul_zero]; exact ite_self 0)
  show (∑ e : Fin 802816, if (padI dst (ix1 e)).toNat = r.val
        then gatherZ (padI src) y (ix2 e f) * padF nrm (ix1 e) else 0) = _
  rw [hsplit, Finset.sum_filter]
  refine Finset.sum_congr rfl (fun e _ => ?_)
  show (if (padI dst (ix1 (lo e))).toNat = r.val
        then gatherZ (padI src) y (ix2 (lo e) f) * padF nrm (ix1 (lo e)) else 0) = _
  rw [padI_lo, padF_lo, gatherZ_lo src y e f (hsrc e).1 (hsrc e).2]
  exact if_congr (toNat_eq_iff_toInt_eq _ r) rfl rfl

theorem layerK_ix2 (relu : Bool) (dst : SP1.Idx → BitVec 32) (nrm : SP1.Idx → EReal) (g : SPH.Idx → EReal)
    (self : SNH.Idx → EReal) (bias : SH1.Idx → EReal) (skip : SNH.Idx → EReal) (r : Fin 50000) (f : Fin 16) :
    layerK relu dst nrm g self bias skip (ix2 r f)
      = (if relu then max ((collect dst (fun i => g i * nrm (ix1 ⟨(i 0).val, idx2_lt0 i⟩)) r f + self (ix2 r f)) + bias (ix1 f)) 0
          else (collect dst (fun i => g i * nrm (ix1 ⟨(i 0).val, idx2_lt0 i⟩)) r f + self (ix2 r f)) + bias (ix1 f))
        + skip (ix2 r f) := rfl

theorem layerR_ix2 (relu : Bool) (src dst : SE1.Idx → BitVec 32) (nrm : SE1.Idx → EReal) (sn : SN1.Idx → EReal)
    (y : SNH.Idx → EReal) (bias : SH1.Idx → EReal) (r : Fin 50000) (f : Fin 16) :
    layerR (F := 16) relu src dst nrm sn y bias (ix2 r f)
      = if relu then max (((0 + ∑ e ∈ Finset.univ.filter (fun e : Fin 800000 => (dst (ix1 e)).toInt = (r.val : Int)),
                y (ix2 (rowOf (src (ix1 e))) f) * nrm (ix1 e)) + y (ix2 r f) * sn (ix1 r)) + bias (ix1 f)) 0
          else ((0 + ∑ e ∈ Finset.univ.filter (fun e : Fin 800000 => (dst (ix1 e)).toInt = (r.val : Int)),
                y (ix2 (rowOf (src (ix1 e))) f) * nrm (ix1 e)) + y (ix2 r f) * sn (ix1 r)) + bias (ix1 f) := rfl

theorem layer_agree (relu : Bool) (src dst : SE1.Idx → BitVec 32) (nrm : SE1.Idx → EReal) (sn : SN1.Idx → EReal)
    (y : SNH.Idx → EReal) (bias : SH1.Idx → EReal) (skip : SNH.Idx → EReal)
    (hsrc : ∀ e : Fin 800000, 0 ≤ (src (ix1 e)).toInt ∧ (src (ix1 e)).toInt < 50000) :
    layerK relu (padI dst) (padF nrm) (gatherZ (padI src) y) (fun j => y j * sn (ix1 ⟨(j 0).val, idx2_lt0 j⟩)) bias skip
      = fun j => layerR (F := 16) relu src dst nrm sn y bias j + skip j := by
  funext j
  obtain ⟨r, f, rfl⟩ : ∃ (r : Fin 50000) (f : Fin 16), j = ix2 r f := ⟨j 0, j 1, eq_ix2 j⟩
  show layerK relu (padI dst) (padF nrm) (gatherZ (padI src) y) (fun j => y j * sn (ix1 ⟨(j 0).val, idx2_lt0 j⟩)) bias skip
      (ix2 r f) = layerR (F := 16) relu src dst nrm sn y bias (ix2 r f) + skip (ix2 r f)
  rw [layerK_ix2, layerR_ix2, collect_agree src dst nrm y hsrc r f, zero_add]

theorem layer_agree_relu (src dst : SE1.Idx → BitVec 32) (nrm : SE1.Idx → EReal) (sn : SN1.Idx → EReal)
    (y : SNH.Idx → EReal) (bias : SH1.Idx → EReal) (skip : SNH.Idx → EReal)
    (hsrc : ∀ e : Fin 800000, 0 ≤ (src (ix1 e)).toInt ∧ (src (ix1 e)).toInt < 50000) :
    layerK true (padI dst) (padF nrm) (gatherZ (padI src) y) (fun j => y j * sn (ix1 ⟨(j 0).val, idx2_lt0 j⟩)) bias skip
      = fun j => layerR (F := 16) true src dst nrm sn y bias j + skip j :=
  layer_agree true src dst nrm sn y bias skip hsrc

theorem layer_agree_relu_at (src dst : SE1.Idx → BitVec 32) (nrm : SE1.Idx → EReal) (sn : SN1.Idx → EReal)
    (y : SNH.Idx → EReal) (bias : SH1.Idx → EReal) (skip : SNH.Idx → EReal)
    (hsrc : ∀ e : Fin 800000, 0 ≤ (src (ix1 e)).toInt ∧ (src (ix1 e)).toInt < 50000) (j : SNH.Idx) :
    layerK true (padI dst) (padF nrm) (gatherZ (padI src) y) (fun j => y j * sn (ix1 ⟨(j 0).val, idx2_lt0 j⟩)) bias skip j
      = layerR (F := 16) true src dst nrm sn y bias j + skip j :=
  congrFun (layer_agree true src dst nrm sn y bias skip hsrc) j

end Gcn

end
-- ==== Proof.Linear.lean ====
import proofs.«148650_j55559696941682_1_alg».proof.Proof.Spec
import Idealize.ShloMosaic.PureOps.Ideal
import Idealize.ShloMosaic.Lib.ValueIdx
import Mathlib.Data.EReal.Basic
import Mathlib.Algebra.BigOperators.Ring.Finset
import Mathlib.Algebra.BigOperators.Group.Finset.Sigma
import Mathlib.Tactic.Ring

noncomputable section

open scoped BigOperators

namespace Gcn

open Idealize.ShloMosaic Idealize.ShloMosaic.ValueIdx

def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) :
    IsReal (if p then x else y) := by
  split
  · exact hx
  · exact hy

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

theorem IsReal.rsqrt {r : ℝ} (hr : 1 ≤ r) : IsReal (Ideal.rsqrt (r : EReal)) := by
  rw [Ideal.rsqrt_coe, if_neg (by linarith), if_neg (by linarith)]
  exact ⟨_, rfl⟩

theorem mm_real {K M : Nat} (a : (⟨2, ![50000, K]⟩ : Shape).Idx → EReal) (W : (⟨2, ![K, M]⟩ : Shape).Idx → EReal)
    (ha : ∀ j, IsReal (a j)) (hW : ∀ j, IsReal (W j)) : ∀ j, IsReal (mm a W j) := by
  intro j
  show IsReal (∑ k : Fin K, a (ix2 ⟨(j 0).val, idx2_lt0 j⟩ k) * W (ix2 k ⟨(j 1).val, idx2_lt1 j⟩))
  exact IsReal.sum _ _ fun k _ => (ha _).mul (hW _)

theorem layerR_real {F : Nat} (relu : Bool) (src dst : SE1.Idx → BitVec 32) (nrm : SE1.Idx → EReal)
    (sn : SN1.Idx → EReal) (y : (⟨2, ![50000, F]⟩ : Shape).Idx → EReal) (bias : (⟨1, ![F]⟩ : Shape).Idx → EReal)
    (hy : ∀ j, IsReal (y j)) (hn : ∀ e, IsReal (nrm e)) (hs : ∀ r, IsReal (sn r)) (hb : ∀ f, IsReal (bias f)) :
    ∀ j, IsReal (layerR relu src dst nrm sn y bias j) := by
  intro j
  have hS : IsReal (((0 + ∑ e ∈ Finset.univ.filter (fun e : Fin 800000 =>
        (dst (ix1 e)).toInt = (((⟨(j 0).val, idx2_lt0 j⟩ : Fin 50000).val : Nat) : Int)),
          y (ix2 (rowOf (src (ix1 e))) ⟨(j 1).val, idx2_lt1 j⟩) * nrm (ix1 e))
        + y (ix2 ⟨(j 0).val, idx2_lt0 j⟩ ⟨(j 1).val, idx2_lt1 j⟩) * sn (ix1 ⟨(j 0).val, idx2_lt0 j⟩))
        + bias (ix1 ⟨(j 1).val, idx2_lt1 j⟩)) :=
    ((IsReal.zero.add (IsReal.sum _ _ fun e _ => (hy _).mul (hn _))).add ((hy _).mul (hs _))).add (hb _)
  cases relu
  · exact hS
  · exact hS.max IsReal.zero

theorem add_real {s : Shape} (a b : s.Idx → EReal) (ha : ∀ j, IsReal (a j)) (hb : ∀ j, IsReal (b j)) :
    ∀ j, IsReal (a j + b j) := fun j => (ha j).add (hb j)

theorem lin_swap {ι : Type*} (S : Finset ι) (a : ι → Fin 16 → ℝ) (n : ι → ℝ) (b : Fin 16 → ℝ) (s : ℝ)
    (w : Fin 16 → ℝ) :
    (∑ k : Fin 16, ((((0 + ∑ e ∈ S, (a e k : EReal) * (n e : EReal)) + (b k : EReal) * (s : EReal)) + 0) + 0)
        * (w k : EReal))
      = (0 + ∑ e ∈ S, (∑ k : Fin 16, (a e k : EReal) * (w k : EReal)) * (n e : EReal))
        + (∑ k : Fin 16, (b k : EReal) * (w k : EReal)) * (s : EReal) := by
  simp only [zero_add, add_zero, ← EReal.coe_mul, ← coe_sum, ← EReal.coe_add]
  rw [EReal.coe_eq_coe_iff]
  simp only [add_mul, Finset.sum_add_distrib, Finset.sum_mul]
  congr 1
  · rw [Finset.sum_comm]
    exact Finset.sum_congr rfl fun e _ => Finset.sum_congr rfl fun k _ => by ring
  · exact Finset.sum_congr rfl fun k _ => by ring

theorem layer3_core (src dst : SE1.Idx → BitVec 32) (nrm : SE1.Idx → EReal) (sn : SN1.Idx → EReal)
    (h : SNH.Idx → EReal) (Wo : SHC.Idx → EReal) (bo : SC1.Idx → EReal)
    (hh : ∀ j, IsReal (h j)) (hW : ∀ j, IsReal (Wo j)) (hn : ∀ e, IsReal (nrm e)) (hs : ∀ r, IsReal (sn r)) :
    (fun j : SNC.Idx => mm (K := 16) (M := 300)
        (fun j => layerR (F := 16) false src dst nrm sn h (fun _ => 0) j + (fun _ => (0 : EReal)) j) Wo j
        + bo (ix1 ⟨(j 1).val, idx2_lt1 j⟩))
      = layerR (F := 300) false src dst nrm sn (mm (K := 16) (M := 300) h Wo) bo := by
  choose hr hhr using hh
  choose wr hwr using hW
  choose nr hnr using hn
  choose sr hsr using hs
  obtain rfl : h = fun j => (hr j : EReal) := funext hhr
  obtain rfl : Wo = fun j => (wr j : EReal) := funext hwr
  obtain rfl : nrm = fun j => (nr j : EReal) := funext hnr
  obtain rfl : sn = fun j => (sr j : EReal) := funext hsr
  funext j
  show (_ : EReal) + bo (ix1 ⟨(j 1).val, idx2_lt1 j⟩) = (_ : EReal) + bo (ix1 ⟨(j 1).val, idx2_lt1 j⟩)
  refine congrArg (fun x : EReal => x + bo (ix1 ⟨(j 1).val, idx2_lt1 j⟩)) ?_
  exact lin_swap
    (Finset.univ.filter (fun e : Fin 800000 =>
      (dst (ix1 e)).toInt = (((⟨(j 0).val, idx2_lt0 j⟩ : Fin 50000).val : Nat) : Int)))
    (fun e k => hr (ix2 (rowOf (src (ix1 e))) k)) (fun e => nr (ix1 e))
    (fun k => hr (ix2 ⟨(j 0).val, idx2_lt0 j⟩ k)) (sr (ix1 ⟨(j 0).val, idx2_lt0 j⟩))
    (fun k => wr (ix2 k ⟨(j 1).val, idx2_lt1 j⟩))

theorem layer3_agree_of (src dst : SE1.Idx → BitVec 32) (nrm : SE1.Idx → EReal) (sn : SN1.Idx → EReal)
    (h : SNH.Idx → EReal) (Wo : SHC.Idx → EReal) (bo : SC1.Idx → EReal)
    (hLA : layerK false (padI dst) (padF nrm) (gatherZ (padI src) h)
        (fun j => h j * sn (ix1 ⟨(j 0).val, idx2_lt0 j⟩)) (fun _ => 0) (fun _ => 0)
      = fun j => layerR (F := 16) false src dst nrm sn h (fun _ => 0) j + (fun _ => (0 : EReal)) j)
    (hh : ∀ j, IsReal (h j)) (hW : ∀ j, IsReal (Wo j)) (hn : ∀ e, IsReal (nrm e)) (hs : ∀ r, IsReal (sn r)) :
    (fun j : SNC.Idx => mm (K := 16) (M := 300)
        (layerK false (padI dst) (padF nrm) (gatherZ (padI src) h)
          (fun j => h j * sn (ix1 ⟨(j 0).val, idx2_lt0 j⟩)) (fun _ => 0) (fun _ => 0)) Wo j
        + bo (ix1 ⟨(j 1).val, idx2_lt1 j⟩))
      = layerR (F := 300) false src dst nrm sn (mm (K := 16) (M := 300) h Wo) bo := by
  rw [hLA]
  exact layer3_core src dst nrm sn h Wo bo hh hW hn hs

end Gcn

end
-- ==== Proof.Layer3.lean ====
import proofs.«148650_j55559696941682_1_alg».proof.Proof.Linear
import proofs.«148650_j55559696941682_1_alg».proof.Proof.LayerAgree

noncomputable section

open scoped BigOperators

namespace Gcn

open Idealize.ShloMosaic Idealize.ShloMosaic.ValueIdx

theorem layer3_agree (src dst : SE1.Idx → BitVec 32) (nrm : SE1.Idx → EReal) (sn : SN1.Idx → EReal)
    (h : SNH.Idx → EReal) (Wo : SHC.Idx → EReal) (bo : SC1.Idx → EReal)
    (hsrc : ∀ e : Fin 800000, 0 ≤ (src (ix1 e)).toInt ∧ (src (ix1 e)).toInt < 50000)
    (hh : ∀ j, IsReal (h j)) (hW : ∀ j, IsReal (Wo j)) (hn : ∀ e, IsReal (nrm e)) (hs : ∀ r, IsReal (sn r)) :
    (fun j : SNC.Idx => mm (K := 16) (M := 300)
        (layerK false (padI dst) (padF nrm) (gatherZ (padI src) h)
          (fun j => h j * sn (ix1 ⟨(j 0).val, idx2_lt0 j⟩)) (fun _ => 0) (fun _ => 0)) Wo j
        + bo (ix1 ⟨(j 1).val, idx2_lt1 j⟩))
      = layerR (F := 300) false src dst nrm sn (mm (K := 16) (M := 300) h Wo) bo :=
  layer3_agree_of src dst nrm sn h Wo bo
    (layer_agree false src dst nrm sn h (fun _ => 0) (fun _ => 0) hsrc) hh hW hn hs

end Gcn

end
-- ==== Proof.Agree.lean ====
import proofs.«148650_j55559696941682_1_alg».proof.Proof.Spec
import proofs.«148650_j55559696941682_1_alg».proof.Proof.LayerAgree
import proofs.«148650_j55559696941682_1_alg».proof.Proof.Linear
import proofs.«148650_j55559696941682_1_alg».proof.Proof.Layer3

noncomputable section

namespace Gcn

open Idealize.ShloMosaic Idealize.ShloMosaic.ValueIdx

def selfOf (y : SNH.Idx → EReal) (sn : SN1.Idx → EReal) : SNH.Idx → EReal :=
  fun j => y j * sn (ix1 ⟨(j 0).val, idx2_lt0 j⟩)

def skipOf {K : Nat} (a : (⟨2, ![50000, K]⟩ : Shape).Idx → EReal) (Wl : (⟨2, ![K, 16]⟩ : Shape).Idx → EReal)
    (bl : SH1.Idx → EReal) : SNH.Idx → EReal :=
  fun j => mm a Wl j + bl (ix1 ⟨(j 1).val, idx2_lt1 j⟩)

section Net

variable (x : (⟨2, ![50000, 128]⟩ : Shape).Idx → EReal) (src dst : SE1.Idx → BitVec 32)
  (nrm : SE1.Idx → EReal) (sn : SN1.Idx → EReal)
  (W1 : (⟨2, ![128, 16]⟩ : Shape).Idx → EReal) (b1 : SH1.Idx → EReal)
  (Wl1 : (⟨2, ![128, 16]⟩ : Shape).Idx → EReal) (bl1 : SH1.Idx → EReal)
  (W2 : SHH.Idx → EReal) (b2 : SH1.Idx → EReal) (Wl2 : SHH.Idx → EReal) (bl2 : SH1.Idx → EReal)
  (Wo : SHC.Idx → EReal) (bo : SC1.Idx → EReal)

def hidK {K : Nat} (a : (⟨2, ![50000, K]⟩ : Shape).Idx → EReal) (W : (⟨2, ![K, 16]⟩ : Shape).Idx → EReal) (b : SH1.Idx → EReal)
    (Wl : (⟨2, ![K, 16]⟩ : Shape).Idx → EReal) (bl : SH1.Idx → EReal) : SNH.Idx → EReal :=
  layerK true (padI dst) (padF nrm) (gatherZ (padI src) (mm a W)) (selfOf (mm a W) sn) b (skipOf a Wl bl)

def hidR {K : Nat} (a : (⟨2, ![50000, K]⟩ : Shape).Idx → EReal) (W : (⟨2, ![K, 16]⟩ : Shape).Idx → EReal) (b : SH1.Idx → EReal)
    (Wl : (⟨2, ![K, 16]⟩ : Shape).Idx → EReal) (bl : SH1.Idx → EReal) : SNH.Idx → EReal :=
  fun j => layerR (F := 16) true src dst nrm sn (mm a W) b j + skipOf a Wl bl j

def netK : SNC.Idx → EReal :=
  let h1 := hidK src dst nrm sn x W1 b1 Wl1 bl1
  let h2 := hidK src dst nrm sn h1 W2 b2 Wl2 bl2
  let a3 := layerK false (padI dst) (padF nrm) (gatherZ (padI src) h2) (selfOf h2 sn) (fun _ => 0) (fun _ => 0)
  logSoftmax (fun j => mm (K := 16) (M := 300) a3 Wo j + bo (ix1 ⟨(j 1).val, idx2_lt1 j⟩))

def netR : SNC.Idx → EReal :=
  let h1 := hidR src dst nrm sn x W1 b1 Wl1 bl1
  let h2 := hidR src dst nrm sn h1 W2 b2 Wl2 bl2
  logSoftmax (layerR (F := 300) false src dst nrm sn (mm (K := 16) (M := 300) h2 Wo) bo)

variable {x src dst nrm sn W1 b1 Wl1 bl1 W2 b2 Wl2 bl2 Wo bo}

theorem hid_agree {K : Nat} (a : (⟨2, ![50000, K]⟩ : Shape).Idx → EReal) (W : (⟨2, ![K, 16]⟩ : Shape).Idx → EReal) (b : SH1.Idx → EReal)
    (Wl : (⟨2, ![K, 16]⟩ : Shape).Idx → EReal) (bl : SH1.Idx → EReal)
    (hsrc : ∀ e : Fin 800000, 0 ≤ (src (ix1 e)).toInt ∧ (src (ix1 e)).toInt < 50000) :
    hidK src dst nrm sn a W b Wl bl = hidR src dst nrm sn a W b Wl bl :=
  layer_agree true src dst nrm sn (mm a W) b (skipOf a Wl bl) hsrc

theorem hidR_real {K : Nat} (a : (⟨2, ![50000, K]⟩ : Shape).Idx → EReal) (W : (⟨2, ![K, 16]⟩ : Shape).Idx → EReal) (b : SH1.Idx → EReal)
    (Wl : (⟨2, ![K, 16]⟩ : Shape).Idx → EReal) (bl : SH1.Idx → EReal)
    (ha : ∀ j, IsReal (a j)) (hW : ∀ j, IsReal (W j)) (hb : ∀ j, IsReal (b j)) (hWl : ∀ j, IsReal (Wl j)) (hbl : ∀ j, IsReal (bl j))
    (hn : ∀ e, IsReal (nrm e)) (hs : ∀ r, IsReal (sn r)) :
    ∀ j, IsReal (hidR src dst nrm sn a W b Wl bl j) := fun j =>
  (layerR_real true src dst nrm sn (mm a W) b (mm_real a W ha hW) hn hs hb j).add ((mm_real a Wl ha hWl j).add (hbl _))

theorem net_agree
    (hsrc : ∀ e : Fin 800000, 0 ≤ (src (ix1 e)).toInt ∧ (src (ix1 e)).toInt < 50000)
    (hx : ∀ j, IsReal (x j)) (hn : ∀ e, IsReal (nrm e)) (hs : ∀ r, IsReal (sn r))
    (hW1 : ∀ j, IsReal (W1 j)) (hb1 : ∀ j, IsReal (b1 j)) (hWl1 : ∀ j, IsReal (Wl1 j)) (hbl1 : ∀ j, IsReal (bl1 j))
    (hW2 : ∀ j, IsReal (W2 j)) (hb2 : ∀ j, IsReal (b2 j)) (hWl2 : ∀ j, IsReal (Wl2 j)) (hbl2 : ∀ j, IsReal (bl2 j))
    (hWo : ∀ j, IsReal (Wo j)) :
    netK x src dst nrm sn W1 b1 Wl1 bl1 W2 b2 Wl2 bl2 Wo bo = netR x src dst nrm sn W1 b1 Wl1 bl1 W2 b2 Wl2 bl2 Wo bo := by
  unfold netK netR
  dsimp only
  rw [hid_agree x W1 b1 Wl1 bl1 hsrc, hid_agree _ W2 b2 Wl2 bl2 hsrc]
  have h1r := hidR_real (src := src) (dst := dst) x W1 b1 Wl1 bl1 hx hW1 hb1 hWl1 hbl1 hn hs
  have h2r := hidR_real (src := src) (dst := dst) _ W2 b2 Wl2 bl2 h1r hW2 hb2 hWl2 hbl2 hn hs
  exact congrArg logSoftmax (layer3_agree src dst nrm sn _ Wo bo hsrc h2r hWo hn hs)

end Net

end Gcn

end
-- ==== Proof.GatherPay.lean ====
import proofs.«148650_j55559696941682_1_alg».proof.Proof.Gen.KernelIdeal.Skeleton
import Idealize.ShloMosaic.Lib.ValueIdx
import Idealize.ShloMosaic.Lib.Pipeline.Value
import Idealize.ShloMosaic.Lib.KernelVsHost

set_option synthInstance.maxSize 4096

noncomputable section

open scoped BigOperators

namespace Cert.KernelIdeal.R0pay

open Idealize.ShloMosaic Idealize.SL.Sem Idealize.ShloMosaic.ValueIdx
open Cert.KernelIdeal Cert.KernelIdeal.Gen

theorem pay1_apply (j : S4096x16.Idx) : (k0_pay1 (F := Ideal)) j = 0 := by
  unfold k0_pay1
  simp only [shapeCast_self, broadcast_apply]
  exact Ideal.ofBits_zero_f32

theorem word_eq_node_iff (nb : Nat) (hnb : nb < 25) (k : Fin 2000) (w : BitVec 32) :
    w = IntOp.addi (Scalar.muli (BitVec.ofNat 32 nb) 2000#32) (BitVec.ofNat 32 k.val) ↔ w.toNat = nb * 2000 + k.val := by
  have hk := k.isLt
  have hv : (IntOp.addi (Scalar.muli (BitVec.ofNat 32 nb) 2000#32) (BitVec.ofNat 32 k.val)).toNat = nb * 2000 + k.val := by
    show (BitVec.ofNat 32 nb * 2000#32 + BitVec.ofNat 32 k.val).toNat = _
    rw [BitVec.toNat_add, BitVec.toNat_mul, BitVec.toNat_ofNat, BitVec.toNat_ofNat, BitVec.toNat_ofNat]
    omega
  constructor
  · rintro rfl; exact hv
  · intro h; exact BitVec.eq_of_toNat_eq (h.trans hv.symm)

theorem onehot_entry (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b
  · subst h; simp [IntOp.cmpi]
  · have : (a == b) = false := by simpa using h
    simp [IntOp.cmpi, this, h]

theorem lhs_dot_0 (i : S4096x16.Idx) (q : dot_S4096x2000_S2000x16_S4096x16_1_0_0_1_n_n.contr.Idx) :
    (dot_S4096x2000_S2000x16_S4096x16_1_0_0_1_n_n.lhsIdx i q 0).val = (i 0).val := by
  unfold DotDims.lhsIdx
  rw [dif_neg (show ¬(0 : Fin S4096x2000.rank) ∈ dot_S4096x2000_S2000x16_S4096x16_1_0_0_1_n_n.lhsBatch by decide), dif_pos (show (0 : Fin S4096x2000.rank) ∈ dot_S4096x2000_S2000x16_S4096x16_1_0_0_1_n_n.lhsNonContracting by decide)]
  rfl
theorem lhs_dot_1 (i : S4096x16.Idx) (q : dot_S4096x2000_S2000x16_S4096x16_1_0_0_1_n_n.contr.Idx) :
    (dot_S4096x2000_S2000x16_S4096x16_1_0_0_1_n_n.lhsIdx i q 1).val = (q ⟨0, by decide⟩).val :=
  dot_S4096x2000_S2000x16_S4096x16_1_0_0_1_n_n.lhsIdx_val_of_single rfl i q
theorem rhs_dot_0 (i : S4096x16.Idx) (q : dot_S4096x2000_S2000x16_S4096x16_1_0_0_1_n_n.contr.Idx) :
    (dot_S4096x2000_S2000x16_S4096x16_1_0_0_1_n_n.rhsIdx i q 0).val = (q ⟨0, by decide⟩).val :=
  dot_S4096x2000_S2000x16_S4096x16_1_0_0_1_n_n.rhsIdx_val_of_single rfl i q
theorem rhs_dot_1 (i : S4096x16.Idx) (q : dot_S4096x2000_S2000x16_S4096x16_1_0_0_1_n_n.contr.Idx) :
    (dot_S4096x2000_S2000x16_S4096x16_1_0_0_1_n_n.rhsIdx i q 1).val = (i 1).val := by
  unfold DotDims.rhsIdx
  rw [dif_neg (show ¬(1 : Fin S2000x16.rank) ∈ dot_S4096x2000_S2000x16_S4096x16_1_0_0_1_n_n.rhsBatch by decide), dif_pos (show (1 : Fin S2000x16.rank) ∈ dot_S4096x2000_S2000x16_S4096x16_1_0_0_1_n_n.rhsNonContracting by decide)]
  rfl

theorem matmul_apply (A : FVec Ideal S4096x2000 .bf16) (B : FVec Ideal S2000x16 .bf16) (p : Fin 4096) (q : Fin 16) :
    matmul dot_S4096x2000_S2000x16_S4096x16_1_0_0_1_n_n none A B (constant (F := Ideal) S4096x16 .f32 0x00000000#32) (ix2 p q)
      = ∑ k : Fin 2000, A (ix2 p k) * B (ix2 k q) := by
  simp only [matmul]
  rw [Ideal.matmul_constant_zero_apply, ← Equiv.sum_comp (contrEquiv1 dot_S4096x2000_S2000x16_S4096x16_1_0_0_1_n_n 2000 rfl rfl).symm]
  refine Finset.sum_congr rfl fun k _ => ?_
  have hk := contrEquiv1_symm_val dot_S4096x2000_S2000x16_S4096x16_1_0_0_1_n_n 2000 rfl rfl k
  have el : dot_S4096x2000_S2000x16_S4096x16_1_0_0_1_n_n.lhsIdx (ix2 p q) ((contrEquiv1 dot_S4096x2000_S2000x16_S4096x16_1_0_0_1_n_n 2000 rfl rfl).symm k) = ix2 p k := funext fun a => Fin.ext (by
    match a with
    | ⟨0, _⟩ => exact lhs_dot_0 _ _
    | ⟨1, _⟩ => exact (lhs_dot_1 _ _).trans hk)
  have er : dot_S4096x2000_S2000x16_S4096x16_1_0_0_1_n_n.rhsIdx (ix2 p q) ((contrEquiv1 dot_S4096x2000_S2000x16_S4096x16_1_0_0_1_n_n 2000 rfl rfl).symm k) = ix2 k q := funext fun a => Fin.ext (by
    match a with
    | ⟨0, _⟩ => exact (rhs_dot_0 _ _).trans hk
    | ⟨1, _⟩ => exact rhs_dot_1 _ _)
  rw [el, er]

theorem sum_pick (base s : Nat) (v : Fin 2000 → EReal) :
    (∑ k : Fin 2000, (if s = base + k.val then (1 : EReal) else 0) * v k)
      = if h : base ≤ s ∧ s < base + 2000 then v ⟨s - base, by omega⟩ else 0 := by
  split
  · rename_i h
    rw [Finset.sum_eq_single (⟨s - base, by omega⟩ : Fin 2000)]
    · rw [if_pos (by show s = base + (s - base); omega), one_mul]
    · intro k _ hk
      rw [if_neg, zero_mul]
      intro he; exact hk (Fin.ext (by show k.val = s - base; omega))
    · intro hn; exact absurd (Finset.mem_univ _) hn
  · rename_i h
    refine Finset.sum_eq_zero fun k _ => ?_
    rw [if_neg, zero_mul]
    intro he; have := k.isLt; exact h (by omega)

theorem pay2_apply (i : grid0.Coords) (hnb : (i 1).val < 25) (x0 : Vec Ideal S4096 .i32) (a : Vec Ideal S4096x16 .f32)
    (yb : Vec Ideal S2000x16 .f32) (p : Fin 4096) (q : Fin 16) :
    k0_pay2 (F := Ideal) i x0 a yb (ix2 p q)
      = a (ix2 p q) + (if h : (i 1).val * 2000 ≤ (x0 (ix1 p)).toNat ∧ (x0 (ix1 p)).toNat < (i 1).val * 2000 + 2000
          then yb (ix2 ⟨(x0 (ix1 p)).toNat - (i 1).val * 2000, by omega⟩ q) else 0) := by
  unfold k0_pay2
  simp only [shapeCast_self]
  rw [addf_apply, matmul_apply]
  congr 1
  rw [← sum_pick ((i 1).val * 2000) (x0 (ix1 p)).toNat (fun k => yb (ix2 k q))]
  refine Finset.sum_congr rfl fun k _ => ?_
  rw [truncf_apply, truncf_apply, sitofp_apply, extui_apply]
  congr 1
  have e10 : broadcastTo S4096x2000 (shapeCast S4096x1 x0 shapeCasts_S4096_S4096x1) broadcasts_S4096x1_S4096x2000 (ix2 p k) = x0 (ix1 p) := by
    rw [broadcastTo_apply _ _ (ix2 p k) (ix2 p (0 : Fin 1)) (by
      intro a
      match a with
      | ⟨0, _⟩ => rfl
      | ⟨1, _⟩ => rfl)]
    exact shapeCast_apply x0 _ (ix2 p (0 : Fin 1)) (ix1 p) (by
      rw [Shape.rowMajor_val_two, Shape.rowMajor_val_one]; show p.val = p.val * 1 + 0; omega)
  show FloatOps.sitofp (F := Ideal) .f32 ((IntOp.cmpi .eq _ _).setWidth 32) = _
  rw [e10, onehot_entry]
  show (if x0 (ix1 p) = IntOp.addi (Scalar.muli (BitVec.ofNat 32 (i 1).val) 2000#32) (iota .tc S4096x2000 32 [1] iota_S4096x2000_d1_w32 (ix2 p k)) then (1 : EReal) else 0) = _
  rw [iota_single_apply]
  show (if x0 (ix1 p) = IntOp.addi (Scalar.muli (BitVec.ofNat 32 (i 1).val) 2000#32) (BitVec.ofNat 32 k.val) then (1 : EReal) else 0) = _
  simp only [word_eq_node_iff _ hnb]

theorem pay2_step (i : grid0.Coords) (hnb : (i 1).val < 25) (x0 : Vec Ideal S4096 .i32) (a : Vec Ideal S4096x16 .f32)
    (yb : Vec Ideal S2000x16 .f32) (y : (⟨2, ![50000, 16]⟩ : Shape).Idx → EReal)
    (hy : ∀ (r : Fin 2000) (q : Fin 16), yb (ix2 r q) = y (ix2 ⟨(i 1).val * 2000 + r.val, by omega⟩ q))
    (p : Fin 4096) (q : Fin 16)
    (ha : a (ix2 p q) = if h : (x0 (ix1 p)).toNat < (i 1).val * 2000 then y (ix2 ⟨(x0 (ix1 p)).toNat, by omega⟩ q) else 0) :
    k0_pay2 (F := Ideal) i x0 a yb (ix2 p q)
      = if h : (x0 (ix1 p)).toNat < (i 1).val * 2000 + 2000 then y (ix2 ⟨(x0 (ix1 p)).toNat, by omega⟩ q) else 0 := by
  rw [pay2_apply i hnb, ha]
  by_cases h1 : (x0 (ix1 p)).toNat < (i 1).val * 2000
  · rw [dif_pos h1, dif_neg (by omega), dif_pos (by omega), add_zero]
  · rw [dif_neg h1]
    by_cases h2 : (x0 (ix1 p)).toNat < (i 1).val * 2000 + 2000
    · rw [dif_pos ⟨by omega, h2⟩, dif_pos h2, zero_add, hy]
      refine congrArg y (funext fun a => Fin.ext ?_)
      match a with
      | ⟨0, _⟩ => show (i 1).val * 2000 + ((x0 (ix1 p)).toNat - (i 1).val * 2000) = (x0 (ix1 p)).toNat; omega
      | ⟨1, _⟩ => rfl
    · rw [dif_neg (by omega), dif_neg h2, add_zero]

end Cert.KernelIdeal.R0pay

end
-- ==== Proof.Gather0Value.lean ====
import proofs.«148650_j55559696941682_1_alg».proof.Proof.Gather0
import proofs.«148650_j55559696941682_1_alg».proof.Proof.GatherPay
import proofs.«148650_j55559696941682_1_alg».proof.Proof.Spec
import proofs.«148650_j55559696941682_1_alg».proof.Proof.Gen.KernelIdeal.Points
import Idealize.ShloMosaic.Lib.Pipeline.Value

set_option maxRecDepth 16384

noncomputable section

open scoped BigOperators

namespace Cert.KernelIdeal.R0

open Idealize.ShloMosaic Idealize.ShloMosaic.TcCoe Idealize.ShloMosaic.ValueIdx
open Idealize.SL Idealize.SL.Sem
open Idealize.ShloMosaic.Pipeline (Dat)
open Cert.KernelIdeal.Gen Cert.KernelIdeal.R0pay

variable (V : (c : Dev nD) → (b : Ref sig .tc) → Buf (Elt Ideal) ((c : Thread nD τ).loc b))

theorem idx_facts : ∀ t : Fin cfg0.N, (grid0.coords t 1).val = t.val % 25
    ∧ win0_0.index t (0 : Fin 1) = t.val / 25
    ∧ win0_1.index t (0 : Fin 2) = t.val % 25 ∧ win0_1.index t (1 : Fin 2) = 0
    ∧ win0_2.index t (0 : Fin 2) = t.val / 25 ∧ win0_2.index t (1 : Fin 2) = 0 :=
  (by decide +kernel : ∀ t : Fin grid0.N, _)

abbrev srcArr (c : Dev nD) : Gcn.SP1.Idx → BitVec 32 := V c (Pipeline.arrRef spec0 0)
abbrev yArr (c : Dev nD) : Gcn.SNH.Idx → EReal := V c (Pipeline.arrRef spec0 1)

theorem srcBlk_apply (c : Dev nD) (t : Fin cfg0.N) (p : Fin 4096) :
    srcBlk V c t (ix1 p) = srcArr V c (ix1 ⟨t.val / 25 * 4096 + p.val, by
      have hN : cfg0.N = 4900 := N_0
      have := t.isLt; omega⟩) := by
  obtain ⟨-, e0, -⟩ := idx_facts t
  show iblk V c 0 t (ix1 p) = _
  unfold iblk
  rw [View.read_apply]
  show V c (Pipeline.arrRef spec0 0) (((cfg0.win 0).blk t).view.emb (ix1 p)) = V c (Pipeline.arrRef spec0 0) _
  refine congrArg _ (funext fun a => Fin.ext ?_)
  match a with
  | ⟨0, _⟩ => show win0_0.index t (0 : Fin 1) * 4096 + 1 * p.val = t.val / 25 * 4096 + p.val; rw [e0]; omega

theorem yBlk_apply (c : Dev nD) (t : Fin cfg0.N) (r : Fin 2000) (q : Fin 16) :
    yBlk V c t (ix2 r q) = yArr V c (ix2 ⟨t.val % 25 * 2000 + r.val, by omega⟩ q) := by
  obtain ⟨-, -, e0, e1, -⟩ := idx_facts t
  show iblk V c 1 t (ix2 r q) = _
  unfold iblk
  rw [View.read_apply]
  show V c (Pipeline.arrRef spec0 1) (((cfg0.win 1).blk t).view.emb (ix2 r q)) = V c (Pipeline.arrRef spec0 1) _
  refine congrArg _ (funext fun a => Fin.ext ?_)
  match a with
  | ⟨0, _⟩ => show win0_1.index t (0 : Fin 2) * 2000 + 1 * r.val = t.val % 25 * 2000 + r.val; rw [e0]; omega
  | ⟨1, _⟩ => show win0_1.index t (1 : Fin 2) * 16 + 1 * q.val = q.val; rw [e1]; omega

theorem yBlk_coords (c : Dev nD) (n : ℕ) (hn : n < cfg0.N) (hnb : (grid0.coords ⟨n, hn⟩ 1).val < 25) (r : Fin 2000) (q : Fin 16) :
    yBlk V c ⟨n, hn⟩ (ix2 r q) = yArr V c (ix2 ⟨(grid0.coords ⟨n, hn⟩ 1).val * 2000 + r.val, by omega⟩ q) := by
  obtain ⟨ec, -⟩ := idx_facts ⟨n, hn⟩
  have ec' : (grid0.coords ⟨n, hn⟩ 1).val = n % 25 := ec
  rw [yBlk_apply]
  refine congrArg _ (funext fun a => Fin.ext ?_)
  match a with
  | ⟨0, _⟩ => show n % 25 * 2000 + r.val = (grid0.coords ⟨n, hn⟩ 1).val * 2000 + r.val; rw [ec']
  | ⟨1, _⟩ => rfl

theorem acc_apply_reset (c : Dev nD) (n : ℕ) (hn : n < cfg0.N) (h0 : n % 25 = 0) (p : Fin 4096) (q : Fin 16) :
    acc V c n hn (ix2 p q)
      = if h : (srcBlk V c ⟨n, hn⟩ (ix1 p)).toNat < n % 25 * 2000 + 2000
        then yArr V c (ix2 ⟨(srcBlk V c ⟨n, hn⟩ (ix1 p)).toNat, by omega⟩ q) else 0 := by
  obtain ⟨ec, -⟩ := idx_facts ⟨n, hn⟩
  have ec' : (grid0.coords ⟨n, hn⟩ 1).val = n % 25 := ec
  have hnb : (grid0.coords ⟨n, hn⟩ 1).val < 25 := by rw [ec']; omega
  rw [acc_reset V c n hn h0, pay2_step (grid0.coords ⟨n, hn⟩) hnb (srcBlk V c ⟨n, hn⟩) (k0_pay1 (F := Ideal)) (yBlk V c ⟨n, hn⟩)
    (yArr V c) (yBlk_coords V c n hn hnb) p q (by rw [pay1_apply, dif_neg (by rw [ec']; omega)])]
  simp only [ec']

theorem acc_apply_step (c : Dev nD) (n : ℕ) (hn : n < cfg0.N) (h0 : n % 25 ≠ 0)
    (ih : ∀ (p : Fin 4096) (q : Fin 16), acc V c (n - 1) (Nat.lt_of_le_of_lt (Nat.sub_le _ _) hn) (ix2 p q)
      = if h : (srcBlk V c ⟨n - 1, Nat.lt_of_le_of_lt (Nat.sub_le _ _) hn⟩ (ix1 p)).toNat < (n - 1) % 25 * 2000 + 2000
        then yArr V c (ix2 ⟨(srcBlk V c ⟨n - 1, Nat.lt_of_le_of_lt (Nat.sub_le _ _) hn⟩ (ix1 p)).toNat, by omega⟩ q) else 0)
    (p : Fin 4096) (q : Fin 16) :
    acc V c n hn (ix2 p q)
      = if h : (srcBlk V c ⟨n, hn⟩ (ix1 p)).toNat < n % 25 * 2000 + 2000
        then yArr V c (ix2 ⟨(srcBlk V c ⟨n, hn⟩ (ix1 p)).toNat, by omega⟩ q) else 0 := by
  obtain ⟨ec, -⟩ := idx_facts ⟨n, hn⟩
  have ec' : (grid0.coords ⟨n, hn⟩ 1).val = n % 25 := ec
  have hnb : (grid0.coords ⟨n, hn⟩ 1).val < 25 := by rw [ec']; omega
  have hsrc : srcBlk V c ⟨n - 1, Nat.lt_of_le_of_lt (Nat.sub_le _ _) hn⟩ (ix1 p) = srcBlk V c ⟨n, hn⟩ (ix1 p) := by
    rw [srcBlk_apply, srcBlk_apply]
    refine congrArg _ (funext fun a => Fin.ext ?_)
    match a with
    | ⟨0, _⟩ => show (n - 1) / 25 * 4096 + p.val = n / 25 * 4096 + p.val; omega
  have e : (n - 1) % 25 * 2000 + 2000 = n % 25 * 2000 := by omega
  rw [acc_step V c n hn h0, pay2_step (grid0.coords ⟨n, hn⟩) hnb (srcBlk V c ⟨n, hn⟩)
    (acc V c (n - 1) (Nat.lt_of_le_of_lt (Nat.sub_le _ _) hn)) (yBlk V c ⟨n, hn⟩) (yArr V c) (yBlk_coords V c n hn hnb) p q (by
      rw [ih p q]
      simp only [hsrc, ec', e])]
  simp only [ec']

theorem acc_apply (c : Dev nD) : ∀ (n : ℕ) (hn : n < cfg0.N) (p : Fin 4096) (q : Fin 16),
    acc V c n hn (ix2 p q)
      = if h : (srcBlk V c ⟨n, hn⟩ (ix1 p)).toNat < n % 25 * 2000 + 2000
        then yArr V c (ix2 ⟨(srcBlk V c ⟨n, hn⟩ (ix1 p)).toNat, by omega⟩ q) else 0
  | 0, hn, p, q => acc_apply_reset V c 0 hn rfl p q
  | n + 1, hn, p, q => by
    by_cases h0 : (n + 1) % 25 = 0
    · exact acc_apply_reset V c (n + 1) hn h0 p q
    · exact acc_apply_step V c (n + 1) hn h0 (fun p q => acc_apply c n (Nat.lt_of_succ_lt hn) p q) p q

theorem acc_last (c : Dev nD) (t : Fin cfg0.N) (ht : t.val % 25 = 24) (p : Fin 4096) (q : Fin 16) :
    acc V c t.val t.isLt (ix2 p q)
      = Gcn.gatherZ (srcArr V c) (yArr V c) (ix2 ⟨t.val / 25 * 4096 + p.val, by
          have hN : cfg0.N = 4900 := N_0
          have := t.isLt; omega⟩ q) := by
  rw [acc_apply V c t.val t.isLt p q, Gcn.gatherZ_ix2]
  have hs : srcBlk V c ⟨t.val, t.isLt⟩ (ix1 p) = srcArr V c (ix1 ⟨t.val / 25 * 4096 + p.val, by
      have hN : cfg0.N = 4900 := N_0
      have := t.isLt; omega⟩) := srcBlk_apply V c t p
  simp only [hs, ht]

theorem flushed_eq (c : Dev nD) (t : Fin cfg0.N) (hf : (cfg0.win 2).flush t = true) :
    (dat V c).flushed 2 t = ((cfg0.win 2).blk t).view.read (Elt Ideal) (Gcn.gatherZ (srcArr V c) (yArr V c)) := by
  have ht : t.val % 25 = 24 := (flush0_2 t).mp hf
  obtain ⟨-, -, -, -, e0, e1⟩ := idx_facts t
  show (cfg0.win 2).cut (grid0.coords t) ((dat V c).after 2 t) = _
  rw [after2]
  funext j
  obtain ⟨p, q, rfl⟩ : ∃ (p : Fin 4096) (q : Fin 16), j = ix2 p q := ⟨j 0, j 1, eq_ix2 j⟩
  rw [View.read_apply]
  show acc V c t.val t.isLt (ix2 p q) = _
  rw [acc_last V c t ht p q]
  refine congrArg _ (funext fun a => Fin.ext ?_)
  match a with
  | ⟨0, _⟩ => show t.val / 25 * 4096 + p.val = win0_2.index t (0 : Fin 2) * 4096 + 1 * p.val; rw [e0]; omega
  | ⟨1, _⟩ => show q.val = win0_2.index t (1 : Fin 2) * 16 + 1 * q.val; rw [e1]; omega

theorem mem_blk (t : Fin cfg0.N) (i : Gcn.SPH.Idx) :
    i ∈ ((cfg0.win 2).blk t).view.set ↔ ∀ a : Fin 2, win0_2.index t a * S4096x16.size a ≤ (i a).val ∧ (i a).val < win0_2.index t a * S4096x16.size a + S4096x16.size a := by
  show i ∈ ((View.whole (Pipeline.arrRef spec0 2)).slice (win0_2.rect t)).set ↔ _
  rw [View.set_slice_whole, Rect.mem_set_unit]
  exact Iff.rfl

theorem cover (i : Gcn.SPH.Idx) : ∃ t : Fin cfg0.N, (cfg0.win 2).flush t = true ∧ i ∈ ((cfg0.win 2).blk t).view.set := by
  have hN : cfg0.N = 4900 := N_0
  have hi0 : (i 0).val < 802816 := (i 0).isLt
  have hi1 : (i 1).val < 16 := (i 1).isLt
  let t : Fin cfg0.N := ⟨(i 0).val / 4096 * 25 + 24, by omega⟩
  have htv : t.val = (i 0).val / 4096 * 25 + 24 := rfl
  obtain ⟨-, -, -, -, e0, e1⟩ := idx_facts t
  refine ⟨t, (flush0_2 t).mpr (by omega), ?_⟩
  rw [mem_blk]
  intro a
  match a with
  | ⟨0, _⟩ => show win0_2.index t (0 : Fin 2) * 4096 ≤ (i 0).val ∧ (i 0).val < win0_2.index t (0 : Fin 2) * 4096 + 4096; rw [e0]; omega
  | ⟨1, _⟩ => show win0_2.index t (1 : Fin 2) * 16 ≤ (i 1).val ∧ (i 1).val < win0_2.index t (1 : Fin 2) * 16 + 16; rw [e1]; omega

theorem final (c : Dev nD) :
    (dat V c).arrAt 2 cfg0.N = Gcn.gatherZ (V c (Pipeline.arrRef spec0 0)) (V c (Pipeline.arrRef spec0 1)) :=
  (dat V c).arrAt_eq_of_cover 2 (Gcn.gatherZ (srcArr V c) (yArr V c)) (fun t hf => flushed_eq V c t hf) cover

end Cert.KernelIdeal.R0

end
-- ==== Proof.ScatterPay.lean ====
import proofs.«148650_j55559696941682_1_alg».proof.Proof.Gen.KernelIdeal.Skeleton
import Idealize.ShloMosaic.Lib.ValueLayout
import Idealize.ShloMosaic.PureOps.Ideal.Laws

noncomputable section

open scoped BigOperators

namespace Cert.KernelIdeal.R1pay

open Idealize.ShloMosaic Idealize.ShloMosaic.ValueIdx Cert.KernelIdeal Cert.KernelIdeal.Gen

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem column_spread_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (e : Fin a) (q : Fin b) :
    broadcastTo ⟨2, ![a, b]⟩ (shapeCast ⟨2, ![a, 1]⟩ x h1) h2 (ix2 e q) = x (ix1 e) := by
  rw [broadcastTo_a1_ab_apply, shapeCast_a_a1_apply]

theorem word_eq_iff (d : BitVec 32) (nb p : ℕ) (hnb : nb < 25) (hp : p < 2000) :
    d = IntOp.addi (Scalar.muli (BitVec.ofNat 32 nb) 2000#32) (BitVec.ofNat 32 p) ↔ d.toNat = nb * 2000 + p := by
  have hv : (IntOp.addi (Scalar.muli (BitVec.ofNat 32 nb) 2000#32) (BitVec.ofNat 32 p)).toNat = nb * 2000 + p := by
    show ((BitVec.ofNat 32 nb) * 2000#32 + BitVec.ofNat 32 p).toNat = _
    simp only [BitVec.toNat_add, BitVec.toNat_mul, BitVec.toNat_ofNat]
    omega
  constructor
  · intro h; rw [h, hv]
  · intro h; exact BitVec.eq_of_toNat_eq (by rw [h, hv])

theorem onehot_entry (x y : BitVec 32) :
    (FloatOps.sitofp (F := Ideal) .f32 ((IntOp.cmpi .eq x y).setWidth 32) : EReal) = if x = y then 1 else 0 := by
  by_cases h : x = y
  · subst h
    rw [if_pos rfl]
    show (((((BitVec.ofBool (x == x)).setWidth 32).toInt : ℝ)) : EReal) = 1
    simp
  · rw [if_neg h]
    show (((((BitVec.ofBool (x == y)).setWidth 32).toInt : ℝ)) : EReal) = 0
    have : (x == y) = false := by simpa using h
    rw [this]
    simp

theorem lhs_dot_0 (i : S2000x16.Idx) (q : dot_S4096x2000_S4096x16_S2000x16_0_0_1_1_n_n.contr.Idx) :
    (dot_S4096x2000_S4096x16_S2000x16_0_0_1_1_n_n.lhsIdx i q 0).val = (q ⟨0, by decide⟩).val :=
  dot_S4096x2000_S4096x16_S2000x16_0_0_1_1_n_n.lhsIdx_val_of_single rfl i q
theorem lhs_dot_1 (i : S2000x16.Idx) (q : dot_S4096x2000_S4096x16_S2000x16_0_0_1_1_n_n.contr.Idx) :
    (dot_S4096x2000_S4096x16_S2000x16_0_0_1_1_n_n.lhsIdx i q 1).val = (i 0).val := by
  unfold DotDims.lhsIdx
  rw [dif_neg (show ¬(1 : Fin S4096x2000.rank) ∈ dot_S4096x2000_S4096x16_S2000x16_0_0_1_1_n_n.lhsBatch by decide), dif_pos (show (1 : Fin S4096x2000.rank) ∈ dot_S4096x2000_S4096x16_S2000x16_0_0_1_1_n_n.lhsNonContracting by decide)]
  rfl
theorem rhs_dot_0 (i : S2000x16.Idx) (q : dot_S4096x2000_S4096x16_S2000x16_0_0_1_1_n_n.contr.Idx) :
    (dot_S4096x2000_S4096x16_S2000x16_0_0_1_1_n_n.rhsIdx i q 0).val = (q ⟨0, by decide⟩).val :=
  dot_S4096x2000_S4096x16_S2000x16_0_0_1_1_n_n.rhsIdx_val_of_single rfl i q
theorem rhs_dot_1 (i : S2000x16.Idx) (q : dot_S4096x2000_S4096x16_S2000x16_0_0_1_1_n_n.contr.Idx) :
    (dot_S4096x2000_S4096x16_S2000x16_0_0_1_1_n_n.rhsIdx i q 1).val = (i 1).val := by
  unfold DotDims.rhsIdx
  rw [dif_neg (show ¬(1 : Fin S4096x16.rank) ∈ dot_S4096x2000_S4096x16_S2000x16_0_0_1_1_n_n.rhsBatch by decide), dif_pos (show (1 : Fin S4096x16.rank) ∈ dot_S4096x2000_S4096x16_S2000x16_0_0_1_1_n_n.rhsNonContracting by decide)]
  rfl

theorem matmul_edges_apply (A : FVec Ideal S4096x2000 .bf16) (B : FVec Ideal S4096x16 .bf16) (p : Fin 2000) (q : Fin 16) :
    matmul dot_S4096x2000_S4096x16_S2000x16_0_0_1_1_n_n none A B (constant (F := Ideal) S2000x16 .f32 0x00000000#32) (ix2 p q)
      = ∑ e : Fin 4096, A (ix2 e p) * B (ix2 e q) := by
  simp only [matmul]
  rw [Ideal.matmul_constant_zero_apply, ← Equiv.sum_comp (ValueIdx.contrEquiv1 dot_S4096x2000_S4096x16_S2000x16_0_0_1_1_n_n 4096 rfl rfl).symm]
  refine Finset.sum_congr rfl fun k _ => ?_
  have hk := ValueIdx.contrEquiv1_symm_val dot_S4096x2000_S4096x16_S2000x16_0_0_1_1_n_n 4096 rfl rfl k
  have el : dot_S4096x2000_S4096x16_S2000x16_0_0_1_1_n_n.lhsIdx (ix2 p q) ((ValueIdx.contrEquiv1 dot_S4096x2000_S4096x16_S2000x16_0_0_1_1_n_n 4096 rfl rfl).symm k) = ix2 k p := funext fun a => Fin.ext (by
    match a with
    | ⟨0, _⟩ => exact (lhs_dot_0 _ _).trans hk
    | ⟨1, _⟩ => exact lhs_dot_1 _ _)
  have er : dot_S4096x2000_S4096x16_S2000x16_0_0_1_1_n_n.rhsIdx (ix2 p q) ((ValueIdx.contrEquiv1 dot_S4096x2000_S4096x16_S2000x16_0_0_1_1_n_n 4096 rfl rfl).symm k) = ix2 k q := funext fun a => Fin.ext (by
    match a with
    | ⟨0, _⟩ => exact (rhs_dot_0 _ _).trans hk
    | ⟨1, _⟩ => exact rhs_dot_1 _ _)
  rw [el, er]

theorem pay1_apply (j : S2000x16.Idx) : k1_pay1 (F := Ideal) j = 0 := by
  unfold k1_pay1
  rw [shapeCast_self]
  show Ideal.ofBits .f32 0x00000000#32 = 0
  exact Ideal.ofBits_zero_f32

theorem pay2_apply (i : grid1.Coords) (hnb : (i 0).val < 25) (d0 : Vec Ideal S4096 .i32) (n0 : Vec Ideal S4096 .f32)
    (g0 : Vec Ideal S4096x16 .f32) (a : Vec Ideal S2000x16 .f32) (p : Fin 2000) (q : Fin 16) :
    k1_pay2 i d0 n0 g0 a (ix2 p q)
      = a (ix2 p q) + ∑ e : Fin 4096,
          (if (d0 (ix1 e)).toNat = (i 0).val * 2000 + p.val then g0 (ix2 e q) * n0 (ix1 e) else 0) := by
  unfold k1_pay2
  simp only [shapeCast_self]
  rw [addf_apply, matmul_edges_apply]
  refine congrArg (a (ix2 p q) + ·) (Finset.sum_congr rfl fun e _ => ?_)
  rw [truncf_apply, truncf_apply, mulf_apply, sitofp_apply, extui_apply, column_spread_apply]
  show FloatOps.sitofp (F := Ideal) .f32 ((IntOp.cmpi .eq
      (broadcastTo S4096x2000 (shapeCast S4096x1 d0 shapeCasts_S4096_S4096x1) broadcasts_S4096x1_S4096x2000 (ix2 e p))
      (IntOp.addi (Scalar.muli (BitVec.ofNat 32 (i 0).val) 2000#32)
        (iota .tc S4096x2000 32 [1] iota_S4096x2000_d1_w32 (ix2 e p)))).setWidth 32) * (g0 (ix2 e q) * n0 (ix1 e)) = _
  rw [column_spread_apply, iota_single_apply, onehot_entry]
  show (if d0 (ix1 e) = IntOp.addi (Scalar.muli (BitVec.ofNat 32 (i 0).val) 2000#32) (BitVec.ofNat 32 p.val) then (1 : EReal) else 0)
      * (g0 (ix2 e q) * n0 (ix1 e)) = _
  by_cases h : (d0 (ix1 e)).toNat = (i 0).val * 2000 + p.val
  · rw [if_pos h, if_pos ((word_eq_iff _ _ _ hnb p.isLt).mpr h), one_mul]
  · rw [if_neg h, if_neg (fun h' => h ((word_eq_iff _ _ _ hnb p.isLt).mp h')), zero_mul]

theorem pay3_apply (a s : Vec Ideal S2000x16 .f32) (b : Vec Ideal S16 .f32) (k : Vec Ideal S2000x16 .f32) (p : Fin 2000) (q : Fin 16) :
    k1_pay3 a s b k (ix2 p q) = max ((a (ix2 p q) + s (ix2 p q)) + b (ix1 q)) 0 + k (ix2 p q) := by
  unfold k1_pay3
  simp only [shapeCast_self]
  rw [addf_apply, maximumf_apply, addf_apply, addf_apply, broadcast_apply, broadcastTo_1b_ab_apply, shapeCast_a_1a_apply]
  show max ((a (ix2 p q) + s (ix2 p q)) + b (ix1 q)) (Ideal.ofBits .f32 0x00000000#32) + k (ix2 p q) = _
  rw [Ideal.ofBits_zero_f32]

end Cert.KernelIdeal.R1pay

end
-- ==== Proof.ScatterBlocks.lean ====
import proofs.«148650_j55559696941682_1_alg».proof.Proof.Gen.KernelIdeal.Launch
import proofs.«148650_j55559696941682_1_alg».proof.Proof.Gen.KernelIdeal.Skeleton
import Idealize.ShloMosaic.Lib.Pipeline.Value
import Idealize.ShloMosaic.Lib.ValueIdx

noncomputable section

open scoped BigOperators

namespace Cert.KernelIdeal.R1blk

open Idealize.ShloMosaic Idealize.ShloMosaic.TcCoe Idealize.ShloMosaic.ValueIdx Cert.KernelIdeal Cert.KernelIdeal.Gen

variable {F : FTy → Type} [FloatOps F]

theorem grid_facts : ∀ t : Fin cfg1.N, (grid1.coords t 0).val = t.val / 196 ∧ (grid1.coords t 1).val = t.val % 196 :=
  (by decide +kernel : ∀ t : Fin grid1.N, (grid1.coords t 0).val = t.val / 196 ∧ (grid1.coords t 1).val = t.val % 196)

theorem idx_edge : ∀ t : Fin cfg1.N, win1_0.index t (0 : Fin 1) = t.val % 196 ∧ win1_1.index t (0 : Fin 1) = t.val % 196
    ∧ win1_2.index t (0 : Fin 2) = t.val % 196 ∧ win1_2.index t (1 : Fin 2) = 0 :=
  (by decide +kernel : ∀ t : Fin grid1.N, win1_0.index t (0 : Fin 1) = t.val % 196 ∧ win1_1.index t (0 : Fin 1) = t.val % 196
    ∧ win1_2.index t (0 : Fin 2) = t.val % 196 ∧ win1_2.index t (1 : Fin 2) = 0)

theorem idx_node : ∀ t : Fin cfg1.N, win1_3.index t (0 : Fin 2) = t.val / 196 ∧ win1_3.index t (1 : Fin 2) = 0
    ∧ win1_4.index t (0 : Fin 1) = 0
    ∧ win1_5.index t (0 : Fin 2) = t.val / 196 ∧ win1_5.index t (1 : Fin 2) = 0
    ∧ win1_6.index t (0 : Fin 2) = t.val / 196 ∧ win1_6.index t (1 : Fin 2) = 0 :=
  (by decide +kernel : ∀ t : Fin grid1.N, win1_3.index t (0 : Fin 2) = t.val / 196 ∧ win1_3.index t (1 : Fin 2) = 0
    ∧ win1_4.index t (0 : Fin 1) = 0
    ∧ win1_5.index t (0 : Fin 2) = t.val / 196 ∧ win1_5.index t (1 : Fin 2) = 0
    ∧ win1_6.index t (0 : Fin 2) = t.val / 196 ∧ win1_6.index t (1 : Fin 2) = 0)

theorem N_val : cfg1.N = 4900 := N_1

theorem read0 (X : S802816.Idx → Elt F .i32) (t : Fin cfg1.N) (e : Fin 4096) (E : Fin 802816)
    (hE : E.val = t.val % 196 * 4096 + e.val) :
    ((cfg1.win 0).blk t).view.read (Elt F) X (ix1 e) = X (ix1 E) := by
  rw [View.read_apply]
  show X (((cfg1.win 0).blk t).view.emb (ix1 e)) = X (ix1 E)
  refine congrArg X (funext fun a => Fin.ext ?_)
  match a with
  | ⟨0, _⟩ => show win1_0.index t (0 : Fin 1) * 4096 + 1 * e.val = E.val; rw [(idx_edge t).1]; omega

theorem read1 (X : S802816.Idx → Elt F .f32) (t : Fin cfg1.N) (e : Fin 4096) (E : Fin 802816)
    (hE : E.val = t.val % 196 * 4096 + e.val) :
    ((cfg1.win 1).blk t).view.read (Elt F) X (ix1 e) = X (ix1 E) := by
  rw [View.read_apply]
  show X (((cfg1.win 1).blk t).view.emb (ix1 e)) = X (ix1 E)
  refine congrArg X (funext fun a => Fin.ext ?_)
  match a with
  | ⟨0, _⟩ => show win1_1.index t (0 : Fin 1) * 4096 + 1 * e.val = E.val; rw [(idx_edge t).2.1]; omega

theorem read2 (X : S802816x16.Idx → Elt F .f32) (t : Fin cfg1.N) (e : Fin 4096) (q : Fin 16) (E : Fin 802816)
    (hE : E.val = t.val % 196 * 4096 + e.val) :
    ((cfg1.win 2).blk t).view.read (Elt F) X (ix2 e q) = X (ix2 E q) := by
  rw [View.read_apply]
  show X (((cfg1.win 2).blk t).view.emb (ix2 e q)) = X (ix2 E q)
  refine congrArg X (funext fun a => Fin.ext ?_)
  match a with
  | ⟨0, _⟩ => show win1_2.index t (0 : Fin 2) * 4096 + 1 * e.val = E.val; rw [(idx_edge t).2.2.1]; omega
  | ⟨1, _⟩ => show win1_2.index t (1 : Fin 2) * 16 + 1 * q.val = q.val; rw [(idx_edge t).2.2.2]; omega

theorem read3 (X : S50000x16.Idx → Elt F .f32) (t : Fin cfg1.N) (p : Fin 2000) (q : Fin 16) (r : Fin 50000)
    (hr : r.val = t.val / 196 * 2000 + p.val) :
    ((cfg1.win 3).blk t).view.read (Elt F) X (ix2 p q) = X (ix2 r q) := by
  rw [View.read_apply]
  show X (((cfg1.win 3).blk t).view.emb (ix2 p q)) = X (ix2 r q)
  refine congrArg X (funext fun a => Fin.ext ?_)
  match a with
  | ⟨0, _⟩ => show win1_3.index t (0 : Fin 2) * 2000 + 1 * p.val = r.val; rw [(idx_node t).1]; omega
  | ⟨1, _⟩ => show win1_3.index t (1 : Fin 2) * 16 + 1 * q.val = q.val; rw [(idx_node t).2.1]; omega

theorem read4 (X : S16.Idx → Elt F .f32) (t : Fin cfg1.N) (q : Fin 16) :
    ((cfg1.win 4).blk t).view.read (Elt F) X (ix1 q) = X (ix1 q) := by
  rw [View.read_apply]
  show X (((cfg1.win 4).blk t).view.emb (ix1 q)) = X (ix1 q)
  refine congrArg X (funext fun a => Fin.ext ?_)
  match a with
  | ⟨0, _⟩ => show win1_4.index t (0 : Fin 1) * 16 + 1 * q.val = q.val; rw [(idx_node t).2.2.1]; omega

theorem read5 (X : S50000x16.Idx → Elt F .f32) (t : Fin cfg1.N) (p : Fin 2000) (q : Fin 16) (r : Fin 50000)
    (hr : r.val = t.val / 196 * 2000 + p.val) :
    ((cfg1.win 5).blk t).view.read (Elt F) X (ix2 p q) = X (ix2 r q) := by
  rw [View.read_apply]
  show X (((cfg1.win 5).blk t).view.emb (ix2 p q)) = X (ix2 r q)
  refine congrArg X (funext fun a => Fin.ext ?_)
  match a with
  | ⟨0, _⟩ => show win1_5.index t (0 : Fin 2) * 2000 + 1 * p.val = r.val; rw [(idx_node t).2.2.2.1]; omega
  | ⟨1, _⟩ => show win1_5.index t (1 : Fin 2) * 16 + 1 * q.val = q.val; rw [(idx_node t).2.2.2.2.1]; omega

theorem read6 (X : S50000x16.Idx → Elt F .f32) (t : Fin cfg1.N) (p : Fin 2000) (q : Fin 16) (r : Fin 50000)
    (hr : r.val = t.val / 196 * 2000 + p.val) :
    ((cfg1.win 6).blk t).view.read (Elt F) X (ix2 p q) = X (ix2 r q) := by
  rw [View.read_apply]
  show X (((cfg1.win 6).blk t).view.emb (ix2 p q)) = X (ix2 r q)
  refine congrArg X (funext fun a => Fin.ext ?_)
  match a with
  | ⟨0, _⟩ => show win1_6.index t (0 : Fin 2) * 2000 + 1 * p.val = r.val; rw [(idx_node t).2.2.2.2.2.1]; omega
  | ⟨1, _⟩ => show win1_6.index t (1 : Fin 2) * 16 + 1 * q.val = q.val; rw [(idx_node t).2.2.2.2.2.2]; omega

theorem mem_blk6 (t : Fin cfg1.N) (i : S50000x16.Idx) :
    i ∈ ((cfg1.win 6).blk t).view.set ↔ t.val / 196 * 2000 ≤ (i 0).val ∧ (i 0).val < t.val / 196 * 2000 + 2000 := by
  show i ∈ ((View.whole main_v41).slice (win1_6.rect t)).set ↔ _
  rw [View.set_slice_whole, Rect.mem_set_unit]
  constructor
  · intro h
    have b0 : win1_6.index t (0 : Fin 2) * 2000 ≤ (i 0).val ∧ (i 0).val < win1_6.index t (0 : Fin 2) * 2000 + 2000 := h 0
    rw [(idx_node t).2.2.2.2.2.1] at b0
    exact b0
  · intro h a
    match a with
    | ⟨0, _⟩ =>
      show win1_6.index t (0 : Fin 2) * 2000 ≤ (i 0).val ∧ (i 0).val < win1_6.index t (0 : Fin 2) * 2000 + 2000
      rw [(idx_node t).2.2.2.2.2.1]; exact h
    | ⟨1, _⟩ =>
      show win1_6.index t (1 : Fin 2) * 16 ≤ (i 1).val ∧ (i 1).val < win1_6.index t (1 : Fin 2) * 16 + 16
      rw [(idx_node t).2.2.2.2.2.2]
      have := (i 1).isLt
      have h16 : (i 1).val < 16 := this
      omega

def edgeEquiv : Fin 196 × Fin 4096 ≃ Fin 802816 :=
  (finProdFinEquiv (m := 196) (n := 4096)).trans (finCongr (by norm_num))

theorem edgeEquiv_val (a : Fin 196) (b : Fin 4096) : (edgeEquiv (a, b)).val = a.val * 4096 + b.val := by
  simp only [edgeEquiv, Equiv.trans_apply, finCongr_apply_coe, finProdFinEquiv_apply_val]
  omega

theorem sum_edge_blocks {M : Type*} [AddCommMonoid M] (f : Fin 802816 → M) :
    ∑ a : Fin 196, ∑ b : Fin 4096, f (edgeEquiv (a, b)) = ∑ E : Fin 802816, f E := by
  rw [← Equiv.sum_comp edgeEquiv f, Fintype.sum_prod_type]

end Cert.KernelIdeal.R1blk

end
-- ==== Proof.Scatter1Value.lean ====
import proofs.«148650_j55559696941682_1_alg».proof.Proof.Scatter1
import proofs.«148650_j55559696941682_1_alg».proof.Proof.Gen.KernelIdeal.Points
import proofs.«148650_j55559696941682_1_alg».proof.Proof.ScatterPay
import proofs.«148650_j55559696941682_1_alg».proof.Proof.ScatterBlocks
import proofs.«148650_j55559696941682_1_alg».proof.Proof.Spec

noncomputable section

open scoped BigOperators

namespace Cert.KernelIdeal.R1

open Idealize.ShloMosaic Idealize.ShloMosaic.TcCoe Idealize.ShloMosaic.ValueIdx
open Idealize.ShloMosaic.Pipeline (Dat)
open Cert.KernelIdeal Cert.KernelIdeal.Gen Cert.KernelIdeal.R1pay Cert.KernelIdeal.R1blk

variable (V : (c : Dev nD) → (b : Ref sig .tc) → Buf (Elt Ideal) ((c : Thread nD τ).loc b))

abbrev dstA (c : Dev nD) : S802816.Idx → BitVec 32 := V c (Pipeline.arrRef spec1 0)
abbrev nrmA (c : Dev nD) : S802816.Idx → EReal := V c (Pipeline.arrRef spec1 1)
abbrev gA (c : Dev nD) : S802816x16.Idx → EReal := V c (Pipeline.arrRef spec1 2)
abbrev selfA (c : Dev nD) : S50000x16.Idx → EReal := V c (Pipeline.arrRef spec1 3)
abbrev biasA (c : Dev nD) : S16.Idx → EReal := V c (Pipeline.arrRef spec1 4)
abbrev skipA (c : Dev nD) : S50000x16.Idx → EReal := V c (Pipeline.arrRef spec1 5)

def addend (dst : S802816.Idx → BitVec 32) (nrm : S802816.Idx → EReal) (g : S802816x16.Idx → EReal)
    (r : ℕ) (q : Fin 16) (E : Fin 802816) : EReal :=
  if (dst (ix1 E)).toNat = r then g (ix2 E q) * nrm (ix1 E) else 0

def blockSum (dst : S802816.Idx → BitVec 32) (nrm : S802816.Idx → EReal) (g : S802816x16.Idx → EReal)
    (r : ℕ) (q : Fin 16) (s : ℕ) : EReal :=
  if h : s < 196 then ∑ e : Fin 4096, addend dst nrm g r q (edgeEquiv (⟨s, h⟩, e)) else 0

theorem collect_eq_sum (dst : S802816.Idx → BitVec 32) (nrm : S802816.Idx → EReal) (g : S802816x16.Idx → EReal)
    (r : Fin 50000) (q : Fin 16) :
    Gcn.collect dst (fun i => g i * nrm (ix1 ⟨(i 0).val, idx2_lt0 i⟩)) r q = ∑ E : Fin 802816, addend dst nrm g r.val q E := by
  unfold Gcn.collect
  refine Finset.sum_congr rfl fun E _ => ?_
  unfold addend
  rfl

theorem sum_blocks_eq_collect (dst : S802816.Idx → BitVec 32) (nrm : S802816.Idx → EReal) (g : S802816x16.Idx → EReal)
    (r : Fin 50000) (q : Fin 16) :
    ∑ s ∈ Finset.range 196, blockSum dst nrm g r.val q s
      = Gcn.collect dst (fun i => g i * nrm (ix1 ⟨(i 0).val, idx2_lt0 i⟩)) r q := by
  rw [collect_eq_sum, ← sum_edge_blocks (fun E => addend dst nrm g r.val q E), Finset.sum_range]
  refine Finset.sum_congr rfl fun a _ => ?_
  unfold blockSum
  rw [dif_pos a.isLt]

theorem step_apply (c : Dev nD) (t : Fin cfg1.N) (a : Vec Ideal S2000x16 .f32) (p : Fin 2000) (q : Fin 16) :
    k1_pay2 (grid1.coords t) (iblk V c 0 t) (iblk V c 1 t) (iblk V c 2 t) a (ix2 p q)
      = a (ix2 p q) + blockSum (dstA V c) (nrmA V c) (gA V c) (t.val / 196 * 2000 + p.val) q (t.val % 196) := by
  have hlt : t.val % 196 < 196 := Nat.mod_lt _ (by decide)
  have hnb : (grid1.coords t 0).val < 25 := (grid1.coords t 0).isLt
  refine (pay2_apply (grid1.coords t) hnb _ _ _ a p q).trans ?_
  refine congrArg (a (ix2 p q) + ·) ?_
  unfold blockSum
  rw [dif_pos hlt]
  refine Finset.sum_congr rfl fun e _ => ?_
  have hE : (edgeEquiv (⟨t.val % 196, hlt⟩, e)).val = t.val % 196 * 4096 + e.val := edgeEquiv_val _ _
  have h0 : (iblk V c 0 t : Vec Ideal S4096 .i32) (ix1 e) = dstA V c (ix1 (edgeEquiv (⟨t.val % 196, hlt⟩, e))) :=
    read0 (F := Ideal) (dstA V c) t e _ hE
  have h1 : (iblk V c 1 t : Vec Ideal S4096 .f32) (ix1 e) = nrmA V c (ix1 (edgeEquiv (⟨t.val % 196, hlt⟩, e))) :=
    read1 (F := Ideal) (nrmA V c) t e _ hE
  have h2 : (iblk V c 2 t : Vec Ideal S4096x16 .f32) (ix2 e q) = gA V c (ix2 (edgeEquiv (⟨t.val % 196, hlt⟩, e)) q) :=
    read2 (F := Ideal) (gA V c) t e q _ hE
  rw [h0, h1, h2, (grid_facts t).1]
  unfold addend
  rfl

theorem acc_apply (c : Dev nD) : ∀ (eb : ℕ) (t : Fin cfg1.N), eb < 196 → t.val % 196 = eb → ∀ (p : Fin 2000) (q : Fin 16),
    acc V c t.val t.isLt (ix2 p q)
      = ∑ s ∈ Finset.range (eb + 1), blockSum (dstA V c) (nrmA V c) (gA V c) (t.val / 196 * 2000 + p.val) q s
  | 0, t, _, ht, p, q => by
    rw [acc_reset V c t ht]
    refine (step_apply V c t _ p q).trans ?_
    rw [pay1_apply, zero_add, ht, Finset.sum_range_one]
  | eb + 1, t, heb, ht, p, q => by
    have hne : t.val % 196 ≠ 0 := by omega
    have hpos : 0 < t.val := by
      rcases Nat.eq_zero_or_pos t.val with h | h
      · rw [h] at ht; omega
      · exact h
    have ht' : (t.val - 1) % 196 = eb := by omega
    have hq : (t.val - 1) / 196 = t.val / 196 := by omega
    have ih := acc_apply c eb ⟨t.val - 1, Nat.lt_of_le_of_lt (Nat.sub_le _ _) t.isLt⟩ (by omega) ht' p q
    rw [acc_step V c t hne]
    refine (step_apply V c t _ p q).trans ?_
    rw [ht, Finset.sum_range_succ _ (eb + 1), ← hq]
    exact congrArg (· + blockSum (dstA V c) (nrmA V c) (gA V c) ((t.val - 1) / 196 * 2000 + p.val) q (eb + 1)) ih

abbrev G (c : Dev nD) : S50000x16.Idx → EReal :=
  Gcn.layerK true (dstA V c) (nrmA V c) (gA V c) (selfA V c) (biasA V c) (skipA V c)

theorem G_apply (c : Dev nD) (r : Fin 50000) (q : Fin 16) :
    G V c (ix2 r q)
      = max ((Gcn.collect (dstA V c) (fun i => gA V c i * nrmA V c (ix1 ⟨(i 0).val, idx2_lt0 i⟩)) r q + selfA V c (ix2 r q))
          + biasA V c (ix1 q)) 0 + skipA V c (ix2 r q) := by
  unfold G Gcn.layerK
  simp only [if_true]

theorem outv_apply (c : Dev nD) (t : Fin cfg1.N) (h195 : t.val % 196 = 195) (p : Fin 2000) (q : Fin 16) (r : Fin 50000)
    (hr : r.val = t.val / 196 * 2000 + p.val) : outv V c t (ix2 p q) = G V c (ix2 r q) := by
  unfold outv
  refine (pay3_apply _ _ _ _ p q).trans ?_
  have ha : acc V c t.val t.isLt (ix2 p q)
      = ∑ s ∈ Finset.range 196, blockSum (dstA V c) (nrmA V c) (gA V c) (t.val / 196 * 2000 + p.val) q s :=
    acc_apply V c 195 t (by decide) h195 p q
  have h3 : (iblk V c 3 t : Vec Ideal S2000x16 .f32) (ix2 p q) = selfA V c (ix2 r q) := read3 (F := Ideal) (selfA V c) t p q r hr
  have h4 : (iblk V c 4 t : Vec Ideal S16 .f32) (ix1 q) = biasA V c (ix1 q) := read4 (F := Ideal) (biasA V c) t q
  have h5 : (iblk V c 5 t : Vec Ideal S2000x16 .f32) (ix2 p q) = skipA V c (ix2 r q) := read5 (F := Ideal) (skipA V c) t p q r hr
  rw [ha, h3, h4, h5, ← hr, sum_blocks_eq_collect, G_apply]

theorem flushed_eq (c : Dev nD) (t : Fin cfg1.N) (hf : (cfg1.win 6).flush t = true) :
    (dat V c).flushed 6 t = ((cfg1.win 6).blk t).view.read (Elt Ideal) (G V c) := by
  have h195 : t.val % 196 = 195 := (flush1_6 t).mp hf
  have hN : t.val < 4900 := lt_of_lt_of_eq t.isLt N_val
  have key : ∀ (p : Fin 2000) (q : Fin 16),
      outv V c t (ix2 p q) = ((cfg1.win 6).blk t).view.read (Elt Ideal) (G V c) (ix2 p q) := fun p q => by
    have hr : t.val / 196 * 2000 + p.val < 50000 := by have := p.isLt; omega
    exact (outv_apply V c t h195 p q ⟨_, hr⟩ rfl).trans (read6 (F := Ideal) (G V c) t p q ⟨_, hr⟩ rfl).symm
  show (cfg1.win 6).cut (grid1.coords t) ((dat V c).after 6 t) = _
  rw [after6]
  show (outv V c t : S2000x16.Idx → EReal) = _
  funext j
  obtain ⟨p, q, rfl⟩ : ∃ (p : Fin 2000) (q : Fin 16), j = ix2 p q := ⟨j 0, j 1, eq_ix2 j⟩
  exact key p q

theorem cover6 (i : S50000x16.Idx) :
    ∃ t : Fin cfg1.N, (cfg1.win 6).flush t = true ∧ i ∈ ((cfg1.win 6).blk t).view.set := by
  have hi : (i 0).val < 50000 := (i 0).isLt
  have hlt : (i 0).val / 2000 * 196 + 195 < cfg1.N := by rw [N_val]; omega
  refine ⟨⟨(i 0).val / 2000 * 196 + 195, hlt⟩, (flush1_6 _).mpr (by show ((i 0).val / 2000 * 196 + 195) % 196 = 195; omega), ?_⟩
  rw [mem_blk6]
  show ((i 0).val / 2000 * 196 + 195) / 196 * 2000 ≤ (i 0).val ∧ (i 0).val < ((i 0).val / 2000 * 196 + 195) / 196 * 2000 + 2000
  omega

theorem final (c : Dev nD) : (dat V c).arrAt 6 cfg1.N
    = Gcn.layerK true (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (dat V c).arrAt_eq_of_cover 6 (G V c) (flushed_eq V c) (cover6)

end Cert.KernelIdeal.R1

end
-- ==== Proof.GatherPay2.lean ====
import proofs.«148650_j55559696941682_1_alg».proof.Proof.GatherPay

noncomputable section

namespace Cert.KernelIdeal.R2pay

open Idealize.ShloMosaic Idealize.SL.Sem Idealize.ShloMosaic.ValueIdx
open Cert.KernelIdeal Cert.KernelIdeal.Gen

-- The three gather regions run one payload text: region 0's lemmas, read at this region's names.
theorem pay1_apply (j : S4096x16.Idx) : (k2_pay1 (F := Ideal)) j = 0 := R0pay.pay1_apply j

theorem pay2_step (i : grid2.Coords) (hnb : (i 1).val < 25) (x0 : Vec Ideal S4096 .i32) (a : Vec Ideal S4096x16 .f32)
    (yb : Vec Ideal S2000x16 .f32) (y : (⟨2, ![50000, 16]⟩ : Shape).Idx → EReal)
    (hy : ∀ (r : Fin 2000) (q : Fin 16), yb (ix2 r q) = y (ix2 ⟨(i 1).val * 2000 + r.val, by omega⟩ q))
    (p : Fin 4096) (q : Fin 16)
    (ha : a (ix2 p q) = if h : (x0 (ix1 p)).toNat < (i 1).val * 2000 then y (ix2 ⟨(x0 (ix1 p)).toNat, by omega⟩ q) else 0) :
    k2_pay2 (F := Ideal) i x0 a yb (ix2 p q)
      = if h : (x0 (ix1 p)).toNat < (i 1).val * 2000 + 2000 then y (ix2 ⟨(x0 (ix1 p)).toNat, by omega⟩ q) else 0 :=
  R0pay.pay2_step i hnb x0 a yb y hy p q ha

end Cert.KernelIdeal.R2pay

end
-- ==== Proof.Gather2Value.lean ====
import proofs.«148650_j55559696941682_1_alg».proof.Proof.Gather2
import proofs.«148650_j55559696941682_1_alg».proof.Proof.GatherPay2
import proofs.«148650_j55559696941682_1_alg».proof.Proof.Spec
import proofs.«148650_j55559696941682_1_alg».proof.Proof.Gen.KernelIdeal.Points
import Idealize.ShloMosaic.Lib.Pipeline.Value

/-! # Region 0 (the gather kernel): the value of its output array

At the ideal values.  Point `t = 25 e + nb` of the grid reads block `e` of the source indices (4096 edges) and block
`nb` of `y` (2000 nodes).  Inside a group of 25 points the accumulator collects, for edge `p` and column `q`, row
`src p` of `y` from the one point whose node block holds that row; after the group's last point it holds that row when
`src p` is a node and zero otherwise.  That point writes the accumulator back as row block `e` of the output, and the
196 row blocks tile the output: the output array ends as the zero-filling gather of `y` at the source indices. -/

set_option maxRecDepth 16384

noncomputable section

open scoped BigOperators

namespace Cert.KernelIdeal.R2

open Idealize.ShloMosaic Idealize.ShloMosaic.TcCoe Idealize.ShloMosaic.ValueIdx
open Idealize.SL Idealize.SL.Sem
open Idealize.ShloMosaic.Pipeline (Dat)
open Cert.KernelIdeal.Gen Cert.KernelIdeal.R2pay

variable (V : (c : Dev nD) → (b : Ref sig .tc) → Buf (Elt Ideal) ((c : Thread nD τ).loc b))

/-! ## The grid and the index maps -/

/-- Point `t` is node block `t % 25` of edge block `t / 25`: the source window and the output window sit at edge block
    `t / 25`, the window of `y` at node block `t % 25`. -/
theorem idx_facts : ∀ t : Fin cfg2.N, (grid2.coords t 1).val = t.val % 25
    ∧ win2_0.index t (0 : Fin 1) = t.val / 25
    ∧ win2_1.index t (0 : Fin 2) = t.val % 25 ∧ win2_1.index t (1 : Fin 2) = 0
    ∧ win2_2.index t (0 : Fin 2) = t.val / 25 ∧ win2_2.index t (1 : Fin 2) = 0 :=
  (by decide +kernel : ∀ t : Fin grid2.N, _)

/-- The array of source indices and the array `y`, as the region finds them. -/
abbrev srcArr (c : Dev nD) : Gcn.SP1.Idx → BitVec 32 := V c (Pipeline.arrRef spec2 0)
abbrev yArr (c : Dev nD) : Gcn.SNH.Idx → EReal := V c (Pipeline.arrRef spec2 1)

/-- Edge `p` of the source block at point `t` is edge `(t / 25) * 4096 + p` of the array. -/
theorem srcBlk_apply (c : Dev nD) (t : Fin cfg2.N) (p : Fin 4096) :
    srcBlk V c t (ix1 p) = srcArr V c (ix1 ⟨t.val / 25 * 4096 + p.val, by
      have hN : cfg2.N = 4900 := N_2
      have := t.isLt; omega⟩) := by
  obtain ⟨-, e0, -⟩ := idx_facts t
  show iblk V c 0 t (ix1 p) = _
  unfold iblk
  rw [View.read_apply]
  show V c (Pipeline.arrRef spec2 0) (((cfg2.win 0).blk t).view.emb (ix1 p)) = V c (Pipeline.arrRef spec2 0) _
  refine congrArg _ (funext fun a => Fin.ext ?_)
  match a with
  | ⟨0, _⟩ => show win2_0.index t (0 : Fin 1) * 4096 + 1 * p.val = t.val / 25 * 4096 + p.val; rw [e0]; omega

/-- Row `r` of the block of `y` at point `t` is row `(t % 25) * 2000 + r` of the array. -/
theorem yBlk_apply (c : Dev nD) (t : Fin cfg2.N) (r : Fin 2000) (q : Fin 16) :
    yBlk V c t (ix2 r q) = yArr V c (ix2 ⟨t.val % 25 * 2000 + r.val, by omega⟩ q) := by
  obtain ⟨-, -, e0, e1, -⟩ := idx_facts t
  show iblk V c 1 t (ix2 r q) = _
  unfold iblk
  rw [View.read_apply]
  show V c (Pipeline.arrRef spec2 1) (((cfg2.win 1).blk t).view.emb (ix2 r q)) = V c (Pipeline.arrRef spec2 1) _
  refine congrArg _ (funext fun a => Fin.ext ?_)
  match a with
  | ⟨0, _⟩ => show win2_1.index t (0 : Fin 2) * 2000 + 1 * r.val = t.val % 25 * 2000 + r.val; rw [e0]; omega
  | ⟨1, _⟩ => show win2_1.index t (1 : Fin 2) * 16 + 1 * q.val = q.val; rw [e1]; omega

/-! ## The accumulator inside a group -/

/-- The block of `y` at point `n`, with the node block named by the point's second grid coordinate. -/
theorem yBlk_coords (c : Dev nD) (n : ℕ) (hn : n < cfg2.N) (hnb : (grid2.coords ⟨n, hn⟩ 1).val < 25) (r : Fin 2000) (q : Fin 16) :
    yBlk V c ⟨n, hn⟩ (ix2 r q) = yArr V c (ix2 ⟨(grid2.coords ⟨n, hn⟩ 1).val * 2000 + r.val, by omega⟩ q) := by
  obtain ⟨ec, -⟩ := idx_facts ⟨n, hn⟩
  have ec' : (grid2.coords ⟨n, hn⟩ 1).val = n % 25 := ec
  rw [yBlk_apply]
  refine congrArg _ (funext fun a => Fin.ext ?_)
  match a with
  | ⟨0, _⟩ => show n % 25 * 2000 + r.val = (grid2.coords ⟨n, hn⟩ 1).val * 2000 + r.val; rw [ec']
  | ⟨1, _⟩ => rfl

/-- A group's first point: the accumulator starts from the zero block. -/
theorem acc_apply_reset (c : Dev nD) (n : ℕ) (hn : n < cfg2.N) (h0 : n % 25 = 0) (p : Fin 4096) (q : Fin 16) :
    acc V c n hn (ix2 p q)
      = if h : (srcBlk V c ⟨n, hn⟩ (ix1 p)).toNat < n % 25 * 2000 + 2000
        then yArr V c (ix2 ⟨(srcBlk V c ⟨n, hn⟩ (ix1 p)).toNat, by omega⟩ q) else 0 := by
  obtain ⟨ec, -⟩ := idx_facts ⟨n, hn⟩
  have ec' : (grid2.coords ⟨n, hn⟩ 1).val = n % 25 := ec
  have hnb : (grid2.coords ⟨n, hn⟩ 1).val < 25 := by rw [ec']; omega
  rw [acc_reset V c n hn h0, pay2_step (grid2.coords ⟨n, hn⟩) hnb (srcBlk V c ⟨n, hn⟩) (k2_pay1 (F := Ideal)) (yBlk V c ⟨n, hn⟩)
    (yArr V c) (yBlk_coords V c n hn hnb) p q (by rw [pay1_apply, dif_neg (by rw [ec']; omega)])]
  simp only [ec']

/-- A later point of a group: the accumulator continues from the point before, which read the same source block. -/
theorem acc_apply_step (c : Dev nD) (n : ℕ) (hn : n < cfg2.N) (h0 : n % 25 ≠ 0)
    (ih : ∀ (p : Fin 4096) (q : Fin 16), acc V c (n - 1) (Nat.lt_of_le_of_lt (Nat.sub_le _ _) hn) (ix2 p q)
      = if h : (srcBlk V c ⟨n - 1, Nat.lt_of_le_of_lt (Nat.sub_le _ _) hn⟩ (ix1 p)).toNat < (n - 1) % 25 * 2000 + 2000
        then yArr V c (ix2 ⟨(srcBlk V c ⟨n - 1, Nat.lt_of_le_of_lt (Nat.sub_le _ _) hn⟩ (ix1 p)).toNat, by omega⟩ q) else 0)
    (p : Fin 4096) (q : Fin 16) :
    acc V c n hn (ix2 p q)
      = if h : (srcBlk V c ⟨n, hn⟩ (ix1 p)).toNat < n % 25 * 2000 + 2000
        then yArr V c (ix2 ⟨(srcBlk V c ⟨n, hn⟩ (ix1 p)).toNat, by omega⟩ q) else 0 := by
  obtain ⟨ec, -⟩ := idx_facts ⟨n, hn⟩
  have ec' : (grid2.coords ⟨n, hn⟩ 1).val = n % 25 := ec
  have hnb : (grid2.coords ⟨n, hn⟩ 1).val < 25 := by rw [ec']; omega
  have hsrc : srcBlk V c ⟨n - 1, Nat.lt_of_le_of_lt (Nat.sub_le _ _) hn⟩ (ix1 p) = srcBlk V c ⟨n, hn⟩ (ix1 p) := by
    rw [srcBlk_apply, srcBlk_apply]
    refine congrArg _ (funext fun a => Fin.ext ?_)
    match a with
    | ⟨0, _⟩ => show (n - 1) / 25 * 4096 + p.val = n / 25 * 4096 + p.val; omega
  have e : (n - 1) % 25 * 2000 + 2000 = n % 25 * 2000 := by omega
  rw [acc_step V c n hn h0, pay2_step (grid2.coords ⟨n, hn⟩) hnb (srcBlk V c ⟨n, hn⟩)
    (acc V c (n - 1) (Nat.lt_of_le_of_lt (Nat.sub_le _ _) hn)) (yBlk V c ⟨n, hn⟩) (yArr V c) (yBlk_coords V c n hn hnb) p q (by
      rw [ih p q]
      simp only [hsrc, ec', e])]
  simp only [ec']

/-- After point `n = 25 e + nb` the accumulator holds, for edge `p` of edge block `e`, the source's row of `y` when the
    source lies below node block `nb + 1`, and zero otherwise: by induction on the point. -/
theorem acc_apply (c : Dev nD) : ∀ (n : ℕ) (hn : n < cfg2.N) (p : Fin 4096) (q : Fin 16),
    acc V c n hn (ix2 p q)
      = if h : (srcBlk V c ⟨n, hn⟩ (ix1 p)).toNat < n % 25 * 2000 + 2000
        then yArr V c (ix2 ⟨(srcBlk V c ⟨n, hn⟩ (ix1 p)).toNat, by omega⟩ q) else 0
  | 0, hn, p, q => acc_apply_reset V c 0 hn rfl p q
  | n + 1, hn, p, q => by
    by_cases h0 : (n + 1) % 25 = 0
    · exact acc_apply_reset V c (n + 1) hn h0 p q
    · exact acc_apply_step V c (n + 1) hn h0 (fun p q => acc_apply c n (Nat.lt_of_succ_lt hn) p q) p q

/-- So at a group's last point the accumulator is the zero-filling gather of `y`, at the edges of the group's block. -/
theorem acc_last (c : Dev nD) (t : Fin cfg2.N) (ht : t.val % 25 = 24) (p : Fin 4096) (q : Fin 16) :
    acc V c t.val t.isLt (ix2 p q)
      = Gcn.gatherZ (srcArr V c) (yArr V c) (ix2 ⟨t.val / 25 * 4096 + p.val, by
          have hN : cfg2.N = 4900 := N_2
          have := t.isLt; omega⟩ q) := by
  rw [acc_apply V c t.val t.isLt p q, Gcn.gatherZ_ix2]
  have hs : srcBlk V c ⟨t.val, t.isLt⟩ (ix1 p) = srcArr V c (ix1 ⟨t.val / 25 * 4096 + p.val, by
      have hN : cfg2.N = 4900 := N_2
      have := t.isLt; omega⟩) := srcBlk_apply V c t p
  simp only [hs, ht]

/-! ## From the blocks to the array -/

/-- What a group's last point writes back is its block of the gather. -/
theorem flushed_eq (c : Dev nD) (t : Fin cfg2.N) (hf : (cfg2.win 2).flush t = true) :
    (dat V c).flushed 2 t = ((cfg2.win 2).blk t).view.read (Elt Ideal) (Gcn.gatherZ (srcArr V c) (yArr V c)) := by
  have ht : t.val % 25 = 24 := (flush2_2 t).mp hf
  obtain ⟨-, -, -, -, e0, e1⟩ := idx_facts t
  show (cfg2.win 2).cut (grid2.coords t) ((dat V c).after 2 t) = _
  rw [after2]
  funext j
  obtain ⟨p, q, rfl⟩ : ∃ (p : Fin 4096) (q : Fin 16), j = ix2 p q := ⟨j 0, j 1, eq_ix2 j⟩
  rw [View.read_apply]
  show acc V c t.val t.isLt (ix2 p q) = _
  rw [acc_last V c t ht p q]
  refine congrArg _ (funext fun a => Fin.ext ?_)
  match a with
  | ⟨0, _⟩ => show t.val / 25 * 4096 + p.val = win2_2.index t (0 : Fin 2) * 4096 + 1 * p.val; rw [e0]; omega
  | ⟨1, _⟩ => show q.val = win2_2.index t (1 : Fin 2) * 16 + 1 * q.val; rw [e1]; omega

/-- An index of the output is in point `t`'s block iff each coordinate is in the block's range on its axis. -/
theorem mem_blk (t : Fin cfg2.N) (i : Gcn.SPH.Idx) :
    i ∈ ((cfg2.win 2).blk t).view.set ↔ ∀ a : Fin 2, win2_2.index t a * S4096x16.size a ≤ (i a).val ∧ (i a).val < win2_2.index t a * S4096x16.size a + S4096x16.size a := by
  show i ∈ ((View.whole (Pipeline.arrRef spec2 2)).slice (win2_2.rect t)).set ↔ _
  rw [View.set_slice_whole, Rect.mem_set_unit]
  exact Iff.rfl

/-- Row `r` of the output lies in the block the last point of group `r / 4096` writes back. -/
theorem cover (i : Gcn.SPH.Idx) : ∃ t : Fin cfg2.N, (cfg2.win 2).flush t = true ∧ i ∈ ((cfg2.win 2).blk t).view.set := by
  have hN : cfg2.N = 4900 := N_2
  have hi0 : (i 0).val < 802816 := (i 0).isLt
  have hi1 : (i 1).val < 16 := (i 1).isLt
  let t : Fin cfg2.N := ⟨(i 0).val / 4096 * 25 + 24, by omega⟩
  have htv : t.val = (i 0).val / 4096 * 25 + 24 := rfl
  obtain ⟨-, -, -, -, e0, e1⟩ := idx_facts t
  refine ⟨t, (flush2_2 t).mpr (by omega), ?_⟩
  rw [mem_blk]
  intro a
  match a with
  | ⟨0, _⟩ => show win2_2.index t (0 : Fin 2) * 4096 ≤ (i 0).val ∧ (i 0).val < win2_2.index t (0 : Fin 2) * 4096 + 4096; rw [e0]; omega
  | ⟨1, _⟩ => show win2_2.index t (1 : Fin 2) * 16 ≤ (i 1).val ∧ (i 1).val < win2_2.index t (1 : Fin 2) * 16 + 16; rw [e1]; omega

/-- THE OUTPUT ARRAY after the region: the zero-filling gather of `y` at the source indices. -/
theorem final (c : Dev nD) :
    (dat V c).arrAt 2 cfg2.N = Gcn.gatherZ (V c (Pipeline.arrRef spec2 0)) (V c (Pipeline.arrRef spec2 1)) :=
  (dat V c).arrAt_eq_of_cover 2 (Gcn.gatherZ (srcArr V c) (yArr V c)) (fun t hf => flushed_eq V c t hf) cover

end Cert.KernelIdeal.R2

end
-- ==== Proof.ScatterPay3.lean ====
import proofs.«148650_j55559696941682_1_alg».proof.Proof.ScatterPay

noncomputable section

open scoped BigOperators

namespace Cert.KernelIdeal.R3pay

open Idealize.ShloMosaic Idealize.ShloMosaic.ValueIdx Cert.KernelIdeal Cert.KernelIdeal.Gen

-- The three scatter regions share their first two payload texts: region 1's lemmas, read at this region's names.
theorem pay1_apply (j : S2000x16.Idx) : k3_pay1 (F := Ideal) j = 0 := R1pay.pay1_apply j

theorem pay2_apply (i : grid3.Coords) (hnb : (i 0).val < 25) (d0 : Vec Ideal S4096 .i32) (n0 : Vec Ideal S4096 .f32)
    (g0 : Vec Ideal S4096x16 .f32) (a : Vec Ideal S2000x16 .f32) (p : Fin 2000) (q : Fin 16) :
    k3_pay2 i d0 n0 g0 a (ix2 p q)
      = a (ix2 p q) + ∑ e : Fin 4096,
          (if (d0 (ix1 e)).toNat = (i 0).val * 2000 + p.val then g0 (ix2 e q) * n0 (ix1 e) else 0) :=
  R1pay.pay2_apply i hnb d0 n0 g0 a p q

theorem pay3_apply (a s : Vec Ideal S2000x16 .f32) (b : Vec Ideal S16 .f32) (k : Vec Ideal S2000x16 .f32) (p : Fin 2000) (q : Fin 16) :
    k3_pay3 a s b k (ix2 p q) = max ((a (ix2 p q) + s (ix2 p q)) + b (ix1 q)) 0 + k (ix2 p q) :=
  R1pay.pay3_apply a s b k p q

end Cert.KernelIdeal.R3pay

end
-- ==== Proof.ScatterBlocks3.lean ====
import proofs.«148650_j55559696941682_1_alg».proof.Proof.ScatterBlocks

noncomputable section

open scoped BigOperators

namespace Cert.KernelIdeal.R3blk

open Idealize.ShloMosaic Idealize.ShloMosaic.TcCoe Idealize.ShloMosaic.ValueIdx Cert.KernelIdeal Cert.KernelIdeal.Gen

variable {F : FTy → Type} [FloatOps F]

export Cert.KernelIdeal.R1blk (edgeEquiv edgeEquiv_val sum_edge_blocks)

-- The three scatter regions cut their arrays into the same blocks: region 1's lemmas, read at this region's names.
theorem grid_facts : ∀ t : Fin cfg3.N, (grid3.coords t 0).val = t.val / 196 ∧ (grid3.coords t 1).val = t.val % 196 :=
  R1blk.grid_facts

theorem N_val : cfg3.N = 4900 := N_3

theorem read0 (X : S802816.Idx → Elt F .i32) (t : Fin cfg3.N) (e : Fin 4096) (E : Fin 802816)
    (hE : E.val = t.val % 196 * 4096 + e.val) :
    ((cfg3.win 0).blk t).view.read (Elt F) X (ix1 e) = X (ix1 E) := R1blk.read0 X t e E hE

theorem read1 (X : S802816.Idx → Elt F .f32) (t : Fin cfg3.N) (e : Fin 4096) (E : Fin 802816)
    (hE : E.val = t.val % 196 * 4096 + e.val) :
    ((cfg3.win 1).blk t).view.read (Elt F) X (ix1 e) = X (ix1 E) := R1blk.read1 X t e E hE

theorem read2 (X : S802816x16.Idx → Elt F .f32) (t : Fin cfg3.N) (e : Fin 4096) (q : Fin 16) (E : Fin 802816)
    (hE : E.val = t.val % 196 * 4096 + e.val) :
    ((cfg3.win 2).blk t).view.read (Elt F) X (ix2 e q) = X (ix2 E q) := R1blk.read2 X t e q E hE

theorem read3 (X : S50000x16.Idx → Elt F .f32) (t : Fin cfg3.N) (p : Fin 2000) (q : Fin 16) (r : Fin 50000)
    (hr : r.val = t.val / 196 * 2000 + p.val) :
    ((cfg3.win 3).blk t).view.read (Elt F) X (ix2 p q) = X (ix2 r q) := R1blk.read3 X t p q r hr

theorem read4 (X : S16.Idx → Elt F .f32) (t : Fin cfg3.N) (q : Fin 16) :
    ((cfg3.win 4).blk t).view.read (Elt F) X (ix1 q) = X (ix1 q) := R1blk.read4 X t q

theorem read5 (X : S50000x16.Idx → Elt F .f32) (t : Fin cfg3.N) (p : Fin 2000) (q : Fin 16) (r : Fin 50000)
    (hr : r.val = t.val / 196 * 2000 + p.val) :
    ((cfg3.win 5).blk t).view.read (Elt F) X (ix2 p q) = X (ix2 r q) := R1blk.read5 X t p q r hr

theorem read6 (X : S50000x16.Idx → Elt F .f32) (t : Fin cfg3.N) (p : Fin 2000) (q : Fin 16) (r : Fin 50000)
    (hr : r.val = t.val / 196 * 2000 + p.val) :
    ((cfg3.win 6).blk t).view.read (Elt F) X (ix2 p q) = X (ix2 r q) := R1blk.read6 X t p q r hr

theorem mem_blk6 (t : Fin cfg3.N) (i : S50000x16.Idx) :
    i ∈ ((cfg3.win 6).blk t).view.set ↔ t.val / 196 * 2000 ≤ (i 0).val ∧ (i 0).val < t.val / 196 * 2000 + 2000 :=
  R1blk.mem_blk6 t i

end Cert.KernelIdeal.R3blk

end
-- ==== Proof.Scatter3Value.lean ====
/-
  The VALUE half of region 1: what its output array ends holding.

  Within a node block nb the accumulator after edge block eb holds, at row p and column q, the sum over the edge blocks
  0 … eb of what each block's 4096 edges add to node nb * 2000 + p: by induction on eb. After the last edge block that
  is the sum over all 802816 padded edges, so the block written back is the block of one layer of the network in its
  one-hot form; the 25 blocks written back cover the 50000 rows, so the array ends holding that layer.
-/
import proofs.«148650_j55559696941682_1_alg».proof.Proof.Scatter3
import proofs.«148650_j55559696941682_1_alg».proof.Proof.Gen.KernelIdeal.Points
import proofs.«148650_j55559696941682_1_alg».proof.Proof.ScatterPay3
import proofs.«148650_j55559696941682_1_alg».proof.Proof.ScatterBlocks3
import proofs.«148650_j55559696941682_1_alg».proof.Proof.Spec

noncomputable section

open scoped BigOperators

namespace Cert.KernelIdeal.R3

open Idealize.ShloMosaic Idealize.ShloMosaic.TcCoe Idealize.ShloMosaic.ValueIdx
open Idealize.ShloMosaic.Pipeline (Dat)
open Cert.KernelIdeal Cert.KernelIdeal.Gen Cert.KernelIdeal.R3pay Cert.KernelIdeal.R3blk

variable (V : (c : Dev nD) → (b : Ref sig .tc) → Buf (Elt Ideal) ((c : Thread nD τ).loc b))

/-! ## The six arrays the region reads, at their literal shapes -/

abbrev dstA (c : Dev nD) : S802816.Idx → BitVec 32 := V c (Pipeline.arrRef spec3 0)
abbrev nrmA (c : Dev nD) : S802816.Idx → EReal := V c (Pipeline.arrRef spec3 1)
abbrev gA (c : Dev nD) : S802816x16.Idx → EReal := V c (Pipeline.arrRef spec3 2)
abbrev selfA (c : Dev nD) : S50000x16.Idx → EReal := V c (Pipeline.arrRef spec3 3)
abbrev biasA (c : Dev nD) : S16.Idx → EReal := V c (Pipeline.arrRef spec3 4)
abbrev skipA (c : Dev nD) : S50000x16.Idx → EReal := V c (Pipeline.arrRef spec3 5)

/-! ## What one edge, and one block of edges, adds to a node's row -/

/-- What padded edge E adds to node r in column q: its weighted feature if its target is r. -/
def addend (dst : S802816.Idx → BitVec 32) (nrm : S802816.Idx → EReal) (g : S802816x16.Idx → EReal)
    (r : ℕ) (q : Fin 16) (E : Fin 802816) : EReal :=
  if (dst (ix1 E)).toNat = r then g (ix2 E q) * nrm (ix1 E) else 0

/-- What the 4096 edges of edge block s add (nothing past the last block). -/
def blockSum (dst : S802816.Idx → BitVec 32) (nrm : S802816.Idx → EReal) (g : S802816x16.Idx → EReal)
    (r : ℕ) (q : Fin 16) (s : ℕ) : EReal :=
  if h : s < 196 then ∑ e : Fin 4096, addend dst nrm g r q (edgeEquiv (⟨s, h⟩, e)) else 0

/-- What node r collects is the sum of the padded edges' addends. -/
theorem collect_eq_sum (dst : S802816.Idx → BitVec 32) (nrm : S802816.Idx → EReal) (g : S802816x16.Idx → EReal)
    (r : Fin 50000) (q : Fin 16) :
    Gcn.collect dst (fun i => g i * nrm (ix1 ⟨(i 0).val, idx2_lt0 i⟩)) r q = ∑ E : Fin 802816, addend dst nrm g r.val q E := by
  unfold Gcn.collect
  refine Finset.sum_congr rfl fun E _ => ?_
  unfold addend
  rfl

/-- All the edge blocks together add what the layer's node r collects. -/
theorem sum_blocks_eq_collect (dst : S802816.Idx → BitVec 32) (nrm : S802816.Idx → EReal) (g : S802816x16.Idx → EReal)
    (r : Fin 50000) (q : Fin 16) :
    ∑ s ∈ Finset.range 196, blockSum dst nrm g r.val q s
      = Gcn.collect dst (fun i => g i * nrm (ix1 ⟨(i 0).val, idx2_lt0 i⟩)) r q := by
  rw [collect_eq_sum, ← sum_edge_blocks (fun E => addend dst nrm g r.val q E), Finset.sum_range]
  refine Finset.sum_congr rfl fun a _ => ?_
  unfold blockSum
  rw [dif_pos a.isLt]

/-! ## One accumulation step at a point, at an index -/

theorem step_apply (c : Dev nD) (t : Fin cfg3.N) (a : Vec Ideal S2000x16 .f32) (p : Fin 2000) (q : Fin 16) :
    k3_pay2 (grid3.coords t) (iblk V c 0 t) (iblk V c 1 t) (iblk V c 2 t) a (ix2 p q)
      = a (ix2 p q) + blockSum (dstA V c) (nrmA V c) (gA V c) (t.val / 196 * 2000 + p.val) q (t.val % 196) := by
  have hlt : t.val % 196 < 196 := Nat.mod_lt _ (by decide)
  have hnb : (grid3.coords t 0).val < 25 := (grid3.coords t 0).isLt
  refine (pay2_apply (grid3.coords t) hnb _ _ _ a p q).trans ?_
  refine congrArg (a (ix2 p q) + ·) ?_
  unfold blockSum
  rw [dif_pos hlt]
  refine Finset.sum_congr rfl fun e _ => ?_
  have hE : (edgeEquiv (⟨t.val % 196, hlt⟩, e)).val = t.val % 196 * 4096 + e.val := edgeEquiv_val _ _
  have h0 : (iblk V c 0 t : Vec Ideal S4096 .i32) (ix1 e) = dstA V c (ix1 (edgeEquiv (⟨t.val % 196, hlt⟩, e))) :=
    read0 (F := Ideal) (dstA V c) t e _ hE
  have h1 : (iblk V c 1 t : Vec Ideal S4096 .f32) (ix1 e) = nrmA V c (ix1 (edgeEquiv (⟨t.val % 196, hlt⟩, e))) :=
    read1 (F := Ideal) (nrmA V c) t e _ hE
  have h2 : (iblk V c 2 t : Vec Ideal S4096x16 .f32) (ix2 e q) = gA V c (ix2 (edgeEquiv (⟨t.val % 196, hlt⟩, e)) q) :=
    read2 (F := Ideal) (gA V c) t e q _ hE
  rw [h0, h1, h2, (grid_facts t).1]
  unfold addend
  rfl

/-! ## The accumulator within a node block -/

/-- After edge block eb of a node block the accumulator holds the sum of what the edge blocks 0 … eb add. -/
theorem acc_apply (c : Dev nD) : ∀ (eb : ℕ) (t : Fin cfg3.N), eb < 196 → t.val % 196 = eb → ∀ (p : Fin 2000) (q : Fin 16),
    acc V c t.val t.isLt (ix2 p q)
      = ∑ s ∈ Finset.range (eb + 1), blockSum (dstA V c) (nrmA V c) (gA V c) (t.val / 196 * 2000 + p.val) q s
  | 0, t, _, ht, p, q => by
    rw [acc_reset V c t ht]
    refine (step_apply V c t _ p q).trans ?_
    rw [pay1_apply, zero_add, ht, Finset.sum_range_one]
  | eb + 1, t, heb, ht, p, q => by
    have hne : t.val % 196 ≠ 0 := by omega
    have hpos : 0 < t.val := by
      rcases Nat.eq_zero_or_pos t.val with h | h
      · rw [h] at ht; omega
      · exact h
    have ht' : (t.val - 1) % 196 = eb := by omega
    have hq : (t.val - 1) / 196 = t.val / 196 := by omega
    have ih := acc_apply c eb ⟨t.val - 1, Nat.lt_of_le_of_lt (Nat.sub_le _ _) t.isLt⟩ (by omega) ht' p q
    rw [acc_step V c t hne]
    refine (step_apply V c t _ p q).trans ?_
    rw [ht, Finset.sum_range_succ _ (eb + 1), ← hq]
    exact congrArg (· + blockSum (dstA V c) (nrmA V c) (gA V c) ((t.val - 1) / 196 * 2000 + p.val) q (eb + 1)) ih

/-! ## The block written back at the end of a node block -/

/-- One layer of the network in its one-hot form, of the six arrays as the region finds them. -/
abbrev G (c : Dev nD) : S50000x16.Idx → EReal :=
  Gcn.layerK true (dstA V c) (nrmA V c) (gA V c) (selfA V c) (biasA V c) (skipA V c)

/-- The layer at (r, q), spelled out. -/
theorem G_apply (c : Dev nD) (r : Fin 50000) (q : Fin 16) :
    G V c (ix2 r q)
      = max ((Gcn.collect (dstA V c) (fun i => gA V c i * nrmA V c (ix1 ⟨(i 0).val, idx2_lt0 i⟩)) r q + selfA V c (ix2 r q))
          + biasA V c (ix1 q)) 0 + skipA V c (ix2 r q) := by
  unfold G Gcn.layerK
  simp only [if_true]

/-- At the last edge block of a node block the output block holds, at (p, q), the layer at row nb * 2000 + p. -/
theorem outv_apply (c : Dev nD) (t : Fin cfg3.N) (h195 : t.val % 196 = 195) (p : Fin 2000) (q : Fin 16) (r : Fin 50000)
    (hr : r.val = t.val / 196 * 2000 + p.val) : outv V c t (ix2 p q) = G V c (ix2 r q) := by
  unfold outv
  refine (pay3_apply _ _ _ _ p q).trans ?_
  have ha : acc V c t.val t.isLt (ix2 p q)
      = ∑ s ∈ Finset.range 196, blockSum (dstA V c) (nrmA V c) (gA V c) (t.val / 196 * 2000 + p.val) q s :=
    acc_apply V c 195 t (by decide) h195 p q
  have h3 : (iblk V c 3 t : Vec Ideal S2000x16 .f32) (ix2 p q) = selfA V c (ix2 r q) := read3 (F := Ideal) (selfA V c) t p q r hr
  have h4 : (iblk V c 4 t : Vec Ideal S16 .f32) (ix1 q) = biasA V c (ix1 q) := read4 (F := Ideal) (biasA V c) t q
  have h5 : (iblk V c 5 t : Vec Ideal S2000x16 .f32) (ix2 p q) = skipA V c (ix2 r q) := read5 (F := Ideal) (skipA V c) t p q r hr
  rw [ha, h3, h4, h5, ← hr, sum_blocks_eq_collect, G_apply]

/-- What a point that writes back writes: its block of the layer. -/
theorem flushed_eq (c : Dev nD) (t : Fin cfg3.N) (hf : (cfg3.win 6).flush t = true) :
    (dat V c).flushed 6 t = ((cfg3.win 6).blk t).view.read (Elt Ideal) (G V c) := by
  have h195 : t.val % 196 = 195 := (flush3_6 t).mp hf
  have hN : t.val < 4900 := lt_of_lt_of_eq t.isLt N_val
  have key : ∀ (p : Fin 2000) (q : Fin 16),
      outv V c t (ix2 p q) = ((cfg3.win 6).blk t).view.read (Elt Ideal) (G V c) (ix2 p q) := fun p q => by
    have hr : t.val / 196 * 2000 + p.val < 50000 := by have := p.isLt; omega
    exact (outv_apply V c t h195 p q ⟨_, hr⟩ rfl).trans (read6 (F := Ideal) (G V c) t p q ⟨_, hr⟩ rfl).symm
  show (cfg3.win 6).cut (grid3.coords t) ((dat V c).after 6 t) = _
  rw [after6]
  show (outv V c t : S2000x16.Idx → EReal) = _
  funext j
  obtain ⟨p, q, rfl⟩ : ∃ (p : Fin 2000) (q : Fin 16), j = ix2 p q := ⟨j 0, j 1, eq_ix2 j⟩
  exact key p q

/-- Every row of the output array is in the block some writing point writes. -/
theorem cover6 (i : S50000x16.Idx) :
    ∃ t : Fin cfg3.N, (cfg3.win 6).flush t = true ∧ i ∈ ((cfg3.win 6).blk t).view.set := by
  have hi : (i 0).val < 50000 := (i 0).isLt
  have hlt : (i 0).val / 2000 * 196 + 195 < cfg3.N := by rw [N_val]; omega
  refine ⟨⟨(i 0).val / 2000 * 196 + 195, hlt⟩, (flush3_6 _).mpr (by show ((i 0).val / 2000 * 196 + 195) % 196 = 195; omega), ?_⟩
  rw [mem_blk6]
  show ((i 0).val / 2000 * 196 + 195) / 196 * 2000 ≤ (i 0).val ∧ (i 0).val < ((i 0).val / 2000 * 196 + 195) / 196 * 2000 + 2000
  omega

/-- THE RESULT: the output array ends holding one layer of the network, in its one-hot form, of the six arrays. -/
theorem final (c : Dev nD) : (dat V c).arrAt 6 cfg3.N
    = Gcn.layerK true (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat V c).arrAt_eq_of_cover 6 (G V c) (flushed_eq V c) (cover6)

end Cert.KernelIdeal.R3

end
-- ==== Proof.GatherPay4.lean ====
import proofs.«148650_j55559696941682_1_alg».proof.Proof.GatherPay

noncomputable section

namespace Cert.KernelIdeal.R4pay

open Idealize.ShloMosaic Idealize.SL.Sem Idealize.ShloMosaic.ValueIdx
open Cert.KernelIdeal Cert.KernelIdeal.Gen

-- The three gather regions run one payload text: region 0's lemmas, read at this region's names.
theorem pay1_apply (j : S4096x16.Idx) : (k4_pay1 (F := Ideal)) j = 0 := R0pay.pay1_apply j

theorem pay2_step (i : grid4.Coords) (hnb : (i 1).val < 25) (x0 : Vec Ideal S4096 .i32) (a : Vec Ideal S4096x16 .f32)
    (yb : Vec Ideal S2000x16 .f32) (y : (⟨2, ![50000, 16]⟩ : Shape).Idx → EReal)
    (hy : ∀ (r : Fin 2000) (q : Fin 16), yb (ix2 r q) = y (ix2 ⟨(i 1).val * 2000 + r.val, by omega⟩ q))
    (p : Fin 4096) (q : Fin 16)
    (ha : a (ix2 p q) = if h : (x0 (ix1 p)).toNat < (i 1).val * 2000 then y (ix2 ⟨(x0 (ix1 p)).toNat, by omega⟩ q) else 0) :
    k4_pay2 (F := Ideal) i x0 a yb (ix2 p q)
      = if h : (x0 (ix1 p)).toNat < (i 1).val * 2000 + 2000 then y (ix2 ⟨(x0 (ix1 p)).toNat, by omega⟩ q) else 0 :=
  R0pay.pay2_step i hnb x0 a yb y hy p q ha

end Cert.KernelIdeal.R4pay

end
-- ==== Proof.Gather4Value.lean ====
import proofs.«148650_j55559696941682_1_alg».proof.Proof.Gather4
import proofs.«148650_j55559696941682_1_alg».proof.Proof.GatherPay4
import proofs.«148650_j55559696941682_1_alg».proof.Proof.Spec
import proofs.«148650_j55559696941682_1_alg».proof.Proof.Gen.KernelIdeal.Points
import Idealize.ShloMosaic.Lib.Pipeline.Value

/-! # Region 0 (the gather kernel): the value of its output array

At the ideal values.  Point `t = 25 e + nb` of the grid reads block `e` of the source indices (4096 edges) and block
`nb` of `y` (2000 nodes).  Inside a group of 25 points the accumulator collects, for edge `p` and column `q`, row
`src p` of `y` from the one point whose node block holds that row; after the group's last point it holds that row when
`src p` is a node and zero otherwise.  That point writes the accumulator back as row block `e` of the output, and the
196 row blocks tile the output: the output array ends as the zero-filling gather of `y` at the source indices. -/

set_option maxRecDepth 16384

noncomputable section

open scoped BigOperators

namespace Cert.KernelIdeal.R4

open Idealize.ShloMosaic Idealize.ShloMosaic.TcCoe Idealize.ShloMosaic.ValueIdx
open Idealize.SL Idealize.SL.Sem
open Idealize.ShloMosaic.Pipeline (Dat)
open Cert.KernelIdeal.Gen Cert.KernelIdeal.R4pay

variable (V : (c : Dev nD) → (b : Ref sig .tc) → Buf (Elt Ideal) ((c : Thread nD τ).loc b))

/-! ## The grid and the index maps -/

/-- Point `t` is node block `t % 25` of edge block `t / 25`: the source window and the output window sit at edge block
    `t / 25`, the window of `y` at node block `t % 25`. -/
theorem idx_facts : ∀ t : Fin cfg4.N, (grid4.coords t 1).val = t.val % 25
    ∧ win4_0.index t (0 : Fin 1) = t.val / 25
    ∧ win4_1.index t (0 : Fin 2) = t.val % 25 ∧ win4_1.index t (1 : Fin 2) = 0
    ∧ win4_2.index t (0 : Fin 2) = t.val / 25 ∧ win4_2.index t (1 : Fin 2) = 0 :=
  (by decide +kernel : ∀ t : Fin grid4.N, _)

/-- The array of source indices and the array `y`, as the region finds them. -/
abbrev srcArr (c : Dev nD) : Gcn.SP1.Idx → BitVec 32 := V c (Pipeline.arrRef spec4 0)
abbrev yArr (c : Dev nD) : Gcn.SNH.Idx → EReal := V c (Pipeline.arrRef spec4 1)

/-- Edge `p` of the source block at point `t` is edge `(t / 25) * 4096 + p` of the array. -/
theorem srcBlk_apply (c : Dev nD) (t : Fin cfg4.N) (p : Fin 4096) :
    srcBlk V c t (ix1 p) = srcArr V c (ix1 ⟨t.val / 25 * 4096 + p.val, by
      have hN : cfg4.N = 4900 := N_4
      have := t.isLt; omega⟩) := by
  obtain ⟨-, e0, -⟩ := idx_facts t
  show iblk V c 0 t (ix1 p) = _
  unfold iblk
  rw [View.read_apply]
  show V c (Pipeline.arrRef spec4 0) (((cfg4.win 0).blk t).view.emb (ix1 p)) = V c (Pipeline.arrRef spec4 0) _
  refine congrArg _ (funext fun a => Fin.ext ?_)
  match a with
  | ⟨0, _⟩ => show win4_0.index t (0 : Fin 1) * 4096 + 1 * p.val = t.val / 25 * 4096 + p.val; rw [e0]; omega

/-- Row `r` of the block of `y` at point `t` is row `(t % 25) * 2000 + r` of the array. -/
theorem yBlk_apply (c : Dev nD) (t : Fin cfg4.N) (r : Fin 2000) (q : Fin 16) :
    yBlk V c t (ix2 r q) = yArr V c (ix2 ⟨t.val % 25 * 2000 + r.val, by omega⟩ q) := by
  obtain ⟨-, -, e0, e1, -⟩ := idx_facts t
  show iblk V c 1 t (ix2 r q) = _
  unfold iblk
  rw [View.read_apply]
  show V c (Pipeline.arrRef spec4 1) (((cfg4.win 1).blk t).view.emb (ix2 r q)) = V c (Pipeline.arrRef spec4 1) _
  refine congrArg _ (funext fun a => Fin.ext ?_)
  match a with
  | ⟨0, _⟩ => show win4_1.index t (0 : Fin 2) * 2000 + 1 * r.val = t.val % 25 * 2000 + r.val; rw [e0]; omega
  | ⟨1, _⟩ => show win4_1.index t (1 : Fin 2) * 16 + 1 * q.val = q.val; rw [e1]; omega

/-! ## The accumulator inside a group -/

/-- The block of `y` at point `n`, with the node block named by the point's second grid coordinate. -/
theorem yBlk_coords (c : Dev nD) (n : ℕ) (hn : n < cfg4.N) (hnb : (grid4.coords ⟨n, hn⟩ 1).val < 25) (r : Fin 2000) (q : Fin 16) :
    yBlk V c ⟨n, hn⟩ (ix2 r q) = yArr V c (ix2 ⟨(grid4.coords ⟨n, hn⟩ 1).val * 2000 + r.val, by omega⟩ q) := by
  obtain ⟨ec, -⟩ := idx_facts ⟨n, hn⟩
  have ec' : (grid4.coords ⟨n, hn⟩ 1).val = n % 25 := ec
  rw [yBlk_apply]
  refine congrArg _ (funext fun a => Fin.ext ?_)
  match a with
  | ⟨0, _⟩ => show n % 25 * 2000 + r.val = (grid4.coords ⟨n, hn⟩ 1).val * 2000 + r.val; rw [ec']
  | ⟨1, _⟩ => rfl

/-- A group's first point: the accumulator starts from the zero block. -/
theorem acc_apply_reset (c : Dev nD) (n : ℕ) (hn : n < cfg4.N) (h0 : n % 25 = 0) (p : Fin 4096) (q : Fin 16) :
    acc V c n hn (ix2 p q)
      = if h : (srcBlk V c ⟨n, hn⟩ (ix1 p)).toNat < n % 25 * 2000 + 2000
        then yArr V c (ix2 ⟨(srcBlk V c ⟨n, hn⟩ (ix1 p)).toNat, by omega⟩ q) else 0 := by
  obtain ⟨ec, -⟩ := idx_facts ⟨n, hn⟩
  have ec' : (grid4.coords ⟨n, hn⟩ 1).val = n % 25 := ec
  have hnb : (grid4.coords ⟨n, hn⟩ 1).val < 25 := by rw [ec']; omega
  rw [acc_reset V c n hn h0, pay2_step (grid4.coords ⟨n, hn⟩) hnb (srcBlk V c ⟨n, hn⟩) (k4_pay1 (F := Ideal)) (yBlk V c ⟨n, hn⟩)
    (yArr V c) (yBlk_coords V c n hn hnb) p q (by rw [pay1_apply, dif_neg (by rw [ec']; omega)])]
  simp only [ec']

/-- A later point of a group: the accumulator continues from the point before, which read the same source block. -/
theorem acc_apply_step (c : Dev nD) (n : ℕ) (hn : n < cfg4.N) (h0 : n % 25 ≠ 0)
    (ih : ∀ (p : Fin 4096) (q : Fin 16), acc V c (n - 1) (Nat.lt_of_le_of_lt (Nat.sub_le _ _) hn) (ix2 p q)
      = if h : (srcBlk V c ⟨n - 1, Nat.lt_of_le_of_lt (Nat.sub_le _ _) hn⟩ (ix1 p)).toNat < (n - 1) % 25 * 2000 + 2000
        then yArr V c (ix2 ⟨(srcBlk V c ⟨n - 1, Nat.lt_of_le_of_lt (Nat.sub_le _ _) hn⟩ (ix1 p)).toNat, by omega⟩ q) else 0)
    (p : Fin 4096) (q : Fin 16) :
    acc V c n hn (ix2 p q)
      = if h : (srcBlk V c ⟨n, hn⟩ (ix1 p)).toNat < n % 25 * 2000 + 2000
        then yArr V c (ix2 ⟨(srcBlk V c ⟨n, hn⟩ (ix1 p)).toNat, by omega⟩ q) else 0 := by
  obtain ⟨ec, -⟩ := idx_facts ⟨n, hn⟩
  have ec' : (grid4.coords ⟨n, hn⟩ 1).val = n % 25 := ec
  have hnb : (grid4.coords ⟨n, hn⟩ 1).val < 25 := by rw [ec']; omega
  have hsrc : srcBlk V c ⟨n - 1, Nat.lt_of_le_of_lt (Nat.sub_le _ _) hn⟩ (ix1 p) = srcBlk V c ⟨n, hn⟩ (ix1 p) := by
    rw [srcBlk_apply, srcBlk_apply]
    refine congrArg _ (funext fun a => Fin.ext ?_)
    match a with
    | ⟨0, _⟩ => show (n - 1) / 25 * 4096 + p.val = n / 25 * 4096 + p.val; omega
  have e : (n - 1) % 25 * 2000 + 2000 = n % 25 * 2000 := by omega
  rw [acc_step V c n hn h0, pay2_step (grid4.coords ⟨n, hn⟩) hnb (srcBlk V c ⟨n, hn⟩)
    (acc V c (n - 1) (Nat.lt_of_le_of_lt (Nat.sub_le _ _) hn)) (yBlk V c ⟨n, hn⟩) (yArr V c) (yBlk_coords V c n hn hnb) p q (by
      rw [ih p q]
      simp only [hsrc, ec', e])]
  simp only [ec']

/-- After point `n = 25 e + nb` the accumulator holds, for edge `p` of edge block `e`, the source's row of `y` when the
    source lies below node block `nb + 1`, and zero otherwise: by induction on the point. -/
theorem acc_apply (c : Dev nD) : ∀ (n : ℕ) (hn : n < cfg4.N) (p : Fin 4096) (q : Fin 16),
    acc V c n hn (ix2 p q)
      = if h : (srcBlk V c ⟨n, hn⟩ (ix1 p)).toNat < n % 25 * 2000 + 2000
        then yArr V c (ix2 ⟨(srcBlk V c ⟨n, hn⟩ (ix1 p)).toNat, by omega⟩ q) else 0
  | 0, hn, p, q => acc_apply_reset V c 0 hn rfl p q
  | n + 1, hn, p, q => by
    by_cases h0 : (n + 1) % 25 = 0
    · exact acc_apply_reset V c (n + 1) hn h0 p q
    · exact acc_apply_step V c (n + 1) hn h0 (fun p q => acc_apply c n (Nat.lt_of_succ_lt hn) p q) p q

/-- So at a group's last point the accumulator is the zero-filling gather of `y`, at the edges of the group's block. -/
theorem acc_last (c : Dev nD) (t : Fin cfg4.N) (ht : t.val % 25 = 24) (p : Fin 4096) (q : Fin 16) :
    acc V c t.val t.isLt (ix2 p q)
      = Gcn.gatherZ (srcArr V c) (yArr V c) (ix2 ⟨t.val / 25 * 4096 + p.val, by
          have hN : cfg4.N = 4900 := N_4
          have := t.isLt; omega⟩ q) := by
  rw [acc_apply V c t.val t.isLt p q, Gcn.gatherZ_ix2]
  have hs : srcBlk V c ⟨t.val, t.isLt⟩ (ix1 p) = srcArr V c (ix1 ⟨t.val / 25 * 4096 + p.val, by
      have hN : cfg4.N = 4900 := N_4
      have := t.isLt; omega⟩) := srcBlk_apply V c t p
  simp only [hs, ht]

/-! ## From the blocks to the array -/

/-- What a group's last point writes back is its block of the gather. -/
theorem flushed_eq (c : Dev nD) (t : Fin cfg4.N) (hf : (cfg4.win 2).flush t = true) :
    (dat V c).flushed 2 t = ((cfg4.win 2).blk t).view.read (Elt Ideal) (Gcn.gatherZ (srcArr V c) (yArr V c)) := by
  have ht : t.val % 25 = 24 := (flush4_2 t).mp hf
  obtain ⟨-, -, -, -, e0, e1⟩ := idx_facts t
  show (cfg4.win 2).cut (grid4.coords t) ((dat V c).after 2 t) = _
  rw [after2]
  funext j
  obtain ⟨p, q, rfl⟩ : ∃ (p : Fin 4096) (q : Fin 16), j = ix2 p q := ⟨j 0, j 1, eq_ix2 j⟩
  rw [View.read_apply]
  show acc V c t.val t.isLt (ix2 p q) = _
  rw [acc_last V c t ht p q]
  refine congrArg _ (funext fun a => Fin.ext ?_)
  match a with
  | ⟨0, _⟩ => show t.val / 25 * 4096 + p.val = win4_2.index t (0 : Fin 2) * 4096 + 1 * p.val; rw [e0]; omega
  | ⟨1, _⟩ => show q.val = win4_2.index t (1 : Fin 2) * 16 + 1 * q.val; rw [e1]; omega

/-- An index of the output is in point `t`'s block iff each coordinate is in the block's range on its axis. -/
theorem mem_blk (t : Fin cfg4.N) (i : Gcn.SPH.Idx) :
    i ∈ ((cfg4.win 2).blk t).view.set ↔ ∀ a : Fin 2, win4_2.index t a * S4096x16.size a ≤ (i a).val ∧ (i a).val < win4_2.index t a * S4096x16.size a + S4096x16.size a := by
  show i ∈ ((View.whole (Pipeline.arrRef spec4 2)).slice (win4_2.rect t)).set ↔ _
  rw [View.set_slice_whole, Rect.mem_set_unit]
  exact Iff.rfl

/-- Row `r` of the output lies in the block the last point of group `r / 4096` writes back. -/
theorem cover (i : Gcn.SPH.Idx) : ∃ t : Fin cfg4.N, (cfg4.win 2).flush t = true ∧ i ∈ ((cfg4.win 2).blk t).view.set := by
  have hN : cfg4.N = 4900 := N_4
  have hi0 : (i 0).val < 802816 := (i 0).isLt
  have hi1 : (i 1).val < 16 := (i 1).isLt
  let t : Fin cfg4.N := ⟨(i 0).val / 4096 * 25 + 24, by omega⟩
  have htv : t.val = (i 0).val / 4096 * 25 + 24 := rfl
  obtain ⟨-, -, -, -, e0, e1⟩ := idx_facts t
  refine ⟨t, (flush4_2 t).mpr (by omega), ?_⟩
  rw [mem_blk]
  intro a
  match a with
  | ⟨0, _⟩ => show win4_2.index t (0 : Fin 2) * 4096 ≤ (i 0).val ∧ (i 0).val < win4_2.index t (0 : Fin 2) * 4096 + 4096; rw [e0]; omega
  | ⟨1, _⟩ => show win4_2.index t (1 : Fin 2) * 16 ≤ (i 1).val ∧ (i 1).val < win4_2.index t (1 : Fin 2) * 16 + 16; rw [e1]; omega

/-- THE OUTPUT ARRAY after the region: the zero-filling gather of `y` at the source indices. -/
theorem final (c : Dev nD) :
    (dat V c).arrAt 2 cfg4.N = Gcn.gatherZ (V c (Pipeline.arrRef spec4 0)) (V c (Pipeline.arrRef spec4 1)) :=
  (dat V c).arrAt_eq_of_cover 2 (Gcn.gatherZ (srcArr V c) (yArr V c)) (fun t hf => flushed_eq V c t hf) cover

end Cert.KernelIdeal.R4

end
-- ==== Proof.ScatterPay5.lean ====
import proofs.«148650_j55559696941682_1_alg».proof.Proof.ScatterPay

noncomputable section

open scoped BigOperators

namespace Cert.KernelIdeal.R5pay

open Idealize.ShloMosaic Idealize.ShloMosaic.ValueIdx Cert.KernelIdeal Cert.KernelIdeal.Gen

-- The three scatter regions share their first two payload texts: region 1's lemmas, read at this region's names.
theorem pay1_apply (j : S2000x16.Idx) : k5_pay1 (F := Ideal) j = 0 := R1pay.pay1_apply j

theorem pay2_apply (i : grid5.Coords) (hnb : (i 0).val < 25) (d0 : Vec Ideal S4096 .i32) (n0 : Vec Ideal S4096 .f32)
    (g0 : Vec Ideal S4096x16 .f32) (a : Vec Ideal S2000x16 .f32) (p : Fin 2000) (q : Fin 16) :
    k5_pay2 i d0 n0 g0 a (ix2 p q)
      = a (ix2 p q) + ∑ e : Fin 4096,
          (if (d0 (ix1 e)).toNat = (i 0).val * 2000 + p.val then g0 (ix2 e q) * n0 (ix1 e) else 0) :=
  R1pay.pay2_apply i hnb d0 n0 g0 a p q

theorem pay3_apply (a s : Vec Ideal S2000x16 .f32) (b : Vec Ideal S16 .f32) (k : Vec Ideal S2000x16 .f32) (p : Fin 2000) (q : Fin 16) :
    k5_pay3 a s b k (ix2 p q) = ((a (ix2 p q) + s (ix2 p q)) + b (ix1 q)) + k (ix2 p q) := by
  unfold k5_pay3
  simp only [shapeCast_self]
  rw [addf_apply, addf_apply, addf_apply, broadcastTo_1b_ab_apply, shapeCast_a_1a_apply]

end Cert.KernelIdeal.R5pay

end
-- ==== Proof.ScatterBlocks5.lean ====
import proofs.«148650_j55559696941682_1_alg».proof.Proof.ScatterBlocks

noncomputable section

open scoped BigOperators

namespace Cert.KernelIdeal.R5blk

open Idealize.ShloMosaic Idealize.ShloMosaic.TcCoe Idealize.ShloMosaic.ValueIdx Cert.KernelIdeal Cert.KernelIdeal.Gen

variable {F : FTy → Type} [FloatOps F]

export Cert.KernelIdeal.R1blk (edgeEquiv edgeEquiv_val sum_edge_blocks)

-- The three scatter regions cut their arrays into the same blocks: region 1's lemmas, read at this region's names.
theorem grid_facts : ∀ t : Fin cfg5.N, (grid5.coords t 0).val = t.val / 196 ∧ (grid5.coords t 1).val = t.val % 196 :=
  R1blk.grid_facts

theorem N_val : cfg5.N = 4900 := N_5

theorem read0 (X : S802816.Idx → Elt F .i32) (t : Fin cfg5.N) (e : Fin 4096) (E : Fin 802816)
    (hE : E.val = t.val % 196 * 4096 + e.val) :
    ((cfg5.win 0).blk t).view.read (Elt F) X (ix1 e) = X (ix1 E) := R1blk.read0 X t e E hE

theorem read1 (X : S802816.Idx → Elt F .f32) (t : Fin cfg5.N) (e : Fin 4096) (E : Fin 802816)
    (hE : E.val = t.val % 196 * 4096 + e.val) :
    ((cfg5.win 1).blk t).view.read (Elt F) X (ix1 e) = X (ix1 E) := R1blk.read1 X t e E hE

theorem read2 (X : S802816x16.Idx → Elt F .f32) (t : Fin cfg5.N) (e : Fin 4096) (q : Fin 16) (E : Fin 802816)
    (hE : E.val = t.val % 196 * 4096 + e.val) :
    ((cfg5.win 2).blk t).view.read (Elt F) X (ix2 e q) = X (ix2 E q) := R1blk.read2 X t e q E hE

theorem read3 (X : S50000x16.Idx → Elt F .f32) (t : Fin cfg5.N) (p : Fin 2000) (q : Fin 16) (r : Fin 50000)
    (hr : r.val = t.val / 196 * 2000 + p.val) :
    ((cfg5.win 3).blk t).view.read (Elt F) X (ix2 p q) = X (ix2 r q) := R1blk.read3 X t p q r hr

theorem read4 (X : S16.Idx → Elt F .f32) (t : Fin cfg5.N) (q : Fin 16) :
    ((cfg5.win 4).blk t).view.read (Elt F) X (ix1 q) = X (ix1 q) := R1blk.read4 X t q

theorem read5 (X : S50000x16.Idx → Elt F .f32) (t : Fin cfg5.N) (p : Fin 2000) (q : Fin 16) (r : Fin 50000)
    (hr : r.val = t.val / 196 * 2000 + p.val) :
    ((cfg5.win 5).blk t).view.read (Elt F) X (ix2 p q) = X (ix2 r q) := R1blk.read5 X t p q r hr

theorem read6 (X : S50000x16.Idx → Elt F .f32) (t : Fin cfg5.N) (p : Fin 2000) (q : Fin 16) (r : Fin 50000)
    (hr : r.val = t.val / 196 * 2000 + p.val) :
    ((cfg5.win 6).blk t).view.read (Elt F) X (ix2 p q) = X (ix2 r q) := R1blk.read6 X t p q r hr

theorem mem_blk6 (t : Fin cfg5.N) (i : S50000x16.Idx) :
    i ∈ ((cfg5.win 6).blk t).view.set ↔ t.val / 196 * 2000 ≤ (i 0).val ∧ (i 0).val < t.val / 196 * 2000 + 2000 :=
  R1blk.mem_blk6 t i

end Cert.KernelIdeal.R5blk

end
-- ==== Proof.Scatter5Value.lean ====
import proofs.«148650_j55559696941682_1_alg».proof.Proof.Scatter5
import proofs.«148650_j55559696941682_1_alg».proof.Proof.Gen.KernelIdeal.Points
import proofs.«148650_j55559696941682_1_alg».proof.Proof.ScatterPay5
import proofs.«148650_j55559696941682_1_alg».proof.Proof.ScatterBlocks5
import proofs.«148650_j55559696941682_1_alg».proof.Proof.Spec

noncomputable section

open scoped BigOperators

namespace Cert.KernelIdeal.R5

open Idealize.ShloMosaic Idealize.ShloMosaic.TcCoe Idealize.ShloMosaic.ValueIdx
open Idealize.ShloMosaic.Pipeline (Dat)
open Cert.KernelIdeal Cert.KernelIdeal.Gen Cert.KernelIdeal.R5pay Cert.KernelIdeal.R5blk

variable (V : (c : Dev nD) → (b : Ref sig .tc) → Buf (Elt Ideal) ((c : Thread nD τ).loc b))

abbrev dstA (c : Dev nD) : S802816.Idx → BitVec 32 := V c (Pipeline.arrRef spec5 0)
abbrev nrmA (c : Dev nD) : S802816.Idx → EReal := V c (Pipeline.arrRef spec5 1)
abbrev gA (c : Dev nD) : S802816x16.Idx → EReal := V c (Pipeline.arrRef spec5 2)
abbrev selfA (c : Dev nD) : S50000x16.Idx → EReal := V c (Pipeline.arrRef spec5 3)
abbrev biasA (c : Dev nD) : S16.Idx → EReal := V c (Pipeline.arrRef spec5 4)
abbrev skipA (c : Dev nD) : S50000x16.Idx → EReal := V c (Pipeline.arrRef spec5 5)

def addend (dst : S802816.Idx → BitVec 32) (nrm : S802816.Idx → EReal) (g : S802816x16.Idx → EReal)
    (r : ℕ) (q : Fin 16) (E : Fin 802816) : EReal :=
  if (dst (ix1 E)).toNat = r then g (ix2 E q) * nrm (ix1 E) else 0

def blockSum (dst : S802816.Idx → BitVec 32) (nrm : S802816.Idx → EReal) (g : S802816x16.Idx → EReal)
    (r : ℕ) (q : Fin 16) (s : ℕ) : EReal :=
  if h : s < 196 then ∑ e : Fin 4096, addend dst nrm g r q (edgeEquiv (⟨s, h⟩, e)) else 0

theorem collect_eq_sum (dst : S802816.Idx → BitVec 32) (nrm : S802816.Idx → EReal) (g : S802816x16.Idx → EReal)
    (r : Fin 50000) (q : Fin 16) :
    Gcn.collect dst (fun i => g i * nrm (ix1 ⟨(i 0).val, idx2_lt0 i⟩)) r q = ∑ E : Fin 802816, addend dst nrm g r.val q E := by
  unfold Gcn.collect
  refine Finset.sum_congr rfl fun E _ => ?_
  unfold addend
  rfl

theorem sum_blocks_eq_collect (dst : S802816.Idx → BitVec 32) (nrm : S802816.Idx → EReal) (g : S802816x16.Idx → EReal)
    (r : Fin 50000) (q : Fin 16) :
    ∑ s ∈ Finset.range 196, blockSum dst nrm g r.val q s
      = Gcn.collect dst (fun i => g i * nrm (ix1 ⟨(i 0).val, idx2_lt0 i⟩)) r q := by
  rw [collect_eq_sum, ← sum_edge_blocks (fun E => addend dst nrm g r.val q E), Finset.sum_range]
  refine Finset.sum_congr rfl fun a _ => ?_
  unfold blockSum
  rw [dif_pos a.isLt]

theorem step_apply (c : Dev nD) (t : Fin cfg5.N) (a : Vec Ideal S2000x16 .f32) (p : Fin 2000) (q : Fin 16) :
    k5_pay2 (grid5.coords t) (iblk V c 0 t) (iblk V c 1 t) (iblk V c 2 t) a (ix2 p q)
      = a (ix2 p q) + blockSum (dstA V c) (nrmA V c) (gA V c) (t.val / 196 * 2000 + p.val) q (t.val % 196) := by
  have hlt : t.val % 196 < 196 := Nat.mod_lt _ (by decide)
  have hnb : (grid5.coords t 0).val < 25 := (grid5.coords t 0).isLt
  refine (pay2_apply (grid5.coords t) hnb _ _ _ a p q).trans ?_
  refine congrArg (a (ix2 p q) + ·) ?_
  unfold blockSum
  rw [dif_pos hlt]
  refine Finset.sum_congr rfl fun e _ => ?_
  have hE : (edgeEquiv (⟨t.val % 196, hlt⟩, e)).val = t.val % 196 * 4096 + e.val := edgeEquiv_val _ _
  have h0 : (iblk V c 0 t : Vec Ideal S4096 .i32) (ix1 e) = dstA V c (ix1 (edgeEquiv (⟨t.val % 196, hlt⟩, e))) :=
    read0 (F := Ideal) (dstA V c) t e _ hE
  have h1 : (iblk V c 1 t : Vec Ideal S4096 .f32) (ix1 e) = nrmA V c (ix1 (edgeEquiv (⟨t.val % 196, hlt⟩, e))) :=
    read1 (F := Ideal) (nrmA V c) t e _ hE
  have h2 : (iblk V c 2 t : Vec Ideal S4096x16 .f32) (ix2 e q) = gA V c (ix2 (edgeEquiv (⟨t.val % 196, hlt⟩, e)) q) :=
    read2 (F := Ideal) (gA V c) t e q _ hE
  rw [h0, h1, h2, (grid_facts t).1]
  unfold addend
  rfl

theorem acc_apply (c : Dev nD) : ∀ (eb : ℕ) (t : Fin cfg5.N), eb < 196 → t.val % 196 = eb → ∀ (p : Fin 2000) (q : Fin 16),
    acc V c t.val t.isLt (ix2 p q)
      = ∑ s ∈ Finset.range (eb + 1), blockSum (dstA V c) (nrmA V c) (gA V c) (t.val / 196 * 2000 + p.val) q s
  | 0, t, _, ht, p, q => by
    rw [acc_reset V c t ht]
    refine (step_apply V c t _ p q).trans ?_
    rw [pay1_apply, zero_add, ht, Finset.sum_range_one]
  | eb + 1, t, heb, ht, p, q => by
    have hne : t.val % 196 ≠ 0 := by omega
    have hpos : 0 < t.val := by
      rcases Nat.eq_zero_or_pos t.val with h | h
      · rw [h] at ht; omega
      · exact h
    have ht' : (t.val - 1) % 196 = eb := by omega
    have hq : (t.val - 1) / 196 = t.val / 196 := by omega
    have ih := acc_apply c eb ⟨t.val - 1, Nat.lt_of_le_of_lt (Nat.sub_le _ _) t.isLt⟩ (by omega) ht' p q
    rw [acc_step V c t hne]
    refine (step_apply V c t _ p q).trans ?_
    rw [ht, Finset.sum_range_succ _ (eb + 1), ← hq]
    exact congrArg (· + blockSum (dstA V c) (nrmA V c) (gA V c) ((t.val - 1) / 196 * 2000 + p.val) q (eb + 1)) ih

abbrev G (c : Dev nD) : S50000x16.Idx → EReal :=
  Gcn.layerK false (dstA V c) (nrmA V c) (gA V c) (selfA V c) (biasA V c) (skipA V c)

theorem G_apply (c : Dev nD) (r : Fin 50000) (q : Fin 16) :
    G V c (ix2 r q)
      = ((Gcn.collect (dstA V c) (fun i => gA V c i * nrmA V c (ix1 ⟨(i 0).val, idx2_lt0 i⟩)) r q + selfA V c (ix2 r q))
          + biasA V c (ix1 q)) + skipA V c (ix2 r q) := by
  unfold G Gcn.layerK
  simp only [Bool.false_eq_true, if_false]

theorem outv_apply (c : Dev nD) (t : Fin cfg5.N) (h195 : t.val % 196 = 195) (p : Fin 2000) (q : Fin 16) (r : Fin 50000)
    (hr : r.val = t.val / 196 * 2000 + p.val) : outv V c t (ix2 p q) = G V c (ix2 r q) := by
  unfold outv
  refine (pay3_apply _ _ _ _ p q).trans ?_
  have ha : acc V c t.val t.isLt (ix2 p q)
      = ∑ s ∈ Finset.range 196, blockSum (dstA V c) (nrmA V c) (gA V c) (t.val / 196 * 2000 + p.val) q s :=
    acc_apply V c 195 t (by decide) h195 p q
  have h3 : (iblk V c 3 t : Vec Ideal S2000x16 .f32) (ix2 p q) = selfA V c (ix2 r q) := read3 (F := Ideal) (selfA V c) t p q r hr
  have h4 : (iblk V c 4 t : Vec Ideal S16 .f32) (ix1 q) = biasA V c (ix1 q) := read4 (F := Ideal) (biasA V c) t q
  have h5 : (iblk V c 5 t : Vec Ideal S2000x16 .f32) (ix2 p q) = skipA V c (ix2 r q) := read5 (F := Ideal) (skipA V c) t p q r hr
  rw [ha, h3, h4, h5, ← hr, sum_blocks_eq_collect, G_apply]

theorem flushed_eq (c : Dev nD) (t : Fin cfg5.N) (hf : (cfg5.win 6).flush t = true) :
    (dat V c).flushed 6 t = ((cfg5.win 6).blk t).view.read (Elt Ideal) (G V c) := by
  have h195 : t.val % 196 = 195 := (flush5_6 t).mp hf
  have hN : t.val < 4900 := lt_of_lt_of_eq t.isLt N_val
  have key : ∀ (p : Fin 2000) (q : Fin 16),
      outv V c t (ix2 p q) = ((cfg5.win 6).blk t).view.read (Elt Ideal) (G V c) (ix2 p q) := fun p q => by
    have hr : t.val / 196 * 2000 + p.val < 50000 := by have := p.isLt; omega
    exact (outv_apply V c t h195 p q ⟨_, hr⟩ rfl).trans (read6 (F := Ideal) (G V c) t p q ⟨_, hr⟩ rfl).symm
  show (cfg5.win 6).cut (grid5.coords t) ((dat V c).after 6 t) = _
  rw [after6]
  show (outv V c t : S2000x16.Idx → EReal) = _
  funext j
  obtain ⟨p, q, rfl⟩ : ∃ (p : Fin 2000) (q : Fin 16), j = ix2 p q := ⟨j 0, j 1, eq_ix2 j⟩
  exact key p q

theorem cover6 (i : S50000x16.Idx) :
    ∃ t : Fin cfg5.N, (cfg5.win 6).flush t = true ∧ i ∈ ((cfg5.win 6).blk t).view.set := by
  have hi : (i 0).val < 50000 := (i 0).isLt
  have hlt : (i 0).val / 2000 * 196 + 195 < cfg5.N := by rw [N_val]; omega
  refine ⟨⟨(i 0).val / 2000 * 196 + 195, hlt⟩, (flush5_6 _).mpr (by show ((i 0).val / 2000 * 196 + 195) % 196 = 195; omega), ?_⟩
  rw [mem_blk6]
  show ((i 0).val / 2000 * 196 + 195) / 196 * 2000 ≤ (i 0).val ∧ (i 0).val < ((i 0).val / 2000 * 196 + 195) / 196 * 2000 + 2000
  omega

theorem final (c : Dev nD) : (dat V c).arrAt 6 cfg5.N
    = Gcn.layerK false (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) :=
  (dat V c).arrAt_eq_of_cover 6 (G V c) (flushed_eq V c) (cover6)

end Cert.KernelIdeal.R5

end
-- ==== Proof.Final6Value.lean ====
import proofs.«148650_j55559696941682_1_alg».proof.Proof.Final6
import proofs.«148650_j55559696941682_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.R6

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

section Column
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

theorem lift_row (h : S2000x300.Reduces [1] S2000) (p : Fin 2000) (k : Fin 300) :
    h.lift (ix1 p) k = ix2 p k := by
  funext a; apply Fin.ext
  match a with
  | ⟨0, _⟩ => rfl
  | ⟨1, _⟩ => rfl

theorem ofBits_neg_inf_f32 : Ideal.ofBits .f32 0xFF800000#32 = ⊥ := by simp [Ideal.ofBits, Ideal.ieee]

theorem rowMax_apply (z : FVec Ideal S2000x300 .f32) (p : Fin 2000) :
    multiReduction .maximumf [1] S2000 z 0xFF800000#32 reduces_S2000x300_S2000 (.inl rfl) rfl (ix1 p)
      = Finset.univ.fold max ⊥ (fun k : Fin 300 => z (ix2 p k)) := by
  refine (Ideal.multiReduction_maximumf_single z _ reduces_S2000x300_S2000 _ _ (ix1 p)).trans ?_
  show Finset.fold max (Ideal.ofBits .f32 0xFF800000#32) _ _ = _
  rw [ofBits_neg_inf_f32]
  refine Finset.fold_congr fun k _ => ?_
  exact congrArg z (lift_row _ p k)

theorem rowSum_apply (z : FVec Ideal S2000x300 .f32) (p : Fin 2000) :
    multiReduction .add [1] S2000 z 0x00000000#32 reduces_S2000x300_S2000 (.inl rfl) rfl (ix1 p)
      = ∑ k : Fin 300, z (ix2 p k) := by
  refine (Ideal.multiReduction_add_single z _ reduces_S2000x300_S2000 _ _ (ix1 p)).trans ?_
  refine Finset.sum_congr rfl fun k _ => ?_
  exact congrArg z (lift_row _ p k)

def lsmBlock (z : FVec Ideal S2000x300 .f32) : FVec Ideal S2000x300 .f32 :=
  subf
    (subf z (broadcastTo S2000x300 (shapeCast S2000x1 (multiReduction .maximumf [1] S2000 z 0xFF800000#32 reduces_S2000x300_S2000 (.inl rfl) rfl) shapeCasts_S2000_S2000x1) broadcasts_S2000x1_S2000x300))
    (broadcastTo S2000x300 (log (shapeCast S2000x1 (multiReduction .add [1] S2000
        (exp (subf z (broadcastTo S2000x300 (shapeCast S2000x1 (multiReduction .maximumf [1] S2000 z 0xFF800000#32 reduces_S2000x300_S2000 (.inl rfl) rfl) shapeCasts_S2000_S2000x1) broadcasts_S2000x1_S2000x300)))
        0x00000000#32 reduces_S2000x300_S2000 (.inl rfl) rfl) shapeCasts_S2000_S2000x1)) broadcasts_S2000x1_S2000x300)

theorem lsmBlock_apply (z : FVec Ideal S2000x300 .f32) (p : Fin 2000) (q : Fin 300) :
    lsmBlock z (ix2 p q)
      = (z (ix2 p q) - Finset.univ.fold max ⊥ (fun k : Fin 300 => z (ix2 p k)))
        - Ideal.log (∑ q' : Fin 300, Ideal.exp (z (ix2 p q') - Finset.univ.fold max ⊥ (fun k : Fin 300 => z (ix2 p k)))) := by
  unfold lsmBlock
  rw [subf_apply, subf_apply, broadcastTo_a1_ab_apply, broadcastTo_a1_ab_apply, shapeCast_a_a1_apply, rowMax_apply]
  congr 1
  show Ideal.log (shapeCast S2000x1 _ shapeCasts_S2000_S2000x1 (ix2 p 0)) = _
  rw [shapeCast_a_a1_apply, rowSum_apply]
  refine congrArg Ideal.log ?_
  refine Finset.sum_congr rfl fun k _ => ?_
  show Ideal.exp ((subf z _ : FVec Ideal S2000x300 .f32) (ix2 p k)) = _
  rw [subf_apply, broadcastTo_a1_ab_apply, shapeCast_a_a1_apply, rowMax_apply]

def logits (x0 : Vec Ideal S2000x16 .f32) (x1 : Vec Ideal S16x300 .f32) (x2 : Vec Ideal S300 .f32) (p : Fin 2000) (q : Fin 300) : EReal :=
  (∑ k : Fin 16, x0 (ix2 p k) * x1 (ix2 k q)) + x2 (ix1 q)

def pre (x0 : Vec Ideal S2000x16 .f32) (x1 : Vec Ideal S16x300 .f32) (x2 : Vec Ideal S300 .f32) : FVec Ideal S2000x300 .f32 :=
  addf (matmul dot_S2000x16_S16x300_S2000x300_1_0_0_1_n_n none
          (truncf .bf16 (shapeCast S2000x16 x0 shapeCasts_S2000x16_S2000x16) bitsLt_bf16_f32 : FVec Ideal S2000x16 .bf16)
          (truncf .bf16 x1 bitsLt_bf16_f32 : FVec Ideal S16x300 .bf16) (constant S2000x300 .f32 0x00000000#32))
        (broadcastTo S2000x300 (shapeCast S1x300 x2 shapeCasts_S300_S1x300) broadcasts_S1x300_S2000x300)

theorem pre_apply (x0 : Vec Ideal S2000x16 .f32) (x1 : Vec Ideal S16x300 .f32) (x2 : Vec Ideal S300 .f32) (p : Fin 2000) (q : Fin 300) :
    pre x0 x1 x2 (ix2 p q) = logits x0 x1 x2 p q := by
  unfold pre
  rw [addf_apply, broadcastTo_1b_ab_apply, shapeCast_a_1a_apply]
  unfold logits
  congr 1
  simp only [matmul]
  rw [Ideal.matmul_constant_zero_apply,
    ← Equiv.sum_comp (contrEquiv1 dot_S2000x16_S16x300_S2000x300_1_0_0_1_n_n 16 rfl rfl).symm]
  refine Finset.sum_congr rfl fun c _ => ?_
  have c2 := contrEquiv1_symm_val dot_S2000x16_S16x300_S2000x300_1_0_0_1_n_n 16 rfl rfl c
  have l2 : dot_S2000x16_S16x300_S2000x300_1_0_0_1_n_n.lhsIdx (ix2 p q) ((contrEquiv1 _ 16 rfl rfl).symm c) = ix2 p c := by
    funext ax; apply Fin.ext
    match ax with
    | ⟨0, _⟩ => simp [DotDims.lhsIdx, dot_S2000x16_S16x300_S2000x300_1_0_0_1_n_n]; rfl
    | ⟨1, _⟩ => simp [DotDims.lhsIdx, dot_S2000x16_S16x300_S2000x300_1_0_0_1_n_n]; exact c2
  have r2 : dot_S2000x16_S16x300_S2000x300_1_0_0_1_n_n.rhsIdx (ix2 p q) ((contrEquiv1 _ 16 rfl rfl).symm c) = ix2 c q := by
    funext ax; apply Fin.ext
    match ax with
    | ⟨0, _⟩ => simp [DotDims.rhsIdx, dot_S2000x16_S16x300_S2000x300_1_0_0_1_n_n]; exact c2
    | ⟨1, _⟩ => simp [DotDims.rhsIdx, dot_S2000x16_S16x300_S2000x300_1_0_0_1_n_n]; rfl
  rw [l2, r2, truncf_apply, truncf_apply, shapeCast_self]

theorem pay_eq (x0 : Vec Ideal S2000x16 .f32) (x1 : Vec Ideal S16x300 .f32) (x2 : Vec Ideal S300 .f32) :
    k6_pay1 (F := Ideal) x0 x1 x2 = lsmBlock (pre x0 x1 x2) := rfl

theorem pay_apply (x0 : Vec Ideal S2000x16 .f32) (x1 : Vec Ideal S16x300 .f32) (x2 : Vec Ideal S300 .f32) (p : Fin 2000) (q : Fin 300) :
    k6_pay1 (F := Ideal) x0 x1 x2 (ix2 p q)
      = (logits x0 x1 x2 p q - Finset.univ.fold max ⊥ (logits x0 x1 x2 p))
        - Ideal.log (∑ q' : Fin 300, Ideal.exp (logits x0 x1 x2 p q' - Finset.univ.fold max ⊥ (logits x0 x1 x2 p))) := by
  rw [pay_eq, lsmBlock_apply]
  simp only [pre_apply]

variable (V : (c : Dev nD) → (b : Ref sig .tc) → Buf (Elt Ideal) ((c : Thread nD τ).loc b))

abbrev G (c : Dev nD) : Gcn.SNC.Idx → EReal :=
  Gcn.logSoftmax (fun j => Gcn.mm (K := 16) (M := 300) (V c main_v56) (V c main_arg10) j
    + (V c main_arg11) (ix1 ⟨(j 1).val, idx2_lt1 j⟩))

theorem index_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

theorem agg_blk (c : Dev nD) (t : Fin cfg6.N) (y : Fin 2000) (k : Fin 16) (r : Fin 50000) (hr : r.val = 2000 * t.val + y.val) :
    (iblk V c 0 t : Vec Ideal S2000x16 .f32) (ix2 y k) = (V c main_v56 : S50000x16.Idx → EReal) (ix2 r k) := by
  obtain ⟨e0, e1, -⟩ := index_facts t
  unfold iblk
  rw [View.read_apply]
  show V c main_v56 _ = V c main_v56 _
  congr 1
  funext a; apply Fin.ext
  match a with
  | ⟨0, _⟩ => show win6_0.index t (0 : Fin 2) * 2000 + 1 * y.val = r.val; omega
  | ⟨1, _⟩ => show win6_0.index t (1 : Fin 2) * 16 + 1 * k.val = k.val; omega

theorem wo_blk (c : Dev nD) (t : Fin cfg6.N) (k : Fin 16) (q : Fin 300) :
    (iblk V c 1 t : Vec Ideal S16x300 .f32) (ix2 k q) = (V c main_arg10 : S16x300.Idx → EReal) (ix2 k q) := by
  obtain ⟨-, -, e0, e1, -⟩ := index_facts t
  unfold iblk
  rw [View.read_apply]
  show V c main_arg10 _ = V c main_arg10 _
  congr 1
  funext a; apply Fin.ext
  match a with
  | ⟨0, _⟩ => show win6_1.index t (0 : Fin 2) * 16 + 1 * k.val = k.val; omega
  | ⟨1, _⟩ => show win6_1.index t (1 : Fin 2) * 300 + 1 * q.val = q.val; omega

theorem bo_blk (c : Dev nD) (t : Fin cfg6.N) (q : Fin 300) :
    (iblk V c 2 t : Vec Ideal S300 .f32) (ix1 q) = (V c main_arg11 : S300.Idx → EReal) (ix1 q) := by
  obtain ⟨-, -, -, -, e0, -⟩ := index_facts t
  unfold iblk
  rw [View.read_apply]
  show V c main_arg11 _ = V c main_arg11 _
  congr 1
  funext a; apply Fin.ext
  match a with
  | ⟨0, _⟩ => show win6_2.index t (0 : Fin 1) * 300 + 1 * q.val = q.val; omega

theorem logits_blk (c : Dev nD) (t : Fin cfg6.N) (y : Fin 2000) (q : Fin 300) (r : Fin 50000) (hr : r.val = 2000 * t.val + y.val) :
    logits (iblk V c 0 t) (iblk V c 1 t) (iblk V c 2 t) y q
      = Gcn.mm (K := 16) (M := 300) (V c main_v56) (V c main_arg10) (ix2 r q) + (V c main_arg11) (ix1 q) := by
  unfold logits Gcn.mm
  rw [bo_blk V c t q]
  congr 1
  refine Finset.sum_congr rfl fun k _ => ?_
  rw [agg_blk V c t y k r hr, wo_blk V c t k q]

theorem flushed_eq (c : Dev nD) (t : Fin cfg6.N) :
    (dat V c).flushed 3 t = ((cfg6.win 3).blk t).view.read (Elt Ideal) (G V c) := by
  show (cfg6.win 3).cut (grid6.coords t) ((dat V c).after 3 t) = _
  rw [after3]
  obtain ⟨-, -, -, -, -, e0, e1⟩ := index_facts t
  have hN : cfg6.N = 25 := N_6
  funext j
  have hj0 : (j 0).val < 2000 := (j 0).isLt
  have hj1 : (j 1).val < 300 := (j 1).isLt
  have ht : t.val < 25 := hN ▸ t.isLt
  obtain ⟨y, hy⟩ : ∃ y : Fin 2000, y.val = (j 0).val := ⟨⟨(j 0).val, hj0⟩, rfl⟩
  obtain ⟨q, hq⟩ : ∃ q : Fin 300, q.val = (j 1).val := ⟨⟨(j 1).val, hj1⟩, rfl⟩
  have hjy : j = ix2 y q := by
    funext a; apply Fin.ext
    match a with
    | ⟨0, _⟩ => exact hy.symm
    | ⟨1, _⟩ => exact hq.symm
  let r : Fin 50000 := ⟨2000 * t.val + y.val, by have := y.isLt; omega⟩
  have hemb : ((cfg6.win 3).blk t).view.emb j = ix2 r q := by
    funext a; apply Fin.ext
    match a with
    | ⟨0, _⟩ => show win6_3.index t (0 : Fin 2) * 2000 + 1 * (j 0).val = 2000 * t.val + y.val; omega
    | ⟨1, _⟩ => show win6_3.index t (1 : Fin 2) * 300 + 1 * (j 1).val = q.val; omega
  show k6_pay1 (F := Ideal) (iblk V c 0 t) (iblk V c 1 t) (iblk V c 2 t) j = G V c (((cfg6.win 3).blk t).view.emb j)
  rw [hemb, hjy]
  refine (pay_apply (iblk V c 0 t) (iblk V c 1 t) (iblk V c 2 t) y q).trans ?_
  have hl : ∀ q' : Fin 300, logits (iblk V c 0 t) (iblk V c 1 t) (iblk V c 2 t) y q'
      = Gcn.mm (K := 16) (M := 300) (V c main_v56) (V c main_arg10) (ix2 r q') + (V c main_arg11) (ix1 q') :=
    fun q' => logits_blk V c t y q' r rfl
  have hf : logits (iblk V c 0 t) (iblk V c 1 t) (iblk V c 2 t) y
      = fun q' : Fin 300 => Gcn.mm (K := 16) (M := 300) (V c main_v56) (V c main_arg10) (ix2 r q') + (V c main_arg11) (ix1 q') :=
    funext hl
  rw [hf]
  unfold G Gcn.logSoftmax
  simp only [zero_add]

theorem mem_blk (t : Fin cfg6.N) (i : S50000x300.Idx) :
    i ∈ ((cfg6.win 3).blk t).view.set ↔ ∀ a : Fin 2, win6_3.index t a * S2000x300.size a ≤ (i a).val ∧ (i a).val < win6_3.index t a * S2000x300.size a + S2000x300.size a := by
  show i ∈ ((View.whole main_v57).slice (win6_3.rect t)).set ↔ _
  rw [View.set_slice_whole, Rect.mem_set_unit]
  exact Iff.rfl

theorem cover (i : S50000x300.Idx) : ∃ t : Fin cfg6.N, (cfg6.win 3).flush t = true ∧ i ∈ ((cfg6.win 3).blk t).view.set := by
  have hN : cfg6.N = 25 := N_6
  have hi0 : (i 0).val < 50000 := (i 0).isLt
  have hi1 : (i 1).val < 300 := (i 1).isLt
  refine ⟨⟨(i 0).val / 2000, by rw [hN]; omega⟩, flush6_3 _, ?_⟩
  rw [mem_blk]
  obtain ⟨-, -, -, -, -, e0, e1⟩ := index_facts ⟨(i 0).val / 2000, by rw [hN]; omega⟩
  intro a
  match a with
  | ⟨0, _⟩ =>
    show win6_3.index _ (0 : Fin 2) * 2000 ≤ (i 0).val ∧ (i 0).val < win6_3.index _ (0 : Fin 2) * 2000 + 2000
    rw [e0]; show (i 0).val / 2000 * 2000 ≤ (i 0).val ∧ (i 0).val < (i 0).val / 2000 * 2000 + 2000; omega
  | ⟨1, _⟩ =>
    show win6_3.index _ (1 : Fin 2) * 300 ≤ (i 1).val ∧ (i 1).val < win6_3.index _ (1 : Fin 2) * 300 + 300
    rw [e1]; omega

theorem final (c : Dev nD) : (dat V c).arrAt 3 cfg6.N = Gcn.logSoftmax (fun j => Gcn.mm (K := 16) (M := 300) (V c main_v56) (V c main_arg10) j
    + (V c main_arg11) (ValueIdx.ix1 ⟨(j 1).val, ValueIdx.idx2_lt1 j⟩)) :=
  (dat V c).arrAt_eq_of_cover 3 (G V c) (fun t _ => flushed_eq V c t) cover

end Cert.KernelIdeal.R6

end
-- ==== Proof.KernelValue.lean ====
import proofs.«148650_j55559696941682_1_alg».proof.Proof.KernelHost
import proofs.«148650_j55559696941682_1_alg».proof.Proof.Agree
import proofs.«148650_j55559696941682_1_alg».proof.Proof.Run
import proofs.«148650_j55559696941682_1_alg».proof.Proof.Gather0Value
import proofs.«148650_j55559696941682_1_alg».proof.Proof.Scatter1Value
import proofs.«148650_j55559696941682_1_alg».proof.Proof.Gather2Value
import proofs.«148650_j55559696941682_1_alg».proof.Proof.Scatter3Value
import proofs.«148650_j55559696941682_1_alg».proof.Proof.Gather4Value
import proofs.«148650_j55559696941682_1_alg».proof.Proof.Scatter5Value
import proofs.«148650_j55559696941682_1_alg».proof.Proof.Final6Value

noncomputable section

namespace Cert.KernelIdeal.KValue

open Cert.KernelIdeal Cert.KernelIdeal.Gen Cert.KernelIdeal.Host
open Idealize.ShloMosaic Idealize.ShloMosaic.TcCoe Idealize.SL.Sem Idealize.ShloMosaic.ValueIdx

variable (m : (ℓ : Loc nD τ sig) → Buf (Elt Ideal) ℓ) (outs : Outs (F := Ideal)) (c : Dev nD)

abbrev src : Gcn.SE1.Idx → BitVec 32 := row (aEi m c) 0
abbrev dst : Gcn.SE1.Idx → BitVec 32 := row (aEi m c) 1

abbrev h1 : Gcn.SNH.Idx → EReal :=
  Gcn.hidK (src m c) (dst m c) (nrm m c) (sn m c) (aX m c) (aW1 m c) (aB1 m c) (aWl1 m c) (aBl1 m c)
abbrev h2 : Gcn.SNH.Idx → EReal :=
  Gcn.hidK (src m c) (dst m c) (nrm m c) (sn m c) (h1 m c) (aW2 m c) (aB2 m c) (aWl2 m c) (aBl2 m c)

abbrev net : Gcn.SNC.Idx → EReal :=
  Gcn.netK (aX m c) (src m c) (dst m c) (nrm m c) (sn m c) (aW1 m c) (aB1 m c) (aWl1 m c) (aBl1 m c)
    (aW2 m c) (aB2 m c) (aWl2 m c) (aBl2 m c) (aWo m c) (aBo m c)

theorem compose
    (f0 : (outs 8 main_v40 c : Gcn.SPH.Idx → EReal) = Gcn.gatherZ (V7 m c main_v27) (V7 m c main_v32))
    (f1 : (outs 9 main_v41 c : Gcn.SNH.Idx → EReal) = Gcn.layerK true (V8 m outs c main_v28) (V8 m outs c main_v29)
            (V8 m outs c main_v40) (V8 m outs c main_v39) (V8 m outs c main_arg3) (V8 m outs c main_v36))
    (f2 : (outs 11 main_v50 c : Gcn.SPH.Idx → EReal) = Gcn.gatherZ (V10 m outs c main_v27) (V10 m outs c main_v42))
    (f3 : (outs 12 main_v51 c : Gcn.SNH.Idx → EReal) = Gcn.layerK true (V11 m outs c main_v28) (V11 m outs c main_v29)
            (V11 m outs c main_v50) (V11 m outs c main_v49) (V11 m outs c main_arg7) (V11 m outs c main_v46))
    (f4 : (outs 14 main_v55 c : Gcn.SPH.Idx → EReal) = Gcn.gatherZ (V13 m outs c main_v27) (V13 m outs c main_v51))
    (f5 : (outs 15 main_v56 c : Gcn.SNH.Idx → EReal) = Gcn.layerK false (V14 m outs c main_v28) (V14 m outs c main_v29)
            (V14 m outs c main_v55) (V14 m outs c main_v54) (V14 m outs c main_v31) (V14 m outs c main_v30))
    (f6 : (outs 16 main_v57 c : Gcn.SNC.Idx → EReal) = Gcn.logSoftmax (fun j =>
            Gcn.mm (K := 16) (M := 300) (V15 m outs c main_v56) (V15 m outs c main_arg10) j
              + (V15 m outs c main_arg11) (ix1 ⟨(j 1).val, idx2_lt1 j⟩))) :
    (outs 16 main_v57 c : Gcn.SNC.Idx → EReal) = net m c := by

  have e0 : (outs 8 main_v40 c : Gcn.SPH.Idx → EReal) = Gcn.gatherZ (Gcn.padI (src m c)) (Gcn.mm (aX m c) (aW1 m c)) := by
    rw [f0, val7_v27, val7_v32]

  have e1 : (outs 9 main_v41 c : Gcn.SNH.Idx → EReal) = h1 m c := by
    rw [f1, val8_v28, val8_v29, val8_v40, e0, val8_v39, val8_arg3, val8_v36]
    rfl
  have e1' : hid1 outs c = h1 m c := e1

  have e2 : (outs 11 main_v50 c : Gcn.SPH.Idx → EReal) = Gcn.gatherZ (Gcn.padI (src m c)) (Gcn.mm (h1 m c) (aW2 m c)) := by
    rw [f2, val10_v27, val10_v42, e1']

  have e3 : (outs 12 main_v51 c : Gcn.SNH.Idx → EReal) = h2 m c := by
    rw [f3, val11_v28, val11_v29, val11_v50, e2, val11_v49, val11_arg7, val11_v46, e1']
    rfl
  have e3' : hid2 outs c = h2 m c := e3

  have e4 : (outs 14 main_v55 c : Gcn.SPH.Idx → EReal) = Gcn.gatherZ (Gcn.padI (src m c)) (h2 m c) := by
    rw [f4, val13_v27, val13_v51, e3]

  have e5 : (outs 15 main_v56 c : Gcn.SNH.Idx → EReal)
      = Gcn.layerK false (Gcn.padI (dst m c)) (Gcn.padF (nrm m c)) (Gcn.gatherZ (Gcn.padI (src m c)) (h2 m c))
          (Gcn.selfOf (h2 m c) (sn m c)) (fun _ => 0) (fun _ => 0) := by
    rw [f5, val14_v28, val14_v29, val14_v55, e4, val14_v54, val14_v31, val14_v30, e3']
    rfl

  rw [f6, val15_v56, val15_arg10, val15_arg11, e5]
  rfl

theorem kernel_result : (RunAll.o16 m c : Gcn.SNC.Idx → EReal) = net m c := by
  rw [← RunAll.outs_16 m c]
  refine compose m (RunAll.outs m) c ?_ ?_ ?_ ?_ ?_ ?_ ?_
  · exact (RunAll.outs_8 m c).trans (R0.final (RunAll.tc (V7 m)) c)
  · exact (RunAll.outs_9 m c).trans ((RunAll.o9_eq m c).trans (R1.final (RunAll.tc (V8 m (RunAll.outs m))) c))
  · exact (RunAll.outs_11 m c).trans ((RunAll.o11_eq m c).trans (R2.final (RunAll.tc (V10 m (RunAll.outs m))) c))
  · exact (RunAll.outs_12 m c).trans ((RunAll.o12_eq m c).trans (R3.final (RunAll.tc (V11 m (RunAll.outs m))) c))
  · exact (RunAll.outs_14 m c).trans ((RunAll.o14_eq m c).trans (R4.final (RunAll.tc (V13 m (RunAll.outs m))) c))
  · exact (RunAll.outs_15 m c).trans ((RunAll.o15_eq m c).trans (R5.final (RunAll.tc (V14 m (RunAll.outs m))) c))
  · exact (RunAll.outs_16 m c).trans ((RunAll.o16_eq m c).trans (R6.final (RunAll.tc (V15 m (RunAll.outs m))) c))

end Cert.KernelIdeal.KValue

end
-- ==== Proof.RefRunC.lean ====
import proofs.«148650_j55559696941682_1_alg».proof.Proof.RefRunP
import proofs.«148650_j55559696941682_1_alg».proof.Proof.RefReadP

noncomputable section

namespace Cert.ReferenceIdeal.RunC

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem ofBuf_toBuf {T : BufTy} (x : TRef sig T) (v : T.Contents (Elt F)) : x.ofBuf (x.toBuf v) = v := by
  obtain ⟨r, h, _, _⟩ := x
  subst h
  rfl
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    nullary main_cst (constant S_ .f32 0x3F800000#32),
    unary main_cst main_v5 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v4 main_v32 main_v33 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v26 main_v34 (broadcastInDim S800000x1 ![0] bcast_S800000_S800000x1_0 : (⟨S800000, .f32⟩ : BufTy).Contents (Elt F) → (⟨S800000x1, .f32⟩ : BufTy).Contents (Elt F)),
    unary main_v34 main_v35 (broadcastInDim S800000x16 ![0, 1] bcast_S800000x1_S800000x16_0_1 : (⟨S800000x1, .f32⟩ : BufTy).Contents (Elt F) → (⟨S800000x16, .f32⟩ : BufTy).Contents (Elt F)),
    binary main_v33 main_v35 main_v36 (mulf : (⟨S800000x16, .f32⟩ : BufTy).Contents (Elt F) → (⟨S800000x16, .f32⟩ : BufTy).Contents (Elt F) → (⟨S800000x16, .f32⟩ : BufTy).Contents (Elt F)),
    nullary main_cst_7 (constant S_ .f32 0x00000000#32),
    unary main_cst_7 main_v37 (broadcastInDim S50000x16 ![] bcast_S_S50000x16 : (⟨S_, .f32⟩ : BufTy).Contents (Elt F) → (⟨S50000x16, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    binary main_v11 main_v11 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x16 ![0, 1] bcast_S50000x1_S50000x16_0_1 : (⟨S50000x1, .f32⟩ : BufTy).Contents (Elt F) → (⟨S50000x16, .f32⟩ : BufTy).Contents (Elt F)),
    binary main_v4 main_v42 main_v43 (mulf : (⟨S50000x16, .f32⟩ : BufTy).Contents (Elt F) → (⟨S50000x16, .f32⟩ : BufTy).Contents (Elt F) → (⟨S50000x16, .f32⟩ : BufTy).Contents (Elt F)),
    binary main_v39 main_v43 main_v44 (addf : (⟨S50000x16, .f32⟩ : BufTy).Contents (Elt F) → (⟨S50000x16, .f32⟩ : BufTy).Contents (Elt F) → (⟨S50000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S50000x16 ![0, 1] bcast_S1x16_S50000x16_0_1 : (⟨S1x16, .f32⟩ : BufTy).Contents (Elt F) → (⟨S50000x16, .f32⟩ : BufTy).Contents (Elt F)),
    binary main_v44 main_v46 main_v47 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x16, .f32⟩) main_call0_v0) (broadcastInDim S50000x16 ![] bcast_S_S50000x16),
    TRef.binary (TRef.of (T := ⟨S50000x16, .f32⟩) main_v47) (TRef.of (T := ⟨S50000x16, .f32⟩) main_call0_v0) (TRef.of (T := ⟨S50000x16, .f32⟩) main_v48) maximumf,
    binary main_arg0 main_arg4 main_v49 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg5 main_v50 (broadcastInDim S1x16 ![1] bcast_S16_S1x16_1 : (⟨S16, .f32⟩ : BufTy).Contents (Elt F) → (⟨S1x16, .f32⟩ : BufTy).Contents (Elt F)),
    unary main_v50 main_v51 (broadcastInDim S50000x16 ![0, 1] bcast_S1x16_S50000x16_0_1 : (⟨S1x16, .f32⟩ : BufTy).Contents (Elt F) → (⟨S50000x16, .f32⟩ : BufTy).Contents (Elt F)),
    binary main_v49 main_v51 main_v52 (addf : (⟨S50000x16, .f32⟩ : BufTy).Contents (Elt F) → (⟨S50000x16, .f32⟩ : BufTy).Contents (Elt F) → (⟨S50000x16, .f32⟩ : BufTy).Contents (Elt F)),
    binary main_v48 main_v52 main_v53 (addf : (⟨S50000x16, .f32⟩ : BufTy).Contents (Elt F) → (⟨S50000x16, .f32⟩ : BufTy).Contents (Elt F) → (⟨S50000x16, .f32⟩ : BufTy).Contents (Elt F)) ]
set_option maxRecDepth 8192 in
set_option maxHeartbeats 4000000 in
theorem chunkA_v53 (V : Valuation τ sig (Elt F)) :
    after opsA V (Proc.devRef .tc main_v53) = val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  try simp only [TRef.ofBuf, TRef.toBuf, cast_eq]
  rfl
set_option maxRecDepth 8192 in
set_option maxHeartbeats 4000000 in
theorem chunkA_v1 (V : Valuation τ sig (Elt F)) :
    after opsA V (Proc.devRef .tc main_v1) = val_main_v1 (F := F) (V (Proc.devRef .tc main_arg1)) := by
  after_results_simp
  try simp only [TRef.ofBuf, TRef.toBuf, cast_eq]
  rfl
set_option maxRecDepth 8192 in
set_option maxHeartbeats 4000000 in
theorem chunkA_v3 (V : Valuation τ sig (Elt F)) :
    after opsA V (Proc.devRef .tc main_v3) = val_main_v3 (F := F) (V (Proc.devRef .tc main_arg1)) := by
  after_results_simp
  try simp only [TRef.ofBuf, TRef.toBuf, cast_eq]
  rfl
set_option maxRecDepth 8192 in
set_option maxHeartbeats 4000000 in
theorem frameA_arg0 (V : Valuation τ sig (Elt F)) :
    after opsA V (Proc.devRef .tc main_arg0) = V (Proc.devRef .tc main_arg0) := by
  after_results_simp
set_option maxRecDepth 8192 in
set_option maxHeartbeats 4000000 in
theorem frameA_arg1 (V : Valuation τ sig (Elt F)) :
    after opsA V (Proc.devRef .tc main_arg1) = V (Proc.devRef .tc main_arg1) := by
  after_results_simp
set_option maxRecDepth 8192 in
set_option maxHeartbeats 4000000 in
theorem frameA_arg2 (V : Valuation τ sig (Elt F)) :
    after opsA V (Proc.devRef .tc main_arg2) = V (Proc.devRef .tc main_arg2) := by
  after_results_simp
set_option maxRecDepth 8192 in
set_option maxHeartbeats 4000000 in
theorem frameA_arg3 (V : Valuation τ sig (Elt F)) :
    after opsA V (Proc.devRef .tc main_arg3) = V (Proc.devRef .tc main_arg3) := by
  after_results_simp
set_option maxRecDepth 8192 in
set_option maxHeartbeats 4000000 in
theorem frameA_arg4 (V : Valuation τ sig (Elt F)) :
    after opsA V (Proc.devRef .tc main_arg4) = V (Proc.devRef .tc main_arg4) := by
  after_results_simp
set_option maxRecDepth 8192 in
set_option maxHeartbeats 4000000 in
theorem frameA_arg5 (V : Valuation τ sig (Elt F)) :
    after opsA V (Proc.devRef .tc main_arg5) = V (Proc.devRef .tc main_arg5) := by
  after_results_simp
set_option maxRecDepth 8192 in
set_option maxHeartbeats 4000000 in
theorem frameA_arg6 (V : Valuation τ sig (Elt F)) :
    after opsA V (Proc.devRef .tc main_arg6) = V (Proc.devRef .tc main_arg6) := by
  after_results_simp
set_option maxRecDepth 8192 in
set_option maxHeartbeats 4000000 in
theorem frameA_arg7 (V : Valuation τ sig (Elt F)) :
    after opsA V (Proc.devRef .tc main_arg7) = V (Proc.devRef .tc main_arg7) := by
  after_results_simp
set_option maxRecDepth 8192 in
set_option maxHeartbeats 4000000 in
theorem frameA_arg8 (V : Valuation τ sig (Elt F)) :
    after opsA V (Proc.devRef .tc main_arg8) = V (Proc.devRef .tc main_arg8) := by
  after_results_simp
set_option maxRecDepth 8192 in
set_option maxHeartbeats 4000000 in
theorem frameA_arg9 (V : Valuation τ sig (Elt F)) :
    after opsA V (Proc.devRef .tc main_arg9) = V (Proc.devRef .tc main_arg9) := by
  after_results_simp
set_option maxRecDepth 8192 in
set_option maxHeartbeats 4000000 in
theorem frameA_arg10 (V : Valuation τ sig (Elt F)) :
    after opsA V (Proc.devRef .tc main_arg10) = V (Proc.devRef .tc main_arg10) := by
  after_results_simp
set_option maxRecDepth 8192 in
set_option maxHeartbeats 4000000 in
theorem frameA_arg11 (V : Valuation τ sig (Elt F)) :
    after opsA V (Proc.devRef .tc main_arg11) = V (Proc.devRef .tc main_arg11) := by
  after_results_simp
abbrev opsB : List (HloOp τ sig (Elt F)) :=
  [ binary main_v53 main_arg6 main_v54 ((fun l r => Host.dotGeneral dot_S50000x16_S16x16_S50000x16_1_0_0_1_n_n none l r) : (⟨S50000x16, .f32⟩ : BufTy).Contents (Elt F) → (⟨S16x16, .f32⟩ : BufTy).Contents (Elt F) → (⟨S50000x16, .f32⟩ : BufTy).Contents (Elt F)),
    nullary main_cst_8 (constant S_ .f32 0x3F800000#32),
    unary main_cst_8 main_v55 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v56 (broadcastInDim S50000 ![] bcast_S_S50000 : (⟨S_, .f32⟩ : BufTy).Contents (Elt F) → (⟨S50000, .f32⟩ : BufTy).Contents (Elt F)),
    unary main_v3 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_10 (constant S_ .f32 0x3F800000#32),
    unary main_cst_10 main_v59 (broadcastInDim S50000 ![] bcast_S_S50000 : (⟨S_, .f32⟩ : BufTy).Contents (Elt F) → (⟨S50000, .f32⟩ : BufTy).Contents (Elt F)),
    binary main_v58 main_v59 main_v60 (addf : (⟨S50000, .f32⟩ : BufTy).Contents (Elt F) → (⟨S50000, .f32⟩ : BufTy).Contents (Elt F) → (⟨S50000, .f32⟩ : BufTy).Contents (Elt F)),
    unary main_v60 main_v61 (Host.rsqrt : (⟨S50000, .f32⟩ : BufTy).Contents (Elt F) → (⟨S50000, .f32⟩ : BufTy).Contents (Elt F)),
    nullary main_c_11 (constantI S_ 32 0#32),
    unary main_c_11 main_v62 (broadcastInDim S800000 ![] bcast_S_S800000 : (⟨S_, .i32⟩ : BufTy).Contents (Elt F) → (⟨S800000, .i32⟩ : BufTy).Contents (Elt F)),
    binary main_v1 main_v62 main_v63 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v64 (broadcastInDim S800000 ![] bcast_S_S800000 : (⟨S_, .i32⟩ : BufTy).Contents (Elt F) → (⟨S800000, .i32⟩ : BufTy).Contents (Elt F)),
    binary main_v1 main_v64 main_v65 (addi : (⟨S800000, .i32⟩ : BufTy).Contents (Elt F) → (⟨S800000, .i32⟩ : BufTy).Contents (Elt F) → (⟨S800000, .i32⟩ : BufTy).Contents (Elt F)),
    ternary main_v63 main_v65 main_v1 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v66 main_v67 (broadcastInDim S800000x1 ![0] bcast_S800000_S800000x1_0 : (⟨S800000, .i32⟩ : BufTy).Contents (Elt F) → (⟨S800000x1, .i32⟩ : BufTy).Contents (Elt F)),
    binary main_v61 main_v67 main_v68 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_13 (constantI S_ 32 0#32),
    unary main_c_13 main_v69 (broadcastInDim S800000 ![] bcast_S_S800000 : (⟨S_, .i32⟩ : BufTy).Contents (Elt F) → (⟨S800000, .i32⟩ : BufTy).Contents (Elt F)),
    binary main_v3 main_v69 main_v70 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v71 (broadcastInDim S800000 ![] bcast_S_S800000 : (⟨S_, .i32⟩ : BufTy).Contents (Elt F) → (⟨S800000, .i32⟩ : BufTy).Contents (Elt F)),
    binary main_v3 main_v71 main_v72 (addi : (⟨S800000, .i32⟩ : BufTy).Contents (Elt F) → (⟨S800000, .i32⟩ : BufTy).Contents (Elt F) → (⟨S800000, .i32⟩ : BufTy).Contents (Elt F)),
    ternary main_v70 main_v72 main_v3 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v73 main_v74 (broadcastInDim S800000x1 ![0] bcast_S800000_S800000x1_0 : (⟨S800000, .i32⟩ : BufTy).Contents (Elt F) → (⟨S800000x1, .i32⟩ : BufTy).Contents (Elt F)),
    binary main_v61 main_v74 main_v75 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v68 main_v75 main_v76 (mulf : (⟨S800000, .f32⟩ : BufTy).Contents (Elt F) → (⟨S800000, .f32⟩ : BufTy).Contents (Elt F) → (⟨S800000, .f32⟩ : BufTy).Contents (Elt F)),
    nullary main_c_15 (constantI S_ 32 0#32),
    unary main_c_15 main_v77 (broadcastInDim S800000 ![] bcast_S_S800000 : (⟨S_, .i32⟩ : BufTy).Contents (Elt F) → (⟨S800000, .i32⟩ : BufTy).Contents (Elt F)),
    binary main_v1 main_v77 main_v78 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v79 (broadcastInDim S800000 ![] bcast_S_S800000 : (⟨S_, .i32⟩ : BufTy).Contents (Elt F) → (⟨S800000, .i32⟩ : BufTy).Contents (Elt F)),
    binary main_v1 main_v79 main_v80 (addi : (⟨S800000, .i32⟩ : BufTy).Contents (Elt F) → (⟨S800000, .i32⟩ : BufTy).Contents (Elt F) → (⟨S800000, .i32⟩ : BufTy).Contents (Elt F)),
    ternary main_v78 main_v80 main_v1 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v81 main_v82 (broadcastInDim S800000x1 ![0] bcast_S800000_S800000x1_0 : (⟨S800000, .i32⟩ : BufTy).Contents (Elt F) → (⟨S800000x1, .i32⟩ : BufTy).Contents (Elt F)),
    binary main_v54 main_v82 main_v83 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v76 main_v84 (broadcastInDim S800000x1 ![0] bcast_S800000_S800000x1_0 : (⟨S800000, .f32⟩ : BufTy).Contents (Elt F) → (⟨S800000x1, .f32⟩ : BufTy).Contents (Elt F)),
    unary main_v84 main_v85 (broadcastInDim S800000x16 ![0, 1] bcast_S800000x1_S800000x16_0_1 : (⟨S800000x1, .f32⟩ : BufTy).Contents (Elt F) → (⟨S800000x16, .f32⟩ : BufTy).Contents (Elt F)),
    binary main_v83 main_v85 main_v86 (mulf : (⟨S800000x16, .f32⟩ : BufTy).Contents (Elt F) → (⟨S800000x16, .f32⟩ : BufTy).Contents (Elt F) → (⟨S800000x16, .f32⟩ : BufTy).Contents (Elt F)),
    nullary main_cst_17 (constant S_ .f32 0x00000000#32),
    unary main_cst_17 main_v87 (broadcastInDim S50000x16 ![] bcast_S_S50000x16 : (⟨S_, .f32⟩ : BufTy).Contents (Elt F) → (⟨S50000x16, .f32⟩ : BufTy).Contents (Elt F)),
    unary main_v3 main_v88 (broadcastInDim S800000x1 ![0] bcast_S800000_S800000x1_0 : (⟨S800000, .i32⟩ : BufTy).Contents (Elt F) → (⟨S800000x1, .i32⟩ : BufTy).Contents (Elt F)),
    ternary main_v87 main_v88 main_v86 main_v89 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    binary main_v61 main_v61 main_v90 (mulf : (⟨S50000, .f32⟩ : BufTy).Contents (Elt F) → (⟨S50000, .f32⟩ : BufTy).Contents (Elt F) → (⟨S50000, .f32⟩ : BufTy).Contents (Elt F)),
    unary main_v90 main_v91 (broadcastInDim S50000x1 ![0] bcast_S50000_S50000x1_0 : (⟨S50000, .f32⟩ : BufTy).Contents (Elt F) → (⟨S50000x1, .f32⟩ : BufTy).Contents (Elt F)),
    unary main_v91 main_v92 (broadcastInDim S50000x16 ![0, 1] bcast_S50000x1_S50000x16_0_1 : (⟨S50000x1, .f32⟩ : BufTy).Contents (Elt F) → (⟨S50000x16, .f32⟩ : BufTy).Contents (Elt F)),
    binary main_v54 main_v92 main_v93 (mulf : (⟨S50000x16, .f32⟩ : BufTy).Contents (Elt F) → (⟨S50000x16, .f32⟩ : BufTy).Contents (Elt F) → (⟨S50000x16, .f32⟩ : BufTy).Contents (Elt F)),
    binary main_v89 main_v93 main_v94 (addf : (⟨S50000x16, .f32⟩ : BufTy).Contents (Elt F) → (⟨S50000x16, .f32⟩ : BufTy).Contents (Elt F) → (⟨S50000x16, .f32⟩ : BufTy).Contents (Elt F)),
    unary main_arg7 main_v95 (broadcastInDim S1x16 ![1] bcast_S16_S1x16_1 : (⟨S16, .f32⟩ : BufTy).Contents (Elt F) → (⟨S1x16, .f32⟩ : BufTy).Contents (Elt F)),
    unary main_v95 main_v96 (broadcastInDim S50000x16 ![0, 1] bcast_S1x16_S50000x16_0_1 : (⟨S1x16, .f32⟩ : BufTy).Contents (Elt F) → (⟨S50000x16, .f32⟩ : BufTy).Contents (Elt F)),
    binary main_v94 main_v96 main_v97 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x16, .f32⟩) main_call1_v0) (broadcastInDim S50000x16 ![] bcast_S_S50000x16),
    TRef.binary (TRef.of (T := ⟨S50000x16, .f32⟩) main_v97) (TRef.of (T := ⟨S50000x16, .f32⟩) main_call1_v0) (TRef.of (T := ⟨S50000x16, .f32⟩) main_v98) maximumf,
    binary main_v53 main_arg8 main_v99 ((fun l r => Host.dotGeneral dot_S50000x16_S16x16_S50000x16_1_0_0_1_n_n none l r) : (⟨S50000x16, .f32⟩ : BufTy).Contents (Elt F) → (⟨S16x16, .f32⟩ : BufTy).Contents (Elt F) → (⟨S50000x16, .f32⟩ : BufTy).Contents (Elt F)),
    unary main_arg9 main_v100 (broadcastInDim S1x16 ![1] bcast_S16_S1x16_1 : (⟨S16, .f32⟩ : BufTy).Contents (Elt F) → (⟨S1x16, .f32⟩ : BufTy).Contents (Elt F)),
    unary main_v100 main_v101 (broadcastInDim S50000x16 ![0, 1] bcast_S1x16_S50000x16_0_1 : (⟨S1x16, .f32⟩ : BufTy).Contents (Elt F) → (⟨S50000x16, .f32⟩ : BufTy).Contents (Elt F)),
    binary main_v99 main_v101 main_v102 (addf : (⟨S50000x16, .f32⟩ : BufTy).Contents (Elt F) → (⟨S50000x16, .f32⟩ : BufTy).Contents (Elt F) → (⟨S50000x16, .f32⟩ : BufTy).Contents (Elt F)),
    binary main_v98 main_v102 main_v103 (addf : (⟨S50000x16, .f32⟩ : BufTy).Contents (Elt F) → (⟨S50000x16, .f32⟩ : BufTy).Contents (Elt F) → (⟨S50000x16, .f32⟩ : BufTy).Contents (Elt F)) ]
set_option maxRecDepth 8192 in
set_option maxHeartbeats 4000000 in
theorem chunkB_v103 (V : Valuation τ sig (Elt F)) (x0 : (⟨S50000x128, .f32⟩ : BufTy).Contents (Elt F)) (x1 : (⟨S2x800000, .i32⟩ : BufTy).Contents (Elt F)) (x2 : (⟨S128x16, .f32⟩ : BufTy).Contents (Elt F)) (x3 : (⟨S16, .f32⟩ : BufTy).Contents (Elt F)) (x4 : (⟨S128x16, .f32⟩ : BufTy).Contents (Elt F)) (x5 : (⟨S16, .f32⟩ : BufTy).Contents (Elt F)) (x6 : (⟨S16x16, .f32⟩ : BufTy).Contents (Elt F)) (x7 : (⟨S16, .f32⟩ : BufTy).Contents (Elt F)) (x8 : (⟨S16x16, .f32⟩ : BufTy).Contents (Elt F)) (x9 : (⟨S16, .f32⟩ : BufTy).Contents (Elt F))
    (h53 : V (Proc.devRef .tc main_v53) = val_main_v53 (F := F) x0 x1 x2 x3 x4 x5)
    (h1 : V (Proc.devRef .tc main_v1) = val_main_v1 (F := F) x1) (h3 : V (Proc.devRef .tc main_v3) = val_main_v3 (F := F) x1)
    (ha6 : V (Proc.devRef .tc main_arg6) = x6) (ha7 : V (Proc.devRef .tc main_arg7) = x7)
    (ha8 : V (Proc.devRef .tc main_arg8) = x8) (ha9 : V (Proc.devRef .tc main_arg9) = x9) :
    after opsB V (Proc.devRef .tc main_v103) = val_main_v103 (F := F) x0 x1 x2 x3 x4 x5 x6 x7 x8 x9 := by
  after_results_simp
  try simp only [TRef.ofBuf, TRef.toBuf, cast_eq]
  simp only [h53, h1, h3, ha6, ha7, ha8, ha9]
  rfl
set_option maxRecDepth 8192 in
set_option maxHeartbeats 4000000 in
theorem frameB_v1 (V : Valuation τ sig (Elt F)) :
    after opsB V (Proc.devRef .tc main_v1) = V (Proc.devRef .tc main_v1) := by
  after_results_simp
set_option maxRecDepth 8192 in
set_option maxHeartbeats 4000000 in
theorem frameB_v3 (V : Valuation τ sig (Elt F)) :
    after opsB V (Proc.devRef .tc main_v3) = V (Proc.devRef .tc main_v3) := by
  after_results_simp
set_option maxRecDepth 8192 in
set_option maxHeartbeats 4000000 in
theorem frameB_arg0 (V : Valuation τ sig (Elt F)) :
    after opsB V (Proc.devRef .tc main_arg0) = V (Proc.devRef .tc main_arg0) := by
  after_results_simp
set_option maxRecDepth 8192 in
set_option maxHeartbeats 4000000 in
theorem frameB_arg1 (V : Valuation τ sig (Elt F)) :
    after opsB V (Proc.devRef .tc main_arg1) = V (Proc.devRef .tc main_arg1) := by
  after_results_simp
set_option maxRecDepth 8192 in
set_option maxHeartbeats 4000000 in
theorem frameB_arg2 (V : Valuation τ sig (Elt F)) :
    after opsB V (Proc.devRef .tc main_arg2) = V (Proc.devRef .tc main_arg2) := by
  after_results_simp
set_option maxRecDepth 8192 in
set_option maxHeartbeats 4000000 in
theorem frameB_arg3 (V : Valuation τ sig (Elt F)) :
    after opsB V (Proc.devRef .tc main_arg3) = V (Proc.devRef .tc main_arg3) := by
  after_results_simp
set_option maxRecDepth 8192 in
set_option maxHeartbeats 4000000 in
theorem frameB_arg4 (V : Valuation τ sig (Elt F)) :
    after opsB V (Proc.devRef .tc main_arg4) = V (Proc.devRef .tc main_arg4) := by
  after_results_simp
set_option maxRecDepth 8192 in
set_option maxHeartbeats 4000000 in
theorem frameB_arg5 (V : Valuation τ sig (Elt F)) :
    after opsB V (Proc.devRef .tc main_arg5) = V (Proc.devRef .tc main_arg5) := by
  after_results_simp
set_option maxRecDepth 8192 in
set_option maxHeartbeats 4000000 in
theorem frameB_arg6 (V : Valuation τ sig (Elt F)) :
    after opsB V (Proc.devRef .tc main_arg6) = V (Proc.devRef .tc main_arg6) := by
  after_results_simp
set_option maxRecDepth 8192 in
set_option maxHeartbeats 4000000 in
theorem frameB_arg7 (V : Valuation τ sig (Elt F)) :
    after opsB V (Proc.devRef .tc main_arg7) = V (Proc.devRef .tc main_arg7) := by
  after_results_simp
set_option maxRecDepth 8192 in
set_option maxHeartbeats 4000000 in
theorem frameB_arg8 (V : Valuation τ sig (Elt F)) :
    after opsB V (Proc.devRef .tc main_arg8) = V (Proc.devRef .tc main_arg8) := by
  after_results_simp
set_option maxRecDepth 8192 in
set_option maxHeartbeats 4000000 in
theorem frameB_arg9 (V : Valuation τ sig (Elt F)) :
    after opsB V (Proc.devRef .tc main_arg9) = V (Proc.devRef .tc main_arg9) := by
  after_results_simp
set_option maxRecDepth 8192 in
set_option maxHeartbeats 4000000 in
theorem frameB_arg10 (V : Valuation τ sig (Elt F)) :
    after opsB V (Proc.devRef .tc main_arg10) = V (Proc.devRef .tc main_arg10) := by
  after_results_simp
set_option maxRecDepth 8192 in
set_option maxHeartbeats 4000000 in
theorem frameB_arg11 (V : Valuation τ sig (Elt F)) :
    after opsB V (Proc.devRef .tc main_arg11) = V (Proc.devRef .tc main_arg11) := by
  after_results_simp
abbrev opsC : List (HloOp τ sig (Elt F)) :=
  [ binary main_v103 main_arg10 main_v104 ((fun l r => Host.dotGeneral dot_S50000x16_S16x300_S50000x300_1_0_0_1_n_n none l r) : (⟨S50000x16, .f32⟩ : BufTy).Contents (Elt F) → (⟨S16x300, .f32⟩ : BufTy).Contents (Elt F) → (⟨S50000x300, .f32⟩ : BufTy).Contents (Elt F)),
    nullary main_cst_18 (constant S_ .f32 0x3F800000#32),
    unary main_cst_18 main_v105 (broadcastInDim S800000 ![] bcast_S_S800000 : (⟨S_, .f32⟩ : BufTy).Contents (Elt F) → (⟨S800000, .f32⟩ : BufTy).Contents (Elt F)),
    nullary main_cst_19 (constant S_ .f32 0x00000000#32),
    unary main_cst_19 main_v106 (broadcastInDim S50000 ![] bcast_S_S50000 : (⟨S_, .f32⟩ : BufTy).Contents (Elt F) → (⟨S50000, .f32⟩ : BufTy).Contents (Elt F)),
    unary main_v3 main_v107 (broadcastInDim S800000x1 ![0] bcast_S800000_S800000x1_0 : (⟨S800000, .i32⟩ : BufTy).Contents (Elt F) → (⟨S800000x1, .i32⟩ : BufTy).Contents (Elt F)),
    ternary main_v106 main_v107 main_v105 main_v108 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_20 (constant S_ .f32 0x3F800000#32),
    unary main_cst_20 main_v109 (broadcastInDim S50000 ![] bcast_S_S50000 : (⟨S_, .f32⟩ : BufTy).Contents (Elt F) → (⟨S50000, .f32⟩ : BufTy).Contents (Elt F)),
    binary main_v108 main_v109 main_v110 (addf : (⟨S50000, .f32⟩ : BufTy).Contents (Elt F) → (⟨S50000, .f32⟩ : BufTy).Contents (Elt F) → (⟨S50000, .f32⟩ : BufTy).Contents (Elt F)),
    unary main_v110 main_v111 (Host.rsqrt : (⟨S50000, .f32⟩ : BufTy).Contents (Elt F) → (⟨S50000, .f32⟩ : BufTy).Contents (Elt F)),
    nullary main_c_21 (constantI S_ 32 0#32),
    unary main_c_21 main_v112 (broadcastInDim S800000 ![] bcast_S_S800000 : (⟨S_, .i32⟩ : BufTy).Contents (Elt F) → (⟨S800000, .i32⟩ : BufTy).Contents (Elt F)),
    binary main_v1 main_v112 main_v113 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v114 (broadcastInDim S800000 ![] bcast_S_S800000 : (⟨S_, .i32⟩ : BufTy).Contents (Elt F) → (⟨S800000, .i32⟩ : BufTy).Contents (Elt F)),
    binary main_v1 main_v114 main_v115 (addi : (⟨S800000, .i32⟩ : BufTy).Contents (Elt F) → (⟨S800000, .i32⟩ : BufTy).Contents (Elt F) → (⟨S800000, .i32⟩ : BufTy).Contents (Elt F)),
    ternary main_v113 main_v115 main_v1 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v116 main_v117 (broadcastInDim S800000x1 ![0] bcast_S800000_S800000x1_0 : (⟨S800000, .i32⟩ : BufTy).Contents (Elt F) → (⟨S800000x1, .i32⟩ : BufTy).Contents (Elt F)),
    binary main_v111 main_v117 main_v118 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_23 (constantI S_ 32 0#32),
    unary main_c_23 main_v119 (broadcastInDim S800000 ![] bcast_S_S800000 : (⟨S_, .i32⟩ : BufTy).Contents (Elt F) → (⟨S800000, .i32⟩ : BufTy).Contents (Elt F)),
    binary main_v3 main_v119 main_v120 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v121 (broadcastInDim S800000 ![] bcast_S_S800000 : (⟨S_, .i32⟩ : BufTy).Contents (Elt F) → (⟨S800000, .i32⟩ : BufTy).Contents (Elt F)),
    binary main_v3 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_v3 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    binary main_v111 main_v124 main_v125 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v118 main_v125 main_v126 (mulf : (⟨S800000, .f32⟩ : BufTy).Contents (Elt F) → (⟨S800000, .f32⟩ : BufTy).Contents (Elt F) → (⟨S800000, .f32⟩ : BufTy).Contents (Elt F)),
    nullary main_c_25 (constantI S_ 32 0#32),
    unary main_c_25 main_v127 (broadcastInDim S800000 ![] bcast_S_S800000 : (⟨S_, .i32⟩ : BufTy).Contents (Elt F) → (⟨S800000, .i32⟩ : BufTy).Contents (Elt F)),
    binary main_v1 main_v127 main_v128 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v129 (broadcastInDim S800000 ![] bcast_S_S800000 : (⟨S_, .i32⟩ : BufTy).Contents (Elt F) → (⟨S800000, .i32⟩ : BufTy).Contents (Elt F)),
    binary main_v1 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v1 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v104 main_v132 main_v133 ((fun x i => Host.gather gather_S50000x300_S800000x1_S800000x300_1_0_n_n_0_1_1300 x i) : (⟨S50000x300, .f32⟩ : BufTy).Contents (Elt F) → (⟨S800000x1, .i32⟩ : BufTy).Contents (Elt F) → (⟨S800000x300, .f32⟩ : BufTy).Contents (Elt F)),
    unary main_v126 main_v134 (broadcastInDim S800000x1 ![0] bcast_S800000_S800000x1_0 : (⟨S800000, .f32⟩ : BufTy).Contents (Elt F) → (⟨S800000x1, .f32⟩ : BufTy).Contents (Elt F)),
    unary main_v134 main_v135 (broadcastInDim S800000x300 ![0, 1] bcast_S800000x1_S800000x300_0_1 : (⟨S800000x1, .f32⟩ : BufTy).Contents (Elt F) → (⟨S800000x300, .f32⟩ : BufTy).Contents (Elt F)),
    binary main_v133 main_v135 main_v136 (mulf : (⟨S800000x300, .f32⟩ : BufTy).Contents (Elt F) → (⟨S800000x300, .f32⟩ : BufTy).Contents (Elt F) → (⟨S800000x300, .f32⟩ : BufTy).Contents (Elt F)),
    nullary main_cst_27 (constant S_ .f32 0x00000000#32),
    unary main_cst_27 main_v137 (broadcastInDim S50000x300 ![] bcast_S_S50000x300 : (⟨S_, .f32⟩ : BufTy).Contents (Elt F) → (⟨S50000x300, .f32⟩ : BufTy).Contents (Elt F)),
    unary main_v3 main_v138 (broadcastInDim S800000x1 ![0] bcast_S800000_S800000x1_0 : (⟨S800000, .i32⟩ : BufTy).Contents (Elt F) → (⟨S800000x1, .i32⟩ : BufTy).Contents (Elt F)),
    ternary main_v137 main_v138 main_v136 main_v139 ((fun x i u => Host.scatterAdd scatter_S50000x300_S800000x1_S800000x300_1_0_0_1 x i u) : (⟨S50000x300, .f32⟩ : BufTy).Contents (Elt F) → (⟨S800000x1, .i32⟩ : BufTy).Contents (Elt F) → (⟨S800000x300, .f32⟩ : BufTy).Contents (Elt F) → (⟨S50000x300, .f32⟩ : BufTy).Contents (Elt F)),
    binary main_v111 main_v111 main_v140 (mulf : (⟨S50000, .f32⟩ : BufTy).Contents (Elt F) → (⟨S50000, .f32⟩ : BufTy).Contents (Elt F) → (⟨S50000, .f32⟩ : BufTy).Contents (Elt F)),
    unary main_v140 main_v141 (broadcastInDim S50000x1 ![0] bcast_S50000_S50000x1_0 : (⟨S50000, .f32⟩ : BufTy).Contents (Elt F) → (⟨S50000x1, .f32⟩ : BufTy).Contents (Elt F)),
    unary main_v141 main_v142 (broadcastInDim S50000x300 ![0, 1] bcast_S50000x1_S50000x300_0_1 : (⟨S50000x1, .f32⟩ : BufTy).Contents (Elt F) → (⟨S50000x300, .f32⟩ : BufTy).Contents (Elt F)),
    binary main_v104 main_v142 main_v143 (mulf : (⟨S50000x300, .f32⟩ : BufTy).Contents (Elt F) → (⟨S50000x300, .f32⟩ : BufTy).Contents (Elt F) → (⟨S50000x300, .f32⟩ : BufTy).Contents (Elt F)),
    binary main_v139 main_v143 main_v144 (addf : (⟨S50000x300, .f32⟩ : BufTy).Contents (Elt F) → (⟨S50000x300, .f32⟩ : BufTy).Contents (Elt F) → (⟨S50000x300, .f32⟩ : BufTy).Contents (Elt F)),
    unary main_arg11 main_v145 (broadcastInDim S1x300 ![1] bcast_S300_S1x300_1 : (⟨S300, .f32⟩ : BufTy).Contents (Elt F) → (⟨S1x300, .f32⟩ : BufTy).Contents (Elt F)),
    unary main_v145 main_v146 (broadcastInDim S50000x300 ![0, 1] bcast_S1x300_S50000x300_0_1 : (⟨S1x300, .f32⟩ : BufTy).Contents (Elt F) → (⟨S50000x300, .f32⟩ : BufTy).Contents (Elt F)),
    binary main_v144 main_v146 main_v147 (addf : (⟨S50000x300, .f32⟩ : BufTy).Contents (Elt F) → (⟨S50000x300, .f32⟩ : BufTy).Contents (Elt F) → (⟨S50000x300, .f32⟩ : BufTy).Contents (Elt F)) ]
set_option maxRecDepth 8192 in
set_option maxHeartbeats 4000000 in
theorem chunkC_v147 (V : Valuation τ sig (Elt F)) (x0 : (⟨S50000x128, .f32⟩ : BufTy).Contents (Elt F)) (x1 : (⟨S2x800000, .i32⟩ : BufTy).Contents (Elt F)) (x2 : (⟨S128x16, .f32⟩ : BufTy).Contents (Elt F)) (x3 : (⟨S16, .f32⟩ : BufTy).Contents (Elt F)) (x4 : (⟨S128x16, .f32⟩ : BufTy).Contents (Elt F)) (x5 : (⟨S16, .f32⟩ : BufTy).Contents (Elt F)) (x6 : (⟨S16x16, .f32⟩ : BufTy).Contents (Elt F)) (x7 : (⟨S16, .f32⟩ : BufTy).Contents (Elt F)) (x8 : (⟨S16x16, .f32⟩ : BufTy).Contents (Elt F)) (x9 : (⟨S16, .f32⟩ : BufTy).Contents (Elt F)) (x10 : (⟨S16x300, .f32⟩ : BufTy).Contents (Elt F)) (x11 : (⟨S300, .f32⟩ : BufTy).Contents (Elt F))
    (h103 : V (Proc.devRef .tc main_v103) = val_main_v103 (F := F) x0 x1 x2 x3 x4 x5 x6 x7 x8 x9)
    (h1 : V (Proc.devRef .tc main_v1) = val_main_v1 (F := F) x1) (h3 : V (Proc.devRef .tc main_v3) = val_main_v3 (F := F) x1)
    (ha10 : V (Proc.devRef .tc main_arg10) = x10) (ha11 : V (Proc.devRef .tc main_arg11) = x11) :
    after opsC V (Proc.devRef .tc main_v147) = val_main_v147 (F := F) x0 x1 x2 x3 x4 x5 x6 x7 x8 x9 x10 x11 := by
  after_results_simp
  try simp only [TRef.ofBuf, TRef.toBuf, cast_eq]
  simp only [h103, h1, h3, ha10, ha11]
  rfl
set_option maxRecDepth 8192 in
set_option maxHeartbeats 4000000 in
theorem frameC_arg0 (V : Valuation τ sig (Elt F)) :
    after opsC V (Proc.devRef .tc main_arg0) = V (Proc.devRef .tc main_arg0) := by
  after_results_simp
set_option maxRecDepth 8192 in
set_option maxHeartbeats 4000000 in
theorem frameC_arg1 (V : Valuation τ sig (Elt F)) :
    after opsC V (Proc.devRef .tc main_arg1) = V (Proc.devRef .tc main_arg1) := by
  after_results_simp
set_option maxRecDepth 8192 in
set_option maxHeartbeats 4000000 in
theorem frameC_arg2 (V : Valuation τ sig (Elt F)) :
    after opsC V (Proc.devRef .tc main_arg2) = V (Proc.devRef .tc main_arg2) := by
  after_results_simp
set_option maxRecDepth 8192 in
set_option maxHeartbeats 4000000 in
theorem frameC_arg3 (V : Valuation τ sig (Elt F)) :
    after opsC V (Proc.devRef .tc main_arg3) = V (Proc.devRef .tc main_arg3) := by
  after_results_simp
set_option maxRecDepth 8192 in
set_option maxHeartbeats 4000000 in
theorem frameC_arg4 (V : Valuation τ sig (Elt F)) :
    after opsC V (Proc.devRef .tc main_arg4) = V (Proc.devRef .tc main_arg4) := by
  after_results_simp
set_option maxRecDepth 8192 in
set_option maxHeartbeats 4000000 in
theorem frameC_arg5 (V : Valuation τ sig (Elt F)) :
    after opsC V (Proc.devRef .tc main_arg5) = V (Proc.devRef .tc main_arg5) := by
  after_results_simp
set_option maxRecDepth 8192 in
set_option maxHeartbeats 4000000 in
theorem frameC_arg6 (V : Valuation τ sig (Elt F)) :
    after opsC V (Proc.devRef .tc main_arg6) = V (Proc.devRef .tc main_arg6) := by
  after_results_simp
set_option maxRecDepth 8192 in
set_option maxHeartbeats 4000000 in
theorem frameC_arg7 (V : Valuation τ sig (Elt F)) :
    after opsC V (Proc.devRef .tc main_arg7) = V (Proc.devRef .tc main_arg7) := by
  after_results_simp
set_option maxRecDepth 8192 in
set_option maxHeartbeats 4000000 in
theorem frameC_arg8 (V : Valuation τ sig (Elt F)) :
    after opsC V (Proc.devRef .tc main_arg8) = V (Proc.devRef .tc main_arg8) := by
  after_results_simp
set_option maxRecDepth 8192 in
set_option maxHeartbeats 4000000 in
theorem frameC_arg9 (V : Valuation τ sig (Elt F)) :
    after opsC V (Proc.devRef .tc main_arg9) = V (Proc.devRef .tc main_arg9) := by
  after_results_simp
set_option maxRecDepth 8192 in
set_option maxHeartbeats 4000000 in
theorem frameC_arg10 (V : Valuation τ sig (Elt F)) :
    after opsC V (Proc.devRef .tc main_arg10) = V (Proc.devRef .tc main_arg10) := by
  after_results_simp
set_option maxRecDepth 8192 in
set_option maxHeartbeats 4000000 in
theorem frameC_arg11 (V : Valuation τ sig (Elt F)) :
    after opsC V (Proc.devRef .tc main_arg11) = V (Proc.devRef .tc main_arg11) := by
  after_results_simp
abbrev opsD : List (HloOp τ sig (Elt F)) :=
  [ TRef.nullary (TRef.of (T := ⟨S_, .f32⟩) main_call2_cst) (constant S_ .f32 0xFF800000#32),
    TRef.binary (TRef.of (T := ⟨S50000x300, .f32⟩) main_v147) (TRef.of (T := ⟨S_, .f32⟩) main_call2_cst) (TRef.of (T := ⟨S50000, .f32⟩) main_call2_v0) (fun x v => Host.reduce FloatOps.maximumf x v reducesTo_S50000x300_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x300, .f32⟩) main_call2_v4) (broadcastInDim S50000x300 ![0, 1] bcast_S50000x1_S50000x300_0_1),
    TRef.binary (TRef.of (T := ⟨S50000x300, .f32⟩) main_v147) (TRef.of (T := ⟨S50000x300, .f32⟩) main_call2_v4) (TRef.of (T := ⟨S50000x300, .f32⟩) main_call2_v5) subf,
    TRef.unary (TRef.of (T := ⟨S50000x300, .f32⟩) main_call2_v5) (TRef.of (T := ⟨S50000x300, .f32⟩) main_call2_v6) Host.exp,
    TRef.nullary (TRef.of (T := ⟨S_, .f32⟩) main_call2_cst_1) (constant S_ .f32 0x00000000#32),
    TRef.binary (TRef.of (T := ⟨S50000x300, .f32⟩) main_call2_v6) (TRef.of (T := ⟨S_, .f32⟩) main_call2_cst_1) (TRef.of (T := ⟨S50000, .f32⟩) main_call2_v7) (fun x v => Host.reduceAdd x v reducesTo_S50000x300_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x300, .f32⟩) main_call2_v10) (broadcastInDim S50000x300 ![0, 1] bcast_S50000x1_S50000x300_0_1),
    TRef.binary (TRef.of (T := ⟨S50000x300, .f32⟩) main_call2_v5) (TRef.of (T := ⟨S50000x300, .f32⟩) main_call2_v10) (TRef.of (T := ⟨S50000x300, .f32⟩) main_v148) subf ]
set_option maxRecDepth 8192 in
set_option maxHeartbeats 4000000 in
theorem chunkD_v148 (V : Valuation τ sig (Elt F)) (x0 : (⟨S50000x128, .f32⟩ : BufTy).Contents (Elt F)) (x1 : (⟨S2x800000, .i32⟩ : BufTy).Contents (Elt F)) (x2 : (⟨S128x16, .f32⟩ : BufTy).Contents (Elt F)) (x3 : (⟨S16, .f32⟩ : BufTy).Contents (Elt F)) (x4 : (⟨S128x16, .f32⟩ : BufTy).Contents (Elt F)) (x5 : (⟨S16, .f32⟩ : BufTy).Contents (Elt F)) (x6 : (⟨S16x16, .f32⟩ : BufTy).Contents (Elt F)) (x7 : (⟨S16, .f32⟩ : BufTy).Contents (Elt F)) (x8 : (⟨S16x16, .f32⟩ : BufTy).Contents (Elt F)) (x9 : (⟨S16, .f32⟩ : BufTy).Contents (Elt F)) (x10 : (⟨S16x300, .f32⟩ : BufTy).Contents (Elt F)) (x11 : (⟨S300, .f32⟩ : BufTy).Contents (Elt F))
    (h147 : V (Proc.devRef .tc main_v147) = val_main_v147 (F := F) x0 x1 x2 x3 x4 x5 x6 x7 x8 x9 x10 x11) :
    after opsD V (Proc.devRef .tc main_v148) = val_main_v148 (F := F) x0 x1 x2 x3 x4 x5 x6 x7 x8 x9 x10 x11 := by
  have h147' : (TRef.of (T := ⟨S50000x300, .f32⟩) main_v147).ofBuf (V (Proc.devRef .tc main_v147))
      = val_main_v147 (F := F) x0 x1 x2 x3 x4 x5 x6 x7 x8 x9 x10 x11 := (cast_eq _ _).trans h147
  after_results_simp
  simp only [ofBuf_toBuf, h147']
  exact (cast_eq _ _).trans rfl
set_option maxRecDepth 8192 in
set_option maxHeartbeats 4000000 in
theorem frameD_arg0 (V : Valuation τ sig (Elt F)) :
    after opsD V (Proc.devRef .tc main_arg0) = V (Proc.devRef .tc main_arg0) := by
  after_results_simp
set_option maxRecDepth 8192 in
set_option maxHeartbeats 4000000 in
theorem frameD_arg1 (V : Valuation τ sig (Elt F)) :
    after opsD V (Proc.devRef .tc main_arg1) = V (Proc.devRef .tc main_arg1) := by
  after_results_simp
set_option maxRecDepth 8192 in
set_option maxHeartbeats 4000000 in
theorem frameD_arg2 (V : Valuation τ sig (Elt F)) :
    after opsD V (Proc.devRef .tc main_arg2) = V (Proc.devRef .tc main_arg2) := by
  after_results_simp
set_option maxRecDepth 8192 in
set_option maxHeartbeats 4000000 in
theorem frameD_arg3 (V : Valuation τ sig (Elt F)) :
    after opsD V (Proc.devRef .tc main_arg3) = V (Proc.devRef .tc main_arg3) := by
  after_results_simp
set_option maxRecDepth 8192 in
set_option maxHeartbeats 4000000 in
theorem frameD_arg4 (V : Valuation τ sig (Elt F)) :
    after opsD V (Proc.devRef .tc main_arg4) = V (Proc.devRef .tc main_arg4) := by
  after_results_simp
set_option maxRecDepth 8192 in
set_option maxHeartbeats 4000000 in
theorem frameD_arg5 (V : Valuation τ sig (Elt F)) :
    after opsD V (Proc.devRef .tc main_arg5) = V (Proc.devRef .tc main_arg5) := by
  after_results_simp
set_option maxRecDepth 8192 in
set_option maxHeartbeats 4000000 in
theorem frameD_arg6 (V : Valuation τ sig (Elt F)) :
    after opsD V (Proc.devRef .tc main_arg6) = V (Proc.devRef .tc main_arg6) := by
  after_results_simp
set_option maxRecDepth 8192 in
set_option maxHeartbeats 4000000 in
theorem frameD_arg7 (V : Valuation τ sig (Elt F)) :
    after opsD V (Proc.devRef .tc main_arg7) = V (Proc.devRef .tc main_arg7) := by
  after_results_simp
set_option maxRecDepth 8192 in
set_option maxHeartbeats 4000000 in
theorem frameD_arg8 (V : Valuation τ sig (Elt F)) :
    after opsD V (Proc.devRef .tc main_arg8) = V (Proc.devRef .tc main_arg8) := by
  after_results_simp
set_option maxRecDepth 8192 in
set_option maxHeartbeats 4000000 in
theorem frameD_arg9 (V : Valuation τ sig (Elt F)) :
    after opsD V (Proc.devRef .tc main_arg9) = V (Proc.devRef .tc main_arg9) := by
  after_results_simp
set_option maxRecDepth 8192 in
set_option maxHeartbeats 4000000 in
theorem frameD_arg10 (V : Valuation τ sig (Elt F)) :
    after opsD V (Proc.devRef .tc main_arg10) = V (Proc.devRef .tc main_arg10) := by
  after_results_simp
set_option maxRecDepth 8192 in
set_option maxHeartbeats 4000000 in
theorem frameD_arg11 (V : Valuation τ sig (Elt F)) :
    after opsD V (Proc.devRef .tc main_arg11) = V (Proc.devRef .tc main_arg11) := by
  after_results_simp

theorem ops_split : (Cert.ReferenceIdeal.Value.ops : List (HloOp τ sig (Elt F))) = opsA ++ (opsB ++ (opsC ++ opsD)) := rfl

theorem result_eq (V : Valuation τ sig (Elt F)) :
    after (Cert.ReferenceIdeal.Value.ops) V (Proc.devRef .tc main_v148) = val_main_v148 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split, after_append, after_append, after_append]
  have hA53 := chunkA_v53 V
  have hA1 := chunkA_v1 V
  have hA3 := chunkA_v3 V
  have hB103 := chunkB_v103 (after opsA V) _ _ _ _ _ _ _ _ _ _ hA53 hA1 hA3 (frameA_arg6 V) (frameA_arg7 V) (frameA_arg8 V) (frameA_arg9 V)
  have hB1 := (frameB_v1 (after opsA V)).trans hA1
  have hB3 := (frameB_v3 (after opsA V)).trans hA3
  have hB10 := (frameB_arg10 (after opsA V)).trans (frameA_arg10 V)
  have hB11 := (frameB_arg11 (after opsA V)).trans (frameA_arg11 V)
  have hC147 := chunkC_v147 (after opsB (after opsA V)) _ _ _ _ _ _ _ _ _ _ _ _ hB103 hB1 hB3 hB10 hB11
  exact chunkD_v148 (after opsC (after opsB (after opsA V))) _ _ _ _ _ _ _ _ _ _ _ _ hC147

theorem arg0_eq (V : Valuation τ sig (Elt F)) :
    after (Cert.ReferenceIdeal.Value.ops) V (Proc.devRef .tc main_arg0) = V (Proc.devRef .tc main_arg0) := by
  rw [ops_split, after_append, after_append, after_append]
  exact (frameD_arg0 _).trans ((frameC_arg0 _).trans ((frameB_arg0 _).trans (frameA_arg0 V)))

theorem arg1_eq (V : Valuation τ sig (Elt F)) :
    after (Cert.ReferenceIdeal.Value.ops) V (Proc.devRef .tc main_arg1) = V (Proc.devRef .tc main_arg1) := by
  rw [ops_split, after_append, after_append, after_append]
  exact (frameD_arg1 _).trans ((frameC_arg1 _).trans ((frameB_arg1 _).trans (frameA_arg1 V)))

theorem arg2_eq (V : Valuation τ sig (Elt F)) :
    after (Cert.ReferenceIdeal.Value.ops) V (Proc.devRef .tc main_arg2) = V (Proc.devRef .tc main_arg2) := by
  rw [ops_split, after_append, after_append, after_append]
  exact (frameD_arg2 _).trans ((frameC_arg2 _).trans ((frameB_arg2 _).trans (frameA_arg2 V)))

theorem arg3_eq (V : Valuation τ sig (Elt F)) :
    after (Cert.ReferenceIdeal.Value.ops) V (Proc.devRef .tc main_arg3) = V (Proc.devRef .tc main_arg3) := by
  rw [ops_split, after_append, after_append, after_append]
  exact (frameD_arg3 _).trans ((frameC_arg3 _).trans ((frameB_arg3 _).trans (frameA_arg3 V)))

theorem arg4_eq (V : Valuation τ sig (Elt F)) :
    after (Cert.ReferenceIdeal.Value.ops) V (Proc.devRef .tc main_arg4) = V (Proc.devRef .tc main_arg4) := by
  rw [ops_split, after_append, after_append, after_append]
  exact (frameD_arg4 _).trans ((frameC_arg4 _).trans ((frameB_arg4 _).trans (frameA_arg4 V)))

theorem arg5_eq (V : Valuation τ sig (Elt F)) :
    after (Cert.ReferenceIdeal.Value.ops) V (Proc.devRef .tc main_arg5) = V (Proc.devRef .tc main_arg5) := by
  rw [ops_split, after_append, after_append, after_append]
  exact (frameD_arg5 _).trans ((frameC_arg5 _).trans ((frameB_arg5 _).trans (frameA_arg5 V)))

theorem arg6_eq (V : Valuation τ sig (Elt F)) :
    after (Cert.ReferenceIdeal.Value.ops) V (Proc.devRef .tc main_arg6) = V (Proc.devRef .tc main_arg6) := by
  rw [ops_split, after_append, after_append, after_append]
  exact (frameD_arg6 _).trans ((frameC_arg6 _).trans ((frameB_arg6 _).trans (frameA_arg6 V)))

theorem arg7_eq (V : Valuation τ sig (Elt F)) :
    after (Cert.ReferenceIdeal.Value.ops) V (Proc.devRef .tc main_arg7) = V (Proc.devRef .tc main_arg7) := by
  rw [ops_split, after_append, after_append, after_append]
  exact (frameD_arg7 _).trans ((frameC_arg7 _).trans ((frameB_arg7 _).trans (frameA_arg7 V)))

theorem arg8_eq (V : Valuation τ sig (Elt F)) :
    after (Cert.ReferenceIdeal.Value.ops) V (Proc.devRef .tc main_arg8) = V (Proc.devRef .tc main_arg8) := by
  rw [ops_split, after_append, after_append, after_append]
  exact (frameD_arg8 _).trans ((frameC_arg8 _).trans ((frameB_arg8 _).trans (frameA_arg8 V)))

theorem arg9_eq (V : Valuation τ sig (Elt F)) :
    after (Cert.ReferenceIdeal.Value.ops) V (Proc.devRef .tc main_arg9) = V (Proc.devRef .tc main_arg9) := by
  rw [ops_split, after_append, after_append, after_append]
  exact (frameD_arg9 _).trans ((frameC_arg9 _).trans ((frameB_arg9 _).trans (frameA_arg9 V)))

theorem arg10_eq (V : Valuation τ sig (Elt F)) :
    after (Cert.ReferenceIdeal.Value.ops) V (Proc.devRef .tc main_arg10) = V (Proc.devRef .tc main_arg10) := by
  rw [ops_split, after_append, after_append, after_append]
  exact (frameD_arg10 _).trans ((frameC_arg10 _).trans ((frameB_arg10 _).trans (frameA_arg10 V)))

theorem arg11_eq (V : Valuation τ sig (Elt F)) :
    after (Cert.ReferenceIdeal.Value.ops) V (Proc.devRef .tc main_arg11) = V (Proc.devRef .tc main_arg11) := by
  rw [ops_split, after_append, after_append, after_append]
  exact (frameD_arg11 _).trans ((frameC_arg11 _).trans ((frameB_arg11 _).trans (frameA_arg11 V)))

set_option maxRecDepth 8192 in

theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v148)
        = val_main_v148 (F := F) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v148).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run_seq Cert.ReferenceIdeal.Value.scopedRefs_eq Cert.ReferenceIdeal.Value.scopedSems_eq defs main
      (fun _ => Cert.ReferenceIdeal.Value.ops) Cert.ReferenceIdeal.Value.main_eq (fun _ => Cert.ReferenceIdeal.Value.ops_sub) m ρ)

end Cert.ReferenceIdeal.RunC

end
-- ==== Proof.LibRowOps.lean ====
import Idealize.ShloMosaic.PureOps.Ideal
import Idealize.ShloMosaic.Lib.ValueIdx

noncomputable section

open scoped BigOperators

namespace RowOps

open Idealize.ShloMosaic Idealize.ShloMosaic.ValueIdx

theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

section Gather
variable {α : Type}

abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

def clampRow {w : Nat} (N : Nat) (hN : 0 < N) (b : BitVec w) : Fin N := ⟨min b.toInt.toNat (N - 1), by omega⟩

theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

section Scatter

abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]

theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]

theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.RefLayer.lean ====
import proofs.«148650_j55559696941682_1_alg».proof.Proof.Spec
import proofs.«148650_j55559696941682_1_alg».proof.Proof.LibRowOps
import Idealize.ShloMosaic.PureOps.Ideal.Laws
import Idealize.ShloMosaic.PureOps.Reduce

noncomputable section

open scoped BigOperators

namespace Gcn.Ref

open Idealize.ShloMosaic Idealize.ShloMosaic.ValueIdx

theorem wrap_eq (b : BitVec 32) :
    Scalar.select (IntOp.cmpi .slt b 0#32) (IntOp.addi b 50000#32) b = wrapIdx b := by
  unfold Scalar.select IntOp.cmpi IntOp.addi wrapIdx
  by_cases h : b.toInt < 0
  · have hs : b.slt 0#32 = true := by simp [BitVec.slt, h]
    rw [hs, if_pos h]; rfl
  · have hs : b.slt 0#32 = false := by simp [BitVec.slt, h]
    rw [hs, if_neg h]; rfl

theorem clampRow_wrap (h : 0 < 50000) (b : BitVec 32) : RowOps.clampRow 50000 h (wrapIdx b) = rowOf b := rfl

theorem layerR_ix2 {F : Nat} (relu : Bool) (src dst : SE1.Idx → BitVec 32) (nrm : SE1.Idx → EReal) (sn : SN1.Idx → EReal)
    (y : (⟨2, ![50000, F]⟩ : Shape).Idx → EReal) (bias : (⟨1, ![F]⟩ : Shape).Idx → EReal) (r : Fin 50000) (f : Fin F) :
    layerR relu src dst nrm sn y bias (ix2 r f)
      = if relu then
          max (((0 + ∑ e ∈ Finset.univ.filter (fun e : Fin 800000 => (dst (ix1 e)).toInt = (r.val : Int)),
            y (ix2 (rowOf (src (ix1 e))) f) * nrm (ix1 e)) + y (ix2 r f) * sn (ix1 r)) + bias (ix1 f)) 0
        else
          ((0 + ∑ e ∈ Finset.univ.filter (fun e : Fin 800000 => (dst (ix1 e)).toInt = (r.val : Int)),
            y (ix2 (rowOf (src (ix1 e))) f) * nrm (ix1 e)) + y (ix2 r f) * sn (ix1 r)) + bias (ix1 f) := rfl

section Layer
variable {C : Nat}
  (gwf : GatherDims.WF ⟨2, ![50000, C]⟩ ⟨2, ![800000, 1]⟩ ⟨2, ![800000, C]⟩ [1] [0] [] [0] [] 1 ![1, C])
  (swf : ScatterDims.WF ⟨2, ![50000, C]⟩ ⟨2, ![800000, 1]⟩ ⟨2, ![800000, C]⟩ [1] [0] [0] 1)
  (y z sb bb : FVec Ideal ⟨2, ![50000, C]⟩ .f32) (di si : IVec ⟨2, ![800000, 1]⟩ 32)
  (nb : FVec Ideal ⟨2, ![800000, C]⟩ .f32)
  (src dst : SE1.Idx → BitVec 32) (nrm : SE1.Idx → EReal) (sn : SN1.Idx → EReal)
  (bias : (⟨1, ![C]⟩ : Shape).Idx → EReal)

theorem layer_core
    (hz : ∀ j, z j = 0) (hdi : ∀ e : Fin 800000, di (ix2 e 0) = dst (ix1 e))
    (hsi : ∀ e : Fin 800000, si (ix2 e 0) = wrapIdx (src (ix1 e)))
    (hnb : ∀ (e : Fin 800000) (q : Fin C), nb (ix2 e q) = nrm (ix1 e))
    (hsb : ∀ (r : Fin 50000) (q : Fin C), sb (ix2 r q) = sn (ix1 r))
    (hbb : ∀ (r : Fin 50000) (q : Fin C), bb (ix2 r q) = bias (ix1 q)) :
    addf (addf (Host.scatterAdd (F := Ideal) (RowOps.scatterDims 50000 800000 C swf) z di
        (mulf (Host.gather (RowOps.gatherDims 50000 800000 C gwf) y si) nb)) (mulf y sb)) bb
      = layerR false src dst nrm sn y bias := by
  funext j
  obtain ⟨r, p, rfl⟩ : ∃ (r : Fin 50000) (p : Fin C), j = ix2 r p := ⟨j 0, j 1, eq_ix2 j⟩
  have hsum : ∑ e ∈ Finset.univ.filter (fun e : Fin 800000 => (di (ix2 e 0)).toInt = (r.val : Int)),
        mulf (Host.gather (RowOps.gatherDims 50000 800000 C gwf) y si) nb (ix2 e p)
      = ∑ e ∈ Finset.univ.filter (fun e : Fin 800000 => (dst (ix1 e)).toInt = (r.val : Int)),
        y (ix2 (rowOf (src (ix1 e))) p) * nrm (ix1 e) := by
    have hf : (Finset.univ.filter (fun e : Fin 800000 => (di (ix2 e 0)).toInt = (r.val : Int)))
        = Finset.univ.filter (fun e : Fin 800000 => (dst (ix1 e)).toInt = (r.val : Int)) :=
      Finset.filter_congr fun e _ => by rw [hdi]
    rw [hf]
    refine Finset.sum_congr rfl fun e _ => ?_
    rw [mulf_apply, RowOps.gather_apply (by decide : 0 < 50000) gwf, hsi, hnb, clampRow_wrap]
  rw [addf_apply, addf_apply, RowOps.scatterAdd_apply swf, hz, mulf_apply, hsb, hbb, hsum]
  exact ((layerR_ix2 false src dst nrm sn y bias r p).trans (if_neg Bool.false_ne_true)).symm

theorem layer_relu (w zr : FVec Ideal ⟨2, ![50000, C]⟩ .f32)
    (hw : w = layerR false src dst nrm sn y bias) (hzr : ∀ j, zr j = 0) :
    maximumf w zr = layerR true src dst nrm sn y bias := by
  funext j
  obtain ⟨r, p, rfl⟩ : ∃ (r : Fin 50000) (p : Fin C), j = ix2 r p := ⟨j 0, j 1, eq_ix2 j⟩
  rw [maximumf_apply, hzr, hw, layerR_ix2, layerR_ix2, if_neg Bool.false_ne_true, if_pos rfl]

end Layer

theorem mm_of_apply {K M : Nat} (a : (⟨2, ![50000, K]⟩ : Shape).Idx → EReal) (W : (⟨2, ![K, M]⟩ : Shape).Idx → EReal)
    (d : (⟨2, ![50000, M]⟩ : Shape).Idx → EReal)
    (l : (⟨2, ![50000, M]⟩ : Shape).Idx → Fin K → (⟨2, ![50000, K]⟩ : Shape).Idx)
    (r : (⟨2, ![50000, M]⟩ : Shape).Idx → Fin K → (⟨2, ![K, M]⟩ : Shape).Idx)
    (hd : ∀ i, d i = ∑ k : Fin K, a (l i k) * W (r i k))
    (hl : ∀ i k, l i k = ix2 ⟨(i 0).val, idx2_lt0 i⟩ k) (hr : ∀ i k, r i k = ix2 k ⟨(i 1).val, idx2_lt1 i⟩) :
    d = mm a W := by
  funext i
  rw [hd]
  exact Finset.sum_congr rfl fun k _ => by rw [hl, hr]

theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  match c with
  | ⟨0, _⟩ => rfl
  | ⟨1, _⟩ => rfl

theorem rowMax {m n : Nat} (v : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf v (constant (F := Ideal) (⟨0, ![]⟩ : Shape) .f32 0xFF800000#32) h' hu (ix1 r)
      = Finset.univ.fold max ⊥ (fun q : Fin n => v (ix2 r q)) := by
  rw [Host.reduce_eq_fold_single FloatOps.maximumf v _ h' h hu]
  have hb : constant (F := Ideal) (⟨0, ![]⟩ : Shape) .f32 0xFF800000#32 (Shape.Idx.first hu) = (⊥ : EReal) := by
    rw [constant_apply]; simp [Ideal.ofBits, Ideal.ieee]
  rw [hb]
  have hf : (v ∘ h.lift (ix1 r)) = fun q : Fin n => v (ix2 r q) := funext fun k => congrArg v (lift_row h r k)
  exact congrArg (fun f => Finset.fold max (⊥ : EReal) f (Finset.univ : Finset (Fin n))) hf

theorem logSoftmax_ix2 (v : SNC.Idx → EReal) (r : Fin 50000) (q : Fin 300) :
    logSoftmax v (ix2 r q)
      = (v (ix2 r q) - Finset.univ.fold max ⊥ (fun q : Fin 300 => v (ix2 r q)))
        - Ideal.log (0 + ∑ p : Fin 300, Ideal.exp (v (ix2 r p) - Finset.univ.fold max ⊥ (fun q : Fin 300 => v (ix2 r q)))) := rfl

theorem logSoftmax_core (v out : SNC.Idx → EReal) (m s : SN1.Idx → EReal)
    (hm : ∀ r : Fin 50000, m (ix1 r) = max ⊥ (Finset.univ.fold max ⊥ (fun q : Fin 300 => v (ix2 r q))))
    (hs : ∀ r : Fin 50000, s (ix1 r) = 0 + ∑ q : Fin 300, Ideal.exp (v (ix2 r q) - m (ix1 r)))
    (hout : ∀ (r : Fin 50000) (q : Fin 300), out (ix2 r q) = (v (ix2 r q) - m (ix1 r)) - Ideal.log (s (ix1 r))) :
    out = logSoftmax v := by
  funext j
  obtain ⟨r, q, rfl⟩ : ∃ (r : Fin 50000) (q : Fin 300), j = ix2 r q := ⟨j 0, j 1, eq_ix2 j⟩
  have hm' : m (ix1 r) = Finset.univ.fold max ⊥ (fun q : Fin 300 => v (ix2 r q)) := by
    rw [hm, max_eq_right bot_le]
  rw [hout, hs, hm', logSoftmax_ix2]

end Gcn.Ref

end
-- ==== Proof.RefValue.lean ====
import proofs.«148650_j55559696941682_1_alg».proof.Proof.RefRunC
import proofs.«148650_j55559696941682_1_alg».proof.Proof.RefReadP
import proofs.«148650_j55559696941682_1_alg».proof.Proof.RefLayer
import proofs.«148650_j55559696941682_1_alg».proof.Proof.Agree

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

section Recompute
variable {F : FTy → Type} [FloatOps F] (ei : (⟨S2x800000, .i32⟩ : BufTy).Contents (Elt F))

theorem v76_eq : val_main_v76 (F := F) ei = val_main_v26 (F := F) ei := rfl

theorem v90_eq : val_main_v90 (F := F) ei = val_main_v40 (F := F) ei := rfl

theorem v126_eq : val_main_v126 (F := F) ei = val_main_v26 (F := F) ei := rfl

theorem v140_eq : val_main_v140 (F := F) ei = val_main_v40 (F := F) ei := rfl

end Recompute

abbrev AX : Type := (⟨S50000x128, .f32⟩ : BufTy).Contents (Elt Ideal)
abbrev AE : Type := (⟨S2x800000, .i32⟩ : BufTy).Contents (Elt Ideal)
abbrev AW : Type := (⟨S128x16, .f32⟩ : BufTy).Contents (Elt Ideal)
abbrev AB : Type := (⟨S16, .f32⟩ : BufTy).Contents (Elt Ideal)
abbrev AH : Type := (⟨S16x16, .f32⟩ : BufTy).Contents (Elt Ideal)
abbrev AO : Type := (⟨S16x300, .f32⟩ : BufTy).Contents (Elt Ideal)
abbrev AC : Type := (⟨S300, .f32⟩ : BufTy).Contents (Elt Ideal)

def src (ei : AE) : Gcn.SE1.Idx → BitVec 32 := fun i => ei (ix2 (0 : Fin 2) (⟨(i 0).val, (i 0).isLt⟩ : Fin 800000))

def dst (ei : AE) : Gcn.SE1.Idx → BitVec 32 := fun i => ei (ix2 (1 : Fin 2) (⟨(i 0).val, (i 0).isLt⟩ : Fin 800000))

def nrm (ei : AE) : Gcn.SE1.Idx → EReal := val_main_v26 (F := Ideal) ei

def sn (ei : AE) : Gcn.SN1.Idx → EReal := val_main_v40 (F := Ideal) ei

variable (x : AX) (ei : AE) (W1 : AW) (b1 : AB) (Wl1 : AW) (bl1 : AB) (W2 : AH) (b2 : AB) (Wl2 : AH) (bl2 : AB) (Wo : AO) (bo : AC)

theorem v1_eq : val_main_v1 (F := Ideal) ei = src ei := by
  funext i
  rw [val_main_v1_apply, val_main_v0_apply]
  show ei _ = ei _
  congr 1
  funext a
  match a with
  | ⟨0, _⟩ => exact Fin.ext rfl
  | ⟨1, _⟩ => exact Fin.ext (Nat.mod_eq_of_lt (i 0).isLt)

theorem v3_eq : val_main_v3 (F := Ideal) ei = dst ei := by
  funext i
  rw [val_main_v3_apply, val_main_v2_apply]
  show ei _ = ei _
  congr 1
  funext a
  match a with
  | ⟨0, _⟩ => exact Fin.ext rfl
  | ⟨1, _⟩ => exact Fin.ext (Nat.mod_eq_of_lt (i 0).isLt)

theorem z16 (j : S50000x16.Idx) : val_main_v37 (F := Ideal) j = 0 := by
  rw [val_main_v37_apply, val_main_cst_7_apply, Ideal.ofBits_def, Ideal.ofBits_zero_f32]

theorem z300 (j : S50000x300.Idx) : val_main_v137 (F := Ideal) j = 0 := by
  rw [val_main_v137_apply, val_main_cst_27_apply, Ideal.ofBits_def, Ideal.ofBits_zero_f32]

theorem zr16 (j : S50000x16.Idx) : val_main_call0_v0 (F := Ideal) j = 0 := by
  rw [val_main_call0_v0_apply, val_main_call0_cst_apply, Ideal.ofBits_def, Ideal.ofBits_zero_f32]

theorem di_apply (e : Fin 800000) : val_main_v38 (F := Ideal) ei (ix2 e 0) = dst ei (ix1 e) := by
  rw [val_main_v38_apply, v3_eq]
  rfl

theorem si_apply (e : Fin 800000) : val_main_v32 (F := Ideal) ei (ix2 e 0) = Gcn.wrapIdx (src ei (ix1 e)) := by
  rw [val_main_v32_apply, val_main_v31_apply, val_main_v28_apply, val_main_v30_apply, val_main_v27_apply,
    val_main_c_5_apply, val_main_v29_apply, val_main_c_6_apply, v1_eq]
  exact Gcn.Ref.wrap_eq _

theorem nb16 (e : Fin 800000) (q : Fin 16) : val_main_v35 (F := Ideal) ei (ix2 e q) = nrm ei (ix1 e) := by
  rw [val_main_v35_apply, val_main_v34_apply]
  show val_main_v26 (F := Ideal) ei _ = val_main_v26 (F := Ideal) ei _
  congr 1
  funext a
  match a with
  | ⟨0, _⟩ => rfl

theorem nb300 (e : Fin 800000) (q : Fin 300) : val_main_v135 (F := Ideal) ei (ix2 e q) = nrm ei (ix1 e) := by
  rw [val_main_v135_apply, val_main_v134_apply, v126_eq]
  show val_main_v26 (F := Ideal) ei _ = val_main_v26 (F := Ideal) ei _
  congr 1
  funext a
  match a with
  | ⟨0, _⟩ => rfl

theorem sb16 (r : Fin 50000) (q : Fin 16) : val_main_v42 (F := Ideal) ei (ix2 r q) = sn ei (ix1 r) := by
  rw [val_main_v42_apply, val_main_v41_apply]
  show val_main_v40 (F := Ideal) ei _ = val_main_v40 (F := Ideal) ei _
  congr 1
  funext a
  match a with
  | ⟨0, _⟩ => rfl

theorem sb300 (r : Fin 50000) (q : Fin 300) : val_main_v142 (F := Ideal) ei (ix2 r q) = sn ei (ix1 r) := by
  rw [val_main_v142_apply, val_main_v141_apply, v140_eq]
  show val_main_v40 (F := Ideal) ei _ = val_main_v40 (F := Ideal) ei _
  congr 1
  funext a
  match a with
  | ⟨0, _⟩ => rfl

theorem bb16 (b : AB) (r : Fin 50000) (q : Fin 16) : val_main_v46 (F := Ideal) b (ix2 r q) = b (ix1 q) := by
  rw [val_main_v46_apply, val_main_v45_apply]
  congr 1
  funext a
  match a with
  | ⟨0, _⟩ => rfl

theorem bb300 (r : Fin 50000) (q : Fin 300) : val_main_v146 (F := Ideal) bo (ix2 r q) = bo (ix1 q) := by
  rw [val_main_v146_apply, val_main_v145_apply]
  congr 1
  funext a
  match a with
  | ⟨0, _⟩ => rfl

theorem v4_eq (W : AW) : val_main_v4 (F := Ideal) x W = Gcn.mm x W :=
  Gcn.Ref.mm_of_apply x W _ lidx_main_v4 ridx_main_v4 (val_main_v4_apply x W)
    (fun i k => funext fun a => match a with | ⟨0, _⟩ => rfl | ⟨1, _⟩ => rfl)
    (fun i k => funext fun a => match a with | ⟨0, _⟩ => rfl | ⟨1, _⟩ => rfl)

theorem v47_eq : val_main_v47 (F := Ideal) x ei W1 b1
    = Gcn.layerR false (src ei) (dst ei) (nrm ei) (sn ei) (Gcn.mm x W1) b1 := by
  rw [← v4_eq]
  exact Gcn.Ref.layer_core gather_S50000x16_S800000x1_S800000x16_1_0_n_n_0_1_116_wf
    scatter_S50000x16_S800000x1_S800000x16_1_0_0_1_wf (val_main_v4 (F := Ideal) x W1) (val_main_v37 (F := Ideal))
    (val_main_v42 (F := Ideal) ei) (val_main_v46 (F := Ideal) b1) (val_main_v38 (F := Ideal) ei) (val_main_v32 (F := Ideal) ei)
    (val_main_v35 (F := Ideal) ei) (src ei) (dst ei) (nrm ei) (sn ei) b1
    z16 (di_apply ei) (si_apply ei) (nb16 ei) (sb16 ei) (bb16 b1)

def h1 : Gcn.SNH.Idx → EReal := fun j =>
  Gcn.layerR true (src ei) (dst ei) (nrm ei) (sn ei) (Gcn.mm x W1) b1 j
    + (Gcn.mm x Wl1 j + bl1 (ix1 (⟨(j 1).val, idx2_lt1 j⟩ : Fin 16)))

theorem v48_eq : val_main_v48 (F := Ideal) x ei W1 b1
    = Gcn.layerR true (src ei) (dst ei) (nrm ei) (sn ei) (Gcn.mm x W1) b1 :=
  Gcn.Ref.layer_relu (Gcn.mm x W1) (src ei) (dst ei) (nrm ei) (sn ei) b1 _ _ (v47_eq x ei W1 b1) zr16

theorem v53_eq : val_main_v53 (F := Ideal) x ei W1 b1 Wl1 bl1 = h1 x ei W1 b1 Wl1 bl1 := by
  funext j
  obtain ⟨r, q, rfl⟩ : ∃ (r : Fin 50000) (q : Fin 16), j = ix2 r q := ⟨j 0, j 1, eq_ix2 j⟩
  rw [val_main_v53_apply, val_main_v52_apply, Ideal.addf_def, Ideal.addf_def, v48_eq, val_main_v51_apply,
    val_main_v50_apply]
  show _ + (val_main_v49 (F := Ideal) x Wl1 (ix2 r q) + bl1 _) = _ + (Gcn.mm x Wl1 (ix2 r q) + bl1 _)
  rw [show val_main_v49 (F := Ideal) x Wl1 = Gcn.mm x Wl1 from v4_eq x Wl1]
  congr 3
  funext a
  match a with
  | ⟨0, _⟩ => rfl

theorem v54_eq (h : Gcn.SNH.Idx → EReal) (hh : val_main_v53 (F := Ideal) x ei W1 b1 Wl1 bl1 = h) :
    val_main_v54 (F := Ideal) x ei W1 b1 Wl1 bl1 W2 = Gcn.mm h W2 := by
  subst hh
  exact Gcn.Ref.mm_of_apply _ W2 _ lidx_main_v54 ridx_main_v54 (val_main_v54_apply x ei W1 b1 Wl1 bl1 W2)
    (fun i k => funext fun a => match a with | ⟨0, _⟩ => rfl | ⟨1, _⟩ => rfl)
    (fun i k => funext fun a => match a with | ⟨0, _⟩ => rfl | ⟨1, _⟩ => rfl)

theorem v99_eq (h : Gcn.SNH.Idx → EReal) (hh : val_main_v53 (F := Ideal) x ei W1 b1 Wl1 bl1 = h) :
    val_main_v99 (F := Ideal) x ei W1 b1 Wl1 bl1 Wl2 = Gcn.mm h Wl2 := by
  subst hh
  exact Gcn.Ref.mm_of_apply _ Wl2 _ lidx_main_v99 ridx_main_v99 (val_main_v99_apply x ei W1 b1 Wl1 bl1 Wl2)
    (fun i k => funext fun a => match a with | ⟨0, _⟩ => rfl | ⟨1, _⟩ => rfl)
    (fun i k => funext fun a => match a with | ⟨0, _⟩ => rfl | ⟨1, _⟩ => rfl)

theorem v97_eq : val_main_v97 (F := Ideal) x ei W1 b1 Wl1 bl1 W2 b2
    = Gcn.layerR false (src ei) (dst ei) (nrm ei) (sn ei) (val_main_v54 (F := Ideal) x ei W1 b1 Wl1 bl1 W2) b2 :=
  Gcn.Ref.layer_core gather_S50000x16_S800000x1_S800000x16_1_0_n_n_0_1_116_wf
    scatter_S50000x16_S800000x1_S800000x16_1_0_0_1_wf (val_main_v54 (F := Ideal) x ei W1 b1 Wl1 bl1 W2)
    (val_main_v87 (F := Ideal)) (val_main_v92 (F := Ideal) ei) (val_main_v96 (F := Ideal) b2) (val_main_v88 (F := Ideal) ei)
    (val_main_v82 (F := Ideal) ei) (val_main_v85 (F := Ideal) ei) (src ei) (dst ei) (nrm ei) (sn ei) b2
    z16 (di_apply ei) (si_apply ei) (nb16 ei) (sb16 ei) (bb16 b2)

theorem v98_eq : val_main_v98 (F := Ideal) x ei W1 b1 Wl1 bl1 W2 b2
    = Gcn.layerR true (src ei) (dst ei) (nrm ei) (sn ei) (val_main_v54 (F := Ideal) x ei W1 b1 Wl1 bl1 W2) b2 :=
  Gcn.Ref.layer_relu _ (src ei) (dst ei) (nrm ei) (sn ei) b2 _ _ (v97_eq x ei W1 b1 Wl1 bl1 W2 b2) zr16

def h2 : Gcn.SNH.Idx → EReal :=
  Gcn.hidR (src ei) (dst ei) (nrm ei) (sn ei) (h1 x ei W1 b1 Wl1 bl1) W2 b2 Wl2 bl2

theorem v103_eq : val_main_v103 (F := Ideal) x ei W1 b1 Wl1 bl1 W2 b2 Wl2 bl2 = h2 x ei W1 b1 Wl1 bl1 W2 b2 Wl2 bl2 := by
  funext j
  obtain ⟨r, q, rfl⟩ : ∃ (r : Fin 50000) (q : Fin 16), j = ix2 r q := ⟨j 0, j 1, eq_ix2 j⟩
  rw [val_main_v103_apply, val_main_v102_apply, Ideal.addf_def, Ideal.addf_def, v98_eq, val_main_v101_apply,
    val_main_v100_apply, v54_eq x ei W1 b1 Wl1 bl1 W2 _ (v53_eq x ei W1 b1 Wl1 bl1),
    v99_eq x ei W1 b1 Wl1 bl1 Wl2 _ (v53_eq x ei W1 b1 Wl1 bl1)]
  show _ + (_ + bl2 _) = _ + (_ + bl2 _)
  congr 3
  funext a
  match a with
  | ⟨0, _⟩ => rfl

theorem v104_eq : val_main_v104 (F := Ideal) x ei W1 b1 Wl1 bl1 W2 b2 Wl2 bl2 Wo
    = Gcn.mm (h2 x ei W1 b1 Wl1 bl1 W2 b2 Wl2 bl2) Wo := by
  rw [← v103_eq]
  exact Gcn.Ref.mm_of_apply _ Wo _ lidx_main_v104 ridx_main_v104 (val_main_v104_apply x ei W1 b1 Wl1 bl1 W2 b2 Wl2 bl2 Wo)
    (fun i k => funext fun a => match a with | ⟨0, _⟩ => rfl | ⟨1, _⟩ => rfl)
    (fun i k => funext fun a => match a with | ⟨0, _⟩ => rfl | ⟨1, _⟩ => rfl)

theorem v147_eq : val_main_v147 (F := Ideal) x ei W1 b1 Wl1 bl1 W2 b2 Wl2 bl2 Wo bo
    = Gcn.layerR (F := 300) false (src ei) (dst ei) (nrm ei) (sn ei)
        (Gcn.mm (h2 x ei W1 b1 Wl1 bl1 W2 b2 Wl2 bl2) Wo) bo := by
  rw [← v104_eq]
  exact Gcn.Ref.layer_core gather_S50000x300_S800000x1_S800000x300_1_0_n_n_0_1_1300_wf
    scatter_S50000x300_S800000x1_S800000x300_1_0_0_1_wf (val_main_v104 (F := Ideal) x ei W1 b1 Wl1 bl1 W2 b2 Wl2 bl2 Wo)
    (val_main_v137 (F := Ideal)) (val_main_v142 (F := Ideal) ei) (val_main_v146 (F := Ideal) bo) (val_main_v138 (F := Ideal) ei)
    (val_main_v132 (F := Ideal) ei) (val_main_v135 (F := Ideal) ei) (src ei) (dst ei) (nrm ei) (sn ei) bo
    z300 (di_apply ei) (si_apply ei) (nb300 ei) (sb300 ei) (bb300 bo)

theorem v148_eq : val_main_v148 (F := Ideal) x ei W1 b1 Wl1 bl1 W2 b2 Wl2 bl2 Wo bo
    = Gcn.logSoftmax (val_main_v147 (F := Ideal) x ei W1 b1 Wl1 bl1 W2 b2 Wl2 bl2 Wo bo) := by
  have e3 : ∀ (r : Fin 50000) (q : Fin 300), idx_main_call2_v3 (idx_main_call2_v4 (ix2 r q)) = ix1 r :=
    fun r q => funext fun a => match a with | ⟨0, _⟩ => rfl
  refine Gcn.Ref.logSoftmax_core _ _ (val_main_call2_v2 (F := Ideal) x ei W1 b1 Wl1 bl1 W2 b2 Wl2 bl2 Wo bo)
    (val_main_call2_v7 (F := Ideal) x ei W1 b1 Wl1 bl1 W2 b2 Wl2 bl2 Wo bo) (fun r => ?_) (fun r => ?_) (fun r q => ?_)
  · rw [val_main_call2_v2_apply, Ideal.maximumf_def, val_main_call2_v1_apply, val_main_call2_cst_0_apply, Ideal.ofBits_def]
    have hb : Ideal.ofBits .f32 0xFF800000#32 = (⊥ : EReal) := by simp [Ideal.ofBits, Ideal.ieee]
    rw [hb]
    exact congrArg (max ⊥) (Gcn.Ref.rowMax _ reducesTo_S50000x300_S50000_d1 (by decide) h_S_ r)
  · rw [val_main_call2_v7_apply, val_main_call2_cst_1_apply, Ideal.ofBits_def, Ideal.ofBits_zero_f32]
    refine congrArg (0 + ·) (Finset.sum_congr rfl fun q _ => ?_)
    have e7 : idx_main_call2_v7 (ix1 r) q = ix2 r q := funext fun a => match a with | ⟨0, _⟩ => rfl | ⟨1, _⟩ => rfl
    rw [e7, val_main_call2_v6_apply, Ideal.hostUnary_exp_def, val_main_call2_v5_apply, Ideal.subf_def,
      val_main_call2_v4_apply, val_main_call2_v3_apply, e3]
  · have e8 : idx_main_call2_v8 (idx_main_call2_v10 (ix2 r q)) = ix1 r := funext fun a => match a with | ⟨0, _⟩ => rfl
    rw [val_main_v148_apply, Ideal.subf_def, val_main_call2_v5_apply, Ideal.subf_def, val_main_call2_v4_apply,
      val_main_call2_v3_apply, e3, val_main_call2_v10_apply, val_main_call2_v9_apply, Ideal.hostUnary_log_def,
      val_main_call2_v8_apply, e8]

theorem ref_result : val_main_v148 (F := Ideal) x ei W1 b1 Wl1 bl1 W2 b2 Wl2 bl2 Wo bo
    = Gcn.netR x (src ei) (dst ei) (nrm ei) (sn ei) W1 b1 Wl1 bl1 W2 b2 Wl2 bl2 Wo bo := by
  rw [v148_eq, v147_eq]
  rfl

def result : (⟨S50000x300, .f32⟩ : BufTy).Contents (Elt Ideal) :=
  Gcn.netR x (src ei) (dst ei) (nrm ei) (sn ei) W1 b1 Wl1 bl1 W2 b2 Wl2 bl2 Wo bo

theorem ref_result' : val_main_v148 (F := Ideal) x ei W1 b1 Wl1 bl1 W2 b2 Wl2 bl2 Wo bo
    = result x ei W1 b1 Wl1 bl1 W2 b2 Wl2 bl2 Wo bo := ref_result x ei W1 b1 Wl1 bl1 W2 b2 Wl2 bl2 Wo bo

theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v148)
        = result (m' ((c.tc : Thread nD τ).loc main_arg0))
          (m' ((c.tc : Thread nD τ).loc main_arg1))
          (m' ((c.tc : Thread nD τ).loc main_arg2))
          (m' ((c.tc : Thread nD τ).loc main_arg3))
          (m' ((c.tc : Thread nD τ).loc main_arg4))
          (m' ((c.tc : Thread nD τ).loc main_arg5))
          (m' ((c.tc : Thread nD τ).loc main_arg6))
          (m' ((c.tc : Thread nD τ).loc main_arg7))
          (m' ((c.tc : Thread nD τ).loc main_arg8))
          (m' ((c.tc : Thread nD τ).loc main_arg9))
          (m' ((c.tc : Thread nD τ).loc main_arg10))
          (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run defs _ _).mono
    (fun _ h c => ⟨(h c).1.trans (ref_result' _ _ _ _ _ _ _ _ _ _ _ _), (h c).2⟩)
    (Cert.ReferenceIdeal.RunC.run' m' ρ')

end Cert.ReferenceIdeal.RefValue

end
-- ==== Proof.NormRealLib.lean ====
import Idealize.ShloMosaic.PureOps.Ideal.Laws
import Idealize.ShloMosaic.PureOps.Contract
import Idealize.ShloMosaic.PureOps.ShapeOps
import Idealize.ShloMosaic.Lib.IdealHost

namespace Cert.ReferenceIdeal.NormRealLib

open Idealize.ShloMosaic

def NonnegReal (x : EReal) : Prop := ∃ r : ℝ, 0 ≤ r ∧ x = (r : EReal)

theorem NonnegReal.real {x : EReal} (h : NonnegReal x) : ∃ r : ℝ, x = (r : EReal) :=
  let ⟨r, _, e⟩ := h; ⟨r, e⟩

theorem nonnegReal_zero : NonnegReal 0 := ⟨0, le_refl _, EReal.coe_zero.symm⟩

theorem nonnegReal_one : NonnegReal 1 := ⟨1, zero_le_one, EReal.coe_one.symm⟩

theorem NonnegReal.add {x y : EReal} (hx : NonnegReal x) (hy : NonnegReal y) : NonnegReal (x + y) := by
  obtain ⟨r, hr, rfl⟩ := hx
  obtain ⟨t, ht, rfl⟩ := hy
  exact ⟨r + t, add_nonneg hr ht, (EReal.coe_add r t).symm⟩

theorem NonnegReal.mul {x y : EReal} (hx : NonnegReal x) (hy : NonnegReal y) : NonnegReal (x * y) := by
  obtain ⟨r, hr, rfl⟩ := hx
  obtain ⟨t, ht, rfl⟩ := hy
  exact ⟨r * t, mul_nonneg hr ht, (EReal.coe_mul r t).symm⟩

theorem nonnegReal_sum {ι : Type} (s : Finset ι) (f : ι → EReal) (h : ∀ j ∈ s, NonnegReal (f j)) :
    NonnegReal (∑ j ∈ s, f j) := by
  classical
  revert h
  refine Finset.induction_on s ?_ ?_
  · intro _
    rw [Finset.sum_empty]
    exact nonnegReal_zero
  · intro a s ha ih h
    rw [Finset.sum_insert ha]
    exact (h a (Finset.mem_insert_self a s)).add (ih fun j hj => h j (Finset.mem_insert_of_mem hj))

theorem hostScatterAdd_nonnegReal {s si su : Shape} (d : ScatterDims s si su) {w : Nat} (x : s.Idx → EReal)
    (idx : IVec si w) (upd : su.Idx → EReal) (hx : ∀ i, NonnegReal (x i)) (hu : ∀ j, NonnegReal (upd j))
    (i : s.Idx) : NonnegReal (Ideal.hostScatterAdd d x idx upd i) := by
  unfold Ideal.hostScatterAdd
  exact (hx i).add (nonnegReal_sum _ _ fun j _ => hu j)

theorem scatterAdd_nonnegReal {s si su : Shape} {φ : FTy} (d : ScatterDims s si su) {w : Nat} (x : FVec Ideal s φ)
    (idx : IVec si w) (upd : FVec Ideal su φ) (hx : ∀ i, NonnegReal (x i)) (hu : ∀ j, NonnegReal (upd j))
    (i : s.Idx) : NonnegReal (Host.scatterAdd d x idx upd i) :=
  hostScatterAdd_nonnegReal d x idx upd hx hu i

theorem rsqrt_nonnegReal {r : ℝ} (h : 1 ≤ r) : NonnegReal (Ideal.rsqrt (r : EReal)) := by
  refine ⟨(Real.sqrt r)⁻¹, inv_nonneg.mpr (Real.sqrt_nonneg r), ?_⟩
  rw [Ideal.rsqrt_coe, if_neg (not_lt.mpr (by linarith)), if_neg (ne_of_gt (by linarith))]

theorem rsqrt_add_one_nonnegReal {x : EReal} (hx : NonnegReal x) : NonnegReal (Ideal.rsqrt (x + 1)) := by
  obtain ⟨r, hr, rfl⟩ := hx
  rw [show ((r : EReal) + 1) = ((r + 1 : ℝ) : EReal) by rw [EReal.coe_add, EReal.coe_one]]
  exact rsqrt_nonnegReal (by linarith)

theorem gather_all {α : Type} {s si t : Shape} {w : Nat} (d : GatherDims s si t) (x : s.Idx → α) (idx : IVec si w)
    (P : α → Prop) (h : ∀ i, P (x i)) (j : t.Idx) : P (Host.gather d x idx j) :=
  h (d.operandIdx j idx)

theorem gather_nonnegReal {s si t : Shape} {φ : FTy} {w : Nat} (d : GatherDims s si t) (x : FVec Ideal s φ)
    (idx : IVec si w) (h : ∀ i, NonnegReal (x i)) (j : t.Idx) : NonnegReal (Host.gather d x idx j) :=
  h (d.operandIdx j idx)

end Cert.ReferenceIdeal.NormRealLib
-- ==== Proof.NormReal.lean ====
import proofs.«148650_j55559696941682_1_alg».proof.Proof.RefReadP
import proofs.«148650_j55559696941682_1_alg».proof.Proof.NormRealLib

namespace Cert.ReferenceIdeal.NormReal

open Cert.ReferenceIdeal Cert.ReferenceIdeal.Gen Cert.ReferenceIdeal.Read Cert.ReferenceIdeal.NormRealLib
open Idealize.ShloMosaic Idealize.ShloMosaic.TcCoe Idealize.SL.Sem Idealize.ShloMosaic.StableHlo

abbrev Edges : Type := (⟨S2x800000, .i32⟩ : BufTy).Contents (Elt Ideal)

theorem ones_nonneg (j : S800000.Idx) : NonnegReal (val_main_v5 (F := Ideal) j) := by
  rw [val_main_v5_apply, val_main_cst_apply]
  show NonnegReal (Ideal.ofBits .f32 0x3F800000#32)
  rw [Ideal.ofBits_one_f32]
  exact nonnegReal_one

theorem zeros_nonneg (i : S50000.Idx) : NonnegReal (val_main_v6 (F := Ideal) i) := by
  rw [val_main_v6_apply, val_main_cst_0_apply]
  show NonnegReal (Ideal.ofBits .f32 0x00000000#32)
  rw [Ideal.ofBits_zero_f32]
  exact nonnegReal_zero

theorem indeg_nonneg (x1 : Edges) (i : S50000.Idx) : NonnegReal (val_main_v8 (F := Ideal) x1 i) := by
  unfold val_main_v8
  exact scatterAdd_nonnegReal _ _ _ _ zeros_nonneg ones_nonneg i

theorem one_apply (i : S50000.Idx) : (val_main_v9 (F := Ideal) i : EReal) = 1 := by
  rw [val_main_v9_apply, val_main_cst_1_apply]
  exact Ideal.ofBits_one_f32

theorem dinv_nonneg (x1 : Edges) (i : S50000.Idx) : NonnegReal (val_main_v11 (F := Ideal) x1 i) := by
  rw [val_main_v11_apply, val_main_v10_apply, one_apply, Ideal.hostUnary_rsqrt_def, Ideal.addf_def]
  exact rsqrt_add_one_nonnegReal (indeg_nonneg x1 i)

theorem dinv_src_nonneg (x1 : Edges) (e : S800000.Idx) : NonnegReal (val_main_v18 (F := Ideal) x1 e) := by
  unfold val_main_v18
  exact gather_nonnegReal (φ := .f32) _ _ _ (dinv_nonneg x1) e

theorem dinv_dst_nonneg (x1 : Edges) (e : S800000.Idx) : NonnegReal (val_main_v25 (F := Ideal) x1 e) := by
  unfold val_main_v25
  exact gather_nonnegReal (φ := .f32) _ _ _ (dinv_nonneg x1) e

theorem nrm_nonneg (x1 : Edges) (e : S800000.Idx) : NonnegReal (val_main_v26 (F := Ideal) x1 e) := by
  rw [val_main_v26_apply]
  exact (dinv_src_nonneg x1 e).mul (dinv_dst_nonneg x1 e)

theorem sn_nonneg (x1 : Edges) (r : S50000.Idx) : NonnegReal (val_main_v40 (F := Ideal) x1 r) := by
  rw [val_main_v40_apply]
  exact (dinv_nonneg x1 r).mul (dinv_nonneg x1 r)

theorem nrm_real (x1 : Edges) : ∀ e : S800000.Idx, ∃ r : ℝ, val_main_v26 (F := Ideal) x1 e = (r : EReal) :=
  fun e => (nrm_nonneg x1 e).real

theorem sn_real (x1 : Edges) : ∀ r : S50000.Idx, ∃ t : ℝ, val_main_v40 (F := Ideal) x1 r = (t : EReal) :=
  fun r => (sn_nonneg x1 r).real

end Cert.ReferenceIdeal.NormReal
-- ==== Proof.NormBridge.lean ====
import proofs.«148650_j55559696941682_1_alg».proof.Proof.KernelHost
import proofs.«148650_j55559696941682_1_alg».proof.Proof.RefReadP
import proofs.«148650_j55559696941682_1_alg».proof.Proof.NormReal

noncomputable section

namespace Cert.Bridge

open Idealize.ShloMosaic Idealize.ShloMosaic.StableHlo
open Cert.ReferenceIdeal.Read

variable {F : FTy → Type} [FloatOps F]

abbrev Edges : Type := Cert.KernelIdeal.S2x800000.Idx → BitVec 32

theorem src_eq (ei : Edges) : Cert.KernelIdeal.Host.srcK ei = val_main_v1 (F := F) ei := by
  unfold Cert.KernelIdeal.Host.srcK val_main_v1 val_main_v0
  rfl

theorem dst_eq (ei : Edges) : Cert.KernelIdeal.Host.dstK ei = val_main_v3 (F := F) ei := by
  unfold Cert.KernelIdeal.Host.dstK val_main_v3 val_main_v2
  rfl

theorem wrap_src_eq (ei : Edges) :
    Cert.KernelIdeal.Host.wrapK (Cert.KernelIdeal.Host.srcK ei) = val_main_v16 (F := F) ei := by
  unfold val_main_v16 val_main_v13 val_main_v15 val_main_v12 val_main_v14 val_main_c val_main_c_2
  rw [← src_eq (F := F) ei]
  unfold Cert.KernelIdeal.Host.wrapK
  rfl

theorem wrap_dst_eq (ei : Edges) :
    Cert.KernelIdeal.Host.wrapK (Cert.KernelIdeal.Host.dstK ei) = val_main_v23 (F := F) ei := by
  unfold val_main_v23 val_main_v20 val_main_v22 val_main_v19 val_main_v21 val_main_c_3 val_main_c_4
  rw [← dst_eq (F := F) ei]
  unfold Cert.KernelIdeal.Host.wrapK
  rfl

theorem dinv_eq (ei : Edges) : Cert.KernelIdeal.Host.dinvK F ei = val_main_v11 (F := F) ei := by
  unfold val_main_v11 val_main_v10 val_main_v8 val_main_v9 val_main_v7 val_main_v6 val_main_v5
    val_main_cst val_main_cst_0 val_main_cst_1
  rw [← dst_eq (F := F) ei]
  unfold Cert.KernelIdeal.Host.dinvK
  rfl

theorem nrm_eq (ei : Edges) : Cert.KernelIdeal.Host.nrmK F ei = val_main_v26 (F := F) ei := by
  unfold val_main_v26 val_main_v18 val_main_v25 val_main_v17 val_main_v24
  rw [← dinv_eq ei, ← wrap_src_eq (F := F) ei, ← wrap_dst_eq (F := F) ei]
  unfold Cert.KernelIdeal.Host.nrmK
  rfl

theorem sn_eq (ei : Edges) : Cert.KernelIdeal.Host.snK F ei = val_main_v40 (F := F) ei := by
  unfold val_main_v40
  rw [← dinv_eq ei]
  unfold Cert.KernelIdeal.Host.snK
  rfl

theorem nrmK_real (ei : Edges) :
    ∀ e : Cert.KernelIdeal.S800000.Idx, ∃ r : ℝ, Cert.KernelIdeal.Host.nrmK Ideal ei e = (r : EReal) := fun e =>
  let ⟨r, hr⟩ := Cert.ReferenceIdeal.NormReal.nrm_real ei e
  ⟨r, (congrFun (nrm_eq (F := Ideal) ei) e).trans hr⟩

theorem snK_real (ei : Edges) :
    ∀ r : Cert.KernelIdeal.S50000.Idx, ∃ t : ℝ, Cert.KernelIdeal.Host.snK Ideal ei r = (t : EReal) := fun r =>
  let ⟨t, ht⟩ := Cert.ReferenceIdeal.NormReal.sn_real ei r
  ⟨t, (congrFun (sn_eq (F := Ideal) ei) r).trans ht⟩

end Cert.Bridge

end
-- ==== Proof.PreFacts.lean ====
import proofs.«148650_j55559696941682_1_alg».proof.Pre_finite_inputs
import Idealize.ShloMosaic.PureOps.Ideal
import Idealize.ShloMosaic.Lib.ReduceAll
import Idealize.ShloMosaic.Lib.ValueIdx

noncomputable section

namespace Cert.PreFacts

open Idealize.ShloMosaic Cert.Pre_finite_inputs

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_inf (a : EReal)
    (h : Ideal.cmp .olt (max a (-a)) (Ideal.ofBits .f32 0x7F800000#32) = 1#1) : ∃ r : ℝ, a = (r : EReal) := by
  rw [inf_eq_top] at h
  have hlt : max a (-a) < (⊤ : EReal) := by
    unfold Ideal.cmp at h
    revert h
    by_cases hc : max a (-a) < (⊤ : EReal)
    · exact fun _ => hc
    · intro h; simp [hc] at h
  induction a using EReal.rec with
  | bot => simp at hlt
  | coe r => exact ⟨r, rfl⟩
  | top => simp at hlt

theorem all_real {s : Shape} {axes : List (Fin s.rank)} (a : FVec Ideal s .f32) (dims : Fin S_.rank → Fin s.rank)
    (hb : S_.BroadcastsInDim s dims) (hr : s.ReducesTo axes S_) (h0 : 0 < S_.numel)
    (h : Host.reduce IntOp.andi
          (cmpf .olt (Host.absf a) (broadcastInDim s dims hb (constant (F := Ideal) S_ .f32 0x7F800000#32)))
          (constantI S_ 1 1#1) hr h0 ValueIdx.ix0 = 1#1) :
    ∀ i, ∃ r : ℝ, a i = (r : EReal) := by
  intro i
  have e := Host.reduce_andi_all _ _ hr h0 _ h i
  exact real_of_abs_lt_inf (a i) e

theorem range_of_cmp (w : BitVec 32) (hge : IntOp.cmpi .sge w 0#32 = 1#1) (hlt : IntOp.cmpi .slt w 50000#32 = 1#1) :
    0 ≤ w.toInt ∧ w.toInt < 50000 := by
  rw [IntOp.cmpi_sge] at hge
  rw [IntOp.cmpi_slt] at hlt
  have e0 : (0#32 : BitVec 32).toInt = 0 := by decide
  have e1 : (50000#32 : BitVec 32).toInt = 50000 := by decide
  rw [e0] at hge
  rw [e1] at hlt
  exact ⟨hge, hlt⟩

theorem slice_row0 {α : Type} (ei : S2x800000.Idx → α) (hs : S2x800000.Slices ![0, 0] S1x800000) (e : Fin 800000) :
    extractStridedSlice S1x800000 ![0, 0] ei hs (ValueIdx.ix2 (0 : Fin 1) e) = ei (ValueIdx.ix2 (0 : Fin 2) e) := by
  unfold extractStridedSlice
  congr 1
  funext a
  match a with
  | ⟨0, _⟩ => exact Fin.ext (by simp)
  | ⟨1, _⟩ => exact Fin.ext (by simp)

variable [hF : Cert.Pre_finite_inputs.Facts]

theorem reals_and_range
    (x : FVec Ideal S50000x128 .f32) (ei : IVec S2x800000 32) (W1 : FVec Ideal S128x16 .f32) (b1 : FVec Ideal S16 .f32)
    (Wl1 : FVec Ideal S128x16 .f32) (bl1 : FVec Ideal S16 .f32) (W2 : FVec Ideal S16x16 .f32) (b2 : FVec Ideal S16 .f32)
    (Wl2 : FVec Ideal S16x16 .f32) (bl2 : FVec Ideal S16 .f32) (Wo : FVec Ideal S16x300 .f32) (bo : FVec Ideal S300 .f32)
    (h : Cert.Pre_finite_inputs.fn (F := Ideal) x ei W1 b1 Wl1 bl1 W2 b2 Wl2 bl2 Wo bo = (fun _ => 1#1)) :
    (∀ i, ∃ r : ℝ, x i = (r : EReal)) ∧ (∀ i, ∃ r : ℝ, W1 i = (r : EReal)) ∧ (∀ i, ∃ r : ℝ, b1 i = (r : EReal))
    ∧ (∀ i, ∃ r : ℝ, Wl1 i = (r : EReal)) ∧ (∀ i, ∃ r : ℝ, bl1 i = (r : EReal)) ∧ (∀ i, ∃ r : ℝ, W2 i = (r : EReal))
    ∧ (∀ i, ∃ r : ℝ, b2 i = (r : EReal)) ∧ (∀ i, ∃ r : ℝ, Wl2 i = (r : EReal)) ∧ (∀ i, ∃ r : ℝ, bl2 i = (r : EReal))
    ∧ (∀ i, ∃ r : ℝ, Wo i = (r : EReal)) ∧ (∀ i, ∃ r : ℝ, bo i = (r : EReal))
    ∧ (∀ e : Fin 800000, 0 ≤ (ei (ValueIdx.ix2 (0 : Fin 2) e)).toInt ∧ (ei (ValueIdx.ix2 (0 : Fin 2) e)).toInt < 50000) := by
  have h0 := congrFun h ValueIdx.ix0
  unfold Cert.Pre_finite_inputs.fn Cert.Pre_finite_inputs.fn_part1 Cert.Pre_finite_inputs.fn_part2
    Cert.Pre_finite_inputs.fn_part3 at h0
  simp only [andi, IntOp.andi_eq_one] at h0
  obtain ⟨⟨⟨⟨⟨⟨⟨⟨⟨⟨⟨hx, hW1⟩, hb1⟩, hWl1⟩, hbl1⟩, hW2⟩, hb2⟩, hWl2⟩, hbl2⟩, hWo⟩, hbo⟩, hei⟩ := h0
  refine ⟨all_real x _ _ _ _ hx, all_real W1 _ _ _ _ hW1, all_real b1 _ _ _ _ hb1, all_real Wl1 _ _ _ _ hWl1,
    all_real bl1 _ _ _ _ hbl1, all_real W2 _ _ _ _ hW2, all_real b2 _ _ _ _ hb2, all_real Wl2 _ _ _ _ hWl2,
    all_real bl2 _ _ _ _ hbl2, all_real Wo _ _ _ _ hWo, all_real bo _ _ _ _ hbo, ?_⟩
  intro e
  have he := Host.reduce_andi_all _ _ _ _ _ hei (ValueIdx.ix2 (0 : Fin 1) e)
  simp only [andi, IntOp.andi_eq_one] at he
  obtain ⟨hge, hlt⟩ := he
  have hs := slice_row0 ei Facts.slices_S2x800000_S1x800000_0_0 e
  refine range_of_cmp _ ?_ ?_
  · rw [← hs]; exact hge
  · rw [← hs]; exact hlt

end Cert.PreFacts

end
-- ==== Proof.Claims.lean ====
import proofs.«148650_j55559696941682_1_alg».proof.Defs
import proofs.«148650_j55559696941682_1_alg».proof.Proof.Gen.Kernel
import proofs.«148650_j55559696941682_1_alg».proof.Proof.Gen.KernelIdeal
import proofs.«148650_j55559696941682_1_alg».proof.Proof.Gen.ReferenceIdeal
import proofs.«148650_j55559696941682_1_alg».proof.Proof.Gen.Pre_finite_inputs
import proofs.«148650_j55559696941682_1_alg».proof.Proof.Run
import proofs.«148650_j55559696941682_1_alg».proof.Proof.KernelHost
import proofs.«148650_j55559696941682_1_alg».proof.Proof.KernelValue
import proofs.«148650_j55559696941682_1_alg».proof.Proof.RefValue
import proofs.«148650_j55559696941682_1_alg».proof.Proof.NormBridge
import proofs.«148650_j55559696941682_1_alg».proof.Proof.PreFacts
import proofs.«148650_j55559696941682_1_alg».proof.Proof.Agree
import Idealize.ShloMosaic.Adequacy
import Idealize.ShloMosaic.Init

noncomputable section

namespace Cert.Proof.Claims

open Idealize.ShloMosaic Idealize.SL.Sem Idealize.ShloMosaic.ValueIdx

open Lean Elab Tactic in
elab "exact_same " e:term : tactic => do
  (← getMainGoal).assign (← instantiateMVars (← elabTerm e none))

-- The printed program and its idealization are one term: one run, proved for every float instance, serves both.
theorem frame_k : Cert.frame_Kernel := fun m ρ _ => by
  exact_same Cert.KernelIdeal.RunAll.frame (F := Bits) m ρ

theorem frame_ki : Cert.frame_KernelIdeal := fun m ρ _ => Cert.KernelIdeal.RunAll.frame (F := Ideal) m ρ

theorem frame_r : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

theorem net_bridge
    (x : (⟨2, ![50000, 128]⟩ : Shape).Idx → EReal) (ei : Cert.KernelIdeal.S2x800000.Idx → BitVec 32)
    (W1 : (⟨2, ![128, 16]⟩ : Shape).Idx → EReal) (b1 : Gcn.SH1.Idx → EReal)
    (Wl1 : (⟨2, ![128, 16]⟩ : Shape).Idx → EReal) (bl1 : Gcn.SH1.Idx → EReal)
    (W2 : Gcn.SHH.Idx → EReal) (b2 : Gcn.SH1.Idx → EReal) (Wl2 : Gcn.SHH.Idx → EReal) (bl2 : Gcn.SH1.Idx → EReal)
    (Wo : Gcn.SHC.Idx → EReal) (bo : Gcn.SC1.Idx → EReal)
    (srcR dstR : Gcn.SE1.Idx → BitVec 32) (nrmR : Gcn.SE1.Idx → EReal) (snR : Gcn.SN1.Idx → EReal)
    (es : srcR = Cert.KernelIdeal.Host.row ei 0) (ed : dstR = Cert.KernelIdeal.Host.row ei 1)
    (en : nrmR = Cert.KernelIdeal.Host.nrmK Ideal ei) (esn : snR = Cert.KernelIdeal.Host.snK Ideal ei)
    (hx : ∀ i, ∃ r : ℝ, x i = (r : EReal)) (hW1 : ∀ i, ∃ r : ℝ, W1 i = (r : EReal))
    (hb1 : ∀ i, ∃ r : ℝ, b1 i = (r : EReal)) (hWl1 : ∀ i, ∃ r : ℝ, Wl1 i = (r : EReal))
    (hbl1 : ∀ i, ∃ r : ℝ, bl1 i = (r : EReal)) (hW2 : ∀ i, ∃ r : ℝ, W2 i = (r : EReal))
    (hb2 : ∀ i, ∃ r : ℝ, b2 i = (r : EReal)) (hWl2 : ∀ i, ∃ r : ℝ, Wl2 i = (r : EReal))
    (hbl2 : ∀ i, ∃ r : ℝ, bl2 i = (r : EReal)) (hWo : ∀ i, ∃ r : ℝ, Wo i = (r : EReal))
    (hn : ∀ e, ∃ r : ℝ, Cert.KernelIdeal.Host.nrmK Ideal ei e = (r : EReal))
    (hs : ∀ r, ∃ t : ℝ, Cert.KernelIdeal.Host.snK Ideal ei r = (t : EReal))
    (hsrc : ∀ e : Fin 800000, 0 ≤ (ei (ix2 (0 : Fin 2) e)).toInt ∧ (ei (ix2 (0 : Fin 2) e)).toInt < 50000) :
    Gcn.netR x srcR dstR nrmR snR W1 b1 Wl1 bl1 W2 b2 Wl2 bl2 Wo bo
      = Gcn.netK x (Cert.KernelIdeal.Host.row ei 0) (Cert.KernelIdeal.Host.row ei 1)
          (Cert.KernelIdeal.Host.nrmK Ideal ei) (Cert.KernelIdeal.Host.snK Ideal ei)
          W1 b1 Wl1 bl1 W2 b2 Wl2 bl2 Wo bo := by
  subst es ed en esn
  exact (Gcn.net_agree (fun e => hsrc e) hx hn hs hW1 hb1 hWl1 hbl1 hW2 hb2 hWl2 hbl2 hWo).symm

theorem algebraic : Cert.algebraic_KernelIdeal_ReferenceIdeal := by
  intro m ρ m' ρ' hpre hagree
  refine ⟨fun c => Cert.KernelIdeal.KValue.net m c, ?_, ?_⟩
  · exact (θ_run _ _ _).mono
      (fun _ h c => ⟨(h c).1.trans (Cert.KernelIdeal.KValue.kernel_result m c), (h c).2⟩)
      (Cert.KernelIdeal.RunAll.run (F := Ideal) m ρ)
  · refine (θ_run Cert.ReferenceIdeal.defs _ _).mono (fun _ h c => ⟨(h c).1.trans ?_, (h c).2⟩)
      (Cert.ReferenceIdeal.RefValue.ref_run m' ρ')
    obtain ⟨hx, hW1, hb1, hWl1, hbl1, hW2, hb2, hWl2, hbl2, hWo, _, hsrc⟩ :=
      Cert.PreFacts.reals_and_range _ _ _ _ _ _ _ _ _ _ _ _ (hpre c)
    obtain ⟨e0, e1, e2, e3, e4, e5, e6, e7, e8, e9, e10, e11⟩ := hagree c
    rw [e0, e1, e2, e3, e4, e5, e6, e7, e8, e9, e10, e11]
    exact net_bridge _ (Cert.KernelIdeal.Host.aEi m c) _ _ _ _ _ _ _ _ _ _
      (Cert.ReferenceIdeal.RefValue.src _) (Cert.ReferenceIdeal.RefValue.dst _)
      (Cert.ReferenceIdeal.RefValue.nrm _) (Cert.ReferenceIdeal.RefValue.sn _) rfl rfl
      (Cert.Bridge.nrm_eq (F := Ideal) _).symm (Cert.Bridge.sn_eq (F := Ideal) _).symm
      hx hW1 hb1 hWl1 hbl1 hW2 hb2 hWl2 hbl2 hWo
      (Cert.Bridge.nrmK_real _) (Cert.Bridge.snK_real _) hsrc

end Cert.Proof.Claims

end
-- ==== Proof.lean ====
-- Both programs run to the end, leave their arguments alone, and compute one network, entry by entry over the extended reals.
import proofs.«148650_j55559696941682_1_alg».proof.Defs
import proofs.«148650_j55559696941682_1_alg».proof.Proof.Gen.Kernel
import proofs.«148650_j55559696941682_1_alg».proof.Proof.Gen.Kernel.Skeleton
import proofs.«148650_j55559696941682_1_alg».proof.Proof.Gen.Kernel.Launch
import proofs.«148650_j55559696941682_1_alg».proof.Proof.Gen.Kernel.Regions
import proofs.«148650_j55559696941682_1_alg».proof.Proof.Gen.Kernel.Points
import proofs.«148650_j55559696941682_1_alg».proof.Proof.Gen.KernelIdeal
import proofs.«148650_j55559696941682_1_alg».proof.Proof.Gen.KernelIdeal.Skeleton
import proofs.«148650_j55559696941682_1_alg».proof.Proof.Gen.KernelIdeal.Launch
import proofs.«148650_j55559696941682_1_alg».proof.Proof.Gen.KernelIdeal.Regions
import proofs.«148650_j55559696941682_1_alg».proof.Proof.Gen.KernelIdeal.Points
import proofs.«148650_j55559696941682_1_alg».proof.Proof.Gen.ReferenceIdeal
import proofs.«148650_j55559696941682_1_alg».proof.Proof.Gen.Pre_finite_inputs
import Idealize.ShloMosaic.Adequacy
import Idealize.ShloMosaic.Init
import proofs.«148650_j55559696941682_1_alg».proof.Proof.Claims

noncomputable section

namespace Cert.Proof

open Idealize.ShloMosaic Idealize.SL.Sem Cert.Kernel Cert.Proof.Claims

theorem claim : Cert.Claim := ⟨Cert.Kernel.Gen.facts, Cert.KernelIdeal.Gen.facts, Cert.ReferenceIdeal.Gen.facts, Cert.Pre_finite_inputs.Gen.facts, frame_k, frame_ki, frame_r, trivial, algebraic⟩

end Cert.Proof

end
